-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v77)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v44)) (v4 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v44) = v3 c
          ∧ r.2.mem ((c.tc : Thread Cert.KernelIdeal.nD Cert.KernelIdeal.τ).loc Cert.KernelIdeal.main_v58) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S10x128 : Shape := ⟨2, ![10, 128]⟩
abbrev S2x10 : Shape := ⟨2, ![2, 10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S2x10 : S_.BroadcastsInDim S2x10 (![] : Fin 0 → Fin S2x10.rank)
  reducesTo_S2x10_S_d0_1 : S2x10.ReducesTo [0, 1] S_
  bcast_S_S2x320000 : S_.BroadcastsInDim S2x320000 (![] : Fin 0 → Fin S2x320000.rank)
  reducesTo_S2x320000_S_d0_1 : S2x320000.ReducesTo [0, 1] S_
  bcast_S_S10000 : S_.BroadcastsInDim S10000 (![] : Fin 0 → Fin S10000.rank)
  reducesTo_S10000_S_d0 : S10000.ReducesTo [0] S_

variable [Facts]

def fn_part3 {F : FTy → Type} [FloatOps F] (main_arg2 : IVec S10000 32) (main_v50 : IVec S_ 1) : IVec S_ 1 :=
  let main_c_19 : IVec S_ 32 := constantI S_ 32 0#32
  let main_v51 : IVec S10000 32 := broadcastInDim S10000 ![] bcast_S_S10000 main_c_19
  let main_v52 : IVec S10000 1 := cmpi .sge main_arg2 main_v51
  let main_c_20 : IVec S_ 32 := constantI S_ 32 15#32
  let main_v53 : IVec S10000 32 := broadcastInDim S10000 ![] bcast_S_S10000 main_c_20
  let main_v54 : IVec S10000 1 := cmpi .sle main_arg2 main_v53
  let main_v55 : IVec S10000 1 := andi main_v52 main_v54
  let main_c_21 : IVec S_ 1 := constantI S_ 1 1#1
  let main_v56 : IVec S_ 1 := (fun x v => Host.reduce IntOp.andi x v reducesTo_S10000_S_d0 h_S_) main_v55 main_c_21
  let main_v57 : IVec S_ 1 := andi main_v50 main_v56
  main_v57

def fn_part2 {F : FTy → Type} [FloatOps F] (main_arg1 : IVec S2x320000 32) (main_arg2 : IVec S10000 32) (main_arg9 : FVec F S10x128 .f32) (main_arg10 : FVec F S2x10 .f32) (main_v33 : IVec S_ 1) : IVec S_ 1 :=
  let main_v34 : FVec F S10x128 .f32 := Host.absf main_arg9
  let main_cst_12 : FVec F S_ .f32 := constant S_ .f32 0x7F800000#32
  let main_v35 : FVec F S10x128 .f32 := broadcastInDim S10x128 ![] bcast_S_S10x128 main_cst_12
  let main_v36 : IVec S10x128 1 := cmpf .olt main_v34 main_v35
  let main_c_13 : IVec S_ 1 := constantI S_ 1 1#1
  let main_v37 : IVec S_ 1 := (fun x v => Host.reduce IntOp.andi x v reducesTo_S10x128_S_d0_1 h_S_) main_v36 main_c_13
  let main_v38 : IVec S_ 1 := andi main_v33 main_v37
  let main_v39 : FVec F S2x10 .f32 := Host.absf main_arg10
  let main_cst_14 : FVec F S_ .f32 := constant S_ .f32 0x7F800000#32
  let main_v40 : FVec F S2x10 .f32 := broadcastInDim S2x10 ![] bcast_S_S2x10 main_cst_14
  let main_v41 : IVec S2x10 1 := cmpf .olt main_v39 main_v40
  let main_c_15 : IVec S_ 1 := constantI S_ 1 1#1
  let main_v42 : IVec S_ 1 := (fun x v => Host.reduce IntOp.andi x v reducesTo_S2x10_S_d0_1 h_S_) main_v41 main_c_15
  let main_v43 : IVec S_ 1 := andi main_v38 main_v42
  let main_c_16 : IVec S_ 32 := constantI S_ 32 0#32
  let main_v44 : IVec S2x320000 32 := broadcastInDim S2x320000 ![] bcast_S_S2x320000 main_c_16
  let main_v45 : IVec S2x320000 1 := cmpi .sge main_arg1 main_v44
  let main_c_17 : IVec S_ 32 := constantI S_ 32 9999#32
  let main_v46 : IVec S2x320000 32 := broadcastInDim S2x320000 ![] bcast_S_S2x320000 main_c_17
  let main_v47 : IVec S2x320000 1 := cmpi .sle main_arg1 main_v46
  let main_v48 : IVec S2x320000 1 := andi main_v45 main_v47
  let main_c_18 : IVec S_ 1 := constantI S_ 1 1#1
  let main_v49 : IVec S_ 1 := (fun x v => Host.reduce IntOp.andi x v reducesTo_S2x320000_S_d0_1 h_S_) main_v48 main_c_18
  let main_v50 : IVec S_ 1 := andi main_v43 main_v49
  fn_part3 (F := F) main_arg2 main_v50

def fn_part1 {F : FTy → Type} [FloatOps F] (main_arg1 : IVec S2x320000 32) (main_arg2 : IVec S10000 32) (main_arg6 : FVec F S128 .f32) (main_arg7 : FVec F S128x128 .f32) (main_arg8 : FVec F S128 .f32) (main_arg9 : FVec F S10x128 .f32) (main_arg10 : FVec F S2x10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_v33

def fn {F : FTy → Type} [FloatOps F] (main_arg0 : FVec F S10000x128 .f32) (main_arg1 : IVec S2x320000 32) (main_arg2 : IVec S10000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S10x128 .f32) (main_arg10 : FVec F S2x10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_arg9 main_arg10 main_v13 main_v16
-- ==== Kernel.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S10x128 : Shape := ⟨2, ![10, 128]⟩
abbrev S2x10 : Shape := ⟨2, ![2, 10]⟩
abbrev S1x320000 : Shape := ⟨2, ![1, 320000]⟩
abbrev S320000 : Shape := ⟨1, ![320000]⟩
abbrev S_ : Shape := ⟨0, ![]⟩
abbrev S320128 : Shape := ⟨1, ![320128]⟩
abbrev S1000x128 : Shape := ⟨2, ![1000, 128]⟩
abbrev S320000x128 : Shape := ⟨2, ![320000, 128]⟩
abbrev S10112 : Shape := ⟨1, ![10112]⟩
abbrev S16x128 : Shape := ⟨2, ![16, 128]⟩
abbrev S320000x1 : Shape := ⟨2, ![320000, 1]⟩
abbrev S1x128 : Shape := ⟨2, ![1, 128]⟩
abbrev S16 : Shape := ⟨1, ![16]⟩
abbrev S10000x1 : Shape := ⟨2, ![10000, 1]⟩
abbrev S16x1 : Shape := ⟨2, ![16, 1]⟩
abbrev S128x10 : Shape := ⟨2, ![128, 10]⟩
abbrev S16x10 : Shape := ⟨2, ![16, 10]⟩
abbrev S10 : Shape := ⟨1, ![10]⟩
abbrev S1x10 : Shape := ⟨2, ![1, 10]⟩
abbrev S10x2 : Shape := ⟨2, ![10, 2]⟩
abbrev S16x2 : Shape := ⟨2, ![16, 2]⟩

abbrev nBuf : Table → Nat
  | .hbm => 147
  | .local .tc .vmem => 15
  | .local .scVector .vmem => 9
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S10x128, .f32⟩
  | 10 => ⟨S2x10, .f32⟩
  | 11 => ⟨S1x320000, .i32⟩
  | 12 => ⟨S320000, .i32⟩
  | 13 => ⟨S1x320000, .i32⟩
  | 14 => ⟨S320000, .i32⟩
  | 15 => ⟨S_, .i32⟩
  | 16 => ⟨S128, .i32⟩
  | 17 => ⟨S320128, .i32⟩
  | 18 => ⟨S10000x128, .f32⟩
  | 19 => ⟨S320000x128, .f32⟩
  | 20 => ⟨S_, .f32⟩
  | 21 => ⟨S10000x128, .f32⟩
  | 22 => ⟨S320000x1, .i32⟩
  | 23 => ⟨S10000x128, .f32⟩
  | 24 => ⟨S1x128, .f32⟩
  | 25 => ⟨S10000x128, .f32⟩
  | 26 => ⟨S10000x128, .f32⟩
  | 27 => ⟨S_, .f32⟩
  | 28 => ⟨S10000x128, .f32⟩
  | 29 => ⟨S10000x128, .i1⟩
  | 30 => ⟨S_, .f32⟩
  | 31 => ⟨S10000x128, .f32⟩
  | 32 => ⟨S10000x128, .i1⟩
  | 33 => ⟨S_, .f32⟩
  | 34 => ⟨S_, .f32⟩
  | 35 => ⟨S10000x128, .f32⟩
  | 36 => ⟨S10000x128, .f32⟩
  | 37 => ⟨S10000x128, .f32⟩
  | 38 => ⟨S_, .f32⟩
  | 39 => ⟨S10000x128, .f32⟩
  | 40 => ⟨S10000x128, .f32⟩
  | 41 => ⟨S10000x128, .f32⟩
  | 42 => ⟨S10000x128, .f32⟩
  | 43 => ⟨S320000x128, .f32⟩
  | 44 => ⟨S_, .f32⟩
  | 45 => ⟨S10000x128, .f32⟩
  | 46 => ⟨S320000x1, .i32⟩
  | 47 => ⟨S10000x128, .f32⟩
  | 48 => ⟨S1x128, .f32⟩
  | 49 => ⟨S10000x128, .f32⟩
  | 50 => ⟨S10000x128, .f32⟩
  | 51 => ⟨S_, .f32⟩
  | 52 => ⟨S10000x128, .f32⟩
  | 53 => ⟨S10000x128, .i1⟩
  | 54 => ⟨S_, .f32⟩
  | 55 => ⟨S10000x128, .f32⟩
  | 56 => ⟨S10000x128, .i1⟩
  | 57 => ⟨S_, .f32⟩
  | 58 => ⟨S_, .f32⟩
  | 59 => ⟨S10000x128, .f32⟩
  | 60 => ⟨S10000x128, .f32⟩
  | 61 => ⟨S10000x128, .f32⟩
  | 62 => ⟨S_, .f32⟩
  | 63 => ⟨S10000x128, .f32⟩
  | 64 => ⟨S10000x128, .f32⟩
  | 65 => ⟨S10000x128, .f32⟩
  | 66 => ⟨S10000x128, .f32⟩
  | 67 => ⟨S320000x128, .f32⟩
  | 68 => ⟨S_, .f32⟩
  | 69 => ⟨S10000x128, .f32⟩
  | 70 => ⟨S320000x1, .i32⟩
  | 71 => ⟨S10000x128, .f32⟩
  | 72 => ⟨S1x128, .f32⟩
  | 73 => ⟨S10000x128, .f32⟩
  | 74 => ⟨S10000x128, .f32⟩
  | 75 => ⟨S_, .f32⟩
  | 76 => ⟨S10000x128, .f32⟩
  | 77 => ⟨S10000x128, .i1⟩
  | 78 => ⟨S_, .f32⟩
  | 79 => ⟨S10000x128, .f32⟩
  | 80 => ⟨S10000x128, .i1⟩
  | 81 => ⟨S_, .f32⟩
  | 82 => ⟨S_, .f32⟩
  | 83 => ⟨S10000x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S10000x128, .f32⟩
  | 90 => ⟨S_, .f32⟩
  | 91 => ⟨S10000, .f32⟩
  | 92 => ⟨S_, .f32⟩
  | 93 => ⟨S16, .f32⟩
  | 94 => ⟨S10000x1, .i32⟩
  | 95 => ⟨S16, .f32⟩
  | 96 => ⟨S_, .f32⟩
  | 97 => ⟨S16x128, .f32⟩
  | 98 => ⟨S10000x1, .i32⟩
  | 99 => ⟨S16x128, .f32⟩
  | 100 => ⟨S_, .f32⟩
  | 101 => ⟨S16, .f32⟩
  | 102 => ⟨S16, .f32⟩
  | 103 => ⟨S16x1, .f32⟩
  | 104 => ⟨S16x128, .f32⟩
  | 105 => ⟨S16x128, .f32⟩
  | 106 => ⟨S128x10, .f32⟩
  | 107 => ⟨S16x10, .f32⟩
  | 108 => ⟨S_, .f32⟩
  | 109 => ⟨S16x10, .f32⟩
  | 110 => ⟨S16x10, .f32⟩
  | 111 => ⟨S16x128, .f32⟩
  | 112 => ⟨S_, .f32⟩
  | 113 => ⟨S16, .f32⟩
  | 114 => ⟨S16x1, .f32⟩
  | 115 => ⟨S16x10, .f32⟩
  | 116 => ⟨S16x10, .f32⟩
  | 117 => ⟨S10x128, .f32⟩
  | 118 => ⟨S_, .f32⟩
  | 119 => ⟨S10, .f32⟩
  | 120 => ⟨S1x10, .f32⟩
  | 121 => ⟨S16x10, .f32⟩
  | 122 => ⟨S16x10, .f32⟩
  | 123 => ⟨S_, .f32⟩
  | 124 => ⟨S16x10, .f32⟩
  | 125 => ⟨S16x10, .f32⟩
  | 126 => ⟨S_, .f32⟩
  | 127 => ⟨S16x10, .f32⟩
  | _ => ⟨S10000x128, .f32⟩

abbrev hbmTy0_1 (i : Nat) : BufTy := match i % 128 with
  | 0 => ⟨S16x10, .f32⟩
  | 1 => ⟨S16x10, .f32⟩
  | 2 => ⟨S16x10, .f32⟩
  | 3 => ⟨S10x2, .f32⟩
  | 4 => ⟨S16x2, .f32⟩
  | 5 => ⟨S_, .f32⟩
  | 6 => ⟨S16, .f32⟩
  | 7 => ⟨S_, .f32⟩
  | 8 => ⟨S16, .f32⟩
  | 9 => ⟨S16, .f32⟩
  | 10 => ⟨S16x1, .f32⟩
  | 11 => ⟨S16x2, .f32⟩
  | 12 => ⟨S16x2, .f32⟩
  | 13 => ⟨S16x2, .f32⟩
  | 14 => ⟨S_, .f32⟩
  | 15 => ⟨S16, .f32⟩
  | 16 => ⟨S16x1, .f32⟩
  | 17 => ⟨S16x2, .f32⟩
  | 18 => ⟨S16x2, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (nBuf tb) → BufTy
  | .hbm, ⟨i, _⟩ => hbmTy i
  | .local .tc .vmem, ⟨0, _⟩ => ⟨S1000x128, .f32⟩
  | .local .tc .vmem, ⟨1, _⟩ => ⟨S1000x128, .f32⟩
  | .local .tc .vmem, ⟨2, _⟩ => ⟨S128x128, .f32⟩
  | .local .tc .vmem, ⟨3, _⟩ => ⟨S1000x128, .f32⟩
  | .local .tc .vmem, ⟨4, _⟩ => ⟨S1000x128, .f32⟩
  | .local .tc .vmem, ⟨5, _⟩ => ⟨S1000x128, .f32⟩
  | .local .tc .vmem, ⟨6, _⟩ => ⟨S1000x128, .f32⟩
  | .local .tc .vmem, ⟨7, _⟩ => ⟨S128x128, .f32⟩
  | .local .tc .vmem, ⟨8, _⟩ => ⟨S1000x128, .f32⟩
  | .local .tc .vmem, ⟨9, _⟩ => ⟨S1000x128, .f32⟩
  | .local .tc .vmem, ⟨10, _⟩ => ⟨S1000x128, .f32⟩
  | .local .tc .vmem, ⟨11, _⟩ => ⟨S1000x128, .f32⟩
  | .local .tc .vmem, ⟨12, _⟩ => ⟨S128x128, .f32⟩
  | .local .tc .vmem, ⟨13, _⟩ => ⟨S1000x128, .f32⟩
  | .local .tc .vmem, ⟨14, _⟩ => ⟨S1000x128, .f32⟩
  | .local .scVector .vmem, ⟨0, _⟩ => ⟨S10112, .i32⟩
  | .local .scVector .vmem, ⟨1, _⟩ => ⟨S128x128, .f32⟩
  | .local .scVector .vmem, ⟨2, _⟩ => ⟨S128x128, .f32⟩
  | .local .scVector .vmem, ⟨3, _⟩ => ⟨S10112, .i32⟩
  | .local .scVector .vmem, ⟨4, _⟩ => ⟨S128x128, .f32⟩
  | .local .scVector .vmem, ⟨5, _⟩ => ⟨S128x128, .f32⟩
  | .local .scVector .vmem, ⟨6, _⟩ => ⟨S10112, .i32⟩
  | .local .scVector .vmem, ⟨7, _⟩ => ⟨S128x128, .f32⟩
  | .local .scVector .vmem, ⟨8, _⟩ => ⟨S128x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => false
  | ⟨28, _⟩ => false
  | ⟨29, _⟩ => false
  | ⟨30, _⟩ => false
  | ⟨31, _⟩ => false
  | ⟨32, _⟩ => false
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_cst_1 : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_v4 : Ref sig .tc := ⟨.hbm, 36, rfl⟩
abbrev main_call0_v5 : Ref sig .tc := ⟨.hbm, 37, rfl⟩
abbrev main_call0_cst_2 : Ref sig .tc := ⟨.hbm, 38, rfl⟩
abbrev main_call0_v6 : Ref sig .tc := ⟨.hbm, 39, rfl⟩
abbrev main_call0_v7 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_0 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_cst_1 : Ref sig .tc := ⟨.hbm, 57, rfl⟩
abbrev main_call1_call0_v0 : Ref sig .tc := ⟨.hbm, 58, rfl⟩
abbrev main_call1_call0_v1 : Ref sig .tc := ⟨.hbm, 59, rfl⟩
abbrev main_call1_v4 : Ref sig .tc := ⟨.hbm, 60, rfl⟩
abbrev main_call1_v5 : Ref sig .tc := ⟨.hbm, 61, rfl⟩
abbrev main_call1_cst_2 : Ref sig .tc := ⟨.hbm, 62, rfl⟩
abbrev main_call1_v6 : Ref sig .tc := ⟨.hbm, 63, rfl⟩
abbrev main_call1_v7 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_1 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_call2_cst_1 : Ref sig .tc := ⟨.hbm, 81, rfl⟩
abbrev main_call2_call0_v0 : Ref sig .tc := ⟨.hbm, 82, rfl⟩
abbrev main_call2_call0_v1 : Ref sig .tc := ⟨.hbm, 83, rfl⟩
abbrev main_call2_v4 : Ref sig .tc := ⟨.hbm, 84, rfl⟩
abbrev main_call2_v5 : Ref sig .tc := ⟨.hbm, 85, rfl⟩
abbrev main_call2_cst_2 : Ref sig .tc := ⟨.hbm, 86, rfl⟩
abbrev main_call2_v6 : Ref sig .tc := ⟨.hbm, 87, rfl⟩
abbrev main_call2_v7 : Ref sig .tc := ⟨.hbm, 88, rfl⟩
abbrev main_v32 : Ref sig .tc := ⟨.hbm, 89, rfl⟩
abbrev main_cst_2 : Ref sig .tc := ⟨.hbm, 90, rfl⟩
abbrev main_v33 : Ref sig .tc := ⟨.hbm, 91, rfl⟩
abbrev main_cst_3 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_cst_4 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_cst_5 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_cst_6 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_cst_7 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_cst_8 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_cst_9 : Ref sig .tc := ⟨.hbm, 123, rfl⟩
abbrev main_v59 : Ref sig .tc := ⟨.hbm, 124, rfl⟩
abbrev main_v60 : Ref sig .tc := ⟨.hbm, 125, rfl⟩
abbrev main_cst_10 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_cst_11 : Ref sig .tc := ⟨.hbm, 133, rfl⟩
abbrev main_v67 : Ref sig .tc := ⟨.hbm, 134, rfl⟩
abbrev main_cst_12 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_cst_13 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v6_scv : Ref sig .scVector := ⟨.hbm, 18, rfl⟩
abbrev main_v5_scv : Ref sig .scVector := ⟨.hbm, 17, rfl⟩
abbrev main_v7_scv : Ref sig .scVector := ⟨.hbm, 19, rfl⟩
abbrev main_v15_scv : Ref sig .scVector := ⟨.hbm, 42, rfl⟩
abbrev main_v16_scv : Ref sig .scVector := ⟨.hbm, 43, rfl⟩
abbrev main_v24_scv : Ref sig .scVector := ⟨.hbm, 66, rfl⟩
abbrev main_v25_scv : Ref sig .scVector := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc4_stg0_0 : Ref sig .tc := ⟨.vmem, 10, rfl⟩
abbrev cc4_stg0_1 : Ref sig .tc := ⟨.vmem, 11, rfl⟩
abbrev cc4_stg1_0 : Ref sig .tc := ⟨.vmem, 12, rfl⟩
abbrev cc4_stg2_0 : Ref sig .tc := ⟨.vmem, 13, rfl⟩
abbrev cc4_stg2_1 : Ref sig .tc := ⟨.vmem, 14, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc5_scratch0 : Ref sig .scVector := ⟨.vmem, 6, rfl⟩
abbrev cc5_scratch1 : Ref sig .scVector := ⟨.vmem, 7, rfl⟩
abbrev cc5_scratch2 : Ref sig .scVector := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k1_t1_loop : Scf.Loop 32 :=
  let c0_i32_5 : BitVec 32 := 0#32
  let c39_i32 : BitVec 32 := 39#32
  let v7 : BitVec 32 := Scalar.addi c0_i32_5 c39_i32
  let c1_i32 : BitVec 32 := 1#32
  ⟨c0_i32_5, v7, c1_i32⟩
def k1_off2 (i : grid1.Coords) (k1_t1 : Fin k1_t1_loop.trips) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2_i32_13 : BitVec 32 := 2#32
  let c0_i32_5 : BitVec 32 := 0#32
  let c1_i32 : BitVec 32 := 1#32
  let arg10 : BitVec 32 := Scf.iv c0_i32_5 c1_i32 k1_t1
  let v13 : BitVec 32 := Scalar.muli c2_i32_13 arg10
  let v14 : BitVec 32 := Scalar.addi v13 c0_i32_14
  let c128_i32_18 : BitVec 32 := 128#32
  let v17 : BitVec 32 := Scalar.muli v14 c128_i32_18
  let v18 : BitVec 32 := Scalar.addi v2 v17
  let c0_i32_29_r1 : BitVec 32 := 0#32
  ![v18.toNat, 0]
def k1_cond1 (k1_t1 : Fin k1_t1_loop.trips) : BitVec 1 :=
  let c2_i32_13 : BitVec 32 := 2#32
  let c0_i32_5 : BitVec 32 := 0#32
  let c1_i32 : BitVec 32 := 1#32
  let arg10 : BitVec 32 := Scf.iv c0_i32_5 c1_i32 k1_t1
  let v13 : BitVec 32 := Scalar.muli c2_i32_13 arg10
  let c0_i32_14 : BitVec 32 := 0#32
  let v14 : BitVec 32 := Scalar.addi v13 c0_i32_14
  let c2_i32_19 : BitVec 32 := 2#32
  let v19 : BitVec 32 := Scalar.addi v14 c2_i32_19
  let c78_i32 : BitVec 32 := 78#32
  let v20 : BitVec 1 := Scalar.cmpi .slt v19 c78_i32
  let v21 : BitVec 32 := Scalar.extui v20
  let c0_i32_20 : BitVec 32 := 0#32
  let v22 : BitVec 1 := Scalar.cmpi .ne v21 c0_i32_20
  v22

def k1_off3 (k1_t1 : Fin k1_t1_loop.trips) : Fin 1 → Nat :=
  let c2_i32_13 : BitVec 32 := 2#32
  let c0_i32_5 : BitVec 32 := 0#32
  let c1_i32 : BitVec 32 := 1#32
  let arg10 : BitVec 32 := Scf.iv c0_i32_5 c1_i32 k1_t1
  let v13 : BitVec 32 := Scalar.muli c2_i32_13 arg10
  let c0_i32_14 : BitVec 32 := 0#32
  let v14 : BitVec 32 := Scalar.addi v13 c0_i32_14
  let c2_i32_29 : BitVec 32 := 2#32
  let v32 : BitVec 32 := Scalar.addi v14 c2_i32_29
  let c128_i32_30 : BitVec 32 := 128#32
  let v33 : BitVec 32 := Scalar.muli v32 c128_i32_30
  ![v33.toNat]
def k1_cond2 (k1_t1 : Fin k1_t1_loop.trips) : BitVec 1 :=
  let c2_i32_13 : BitVec 32 := 2#32
  let c0_i32_5 : BitVec 32 := 0#32
  let c1_i32 : BitVec 32 := 1#32
  let arg10 : BitVec 32 := Scf.iv c0_i32_5 c1_i32 k1_t1
  let v13 : BitVec 32 := Scalar.muli c2_i32_13 arg10
  let c1_i32_21 : BitVec 32 := 1#32
  let v23 : BitVec 32 := Scalar.addi v13 c1_i32_21
  let c2_i32_26 : BitVec 32 := 2#32
  let v28 : BitVec 32 := Scalar.addi v23 c2_i32_26
  let c78_i32_27 : BitVec 32 := 78#32
  let v29 : BitVec 1 := Scalar.cmpi .slt v28 c78_i32_27
  let v30 : BitVec 32 := Scalar.extui v29
  let c0_i32_28 : BitVec 32 := 0#32
  let v31 : BitVec 1 := Scalar.cmpi .ne v30 c0_i32_28
  v31

def k1_off4 (k1_t1 : Fin k1_t1_loop.trips) : Fin 1 → Nat :=
  let c2_i32_13 : BitVec 32 := 2#32
  let c0_i32_5 : BitVec 32 := 0#32
  let c1_i32 : BitVec 32 := 1#32
  let arg10 : BitVec 32 := Scf.iv c0_i32_5 c1_i32 k1_t1
  let v13 : BitVec 32 := Scalar.muli c2_i32_13 arg10
  let c1_i32_21 : BitVec 32 := 1#32
  let v23 : BitVec 32 := Scalar.addi v13 c1_i32_21
  let c2_i32_29 : BitVec 32 := 2#32
  let v32 : BitVec 32 := Scalar.addi v23 c2_i32_29
  let c128_i32_30 : BitVec 32 := 128#32
  let v33 : BitVec 32 := Scalar.muli v32 c128_i32_30
  ![v33.toNat]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c9984_i32_12 : BitVec 32 := 9984#32
  let v12 : BitVec 32 := Scalar.addi v2 c9984_i32_12
  let c0_i32_15_r3 : BitVec 32 := 0#32
  ![v12.toNat, 0]
abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k3_t1_loop : Scf.Loop 32 :=
  let c0_i32_5 : BitVec 32 := 0#32
  let c39_i32 : BitVec 32 := 39#32
  let v7 : BitVec 32 := Scalar.addi c0_i32_5 c39_i32
  let c1_i32 : BitVec 32 := 1#32
  ⟨c0_i32_5, v7, c1_i32⟩
def k3_off2 (i : grid3.Coords) (k3_t1 : Fin k3_t1_loop.trips) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2_i32_13 : BitVec 32 := 2#32
  let c0_i32_5 : BitVec 32 := 0#32
  let c1_i32 : BitVec 32 := 1#32
  let arg10 : BitVec 32 := Scf.iv c0_i32_5 c1_i32 k3_t1
  let v13 : BitVec 32 := Scalar.muli c2_i32_13 arg10
  let v14 : BitVec 32 := Scalar.addi v13 c0_i32_14
  let c128_i32_18 : BitVec 32 := 128#32
  let v17 : BitVec 32 := Scalar.muli v14 c128_i32_18
  let v18 : BitVec 32 := Scalar.addi v2 v17
  let c0_i32_29_r1 : BitVec 32 := 0#32
  ![v18.toNat, 0]
def k3_cond1 (k3_t1 : Fin k3_t1_loop.trips) : BitVec 1 :=
  let c2_i32_13 : BitVec 32 := 2#32
  let c0_i32_5 : BitVec 32 := 0#32
  let c1_i32 : BitVec 32 := 1#32
  let arg10 : BitVec 32 := Scf.iv c0_i32_5 c1_i32 k3_t1
  let v13 : BitVec 32 := Scalar.muli c2_i32_13 arg10
  let c0_i32_14 : BitVec 32 := 0#32
  let v14 : BitVec 32 := Scalar.addi v13 c0_i32_14
  let c2_i32_19 : BitVec 32 := 2#32
  let v19 : BitVec 32 := Scalar.addi v14 c2_i32_19
  let c78_i32 : BitVec 32 := 78#32
  let v20 : BitVec 1 := Scalar.cmpi .slt v19 c78_i32
  let v21 : BitVec 32 := Scalar.extui v20
  let c0_i32_20 : BitVec 32 := 0#32
  let v22 : BitVec 1 := Scalar.cmpi .ne v21 c0_i32_20
  v22

def k3_off3 (k3_t1 : Fin k3_t1_loop.trips) : Fin 1 → Nat :=
  let c2_i32_13 : BitVec 32 := 2#32
  let c0_i32_5 : BitVec 32 := 0#32
  let c1_i32 : BitVec 32 := 1#32
  let arg10 : BitVec 32 := Scf.iv c0_i32_5 c1_i32 k3_t1
  let v13 : BitVec 32 := Scalar.muli c2_i32_13 arg10
  let c0_i32_14 : BitVec 32 := 0#32
  let v14 : BitVec 32 := Scalar.addi v13 c0_i32_14
  let c2_i32_29 : BitVec 32 := 2#32
  let v32 : BitVec 32 := Scalar.addi v14 c2_i32_29
  let c128_i32_30 : BitVec 32 := 128#32
  let v33 : BitVec 32 := Scalar.muli v32 c128_i32_30
  ![v33.toNat]
def k3_cond2 (k3_t1 : Fin k3_t1_loop.trips) : BitVec 1 :=
  let c2_i32_13 : BitVec 32 := 2#32
  let c0_i32_5 : BitVec 32 := 0#32
  let c1_i32 : BitVec 32 := 1#32
  let arg10 : BitVec 32 := Scf.iv c0_i32_5 c1_i32 k3_t1
  let v13 : BitVec 32 := Scalar.muli c2_i32_13 arg10
  let c1_i32_21 : BitVec 32 := 1#32
  let v23 : BitVec 32 := Scalar.addi v13 c1_i32_21
  let c2_i32_26 : BitVec 32 := 2#32
  let v28 : BitVec 32 := Scalar.addi v23 c2_i32_26
  let c78_i32_27 : BitVec 32 := 78#32
  let v29 : BitVec 1 := Scalar.cmpi .slt v28 c78_i32_27
  let v30 : BitVec 32 := Scalar.extui v29
  let c0_i32_28 : BitVec 32 := 0#32
  let v31 : BitVec 1 := Scalar.cmpi .ne v30 c0_i32_28
  v31

def k3_off4 (k3_t1 : Fin k3_t1_loop.trips) : Fin 1 → Nat :=
  let c2_i32_13 : BitVec 32 := 2#32
  let c0_i32_5 : BitVec 32 := 0#32
  let c1_i32 : BitVec 32 := 1#32
  let arg10 : BitVec 32 := Scf.iv c0_i32_5 c1_i32 k3_t1
  let v13 : BitVec 32 := Scalar.muli c2_i32_13 arg10
  let c1_i32_21 : BitVec 32 := 1#32
  let v23 : BitVec 32 := Scalar.addi v13 c1_i32_21
  let c2_i32_29 : BitVec 32 := 2#32
  let v32 : BitVec 32 := Scalar.addi v23 c2_i32_29
  let c128_i32_30 : BitVec 32 := 128#32
  let v33 : BitVec 32 := Scalar.muli v32 c128_i32_30
  ![v33.toNat]
def k3_off5 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c9984_i32_12 : BitVec 32 := 9984#32
  let v12 : BitVec 32 := Scalar.addi v2 c9984_i32_12
  let c0_i32_15_r3 : BitVec 32 := 0#32
  ![v12.toNat, 0]
abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![2, 16], ![false, false]⟩

def k5_off1 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k5_t1_loop : Scf.Loop 32 :=
  let c0_i32_5 : BitVec 32 := 0#32
  let c39_i32 : BitVec 32 := 39#32
  let v7 : BitVec 32 := Scalar.addi c0_i32_5 c39_i32
  let c1_i32 : BitVec 32 := 1#32
  ⟨c0_i32_5, v7, c1_i32⟩
def k5_off2 (i : grid5.Coords) (k5_t1 : Fin k5_t1_loop.trips) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c2_i32_13 : BitVec 32 := 2#32
  let c0_i32_5 : BitVec 32 := 0#32
  let c1_i32 : BitVec 32 := 1#32
  let arg10 : BitVec 32 := Scf.iv c0_i32_5 c1_i32 k5_t1
  let v13 : BitVec 32 := Scalar.muli c2_i32_13 arg10
  let v14 : BitVec 32 := Scalar.addi v13 c0_i32_14
  let c128_i32_18 : BitVec 32 := 128#32
  let v17 : BitVec 32 := Scalar.muli v14 c128_i32_18
  let v18 : BitVec 32 := Scalar.addi v2 v17
  let c0_i32_29_r1 : BitVec 32 := 0#32
  ![v18.toNat, 0]
def k5_cond1 (k5_t1 : Fin k5_t1_loop.trips) : BitVec 1 :=
  let c2_i32_13 : BitVec 32 := 2#32
  let c0_i32_5 : BitVec 32 := 0#32
  let c1_i32 : BitVec 32 := 1#32
  let arg10 : BitVec 32 := Scf.iv c0_i32_5 c1_i32 k5_t1
  let v13 : BitVec 32 := Scalar.muli c2_i32_13 arg10
  let c0_i32_14 : BitVec 32 := 0#32
  let v14 : BitVec 32 := Scalar.addi v13 c0_i32_14
  let c2_i32_19 : BitVec 32 := 2#32
  let v19 : BitVec 32 := Scalar.addi v14 c2_i32_19
  let c78_i32 : BitVec 32 := 78#32
  let v20 : BitVec 1 := Scalar.cmpi .slt v19 c78_i32
  let v21 : BitVec 32 := Scalar.extui v20
  let c0_i32_20 : BitVec 32 := 0#32
  let v22 : BitVec 1 := Scalar.cmpi .ne v21 c0_i32_20
  v22

def k5_off3 (k5_t1 : Fin k5_t1_loop.trips) : Fin 1 → Nat :=
  let c2_i32_13 : BitVec 32 := 2#32
  let c0_i32_5 : BitVec 32 := 0#32
  let c1_i32 : BitVec 32 := 1#32
  let arg10 : BitVec 32 := Scf.iv c0_i32_5 c1_i32 k5_t1
  let v13 : BitVec 32 := Scalar.muli c2_i32_13 arg10
  let c0_i32_14 : BitVec 32 := 0#32
  let v14 : BitVec 32 := Scalar.addi v13 c0_i32_14
  let c2_i32_29 : BitVec 32 := 2#32
  let v32 : BitVec 32 := Scalar.addi v14 c2_i32_29
  let c128_i32_30 : BitVec 32 := 128#32
  let v33 : BitVec 32 := Scalar.muli v32 c128_i32_30
  ![v33.toNat]
def k5_cond2 (k5_t1 : Fin k5_t1_loop.trips) : BitVec 1 :=
  let c2_i32_13 : BitVec 32 := 2#32
  let c0_i32_5 : BitVec 32 := 0#32
  let c1_i32 : BitVec 32 := 1#32
  let arg10 : BitVec 32 := Scf.iv c0_i32_5 c1_i32 k5_t1
  let v13 : BitVec 32 := Scalar.muli c2_i32_13 arg10
  let c1_i32_21 : BitVec 32 := 1#32
  let v23 : BitVec 32 := Scalar.addi v13 c1_i32_21
  let c2_i32_26 : BitVec 32 := 2#32
  let v28 : BitVec 32 := Scalar.addi v23 c2_i32_26
  let c78_i32_27 : BitVec 32 := 78#32
  let v29 : BitVec 1 := Scalar.cmpi .slt v28 c78_i32_27
  let v30 : BitVec 32 := Scalar.extui v29
  let c0_i32_28 : BitVec 32 := 0#32
  let v31 : BitVec 1 := Scalar.cmpi .ne v30 c0_i32_28
  v31

def k5_off4 (k5_t1 : Fin k5_t1_loop.trips) : Fin 1 → Nat :=
  let c2_i32_13 : BitVec 32 := 2#32
  let c0_i32_5 : BitVec 32 := 0#32
  let c1_i32 : BitVec 32 := 1#32
  let arg10 : BitVec 32 := Scf.iv c0_i32_5 c1_i32 k5_t1
  let v13 : BitVec 32 := Scalar.muli c2_i32_13 arg10
  let c1_i32_21 : BitVec 32 := 1#32
  let v23 : BitVec 32 := Scalar.addi v13 c1_i32_21
  let c2_i32_29 : BitVec 32 := 2#32
  let v32 : BitVec 32 := Scalar.addi v23 c2_i32_29
  let c128_i32_30 : BitVec 32 := 128#32
  let v33 : BitVec 32 := Scalar.muli v32 c128_i32_30
  ![v33.toNat]
def k5_off5 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c9984_i32_12 : BitVec 32 := 9984#32
  let v12 : BitVec 32 := Scalar.addi v2 c9984_i32_12
  let c0_i32_15_r3 : BitVec 32 := 0#32
  ![v12.toNat, 0]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S128 : S_.BroadcastsInDim S128 (![] : Fin 0 → Fin S128.rank)
  concatenates_S320000_S128_S320128_d0 : Shape.Concatenates [S320000, S128] S320128 0
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S10112_S128_0 : ∀ a, (![0] : Fin 1 → Nat) a + S128.size a ≤ S10112.size a
  inb_S10000x128_S10000x128_0_0 : ∀ a, (![0, 0] : Fin 2 → Nat) a + S10000x128.size a ≤ S10000x128.size a
  gathers_S10000x128_S128x128 : S10000x128.Gathers 0 S128x128
  inb_S10112_S128_128 : ∀ a, (![128] : Fin 1 → Nat) a + S128.size a ≤ S10112.size a
  inb_S10112_S128_9984 : ∀ a, (![9984] : Fin 1 → Nat) a + S128.size a ≤ S10112.size a
  inb_S128x128_S16x128_0_0 : ∀ a, (![0, 0] : Fin 2 → Nat) a + S16x128.size a ≤ S128x128.size a
  bcast_S_S10000x128 : S_.BroadcastsInDim S10000x128 (![] : Fin 0 → Fin S10000x128.rank)
  bcast_S320000_S320000x1_0 : S320000.BroadcastsInDim S320000x1 (![0] : Fin 1 → Fin S320000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  shapeCasts_S1000x128_S1000x128 : S1000x128.ShapeCasts S1000x128
  bcast_S_S10000 : S_.BroadcastsInDim S10000 (![] : Fin 0 → Fin S10000.rank)
  bcast_S_S16 : S_.BroadcastsInDim S16 (![] : Fin 0 → Fin S16.rank)
  bcast_S10000_S10000x1_0 : S10000.BroadcastsInDim S10000x1 (![0] : Fin 1 → Fin S10000x1.rank)
  bcast_S_S16x128 : S_.BroadcastsInDim S16x128 (![] : Fin 0 → Fin S16x128.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  transposes_S10x128_S128x10_1_0 : S10x128.Transposes [1, 0] S128x10
  bcast_S_S16x10 : S_.BroadcastsInDim S16x10 (![] : Fin 0 → Fin S16x10.rank)
  reducesTo_S16x128_S16_d1 : S16x128.ReducesTo [1] S16
  h_S_ : 0 < S_.numel
  bcast_S16x1_S16x10_0_1 : S16x1.BroadcastsInDim S16x10 (![0, 1] : Fin 2 → Fin S16x10.rank)
  reducesTo_S10x128_S10_d1 : S10x128.ReducesTo [1] S10
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  transposes_S2x10_S10x2_1_0 : S2x10.Transposes [1, 0] S10x2
  reducesTo_S16x2_S16_d1 : S16x2.ReducesTo [1] S16
  bcast_S16x1_S16x2_0_1 : S16x1.BroadcastsInDim S16x2 (![0, 1] : Fin 2 → Fin S16x2.rank)
  dot_S1000x128_S128x128_S1000x128_1_0_0_1_n_n_wf : DotDims.WF S1000x128 S128x128 S1000x128 [1] [0] [0] [1] [] []
  scatter_S10000x128_S320000x1_S320000x128_1_0_0_1_wf : ScatterDims.WF S10000x128 S320000x1 S320000x128 [1] [0] [0] 1
  scatter_S16_S10000x1_S10000_n_0_0_1_wf : ScatterDims.WF S16 S10000x1 S10000 [] [0] [0] 1
  scatter_S16x128_S10000x1_S10000x128_1_0_0_1_wf : ScatterDims.WF S16x128 S10000x1 S10000x128 [1] [0] [0] 1
  dot_S16x128_S128x10_S16x10_1_0_0_1_n_n_wf : DotDims.WF S16x128 S128x10 S16x10 [1] [0] [0] [1] [] []
  dot_S16x10_S10x2_S16x2_1_0_0_1_n_n_wf : DotDims.WF S16x10 S10x2 S16x2 [1] [0] [0] [1] [] []
  hcc1_scratch3 : 5 + S_.numel ≤ 33
  hcc1_scratch4 : 6 + S_.numel ≤ 33
  hcc1_scoped0 : 7 + S_.numel ≤ 33
  hcc1_scoped1 : 8 + S_.numel ≤ 33
  hcc1_scoped2 : 9 + S_.numel ≤ 33
  hcc1_scoped3 : 10 + S_.numel ≤ 33
  hcc3_scratch3 : 16 + S_.numel ≤ 33
  hcc3_scratch4 : 17 + S_.numel ≤ 33
  hcc3_scoped0 : 18 + S_.numel ≤ 33
  hcc3_scoped1 : 19 + S_.numel ≤ 33
  hcc3_scoped2 : 20 + S_.numel ≤ 33
  hcc3_scoped3 : 21 + S_.numel ≤ 33
  hcc5_scratch3 : 27 + S_.numel ≤ 33
  hcc5_scratch4 : 28 + S_.numel ≤ 33
  hcc5_scoped0 : 29 + S_.numel ≤ 33
  hcc5_scoped1 : 30 + S_.numel ≤ 33
  hcc5_scoped2 : 31 + S_.numel ≤ 33
  hcc5_scoped3 : 32 + S_.numel ≤ 33
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ a, (k1_off1 i) a + S10112.size a ≤ S320128.size a
  k1_t1_ok : k1_t1_loop.OK
  k1_off2_inb : ∀ (i : grid1.Coords) (k1_t1 : Fin k1_t1_loop.trips), ∀ (r : Fin 2), ∀ a, (k1_off2 i k1_t1 (BitVec.ofNat 32 r.val)) a + S128x128.size a ≤ S320000x128.size a
  k1_off3_inb : ∀ k1_t1 : Fin k1_t1_loop.trips, ∀ (k1_h1 : k1_cond1 k1_t1 = 1#1), ∀ a, (k1_off3 k1_t1) a + S128.size a ≤ S10112.size a
  k1_off4_inb : ∀ k1_t1 : Fin k1_t1_loop.trips, ∀ (k1_h2 : k1_cond2 k1_t1 = 1#1), ∀ a, (k1_off4 k1_t1) a + S128.size a ≤ S10112.size a
  k1_off5_inb : ∀ i : grid1.Coords, ∀ a, (k1_off5 i) a + S16x128.size a ≤ S320000x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)
  hcore3 : grid3.bound 0 ≤ τ.nSC
  hsub3 : grid3.bound 1 ≤ τ.nSub
  k3_off1_inb : ∀ i : grid3.Coords, ∀ a, (k3_off1 i) a + S10112.size a ≤ S320128.size a
  k3_t1_ok : k3_t1_loop.OK
  k3_off2_inb : ∀ (i : grid3.Coords) (k3_t1 : Fin k3_t1_loop.trips), ∀ (r : Fin 2), ∀ a, (k3_off2 i k3_t1 (BitVec.ofNat 32 r.val)) a + S128x128.size a ≤ S320000x128.size a
  k3_off3_inb : ∀ k3_t1 : Fin k3_t1_loop.trips, ∀ (k3_h1 : k3_cond1 k3_t1 = 1#1), ∀ a, (k3_off3 k3_t1) a + S128.size a ≤ S10112.size a
  k3_off4_inb : ∀ k3_t1 : Fin k3_t1_loop.trips, ∀ (k3_h2 : k3_cond2 k3_t1 = 1#1), ∀ a, (k3_off4 k3_t1) a + S128.size a ≤ S10112.size a
  k3_off5_inb : ∀ i : grid3.Coords, ∀ a, (k3_off5 i) a + S16x128.size a ≤ S320000x128.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S10000x128.size a
  hwx4_0 : ∀ i : grid4.Coords, EltTy.bits .f32 = 32 ∨ (Rect.block (s := S10000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S10000x128.size a
  hwx4_2 : ∀ i : grid4.Coords, EltTy.bits .f32 = 32 ∨ (Rect.block (s := S10000x128) S1000x128.size (cc4_transform_2 i) (hinb4_2 i)).WholeWords (EltTy.packing .f32)
  hcore5 : grid5.bound 0 ≤ τ.nSC
  hsub5 : grid5.bound 1 ≤ τ.nSub
  k5_off1_inb : ∀ i : grid5.Coords, ∀ a, (k5_off1 i) a + S10112.size a ≤ S320128.size a
  k5_t1_ok : k5_t1_loop.OK
  k5_off2_inb : ∀ (i : grid5.Coords) (k5_t1 : Fin k5_t1_loop.trips), ∀ (r : Fin 2), ∀ a, (k5_off2 i k5_t1 (BitVec.ofNat 32 r.val)) a + S128x128.size a ≤ S320000x128.size a
  k5_off3_inb : ∀ k5_t1 : Fin k5_t1_loop.trips, ∀ (k5_h1 : k5_cond1 k5_t1 = 1#1), ∀ a, (k5_off3 k5_t1) a + S128.size a ≤ S10112.size a
  k5_off4_inb : ∀ k5_t1 : Fin k5_t1_loop.trips, ∀ (k5_h2 : k5_cond2 k5_t1 = 1#1), ∀ a, (k5_off4 k5_t1) a + S128.size a ≤ S10112.size a
  k5_off5_inb : ∀ i : grid5.Coords, ∀ a, (k5_off5 i) a + S16x128.size a ≤ S320000x128.size a

variable [Facts₀]

abbrev cc1_scratch3 : DmaSems sig S_ := SemArray.consecutive 5 S_ hcc1_scratch3
abbrev cc1_scratch4 : DmaSems sig S_ := SemArray.consecutive 6 S_ hcc1_scratch4
abbrev cc1_scoped0 : DmaSems sig S_ := SemArray.consecutive 7 S_ hcc1_scoped0
abbrev cc1_scoped1 : DmaSems sig S_ := SemArray.consecutive 8 S_ hcc1_scoped1
abbrev cc1_scoped2 : DmaSems sig S_ := SemArray.consecutive 9 S_ hcc1_scoped2
abbrev cc1_scoped3 : DmaSems sig S_ := SemArray.consecutive 10 S_ hcc1_scoped3
abbrev cc3_scratch3 : DmaSems sig S_ := SemArray.consecutive 16 S_ hcc3_scratch3
abbrev cc3_scratch4 : DmaSems sig S_ := SemArray.consecutive 17 S_ hcc3_scratch4
abbrev cc3_scoped0 : DmaSems sig S_ := SemArray.consecutive 18 S_ hcc3_scoped0
abbrev cc3_scoped1 : DmaSems sig S_ := SemArray.consecutive 19 S_ hcc3_scoped1
abbrev cc3_scoped2 : DmaSems sig S_ := SemArray.consecutive 20 S_ hcc3_scoped2
abbrev cc3_scoped3 : DmaSems sig S_ := SemArray.consecutive 21 S_ hcc3_scoped3
abbrev cc5_scratch3 : DmaSems sig S_ := SemArray.consecutive 27 S_ hcc5_scratch3
abbrev cc5_scratch4 : DmaSems sig S_ := SemArray.consecutive 28 S_ hcc5_scratch4
abbrev cc5_scoped0 : DmaSems sig S_ := SemArray.consecutive 29 S_ hcc5_scoped0
abbrev cc5_scoped1 : DmaSems sig S_ := SemArray.consecutive 30 S_ hcc5_scoped1
abbrev cc5_scoped2 : DmaSems sig S_ := SemArray.consecutive 31 S_ hcc5_scoped2
abbrev cc5_scoped3 : DmaSems sig S_ := SemArray.consecutive 32 S_ hcc5_scoped3
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def scatter_S16_S10000x1_S10000_n_0_0_1 : ScatterDims S16 S10000x1 S10000 where
  updateWindowDims := []
  insertedWindowDims := [0]
  scatterDimsToOperandDims := [0]
  indexVectorDim := 1
  wf := scatter_S16_S10000x1_S10000_n_0_0_1_wf
def scatter_S16x128_S10000x1_S10000x128_1_0_0_1 : ScatterDims S16x128 S10000x1 S10000x128 where
  updateWindowDims := [1]
  insertedWindowDims := [0]
  scatterDimsToOperandDims := [0]
  indexVectorDim := 1
  wf := scatter_S16x128_S10000x1_S10000x128_1_0_0_1_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf
def dot_S16x10_S10x2_S16x2_1_0_0_1_n_n : DotDims S16x10 S10x2 S16x2 where
  lhsContracting := [1]
  rhsContracting := [0]
  lhsNonContracting := [0]
  rhsNonContracting := [1]
  lhsBatch := []
  rhsBatch := []
  wf := dot_S16x10_S10x2_S16x2_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v14) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win4_0 : Pipeline.Window sig grid4 :=
  Pipeline.Window.ofSpec (Memref.whole main_v23) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v24) S1000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S10x128 : Shape := ⟨2, ![10, 128]⟩
abbrev S2x10 : Shape := ⟨2, ![2, 10]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S16 : Shape := ⟨1, ![16]⟩
abbrev S10000x1 : Shape := ⟨2, ![10000, 1]⟩
abbrev S16x128 : Shape := ⟨2, ![16, 128]⟩
abbrev S16x1 : Shape := ⟨2, ![16, 1]⟩
abbrev S128x10 : Shape := ⟨2, ![128, 10]⟩
abbrev S16x10 : Shape := ⟨2, ![16, 10]⟩
abbrev S10 : Shape := ⟨1, ![10]⟩
abbrev S1x10 : Shape := ⟨2, ![1, 10]⟩
abbrev S10x2 : Shape := ⟨2, ![10, 2]⟩
abbrev S16x2 : Shape := ⟨2, ![16, 2]⟩

abbrev nBuf : Space → Nat
  | .hbm => 179
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S10x128, .f32⟩
  | 10 => ⟨S2x10, .f32⟩
  | 11 => ⟨S1x320000, .i32⟩
  | 12 => ⟨S320000, .i32⟩
  | 13 => ⟨S1x320000, .i32⟩
  | 14 => ⟨S320000, .i32⟩
  | 15 => ⟨S_, .f32⟩
  | 16 => ⟨S320000, .f32⟩
  | 17 => ⟨S10000x128, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S320000x128, .f32⟩
  | 27 => ⟨S320000x1, .f32⟩
  | 28 => ⟨S320000x128, .f32⟩
  | 29 => ⟨S320000x128, .f32⟩
  | 30 => ⟨S_, .f32⟩
  | 31 => ⟨S10000x128, .f32⟩
  | 32 => ⟨S320000x1, .i32⟩
  | 33 => ⟨S10000x128, .f32⟩
  | 34 => ⟨S1x128, .f32⟩
  | 35 => ⟨S10000x128, .f32⟩
  | 36 => ⟨S10000x128, .f32⟩
  | 37 => ⟨S_, .f32⟩
  | 38 => ⟨S10000x128, .f32⟩
  | 39 => ⟨S10000x128, .i1⟩
  | 40 => ⟨S_, .f32⟩
  | 41 => ⟨S10000x128, .f32⟩
  | 42 => ⟨S10000x128, .i1⟩
  | 43 => ⟨S_, .f32⟩
  | 44 => ⟨S_, .f32⟩
  | 45 => ⟨S10000x128, .f32⟩
  | 46 => ⟨S10000x128, .f32⟩
  | 47 => ⟨S10000x128, .f32⟩
  | 48 => ⟨S_, .f32⟩
  | 49 => ⟨S10000x128, .f32⟩
  | 50 => ⟨S10000x128, .f32⟩
  | 51 => ⟨S10000x128, .f32⟩
  | 52 => ⟨S10000x128, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000x128, .f32⟩
  | 62 => ⟨S320000x1, .f32⟩
  | 63 => ⟨S320000x128, .f32⟩
  | 64 => ⟨S320000x128, .f32⟩
  | 65 => ⟨S_, .f32⟩
  | 66 => ⟨S10000x128, .f32⟩
  | 67 => ⟨S320000x1, .i32⟩
  | 68 => ⟨S10000x128, .f32⟩
  | 69 => ⟨S1x128, .f32⟩
  | 70 => ⟨S10000x128, .f32⟩
  | 71 => ⟨S10000x128, .f32⟩
  | 72 => ⟨S_, .f32⟩
  | 73 => ⟨S10000x128, .f32⟩
  | 74 => ⟨S10000x128, .i1⟩
  | 75 => ⟨S_, .f32⟩
  | 76 => ⟨S10000x128, .f32⟩
  | 77 => ⟨S10000x128, .i1⟩
  | 78 => ⟨S_, .f32⟩
  | 79 => ⟨S_, .f32⟩
  | 80 => ⟨S10000x128, .f32⟩
  | 81 => ⟨S10000x128, .f32⟩
  | 82 => ⟨S10000x128, .f32⟩
  | 83 => ⟨S_, .f32⟩
  | 84 => ⟨S10000x128, .f32⟩
  | 85 => ⟨S10000x128, .f32⟩
  | 86 => ⟨S10000x128, .f32⟩
  | 87 => ⟨S10000x128, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000x128, .f32⟩
  | 97 => ⟨S320000x1, .f32⟩
  | 98 => ⟨S320000x128, .f32⟩
  | 99 => ⟨S320000x128, .f32⟩
  | 100 => ⟨S_, .f32⟩
  | 101 => ⟨S10000x128, .f32⟩
  | 102 => ⟨S320000x1, .i32⟩
  | 103 => ⟨S10000x128, .f32⟩
  | 104 => ⟨S1x128, .f32⟩
  | 105 => ⟨S10000x128, .f32⟩
  | 106 => ⟨S10000x128, .f32⟩
  | 107 => ⟨S_, .f32⟩
  | 108 => ⟨S10000x128, .f32⟩
  | 109 => ⟨S10000x128, .i1⟩
  | 110 => ⟨S_, .f32⟩
  | 111 => ⟨S10000x128, .f32⟩
  | 112 => ⟨S10000x128, .i1⟩
  | 113 => ⟨S_, .f32⟩
  | 114 => ⟨S_, .f32⟩
  | 115 => ⟨S10000x128, .f32⟩
  | 116 => ⟨S10000x128, .f32⟩
  | 117 => ⟨S10000x128, .f32⟩
  | 118 => ⟨S_, .f32⟩
  | 119 => ⟨S10000x128, .f32⟩
  | 120 => ⟨S10000x128, .f32⟩
  | 121 => ⟨S10000x128, .f32⟩
  | 122 => ⟨S_, .f32⟩
  | 123 => ⟨S10000, .f32⟩
  | 124 => ⟨S_, .f32⟩
  | 125 => ⟨S16, .f32⟩
  | 126 => ⟨S10000x1, .i32⟩
  | 127 => ⟨S16, .f32⟩
  | _ => ⟨S10000x128, .f32⟩

abbrev hbmTy0_1 (i : Nat) : BufTy := match i % 128 with
  | 0 => ⟨S_, .f32⟩
  | 1 => ⟨S16x128, .f32⟩
  | 2 => ⟨S10000x1, .i32⟩
  | 3 => ⟨S16x128, .f32⟩
  | 4 => ⟨S_, .f32⟩
  | 5 => ⟨S16, .f32⟩
  | 6 => ⟨S16, .f32⟩
  | 7 => ⟨S16x1, .f32⟩
  | 8 => ⟨S16x128, .f32⟩
  | 9 => ⟨S16x128, .f32⟩
  | 10 => ⟨S128x10, .f32⟩
  | 11 => ⟨S16x10, .f32⟩
  | 12 => ⟨S_, .f32⟩
  | 13 => ⟨S16x10, .f32⟩
  | 14 => ⟨S16x10, .f32⟩
  | 15 => ⟨S16x128, .f32⟩
  | 16 => ⟨S_, .f32⟩
  | 17 => ⟨S16, .f32⟩
  | 18 => ⟨S16x1, .f32⟩
  | 19 => ⟨S16x10, .f32⟩
  | 20 => ⟨S16x10, .f32⟩
  | 21 => ⟨S10x128, .f32⟩
  | 22 => ⟨S_, .f32⟩
  | 23 => ⟨S10, .f32⟩
  | 24 => ⟨S1x10, .f32⟩
  | 25 => ⟨S16x10, .f32⟩
  | 26 => ⟨S16x10, .f32⟩
  | 27 => ⟨S_, .f32⟩
  | 28 => ⟨S16x10, .f32⟩
  | 29 => ⟨S16x10, .f32⟩
  | 30 => ⟨S_, .f32⟩
  | 31 => ⟨S16x10, .f32⟩
  | 32 => ⟨S16x10, .f32⟩
  | 33 => ⟨S16x10, .f32⟩
  | 34 => ⟨S16x10, .f32⟩
  | 35 => ⟨S10x2, .f32⟩
  | 36 => ⟨S16x2, .f32⟩
  | 37 => ⟨S_, .f32⟩
  | 38 => ⟨S16, .f32⟩
  | 39 => ⟨S_, .f32⟩
  | 40 => ⟨S16, .f32⟩
  | 41 => ⟨S16, .f32⟩
  | 42 => ⟨S16x1, .f32⟩
  | 43 => ⟨S16x2, .f32⟩
  | 44 => ⟨S16x2, .f32⟩
  | 45 => ⟨S16x2, .f32⟩
  | 46 => ⟨S_, .f32⟩
  | 47 => ⟨S16, .f32⟩
  | 48 => ⟨S16x1, .f32⟩
  | 49 => ⟨S16x2, .f32⟩
  | 50 => ⟨S16x2, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_call0_cst_1 : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_v4 : Ref sig .tc := ⟨.hbm, 46, rfl⟩
abbrev main_call0_v5 : Ref sig .tc := ⟨.hbm, 47, rfl⟩
abbrev main_call0_cst_2 : Ref sig .tc := ⟨.hbm, 48, rfl⟩
abbrev main_call0_v6 : Ref sig .tc := ⟨.hbm, 49, rfl⟩
abbrev main_call0_v7 : Ref sig .tc := ⟨.hbm, 50, rfl⟩
abbrev main_v22 : Ref sig .tc := ⟨.hbm, 51, rfl⟩
abbrev main_v23 : Ref sig .tc := ⟨.hbm, 52, rfl⟩
abbrev main_c_2 : Ref sig .tc := ⟨.hbm, 53, rfl⟩
abbrev main_v24 : Ref sig .tc := ⟨.hbm, 54, rfl⟩
abbrev main_v25 : Ref sig .tc := ⟨.hbm, 55, rfl⟩
abbrev main_c_3 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_4 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_cst_1 : Ref sig .tc := ⟨.hbm, 78, rfl⟩
abbrev main_call1_call0_v0 : Ref sig .tc := ⟨.hbm, 79, rfl⟩
abbrev main_call1_call0_v1 : Ref sig .tc := ⟨.hbm, 80, rfl⟩
abbrev main_call1_v4 : Ref sig .tc := ⟨.hbm, 81, rfl⟩
abbrev main_call1_v5 : Ref sig .tc := ⟨.hbm, 82, rfl⟩
abbrev main_call1_cst_2 : Ref sig .tc := ⟨.hbm, 83, rfl⟩
abbrev main_call1_v6 : Ref sig .tc := ⟨.hbm, 84, rfl⟩
abbrev main_call1_v7 : Ref sig .tc := ⟨.hbm, 85, rfl⟩
abbrev main_v40 : Ref sig .tc := ⟨.hbm, 86, rfl⟩
abbrev main_v41 : Ref sig .tc := ⟨.hbm, 87, rfl⟩
abbrev main_c_5 : Ref sig .tc := ⟨.hbm, 88, rfl⟩
abbrev main_v42 : Ref sig .tc := ⟨.hbm, 89, rfl⟩
abbrev main_v43 : Ref sig .tc := ⟨.hbm, 90, rfl⟩
abbrev main_c_6 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_7 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_call2_cst : Ref sig .tc := ⟨.hbm, 107, rfl⟩
abbrev main_call2_v0 : Ref sig .tc := ⟨.hbm, 108, rfl⟩
abbrev main_call2_v1 : Ref sig .tc := ⟨.hbm, 109, rfl⟩
abbrev main_call2_cst_0 : Ref sig .tc := ⟨.hbm, 110, rfl⟩
abbrev main_call2_v2 : Ref sig .tc := ⟨.hbm, 111, rfl⟩
abbrev main_call2_v3 : Ref sig .tc := ⟨.hbm, 112, rfl⟩
abbrev main_call2_cst_1 : Ref sig .tc := ⟨.hbm, 113, rfl⟩
abbrev main_call2_call0_v0 : Ref sig .tc := ⟨.hbm, 114, rfl⟩
abbrev main_call2_call0_v1 : Ref sig .tc := ⟨.hbm, 115, rfl⟩
abbrev main_call2_v4 : Ref sig .tc := ⟨.hbm, 116, rfl⟩
abbrev main_call2_v5 : Ref sig .tc := ⟨.hbm, 117, rfl⟩
abbrev main_call2_cst_2 : Ref sig .tc := ⟨.hbm, 118, rfl⟩
abbrev main_call2_v6 : Ref sig .tc := ⟨.hbm, 119, rfl⟩
abbrev main_call2_v7 : Ref sig .tc := ⟨.hbm, 120, rfl⟩
abbrev main_v58 : Ref sig .tc := ⟨.hbm, 121, rfl⟩
abbrev main_cst_8 : Ref sig .tc := ⟨.hbm, 122, rfl⟩
abbrev main_v59 : Ref sig .tc := ⟨.hbm, 123, rfl⟩
abbrev main_cst_9 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_cst_10 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_cst_11 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_12 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_cst_13 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_14 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_cst_15 : Ref sig .tc := ⟨.hbm, 155, rfl⟩
abbrev main_v85 : Ref sig .tc := ⟨.hbm, 156, rfl⟩
abbrev main_v86 : Ref sig .tc := ⟨.hbm, 157, rfl⟩
abbrev main_cst_16 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_cst_17 : Ref sig .tc := ⟨.hbm, 165, rfl⟩
abbrev main_v93 : Ref sig .tc := ⟨.hbm, 166, rfl⟩
abbrev main_cst_18 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_cst_19 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000 : S_.BroadcastsInDim S10000 (![] : Fin 0 → Fin S10000.rank)
  bcast_S_S16 : S_.BroadcastsInDim S16 (![] : Fin 0 → Fin S16.rank)
  bcast_S10000_S10000x1_0 : S10000.BroadcastsInDim S10000x1 (![0] : Fin 1 → Fin S10000x1.rank)
  bcast_S_S16x128 : S_.BroadcastsInDim S16x128 (![] : Fin 0 → Fin S16x128.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  transposes_S10x128_S128x10_1_0 : S10x128.Transposes [1, 0] S128x10
  bcast_S_S16x10 : S_.BroadcastsInDim S16x10 (![] : Fin 0 → Fin S16x10.rank)
  reducesTo_S16x128_S16_d1 : S16x128.ReducesTo [1] S16
  h_S_ : 0 < S_.numel
  bcast_S16x1_S16x10_0_1 : S16x1.BroadcastsInDim S16x10 (![0, 1] : Fin 2 → Fin S16x10.rank)
  reducesTo_S10x128_S10_d1 : S10x128.ReducesTo [1] S10
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  transposes_S2x10_S10x2_1_0 : S2x10.Transposes [1, 0] S10x2
  reducesTo_S16x2_S16_d1 : S16x2.ReducesTo [1] S16
  bcast_S16x1_S16x2_0_1 : S16x1.BroadcastsInDim S16x2 (![0, 1] : Fin 2 → Fin S16x2.rank)
  dot_S10000x128_S128x128_S10000x128_1_0_0_1_n_n_wf : DotDims.WF S10000x128 S128x128 S10000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  scatter_S16_S10000x1_S10000_n_0_0_1_wf : ScatterDims.WF S16 S10000x1 S10000 [] [0] [0] 1
  scatter_S16x128_S10000x1_S10000x128_1_0_0_1_wf : ScatterDims.WF S16x128 S10000x1 S10000x128 [1] [0] [0] 1
  dot_S16x128_S128x10_S16x10_1_0_0_1_n_n_wf : DotDims.WF S16x128 S128x10 S16x10 [1] [0] [0] [1] [] []
  dot_S16x10_S10x2_S16x2_1_0_0_1_n_n_wf : DotDims.WF S16x10 S10x2 S16x2 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def scatter_S16_S10000x1_S10000_n_0_0_1 : ScatterDims S16 S10000x1 S10000 where
  updateWindowDims := []
  insertedWindowDims := [0]
  scatterDimsToOperandDims := [0]
  indexVectorDim := 1
  wf := scatter_S16_S10000x1_S10000_n_0_0_1_wf
def scatter_S16x128_S10000x1_S10000x128_1_0_0_1 : ScatterDims S16x128 S10000x1 S10000x128 where
  updateWindowDims := [1]
  insertedWindowDims := [0]
  scatterDimsToOperandDims := [0]
  indexVectorDim := 1
  wf := scatter_S16x128_S10000x1_S10000x128_1_0_0_1_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf
def dot_S16x10_S10x2_S16x2_1_0_0_1_n_n : DotDims S16x10 S10x2 S16x2 where
  lhsContracting := [1]
  rhsContracting := [0]
  lhsNonContracting := [0]
  rhsNonContracting := [1]
  lhsBatch := []
  rhsBatch := []
  wf := dot_S16x10_S10x2_S16x2_1_0_0_1_n_n_wf

class Facts : Prop extends Facts₀ where

variable [Facts]
-- ==== Proof.PreRange.lean ====
import proofs.«207978_g39513699123711_cont_8to1_b_1293_21_alg».proof.Pre_input_domain
import proofs.«207978_g39513699123711_cont_8to1_b_1293_21_alg».proof.Proof.Gen.Pre_input_domain
import Idealize.ShloMosaic.Lib.ReduceAll
import Idealize.ShloMosaic.Lib.ValueIdx
import Idealize.ShloMosaic.Lib.Pipeline.Value

noncomputable section
namespace Cert.Pre_input_domain.Hand
open Idealize.ShloMosaic Idealize.ShloMosaic.ValueIdx Cert.Pre_input_domain

instance : Subsingleton S_.Idx := ⟨fun a b => funext fun d => d.elim0⟩

-- A word whose signed reading lies between 0 and 9999 has the same reading unsigned.
theorem toNat_lt_of_cmpi (a : BitVec 32) (h0 : IntOp.cmpi .sge a 0#32 = 1#1) (h1 : IntOp.cmpi .sle a 9999#32 = 1#1) :
    a.toNat < 10000 := by
  have h0 := IntOp.cmpi_sge.mp h0
  have h1 := IntOp.cmpi_sle.mp h1
  rw [show (0#32 : BitVec 32).toInt = 0 by decide] at h0
  rw [show (9999#32 : BitVec 32).toInt = 9999 by decide] at h1
  have e := BitVec.toInt_eq_toNat_cond a
  have := a.isLt
  omega

variable [Facts]

-- The domain predicate is a conjunction; one factor is the range check of every entry of the edge list.
theorem pre_edge_lt {F : FTy → Type} [FloatOps F] (a0 : FVec F S10000x128 .f32) (a1 : IVec S2x320000 32) (a2 : IVec S10000 32)
    (a3 : FVec F S128x128 .f32) (a4 : FVec F S128 .f32) (a5 : FVec F S128x128 .f32) (a6 : FVec F S128 .f32)
    (a7 : FVec F S128x128 .f32) (a8 : FVec F S128 .f32) (a9 : FVec F S10x128 .f32) (a10 : FVec F S2x10 .f32)
    (h : fn (F := F) a0 a1 a2 a3 a4 a5 a6 a7 a8 a9 a10 = (fun _ => 1#1)) (i : S2x320000.Idx) : (a1 i).toNat < 10000 := by
  have h := congrFun h ix0
  dsimp only [fn, fn_part1, fn_part2, fn_part3] at h
  obtain ⟨hge, hle⟩ := IntOp.andi_eq_one.mp (Host.reduce_andi_all _ _ _ _ _ (IntOp.andi_eq_one.mp (IntOp.andi_eq_one.mp h).1).2 i)
  exact toNat_lt_of_cmpi (a1 i) hge hle

end Cert.Pre_input_domain.Hand
end
-- ==== Proof.RefOps.lean ====
import proofs.«207978_g39513699123711_cont_8to1_b_1293_21_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable abbrev TR (s : Shape) (e : EltTy) := TRef sig ⟨s, e⟩
noncomputable abbrev dr (r : Ref sig .tc) : DevRef τ sig := Proc.devRef .tc r

-- A stretch of the program: its operations, each with the buffer it writes.
noncomputable abbrev Part (F : FTy → Type) := List (HloOp τ sig (Elt F) × Ref sig .tc)
noncomputable def Part.ops (p : Part F) : List (HloOp τ sig (Elt F)) := p.map Prod.fst
noncomputable def Part.W (p : Part F) : List (Ref sig .tc) := p.map Prod.snd

-- The operation stays within the references of its core, allocates nothing and writes exactly the buffer paired with it.
noncomputable def Ok1 (x : HloOp τ sig (Elt F) × Ref sig .tc) : Prop :=
  x.1.bufs ⊆ tcRefs τ sig ∧ x.1.fresh = ∅ ∧ x.1.writes = {dr x.2}
noncomputable def Ok (p : Part F) : Prop := p.Forall Ok1

section
variable (x a b c y : Ref sig .tc)
theorem ok0 (v hy) : Ok1 (nullary (τ := τ) (Val := Elt F) y v hy, y) := ⟨nullary_bufs_sub y v hy, rfl, rfl⟩
theorem ok1 (f hx hy) : Ok1 (unary (τ := τ) (Val := Elt F) x y f hx hy, y) := ⟨unary_bufs_sub x y f hx hy, rfl, rfl⟩
theorem ok2 (f ha hb hy) : Ok1 (binary (τ := τ) (Val := Elt F) a b y f ha hb hy, y) := ⟨binary_bufs_sub a b y f ha hb hy, rfl, rfl⟩
theorem ok3 (f hc ha hb hy) : Ok1 (ternary (τ := τ) (Val := Elt F) c a b y f hc ha hb hy, y) := ⟨ternary_bufs_sub a b c y f hc ha hb hy, rfl, rfl⟩
theorem okr (he hn hx hy) : Ok1 (reshape (τ := τ) (Val := Elt F) x y he hn hx hy, y) := ⟨reshape_bufs_sub x y he hn hx hy, rfl, rfl⟩
end

theorem Ok.cat {p q : Part F} (hp : Ok p) (hq : Ok q) : Ok (p ++ q) := List.forall_append.mpr ⟨hp, hq⟩

theorem Ok.sub {p : Part F} (h : Ok p) : p.ops.Forall fun op => op.bufs ⊆ tcRefs τ sig :=
  List.forall_iff_forall_mem.mpr fun _ ho => by
    obtain ⟨x, hx, rfl⟩ := List.mem_map.mp ho
    exact (List.forall_iff_forall_mem.mp h x hx).1

theorem Ok.fresh {p : Part F} (h : Ok p) : ∀ op ∈ p.ops, op.fresh = ∅ := fun _ ho => by
  obtain ⟨x, hx, rfl⟩ := List.mem_map.mp ho
  exact (List.forall_iff_forall_mem.mp h x hx).2.1

-- A buffer that no operation of the stretch writes keeps its contents through it.
theorem Ok.keep {p : Part F} (h : Ok p) {r : Ref sig .tc} (hr : r ∉ p.W) (V : Valuation τ sig (Elt F)) :
    after p.ops V (no_index (dr r)) = V (dr r) :=
  after_of_forall_not_mem _ V fun _ ho hw => by
    obtain ⟨x, hx, rfl⟩ := List.mem_map.mp ho
    rw [(List.forall_iff_forall_mem.mp h x hx).2.2, Finset.mem_singleton] at hw
    exact hr (Proc.devRef_injective _ hw ▸ List.mem_map_of_mem hx)

noncomputable def pre : Part F :=
  [ (unary main_arg1 main_v0 (extractStridedSlice S1x320000 ![0, 0] · slices_S2x320000_S1x320000_0_0), main_v0),
    (reshape main_v0 main_v1 rfl shapeCasts_S1x320000_S320000, main_v1),
    (unary main_arg1 main_v2 (extractStridedSlice S1x320000 ![1, 0] · slices_S2x320000_S1x320000_1_0), main_v2),
    (reshape main_v2 main_v3 rfl shapeCasts_S1x320000_S320000, main_v3),
    (nullary main_cst (constant S_ .f32 0x3F800000#32), main_cst),
    (unary main_cst main_v4 (broadcastInDim S320000 ![] bcast_S_S320000), main_v4) ]
theorem pre_ok : Ok (pre (F := F)) := ⟨ok1 .., okr .., ok1 .., okr .., ok0 .., ok1 ..⟩

noncomputable def elu (x : TR S10000x128 .f32) (φ : fn_elu.Bufs) : Part F :=
  [ (TRef.nullary φ.cst (constant S_ .f32 0x00000000#32), φ.cst.ref),
    (TRef.unary φ.cst φ.v0 (broadcastInDim S10000x128 ![] bcast_S_S10000x128), φ.v0.ref),
    (TRef.binary x φ.v0 φ.v1 (cmpf .ogt), φ.v1.ref),
    (TRef.nullary φ.cst_0 (constant S_ .f32 0x00000000#32), φ.cst_0.ref),
    (TRef.unary φ.cst_0 φ.v2 (broadcastInDim S10000x128 ![] bcast_S_S10000x128), φ.v2.ref),
    (TRef.binary x φ.v2 φ.v3 (cmpf .ogt), φ.v3.ref),
    (TRef.nullary φ.cst_1 (constant S_ .f32 0x00000000#32), φ.cst_1.ref),
    (TRef.unary φ.cst_1 φ.call0.v0 id, φ.call0.v0.ref),
    (TRef.unary φ.call0.v0 φ.call0.v1 (broadcastInDim S10000x128 ![] bcast_S_S10000x128), φ.call0.v1.ref),
    (TRef.ternary φ.v3 φ.call0.v1 x φ.call0.v2 select, φ.call0.v2.ref),
    (TRef.unary φ.call0.v2 φ.v5 Host.expm1, φ.v5.ref),
    (TRef.nullary φ.cst_2 (constant S_ .f32 0x3F800000#32), φ.cst_2.ref),
    (TRef.unary φ.cst_2 φ.v6 (broadcastInDim S10000x128 ![] bcast_S_S10000x128), φ.v6.ref),
    (TRef.binary φ.v6 φ.v5 φ.v7 mulf, φ.v7.ref),
    (TRef.ternary φ.v1 x φ.v7 φ.call1.v0 select, φ.call1.v0.ref) ]
theorem elu_ok (x : TR S10000x128 .f32) (φ : fn_elu.Bufs) : Ok (elu (F := F) x φ) :=
  ⟨ok0 .., ok1 .., ok2 .., ok0 .., ok1 .., ok2 .., ok0 .., ok1 .., ok1 .., ok3 .., ok1 .., ok0 .., ok1 .., ok2 .., ok3 ..⟩

noncomputable abbrev src : TR S320000 .i32 := .of main_v1
noncomputable abbrev dst : TR S320000 .i32 := .of main_v3
noncomputable abbrev ones : TR S320000 .f32 := .of main_v4

-- A layer up to the weights along the rows: the product with the weight matrix, the wrapped sources as a column, the rows gathered there.
noncomputable def layerA (h mm : TR S10000x128 .f32) (W : TR S128x128 .f32) (c0 c1 : TR S_ .i32) (z t w ix : TR S320000 .i32)
    (lt : TR S320000 .i1) (ic : TR S320000x1 .i32) (g ow : TR S320000x128 .f32) (oc : TR S320000x1 .f32) : Part F :=
  [ (TRef.binary h W mm (fun l r => Host.dotGeneral dot_S10000x128_S128x128_S10000x128_1_0_0_1_n_n none l r), mm.ref),
    (TRef.nullary c0 (constantI S_ 32 0#32), c0.ref),
    (TRef.unary c0 z (broadcastInDim S320000 ![] bcast_S_S320000), z.ref),
    (TRef.binary src z lt (cmpi .slt), lt.ref),
    (TRef.nullary c1 (constantI S_ 32 10000#32), c1.ref),
    (TRef.unary c1 t (broadcastInDim S320000 ![] bcast_S_S320000), t.ref),
    (TRef.binary src t w addi, w.ref),
    (TRef.ternary lt w src ix select, ix.ref),
    (TRef.unary ix ic (broadcastInDim S320000x1 ![0] bcast_S320000_S320000x1_0), ic.ref),
    (TRef.binary mm ic g (fun x i => Host.gather gather_S10000x128_S320000x1_S320000x128_1_0_n_n_0_1_1128 x i), g.ref),
    (TRef.unary ones oc (broadcastInDim S320000x1 ![0] bcast_S320000_S320000x1_0), oc.ref),
    (TRef.unary oc ow (broadcastInDim S320000x128 ![0, 1] bcast_S320000x1_S320000x128_0_1), ow.ref) ]
theorem layerA_ok (h mm W c0 c1 z t w ix lt ic g ow oc) : Ok (layerA (F := F) h mm W c0 c1 z t w ix lt ic g ow oc) :=
  ⟨ok2 .., ok0 .., ok1 .., ok2 .., ok0 .., ok1 .., ok2 .., ok3 .., ok1 .., ok2 .., ok1 .., ok1 ..⟩

-- The rest of a layer before elu: the weighted rows summed at the destinations, plus the bias.
noncomputable def layerB (g ow gw : TR S320000x128 .f32) (b : TR S128 .f32) (cz : TR S_ .f32) (zz sc bb pr : TR S10000x128 .f32)
    (dc : TR S320000x1 .i32) (b1 : TR S1x128 .f32) : Part F :=
  [ (TRef.binary g ow gw mulf, gw.ref),
    (TRef.nullary cz (constant S_ .f32 0x00000000#32), cz.ref),
    (TRef.unary cz zz (broadcastInDim S10000x128 ![] bcast_S_S10000x128), zz.ref),
    (TRef.unary dst dc (broadcastInDim S320000x1 ![0] bcast_S320000_S320000x1_0), dc.ref),
    (TRef.ternary zz dc gw sc (fun x i u => Host.scatterAdd scatter_S10000x128_S320000x1_S320000x128_1_0_0_1 x i u), sc.ref),
    (TRef.unary b b1 (broadcastInDim S1x128 ![1] bcast_S128_S1x128_1), b1.ref),
    (TRef.unary b1 bb (broadcastInDim S10000x128 ![0, 1] bcast_S1x128_S10000x128_0_1), bb.ref),
    (TRef.binary sc bb pr addf, pr.ref) ]
theorem layerB_ok (g ow gw b cz zz sc bb pr dc b1) : Ok (layerB (F := F) g ow gw b cz zz sc bb pr dc b1) :=
  ⟨ok2 .., ok0 .., ok1 .., ok1 .., ok3 .., ok1 .., ok1 .., ok2 ..⟩

noncomputable def L1 : Part F :=
  layerA (.of main_arg0) (.of main_v5) (.of main_arg3) (.of main_c) (.of main_c_0) (.of main_v6) (.of main_v8) (.of main_v9) (.of main_v10) (.of main_v7) (.of main_v11) (.of main_v12) (.of main_v14) (.of main_v13)
    ++ (layerB (.of main_v12) (.of main_v14) (.of main_v15) (.of main_arg4) (.of main_cst_1) (.of main_v16) (.of main_v18) (.of main_v20) (.of main_v21) (.of main_v17) (.of main_v19)
    ++ elu (.of main_v21) main_call0)
noncomputable def L2 : Part F :=
  layerA (.of main_v22) (.of main_v23) (.of main_arg5) (.of main_c_2) (.of main_c_3) (.of main_v24) (.of main_v26) (.of main_v27) (.of main_v28) (.of main_v25) (.of main_v29) (.of main_v30) (.of main_v32) (.of main_v31)
    ++ (layerB (.of main_v30) (.of main_v32) (.of main_v33) (.of main_arg6) (.of main_cst_4) (.of main_v34) (.of main_v36) (.of main_v38) (.of main_v39) (.of main_v35) (.of main_v37)
    ++ elu (.of main_v39) main_call1)
noncomputable def L3a : Part F :=
  layerA (.of main_v40) (.of main_v41) (.of main_arg7) (.of main_c_5) (.of main_c_6) (.of main_v42) (.of main_v44) (.of main_v45) (.of main_v46) (.of main_v43) (.of main_v47) (.of main_v48) (.of main_v50) (.of main_v49)
noncomputable def L3b : Part F :=
  layerB (.of main_v48) (.of main_v50) (.of main_v51) (.of main_arg8) (.of main_cst_7) (.of main_v52) (.of main_v54) (.of main_v56) (.of main_v57) (.of main_v53) (.of main_v55)
    ++ elu (.of main_v57) main_call2
theorem L1_ok : Ok (L1 (F := F)) := (layerA_ok ..).cat ((layerB_ok ..).cat (elu_ok ..))
theorem L2_ok : Ok (L2 (F := F)) := (layerA_ok ..).cat ((layerB_ok ..).cat (elu_ok ..))
theorem L3a_ok : Ok (L3a (F := F)) := layerA_ok ..
theorem L3b_ok : Ok (L3b (F := F)) := (layerB_ok ..).cat (elu_ok ..)

-- The graph embedding: the per-graph sums of the rows over the per-graph counts.
noncomputable def Tg : Part F :=
  [ (nullary main_cst_8 (constant S_ .f32 0x3F800000#32), main_cst_8),
    (unary main_cst_8 main_v59 (broadcastInDim S10000 ![] bcast_S_S10000), main_v59),
    (nullary main_cst_9 (constant S_ .f32 0x00000000#32), main_cst_9),
    (unary main_cst_9 main_v60 (broadcastInDim S16 ![] bcast_S_S16), main_v60),
    (unary main_arg2 main_v61 (broadcastInDim S10000x1 ![0] bcast_S10000_S10000x1_0), main_v61),
    (ternary main_v60 main_v61 main_v59 main_v62 (fun x i u => Host.scatterAdd scatter_S16_S10000x1_S10000_n_0_0_1 x i u), main_v62),
    (nullary main_cst_10 (constant S_ .f32 0x00000000#32), main_cst_10),
    (unary main_cst_10 main_v63 (broadcastInDim S16x128 ![] bcast_S_S16x128), main_v63),
    (unary main_arg2 main_v64 (broadcastInDim S10000x1 ![0] bcast_S10000_S10000x1_0), main_v64),
    (ternary main_v63 main_v64 main_v58 main_v65 (fun x i u => Host.scatterAdd scatter_S16x128_S10000x1_S10000x128_1_0_0_1 x i u), main_v65),
    (nullary main_cst_11 (constant S_ .f32 0x3F800000#32), main_cst_11),
    (unary main_cst_11 main_v66 (broadcastInDim S16 ![] bcast_S_S16), main_v66),
    (binary main_v62 main_v66 main_v67 maximumf, main_v67),
    (unary main_v67 main_v68 (broadcastInDim S16x1 ![0] bcast_S16_S16x1_0), main_v68),
    (unary main_v68 main_v69 (broadcastInDim S16x128 ![0, 1] bcast_S16x1_S16x128_0_1), main_v69),
    (binary main_v65 main_v69 main_v70 Host.divf, main_v70) ]
theorem Tg_ok : Ok (Tg (F := F)) := ⟨ok0 .., ok1 .., ok0 .., ok1 .., ok1 .., ok3 .., ok0 .., ok1 .., ok1 .., ok3 .., ok0 .., ok1 .., ok2 .., ok1 .., ok1 .., ok2 ..⟩

-- The squared distances to the prototypes.
noncomputable def Td : Part F :=
  [ (unary main_arg9 main_v71 (transpose S128x10 [1, 0] · transposes_S10x128_S128x10_1_0), main_v71),
    (binary main_v70 main_v71 main_v72 (fun l r => Host.dotGeneral dot_S16x128_S128x10_S16x10_1_0_0_1_n_n none l r), main_v72),
    (nullary main_cst_12 (constant S_ .f32 0xC0000000#32), main_cst_12),
    (unary main_cst_12 main_v73 (broadcastInDim S16x10 ![] bcast_S_S16x10), main_v73),
    (binary main_v73 main_v72 main_v74 mulf, main_v74),
    (binary main_v70 main_v70 main_v75 mulf, main_v75),
    (nullary main_cst_13 (constant S_ .f32 0x00000000#32), main_cst_13),
    (binary main_v75 main_cst_13 main_v76 (fun x v => Host.reduceAdd x v reducesTo_S16x128_S16_d1 h_S_), main_v76),
    (unary main_v76 main_v77 (broadcastInDim S16x1 ![0] bcast_S16_S16x1_0), main_v77),
    (unary main_v77 main_v78 (broadcastInDim S16x10 ![0, 1] bcast_S16x1_S16x10_0_1), main_v78),
    (binary main_v74 main_v78 main_v79 addf, main_v79),
    (binary main_arg9 main_arg9 main_v80 mulf, main_v80),
    (nullary main_cst_14 (constant S_ .f32 0x00000000#32), main_cst_14),
    (binary main_v80 main_cst_14 main_v81 (fun x v => Host.reduceAdd x v reducesTo_S10x128_S10_d1 h_S_), main_v81),
    (unary main_v81 main_v82 (broadcastInDim S1x10 ![1] bcast_S10_S1x10_1), main_v82),
    (unary main_v82 main_v83 (broadcastInDim S16x10 ![0, 1] bcast_S1x10_S16x10_0_1), main_v83),
    (binary main_v79 main_v83 main_v84 addf, main_v84) ]
theorem Td_ok : Ok (Td (F := F)) := ⟨ok1 .., ok2 .., ok0 .., ok1 .., ok2 .., ok2 .., ok0 .., ok2 .., ok1 .., ok1 .., ok2 .., ok2 .., ok0 .., ok2 .., ok1 .., ok1 .., ok2 ..⟩

-- The logits.
noncomputable def Tl : Part F :=
  [ (nullary main_cst_15 (constant S_ .f32 0x3F800000#32), main_cst_15),
    (unary main_cst_15 main_v85 (broadcastInDim S16x10 ![] bcast_S_S16x10), main_v85),
    (binary main_v84 main_v85 main_v86 addf, main_v86),
    (nullary main_cst_16 (constant S_ .f32 0x38D1B717#32), main_cst_16),
    (unary main_cst_16 main_v87 (broadcastInDim S16x10 ![] bcast_S_S16x10), main_v87),
    (binary main_v84 main_v87 main_v88 addf, main_v88),
    (binary main_v86 main_v88 main_v89 Host.divf, main_v89),
    (unary main_v89 main_v90 Host.log, main_v90),
    (unary main_arg10 main_v91 (transpose S10x2 [1, 0] · transposes_S2x10_S10x2_1_0), main_v91),
    (binary main_v90 main_v91 main_v92 (fun l r => Host.dotGeneral dot_S16x10_S10x2_S16x2_1_0_0_1_n_n none l r), main_v92) ]
theorem Tl_ok : Ok (Tl (F := F)) := ⟨ok0 .., ok1 .., ok2 .., ok0 .., ok1 .., ok2 .., ok2 .., ok1 .., ok1 .., ok2 ..⟩

-- The logits less their row maximum.
noncomputable def Ts : Part F :=
  [ (nullary main_cst_17 (constant S_ .f32 0xFF800000#32), main_cst_17),
    (binary main_v92 main_cst_17 main_v93 (fun x v => Host.reduce FloatOps.maximumf x v reducesTo_S16x2_S16_d1 h_S_), main_v93),
    (nullary main_cst_18 (constant S_ .f32 0xFF800000#32), main_cst_18),
    (unary main_cst_18 main_v94 (broadcastInDim S16 ![] bcast_S_S16), main_v94),
    (binary main_v94 main_v93 main_v95 maximumf, main_v95),
    (unary main_v95 main_v96 (broadcastInDim S16x1 ![0] bcast_S16_S16x1_0), main_v96),
    (unary main_v96 main_v97 (broadcastInDim S16x2 ![0, 1] bcast_S16x1_S16x2_0_1), main_v97),
    (binary main_v92 main_v97 main_v98 subf, main_v98) ]
theorem Ts_ok : Ok (Ts (F := F)) := ⟨ok0 .., ok2 .., ok0 .., ok1 .., ok2 .., ok1 .., ok1 .., ok2 ..⟩

-- The exponentials, each over its row's sum.
noncomputable def T2 : Part F :=
  [ (unary main_v98 main_v99 Host.exp, main_v99),
    (nullary main_cst_19 (constant S_ .f32 0x00000000#32), main_cst_19),
    (binary main_v99 main_cst_19 main_v100 (fun x v => Host.reduceAdd x v reducesTo_S16x2_S16_d1 h_S_), main_v100),
    (unary main_v100 main_v101 (broadcastInDim S16x1 ![0] bcast_S16_S16x1_0), main_v101),
    (unary main_v101 main_v102 (broadcastInDim S16x2 ![0, 1] bcast_S16x1_S16x2_0_1), main_v102),
    (binary main_v99 main_v102 main_v103 Host.divf, main_v103) ]
theorem T2_ok : Ok (T2 (F := F)) := ⟨ok1 .., ok0 .., ok2 .., ok1 .., ok1 .., ok2 ..⟩

noncomputable def P0 : Part F := pre ++ (L1 ++ (L2 ++ L3a))
noncomputable def P1 : Part F := L3b ++ (Tg ++ (Td ++ (Tl ++ Ts)))
noncomputable def all : Part F := P0 ++ (P1 ++ T2)
theorem all_ok : Ok (all (F := F)) :=
  (pre_ok.cat (L1_ok.cat (L2_ok.cat L3a_ok))).cat ((L3b_ok.cat (Tg_ok.cat (Td_ok.cat (Tl_ok.cat Ts_ok)))).cat T2_ok)

end Cert.ReferenceIdeal.Hand

end
-- ==== Proof.RefRun.lean ====
import proofs.«207978_g39513699123711_cont_8to1_b_1293_21_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def splat (s : Shape) (h : S_.BroadcastsInDim s (![] : Fin 0 → Fin s.rank)) (b : BitVec 32) : Vec F s .f32 :=
  broadcastInDim s ![] h (constant (F := F) S_ .f32 b)

noncomputable def refSrc (ei : Vec F S2x320000 .i32) : Vec F S320000 .i32 :=
  shapeCast S320000 (extractStridedSlice S1x320000 ![0, 0] ei slices_S2x320000_S1x320000_0_0) shapeCasts_S1x320000_S320000

noncomputable def refDst (ei : Vec F S2x320000 .i32) : Vec F S320000 .i32 :=
  shapeCast S320000 (extractStridedSlice S1x320000 ![1, 0] ei slices_S2x320000_S1x320000_1_0) shapeCasts_S1x320000_S320000

noncomputable def refOnes : Vec F S320000 .f32 :=
  splat S320000 bcast_S_S320000 0x3F800000#32

noncomputable def refIdx (src : Vec F S320000 .i32) : Vec F S320000x1 .i32 :=
  broadcastInDim S320000x1 ![0] bcast_S320000_S320000x1_0
    (select (cmpi .slt src (broadcastInDim S320000 ![] bcast_S_S320000 (constantI S_ 32 0#32)))
      (addi src (broadcastInDim S320000 ![] bcast_S_S320000 (constantI S_ 32 10000#32))) src)

noncomputable def weightsOf (ones : Vec F S320000 .f32) : Vec F S320000x128 .f32 :=
  broadcastInDim S320000x128 ![0, 1] bcast_S320000x1_S320000x128_0_1
    (broadcastInDim S320000x1 ![0] bcast_S320000_S320000x1_0 ones)

noncomputable def refOnesW : Vec F S320000x128 .f32 := weightsOf refOnes

noncomputable def refElu (x : Vec F S10000x128 .f32) : Vec F S10000x128 .f32 :=
  select (cmpf .ogt x (splat S10000x128 bcast_S_S10000x128 0x00000000#32))
    x
    (mulf (splat S10000x128 bcast_S_S10000x128 0x3F800000#32)
      (Host.expm1
        (select (cmpf .ogt x (splat S10000x128 bcast_S_S10000x128 0x00000000#32))
          (broadcastInDim S10000x128 ![] bcast_S_S10000x128 (id (constant (F := F) S_ .f32 0x00000000#32)))
          x)))

noncomputable def refLayerOn (ones : Vec F S320000 .f32) (h : Vec F S10000x128 .f32) (W : Vec F S128x128 .f32) (b : Vec F S128 .f32)
    (src dst : Vec F S320000 .i32) : Vec F S10000x128 .f32 :=
  refElu
    (addf
      (Host.scatterAdd scatter_S10000x128_S320000x1_S320000x128_1_0_0_1
        (splat S10000x128 bcast_S_S10000x128 0x00000000#32)
        (broadcastInDim S320000x1 ![0] bcast_S320000_S320000x1_0 dst)
        (mulf
          (Host.gather gather_S10000x128_S320000x1_S320000x128_1_0_n_n_0_1_1128
            (Host.dotGeneral dot_S10000x128_S128x128_S10000x128_1_0_0_1_n_n none h W) (refIdx src))
          (weightsOf ones)))
      (broadcastInDim S10000x128 ![0, 1] bcast_S1x128_S10000x128_0_1 (broadcastInDim S1x128 ![1] bcast_S128_S1x128_1 b)))

noncomputable def refLayer (h : Vec F S10000x128 .f32) (W : Vec F S128x128 .f32) (b : Vec F S128 .f32)
    (src dst : Vec F S320000 .i32) : Vec F S10000x128 .f32 :=
  refLayerOn refOnes h W b src dst

noncomputable def refH3 (x : Vec F S10000x128 .f32) (ei : Vec F S2x320000 .i32) (W1 : Vec F S128x128 .f32) (b1 : Vec F S128 .f32)
    (W2 : Vec F S128x128 .f32) (b2 : Vec F S128 .f32) (W3 : Vec F S128x128 .f32) (b3 : Vec F S128 .f32) : Vec F S10000x128 .f32 :=
  refLayer (refLayer (refLayer x W1 b1 (refSrc ei) (refDst ei)) W2 b2 (refSrc ei) (refDst ei)) W3 b3 (refSrc ei) (refDst ei)

noncomputable def refGraph (h : Vec F S10000x128 .f32) (batch : Vec F S10000 .i32) : Vec F S16x128 .f32 :=
  Host.divf
    (Host.scatterAdd scatter_S16x128_S10000x1_S10000x128_1_0_0_1
      (splat S16x128 bcast_S_S16x128 0x00000000#32)
      (broadcastInDim S10000x1 ![0] bcast_S10000_S10000x1_0 batch) h)
    (broadcastInDim S16x128 ![0, 1] bcast_S16x1_S16x128_0_1
      (broadcastInDim S16x1 ![0] bcast_S16_S16x1_0
        (maximumf
          (Host.scatterAdd scatter_S16_S10000x1_S10000_n_0_0_1
            (splat S16 bcast_S_S16 0x00000000#32)
            (broadcastInDim S10000x1 ![0] bcast_S10000_S10000x1_0 batch)
            (splat S10000 bcast_S_S10000 0x3F800000#32))
          (splat S16 bcast_S_S16 0x3F800000#32))))

noncomputable def refDist (ge : Vec F S16x128 .f32) (P : Vec F S10x128 .f32) : Vec F S16x10 .f32 :=
  addf
    (addf
      (mulf (splat S16x10 bcast_S_S16x10 0xC0000000#32)
        (Host.dotGeneral dot_S16x128_S128x10_S16x10_1_0_0_1_n_n none ge
          (transpose S128x10 [1, 0] P transposes_S10x128_S128x10_1_0)))
      (broadcastInDim S16x10 ![0, 1] bcast_S16x1_S16x10_0_1
        (broadcastInDim S16x1 ![0] bcast_S16_S16x1_0
          (Host.reduceAdd (mulf ge ge) (constant (F := F) S_ .f32 0x00000000#32) reducesTo_S16x128_S16_d1 h_S_))))
    (broadcastInDim S16x10 ![0, 1] bcast_S1x10_S16x10_0_1
      (broadcastInDim S1x10 ![1] bcast_S10_S1x10_1
        (Host.reduceAdd (mulf P P) (constant (F := F) S_ .f32 0x00000000#32) reducesTo_S10x128_S10_d1 h_S_)))

noncomputable def refLogits (d : Vec F S16x10 .f32) (lw : Vec F S2x10 .f32) : Vec F S16x2 .f32 :=
  Host.dotGeneral dot_S16x10_S10x2_S16x2_1_0_0_1_n_n none
    (Host.log
      (Host.divf
        (addf d (splat S16x10 bcast_S_S16x10 0x3F800000#32))
        (addf d (splat S16x10 bcast_S_S16x10 0x38D1B717#32))))
    (transpose S10x2 [1, 0] lw transposes_S2x10_S10x2_1_0)

noncomputable def refShift (l : Vec F S16x2 .f32) : Vec F S16x2 .f32 :=
  subf l
    (broadcastInDim S16x2 ![0, 1] bcast_S16x1_S16x2_0_1
      (broadcastInDim S16x1 ![0] bcast_S16_S16x1_0
        (maximumf (splat S16 bcast_S_S16 0xFF800000#32)
          (Host.reduce FloatOps.maximumf l (constant (F := F) S_ .f32 0xFF800000#32) reducesTo_S16x2_S16_d1 h_S_))))

noncomputable def refNorm (s : Vec F S16x2 .f32) : Vec F S16x2 .f32 :=
  Host.divf (Host.exp s)
    (broadcastInDim S16x2 ![0, 1] bcast_S16x1_S16x2_0_1
      (broadcastInDim S16x1 ![0] bcast_S16_S16x1_0
        (Host.reduceAdd (Host.exp s) (constant (F := F) S_ .f32 0x00000000#32) reducesTo_S16x2_S16_d1 h_S_)))

noncomputable def refProbs (l : Vec F S16x2 .f32) : Vec F S16x2 .f32 := refNorm (refShift l)

theorem ops_cat (p q : Part F) : (p ++ q).ops = p.ops ++ q.ops := List.map_append

theorem main_part0_eq (c : Dev nD) : main_part0 (F := F) c = seq (P0 (F := F)).ops := rfl
theorem main_part1_eq (c : Dev nD) : main_part1 (F := F) c = seq (P1 (F := F)).ops := rfl
theorem main_part2_eq (c : Dev nD) : main_part2 (F := F) c = seq (T2 (F := F)).ops := rfl

theorem main_eq (c : Dev nD) : main (F := F) c = seq (all (F := F)).ops := by
  rw [all, ops_cat, ops_cat, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

-- The contents after two lines run in order: the second's fold over the first's.
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]
theorem after_cat (p q : Part F) (V : Valuation τ sig (Elt F)) : after (p ++ q).ops V = after q.ops (after p.ops V) := by
  rw [ops_cat, after_app]

variable (V : Valuation τ sig (Elt F))

theorem pre_src : after pre.ops V (no_index (dr main_v1)) = refSrc (V (dr main_arg1)) := by
  simp only [pre, Part.ops, List.map]; after_results_simp; rfl
theorem pre_dst : after pre.ops V (no_index (dr main_v3)) = refDst (V (dr main_arg1)) := by
  simp only [pre, Part.ops, List.map]; after_results_simp; rfl
theorem pre_ones : after pre.ops V (no_index (dr main_v4)) = refOnes := by
  simp only [pre, Part.ops, List.map]; after_results_simp; rfl

theorem L1_out : after L1.ops V (no_index (dr main_v22))
    = refLayerOn (V (dr main_v4)) (V (dr main_arg0)) (V (dr main_arg3)) (V (dr main_arg4)) (V (dr main_v1)) (V (dr main_v3)) := by
  simp only [L1, layerA, layerB, elu, Part.ops, List.map, List.cons_append, List.nil_append]; after_results_simp; rfl
theorem L2_out : after L2.ops V (no_index (dr main_v40))
    = refLayerOn (V (dr main_v4)) (V (dr main_v22)) (V (dr main_arg5)) (V (dr main_arg6)) (V (dr main_v1)) (V (dr main_v3)) := by
  simp only [L2, layerA, layerB, elu, Part.ops, List.map, List.cons_append, List.nil_append]; after_results_simp; rfl
theorem L3_out : after L3b.ops (after L3a.ops V) (no_index (dr main_v58))
    = refLayerOn (V (dr main_v4)) (V (dr main_v40)) (V (dr main_arg7)) (V (dr main_arg8)) (V (dr main_v1)) (V (dr main_v3)) := by
  rw [← after_cat]
  simp only [L3a, L3b, layerA, layerB, elu, Part.ops, List.map, List.cons_append, List.nil_append]; after_results_simp; rfl

theorem Tg_out : after Tg.ops V (no_index (dr main_v70)) = refGraph (V (dr main_v58)) (V (dr main_arg2)) := by
  simp only [Tg, Part.ops, List.map]; after_results_simp; rfl
theorem Td_out : after Td.ops V (no_index (dr main_v84)) = refDist (V (dr main_v70)) (V (dr main_arg9)) := by
  simp only [Td, Part.ops, List.map]; after_results_simp; rfl
theorem Tl_out : after Tl.ops V (no_index (dr main_v92)) = refLogits (V (dr main_v84)) (V (dr main_arg10)) := by
  simp only [Tl, Part.ops, List.map]; after_results_simp; rfl
theorem Ts_out : after Ts.ops V (no_index (dr main_v98)) = refShift (V (dr main_v92)) := by
  simp only [Ts, Part.ops, List.map]; after_results_simp; rfl
theorem T2_out : after T2.ops V (no_index (dr main_v103)) = refNorm (V (dr main_v98)) := by
  simp only [T2, Part.ops, List.map]; after_results_simp; rfl

-- The five results, as functions of the launch contents.
noncomputable def h3Of : Vec F S10000x128 .f32 :=
  refH3 (V (dr main_arg0)) (V (dr main_arg1)) (V (dr main_arg3)) (V (dr main_arg4)) (V (dr main_arg5)) (V (dr main_arg6)) (V (dr main_arg7)) (V (dr main_arg8))
noncomputable def distOf : Vec F S16x10 .f32 := refDist (refGraph (h3Of V) (V (dr main_arg2))) (V (dr main_arg9))
noncomputable def logitsOf : Vec F S16x2 .f32 := refLogits (distOf V) (V (dr main_arg10))

theorem results : after all.ops V (dr main_v92) = logitsOf V ∧ after all.ops V (dr main_v103) = refProbs (logitsOf V)
    ∧ after all.ops V (dr main_v58) = h3Of V ∧ after all.ops V (dr main_v70) = refGraph (h3Of V) (V (dr main_arg2))
    ∧ after all.ops V (dr main_v84) = distOf V := by
  simp (disch := exact of_decide_eq_true rfl) only [all, P0, P1, after_cat, T2_out, Ts_out, Tl_out, Td_out, Tg_out, L3_out, L2_out, L1_out,
    pre_src, pre_dst, pre_ones, T2_ok.keep, Ts_ok.keep, Tl_ok.keep, Td_ok.keep, Tg_ok.keep, L3b_ok.keep, L3a_ok.keep, L2_ok.keep,
    L1_ok.keep, pre_ok.keep]
  exact ⟨rfl, rfl, rfl, rfl, rfl⟩

theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v92) = refLogits (refDist (refGraph (refH3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg2))) (m ((c.tc : Thread nD τ).loc main_arg9))) (m ((c.tc : Thread nD τ).loc main_arg10))
      ∧ r.2.mem ((c.tc : Thread nD τ).loc main_v103) = refProbs (refLogits (refDist (refGraph (refH3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg2))) (m ((c.tc : Thread nD τ).loc main_arg9))) (m ((c.tc : Thread nD τ).loc main_arg10)))
      ∧ r.2.mem ((c.tc : Thread nD τ).loc main_v58) = refH3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v70) = refGraph (refH3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg2))
      ∧ r.2.mem ((c.tc : Thread nD τ).loc main_v84) = refDist (refGraph (refH3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg2))) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun x h c =>
    have k (r : Ref sig .tc) (hr : r ∉ (all (F := F)).W) : x.2.mem ((c.tc : Thread nD τ).loc r) = m ((c.tc : Thread nD τ).loc r) :=
      (h c r).trans (all_ok.keep hr _)
    have R := results (launchContents m c)
    ⟨(h c main_v92).trans R.1, (h c main_v103).trans R.2.1, (h c main_v58).trans R.2.2.1, (h c main_v70).trans R.2.2.2.1,
      (h c main_v84).trans R.2.2.2.2,
      k _ (of_decide_eq_true rfl), k _ (of_decide_eq_true rfl), k _ (of_decide_eq_true rfl), k _ (of_decide_eq_true rfl), k _ (of_decide_eq_true rfl), k _ (of_decide_eq_true rfl),
      k _ (of_decide_eq_true rfl), k _ (of_decide_eq_true rfl), k _ (of_decide_eq_true rfl), k _ (of_decide_eq_true rfl), k _ (of_decide_eq_true rfl)⟩)
    (run_seq scopedRefs_eq scopedSems_eq defs main (fun _ => all.ops) main_eq (fun _ => all_ok.sub) m g (fun _ => all_ok.fresh))

theorem frame (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => (h c).2.2.2.2.2) (run m g)

end Cert.ReferenceIdeal.Hand

end
-- ==== Proof.Common.lean ====
import proofs.«207978_g39513699123711_cont_8to1_b_1293_21_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«207978_g39513699123711_cont_8to1_b_1293_21_alg».proof.Proof.Gen.KernelIdeal
import proofs.«207978_g39513699123711_cont_8to1_b_1293_21_alg».proof.Proof.Gen.KernelIdeal.Skeleton
import proofs.«207978_g39513699123711_cont_8to1_b_1293_21_alg».proof.Proof.Gen.KernelIdeal.Launch
import proofs.«207978_g39513699123711_cont_8to1_b_1293_21_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

noncomputable abbrev ΛP : Labels := Pipeline.Sig Λ₀ (Fin 3) fun p => (pcfgs (F := F) p).Adm
noncomputable abbrev K : SparseCore.Cfg τ sig (ΛP (F := F)) 3 := sc (F := F)
noncomputable abbrev D [FloatOps F] : Defs nD τ sig (Elt F) (ΛP (F := F)) := Pipeline.defs pcfgs defs₀
noncomputable abbrev 𝒱₀ : Variants := Variants.none
noncomputable abbrev 𝒱 : Variants := 𝒱₀.lift
noncomputable abbrev v₀ : 𝒱.V := Sum.inl none

theorem nCore_eq (q : Fin 3) : (K (F := F)).nCore q = 2 := by fin_cases q <;> rfl
theorem nSub_eq (q : Fin 3) : (K (F := F)).nSub q = 16 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

noncomputable abbrev UH : Type := URounds (GSem nD τ sig) ℕ
noncomputable abbrev UP : Type := URounds (GSem nD τ sig) Unit
noncomputable abbrev UU : Type := UH × (UP × Counters)

noncomputable abbrev MM (F : FTy → Type) : Type := MT nD τ sig (HIx 3) (Elt F) ℕ UU ℕ

noncomputable abbrev EH : Emb UH (MM F) := embL
noncomputable def EP : Emb UP (MM F) :=
  ((Emb.inl : Emb UP (UP × Counters)).trans (Emb.inr : Emb (UP × Counters) UU)).trans
    (uEmb (nD := nD) (sig := sig) (Ix := HIx 3) (Val := Elt F) (Name := ℕ) (U := UU) (Lvl := ℕ)).toEmb

instance EP_landsIn : (EP : Emb UP (MM F)).LandsIn (upEmb : UEmb _ (MM F)) := by unfold EP; infer_instance

end Cert.KernelIdeal.Hand

end
-- ==== Proof.MainOps.lean ====
import proofs.«207978_g39513699123711_cont_8to1_b_1293_21_alg».proof.Proof.Common

noncomputable section

namespace Cert.KernelIdeal.Hand

open Cert.KernelIdeal Cert.KernelIdeal.Gen
open Idealize.ShloMosaic Idealize.ShloMosaic.StableHlo Idealize.SL.Sem

variable {F : FTy → Type} [FloatOps F]

-- The edge list's two rows as flat index lists, the sources padded with zeros.
noncomputable abbrev opsA : List (HloOp τ sig (Elt F)) :=
  [ StableHlo.unary main_arg1 main_v0 (extractStridedSlice S1x320000 ![0, 0] · slices_S2x320000_S1x320000_0_0),
    StableHlo.reshape main_v0 main_v1 rfl shapeCasts_S1x320000_S320000,
    StableHlo.unary main_arg1 main_v2 (extractStridedSlice S1x320000 ![1, 0] · slices_S2x320000_S1x320000_1_0),
    StableHlo.reshape main_v2 main_v3 rfl shapeCasts_S1x320000_S320000,
    StableHlo.nullary main_c (constantI S_ 32 0#32),
    StableHlo.unary main_c main_v4 (broadcastInDim S128 ![] bcast_S_S128),
    StableHlo.binary main_v1 main_v4 main_v5 (fun a b => concatenate S320128 0 [⟨S320000, a⟩, ⟨S128, b⟩] concatenates_S320000_S128_S320128_d0) ]

-- One layer's host part: the gathered rows `g` summed at their destination rows, plus the bias `b`, through the exponential linear unit; then `rest`.
noncomputable abbrev layerOps (cst : TRef sig ⟨S_, .f32⟩) (z : TRef sig ⟨S10000x128, .f32⟩) (ix : TRef sig ⟨S320000x1, .i32⟩)
    (g : TRef sig ⟨S320000x128, .f32⟩) (s : TRef sig ⟨S10000x128, .f32⟩) (b : TRef sig ⟨S128, .f32⟩) (b1 : TRef sig ⟨S1x128, .f32⟩)
    (b2 y : TRef sig ⟨S10000x128, .f32⟩) (φ : fn_elu.Bufs) (rest : List (HloOp τ sig (Elt F))) : List (HloOp τ sig (Elt F)) :=
  TRef.nullary cst (constant S_ .f32 0x00000000#32) ::
  TRef.unary cst z (broadcastInDim S10000x128 ![] bcast_S_S10000x128) ::
  TRef.unary (.of main_v3 : TRef sig ⟨S320000, .i32⟩) ix (broadcastInDim S320000x1 ![0] bcast_S320000_S320000x1_0) ::
  TRef.ternary z ix g s (fun x i u => Host.scatterAdd scatter_S10000x128_S320000x1_S320000x128_1_0_0_1 x i u) ::
  TRef.unary b b1 (broadcastInDim S1x128 ![1] bcast_S128_S1x128_1) ::
  TRef.unary b1 b2 (broadcastInDim S10000x128 ![0, 1] bcast_S1x128_S10000x128_0_1) ::
  TRef.binary s b2 y addf ::
  TRef.nullary φ.cst (constant S_ .f32 0x00000000#32) ::
  TRef.unary φ.cst φ.v0 (broadcastInDim S10000x128 ![] bcast_S_S10000x128) ::
  TRef.binary y φ.v0 φ.v1 (cmpf .ogt) ::
  TRef.nullary φ.cst_0 (constant S_ .f32 0x00000000#32) ::
  TRef.unary φ.cst_0 φ.v2 (broadcastInDim S10000x128 ![] bcast_S_S10000x128) ::
  TRef.binary y φ.v2 φ.v3 (cmpf .ogt) ::
  TRef.nullary φ.cst_1 (constant S_ .f32 0x00000000#32) ::
  TRef.unary φ.cst_1 φ.call0.v0 id ::
  TRef.unary φ.call0.v0 φ.call0.v1 (broadcastInDim S10000x128 ![] bcast_S_S10000x128) ::
  TRef.ternary φ.v3 φ.call0.v1 y φ.call0.v2 select ::
  TRef.unary φ.call0.v2 φ.v5 Host.expm1 ::
  TRef.nullary φ.cst_2 (constant S_ .f32 0x3F800000#32) ::
  TRef.unary φ.cst_2 φ.v6 (broadcastInDim S10000x128 ![] bcast_S_S10000x128) ::
  TRef.binary φ.v6 φ.v5 φ.v7 mulf ::
  TRef.ternary φ.v1 y φ.v7 φ.call1.v0 select :: rest

noncomputable abbrev opsB : List (HloOp τ sig (Elt F)) :=
  layerOps (.of main_cst) (.of main_v8) (.of main_v9) (.of main_v7) (.of main_v10) (.of main_arg4) (.of main_v11) (.of main_v12) (.of main_v13) main_call0 []

noncomputable abbrev opsC : List (HloOp τ sig (Elt F)) :=
  layerOps (.of main_cst_0) (.of main_v17) (.of main_v18) (.of main_v16) (.of main_v19) (.of main_arg6) (.of main_v20) (.of main_v21) (.of main_v22) main_call1 []

-- The readout: each graph's mean row, its squared distances to the ten centres, log ((d + 1) / (d + 1e-4)) mapped linearly to two scores, their softmax.
noncomputable abbrev readout : List (HloOp τ sig (Elt F)) :=
  [ StableHlo.nullary main_cst_2 (constant S_ .f32 0x3F800000#32),
    StableHlo.unary main_cst_2 main_v33 (broadcastInDim S10000 ![] bcast_S_S10000),
    StableHlo.nullary main_cst_3 (constant S_ .f32 0x00000000#32),
    StableHlo.unary main_cst_3 main_v34 (broadcastInDim S16 ![] bcast_S_S16),
    StableHlo.unary main_arg2 main_v35 (broadcastInDim S10000x1 ![0] bcast_S10000_S10000x1_0),
    StableHlo.ternary main_v34 main_v35 main_v33 main_v36 (fun x i u => Host.scatterAdd scatter_S16_S10000x1_S10000_n_0_0_1 x i u),
    StableHlo.nullary main_cst_4 (constant S_ .f32 0x00000000#32),
    StableHlo.unary main_cst_4 main_v37 (broadcastInDim S16x128 ![] bcast_S_S16x128),
    StableHlo.unary main_arg2 main_v38 (broadcastInDim S10000x1 ![0] bcast_S10000_S10000x1_0),
    StableHlo.ternary main_v37 main_v38 main_v32 main_v39 (fun x i u => Host.scatterAdd scatter_S16x128_S10000x1_S10000x128_1_0_0_1 x i u),
    StableHlo.nullary main_cst_5 (constant S_ .f32 0x3F800000#32),
    StableHlo.unary main_cst_5 main_v40 (broadcastInDim S16 ![] bcast_S_S16),
    StableHlo.binary main_v36 main_v40 main_v41 maximumf,
    StableHlo.unary main_v41 main_v42 (broadcastInDim S16x1 ![0] bcast_S16_S16x1_0),
    StableHlo.unary main_v42 main_v43 (broadcastInDim S16x128 ![0, 1] bcast_S16x1_S16x128_0_1),
    StableHlo.binary main_v39 main_v43 main_v44 Host.divf,
    StableHlo.unary main_arg9 main_v45 (transpose S128x10 [1, 0] · transposes_S10x128_S128x10_1_0),
    StableHlo.binary main_v44 main_v45 main_v46 (fun l r => Host.dotGeneral dot_S16x128_S128x10_S16x10_1_0_0_1_n_n none l r),
    StableHlo.nullary main_cst_6 (constant S_ .f32 0xC0000000#32),
    StableHlo.unary main_cst_6 main_v47 (broadcastInDim S16x10 ![] bcast_S_S16x10),
    StableHlo.binary main_v47 main_v46 main_v48 mulf,
    StableHlo.binary main_v44 main_v44 main_v49 mulf,
    StableHlo.nullary main_cst_7 (constant S_ .f32 0x00000000#32),
    StableHlo.binary main_v49 main_cst_7 main_v50 (fun x v => Host.reduceAdd x v reducesTo_S16x128_S16_d1 h_S_),
    StableHlo.unary main_v50 main_v51 (broadcastInDim S16x1 ![0] bcast_S16_S16x1_0),
    StableHlo.unary main_v51 main_v52 (broadcastInDim S16x10 ![0, 1] bcast_S16x1_S16x10_0_1),
    StableHlo.binary main_v48 main_v52 main_v53 addf,
    StableHlo.binary main_arg9 main_arg9 main_v54 mulf,
    StableHlo.nullary main_cst_8 (constant S_ .f32 0x00000000#32),
    StableHlo.binary main_v54 main_cst_8 main_v55 (fun x v => Host.reduceAdd x v reducesTo_S10x128_S10_d1 h_S_),
    StableHlo.unary main_v55 main_v56 (broadcastInDim S1x10 ![1] bcast_S10_S1x10_1),
    StableHlo.unary main_v56 main_v57 (broadcastInDim S16x10 ![0, 1] bcast_S1x10_S16x10_0_1),
    StableHlo.binary main_v53 main_v57 main_v58 addf,
    StableHlo.nullary main_cst_9 (constant S_ .f32 0x3F800000#32),
    StableHlo.unary main_cst_9 main_v59 (broadcastInDim S16x10 ![] bcast_S_S16x10),
    StableHlo.binary main_v58 main_v59 main_v60 addf,
    StableHlo.nullary main_cst_10 (constant S_ .f32 0x38D1B717#32),
    StableHlo.unary main_cst_10 main_v61 (broadcastInDim S16x10 ![] bcast_S_S16x10),
    StableHlo.binary main_v58 main_v61 main_v62 addf,
    StableHlo.binary main_v60 main_v62 main_v63 Host.divf,
    StableHlo.unary main_v63 main_v64 Host.log,
    StableHlo.unary main_arg10 main_v65 (transpose S10x2 [1, 0] · transposes_S2x10_S10x2_1_0),
    StableHlo.binary main_v64 main_v65 main_v66 (fun l r => Host.dotGeneral dot_S16x10_S10x2_S16x2_1_0_0_1_n_n none l r),
    StableHlo.nullary main_cst_11 (constant S_ .f32 0xFF800000#32),
    StableHlo.binary main_v66 main_cst_11 main_v67 (fun x v => Host.reduce FloatOps.maximumf x v reducesTo_S16x2_S16_d1 h_S_),
    StableHlo.nullary main_cst_12 (constant S_ .f32 0xFF800000#32),
    StableHlo.unary main_cst_12 main_v68 (broadcastInDim S16 ![] bcast_S_S16),
    StableHlo.binary main_v68 main_v67 main_v69 maximumf,
    StableHlo.unary main_v69 main_v70 (broadcastInDim S16x1 ![0] bcast_S16_S16x1_0),
    StableHlo.unary main_v70 main_v71 (broadcastInDim S16x2 ![0, 1] bcast_S16x1_S16x2_0_1),
    StableHlo.binary main_v66 main_v71 main_v72 subf,
    StableHlo.unary main_v72 main_v73 Host.exp,
    StableHlo.nullary main_cst_13 (constant S_ .f32 0x00000000#32),
    StableHlo.binary main_v73 main_cst_13 main_v74 (fun x v => Host.reduceAdd x v reducesTo_S16x2_S16_d1 h_S_),
    StableHlo.unary main_v74 main_v75 (broadcastInDim S16x1 ![0] bcast_S16_S16x1_0),
    StableHlo.unary main_v75 main_v76 (broadcastInDim S16x2 ![0, 1] bcast_S16x1_S16x2_0_1),
    StableHlo.binary main_v73 main_v76 main_v77 Host.divf ]

noncomputable abbrev opsD : List (HloOp τ sig (Elt F)) :=
  layerOps (.of main_cst_1) (.of main_v26) (.of main_v27) (.of main_v25) (.of main_v28) (.of main_arg8) (.of main_v29) (.of main_v30) (.of main_v31) main_call2 readout

noncomputable abbrev mainSeq (d : Dev nD) : Prog (TpuEff nD τ sig (Elt F) (SparseCore.Sig (Pipeline.Sig Λ₀ (Fin 3) fun p => (pcfgs (F := F) p).Adm) 3) .tc) PUnit :=
  seq opsA >>= fun _ => Prog.lift (.customCall (SparseCore.inner (Pipeline.entry 0)) ()) >>= fun _ => (sc (F := F)).run d 0 >>= fun _ =>
  seq opsB >>= fun _ => Prog.lift (.customCall (SparseCore.inner (Pipeline.entry 1)) ()) >>= fun _ => (sc (F := F)).run d 1 >>= fun _ =>
  seq opsC >>= fun _ => Prog.lift (.customCall (SparseCore.inner (Pipeline.entry 2)) ()) >>= fun _ => (sc (F := F)).run d 2 >>= fun _ =>
  seq opsD

end Cert.KernelIdeal.Hand

end
-- ==== Proof.ValDefs.lean ====
import Idealize.ShloMosaic.Lib.ValueIdx
import proofs.«207978_g39513699123711_cont_8to1_b_1293_21_alg».proof.Proof.Gen.KernelIdeal.Skeleton

noncomputable section

namespace Cert.KernelIdeal.Hand

open Cert.KernelIdeal Cert.KernelIdeal.Gen
open Idealize.ShloMosaic Idealize.ShloMosaic.ValueIdx

variable {F : FTy → Type} [FloatOps F]

noncomputable def rowBlock (x : Vec F S10000x128 .f32) (t : Fin 10) : Vec F S1000x128 .f32 :=
  fun y => x (ix2 (n0 := 10000) (n1 := 128) ⟨1000 * t.val + (y 0).val, by have := idx2_lt0 y; have := t.isLt; omega⟩ ⟨(y 1).val, idx2_lt1 y⟩)

noncomputable def mmVal (x : Vec F S10000x128 .f32) (w : Vec F S128x128 .f32) : Vec F S10000x128 .f32 :=
  fun i => k0_pay1 (rowBlock x ⟨(i 0).val / 1000, by have := idx2_lt0 i; omega⟩) w
    (ix2 (n0 := 1000) (n1 := 128) ⟨(i 0).val % 1000, Nat.mod_lt _ (by decide)⟩ ⟨(i 1).val, idx2_lt1 i⟩)

noncomputable def gatherRows (tab : Vec F S10000x128 .f32) (idx : Vec F S320128 .i32) : Vec F S320000x128 .f32 :=
  fun i => tab (ix2 (n0 := 10000) (n1 := 128)
    ⟨(idx (ix1 (n := 320128) ⟨(i 0).val, by have := idx2_lt0 i; omega⟩)).toNat % 10000, Nat.mod_lt _ (by decide)⟩ ⟨(i 1).val, idx2_lt1 i⟩)

end Cert.KernelIdeal.Hand

end
-- ==== Proof.Vals.lean ====
import proofs.«207978_g39513699123711_cont_8to1_b_1293_21_alg».proof.Proof.MainOps
import proofs.«207978_g39513699123711_cont_8to1_b_1293_21_alg».proof.Proof.ValDefs

noncomputable section

namespace Cert.KernelIdeal.Hand

open Cert.KernelIdeal Cert.KernelIdeal.Gen
open Idealize.ShloMosaic Idealize.ShloMosaic.StableHlo Idealize.SL.Sem

variable {F : FTy → Type} [FloatOps F]
variable (m : (ℓ : Loc nD τ sig) → Buf (Elt F) ℓ)

abbrev dr (b : Ref sig .tc) : DevRef τ sig := Proc.devRef .tc b

/-- What array `r` of device `d` holds at the start. -/
noncomputable abbrev arg (d : Dev nD) (r : Ref sig .tc) := m ((SparseCore.T d).loc r)

noncomputable def V0 (d : Dev nD) : Valuation τ sig (Elt F) := launchContents m d
noncomputable def V1 (d : Dev nD) : Valuation τ sig (Elt F) := after opsA (V0 m d)
noncomputable def V2 (d : Dev nD) : Valuation τ sig (Elt F) := Function.update (V1 m d) (dr main_v6) (mmVal (V1 m d (dr main_arg0)) (V1 m d (dr main_arg3)))
noncomputable def V3 (d : Dev nD) : Valuation τ sig (Elt F) := Function.update (V2 m d) (dr main_v7) (gatherRows (V2 m d (dr main_v6)) (V2 m d (dr main_v5)))
noncomputable def V4 (d : Dev nD) : Valuation τ sig (Elt F) := after opsB (V3 m d)
noncomputable def V5 (d : Dev nD) : Valuation τ sig (Elt F) := Function.update (V4 m d) (dr main_v15) (mmVal (V4 m d (dr main_v14)) (V4 m d (dr main_arg5)))
noncomputable def V6 (d : Dev nD) : Valuation τ sig (Elt F) := Function.update (V5 m d) (dr main_v16) (gatherRows (V5 m d (dr main_v15)) (V5 m d (dr main_v5)))
noncomputable def V7 (d : Dev nD) : Valuation τ sig (Elt F) := after opsC (V6 m d)
noncomputable def V8 (d : Dev nD) : Valuation τ sig (Elt F) := Function.update (V7 m d) (dr main_v24) (mmVal (V7 m d (dr main_v23)) (V7 m d (dr main_arg7)))
noncomputable def V9 (d : Dev nD) : Valuation τ sig (Elt F) := Function.update (V8 m d) (dr main_v25) (gatherRows (V8 m d (dr main_v24)) (V8 m d (dr main_v5)))
noncomputable def V10 (d : Dev nD) : Valuation τ sig (Elt F) := after opsD (V9 m d)

end Cert.KernelIdeal.Hand

end
-- ==== Proof.ValsRead.lean ====
import proofs.«207978_g39513699123711_cont_8to1_b_1293_21_alg».proof.Proof.Vals
import Idealize.ShloMosaic.Lib.Pipeline.Value

noncomputable section

namespace Cert.KernelIdeal.Hand

open Cert.KernelIdeal Cert.KernelIdeal.Gen
open Idealize.ShloMosaic Idealize.ShloMosaic.StableHlo Idealize.SL.Sem

variable {F : FTy → Type} [FloatOps F]

/-- The array of shape `s` with every entry the float whose bits are `c`. -/
noncomputable def fill {s : Shape} (h : S_.BroadcastsInDim s (![] : Fin 0 → Fin s.rank)) (c : BitVec 32) : Vec F s .f32 :=
  broadcastInDim s ![] h (constant (F := F) S_ .f32 c)

noncomputable def kSrc (ei : Vec F S2x320000 .i32) : Vec F S320000 .i32 :=
  shapeCast S320000 (extractStridedSlice S1x320000 ![0, 0] ei slices_S2x320000_S1x320000_0_0) shapeCasts_S1x320000_S320000

noncomputable def kDst (ei : Vec F S2x320000 .i32) : Vec F S320000 .i32 :=
  shapeCast S320000 (extractStridedSlice S1x320000 ![1, 0] ei slices_S2x320000_S1x320000_1_0) shapeCasts_S1x320000_S320000

noncomputable def kSrcPad (ei : Vec F S2x320000 .i32) : Vec F S320128 .i32 :=
  concatenate S320128 0 [⟨S320000, kSrc (F := F) ei⟩, ⟨S128, broadcastInDim S128 ![] bcast_S_S128 (constantI S_ 32 0#32)⟩]
    concatenates_S320000_S128_S320128_d0

noncomputable def kElu (x : Vec F S10000x128 .f32) : Vec F S10000x128 .f32 :=
  select (cmpf .ogt x (fill bcast_S_S10000x128 0x00000000#32))
    x
    (mulf (fill bcast_S_S10000x128 0x3F800000#32)
      (Host.expm1
        (select (cmpf .ogt x (fill bcast_S_S10000x128 0x00000000#32))
          (fill bcast_S_S10000x128 0x00000000#32)
          x)))

noncomputable def kHost (msg : Vec F S320000x128 .f32) (dst : Vec F S320000 .i32) (b : Vec F S128 .f32) : Vec F S10000x128 .f32 :=
  kElu (addf
    (Host.scatterAdd scatter_S10000x128_S320000x1_S320000x128_1_0_0_1
      (fill bcast_S_S10000x128 0x00000000#32)
      (broadcastInDim S320000x1 ![0] bcast_S320000_S320000x1_0 dst) msg)
    (broadcastInDim S10000x128 ![0, 1] bcast_S1x128_S10000x128_0_1 (broadcastInDim S1x128 ![1] bcast_S128_S1x128_1 b)))

noncomputable def kGraph (h : Vec F S10000x128 .f32) (batch : Vec F S10000 .i32) : Vec F S16x128 .f32 :=
  Host.divf
    (Host.scatterAdd scatter_S16x128_S10000x1_S10000x128_1_0_0_1
      (fill bcast_S_S16x128 0x00000000#32)
      (broadcastInDim S10000x1 ![0] bcast_S10000_S10000x1_0 batch) h)
    (broadcastInDim S16x128 ![0, 1] bcast_S16x1_S16x128_0_1 (broadcastInDim S16x1 ![0] bcast_S16_S16x1_0
      (maximumf
        (Host.scatterAdd scatter_S16_S10000x1_S10000_n_0_0_1
          (fill bcast_S_S16 0x00000000#32)
          (broadcastInDim S10000x1 ![0] bcast_S10000_S10000x1_0 batch)
          (fill bcast_S_S10000 0x3F800000#32))
        (fill bcast_S_S16 0x3F800000#32))))

noncomputable def kDist (ge : Vec F S16x128 .f32) (P : Vec F S10x128 .f32) : Vec F S16x10 .f32 :=
  addf
    (addf
      (mulf (fill bcast_S_S16x10 0xC0000000#32)
        (Host.dotGeneral dot_S16x128_S128x10_S16x10_1_0_0_1_n_n none ge (transpose S128x10 [1, 0] P transposes_S10x128_S128x10_1_0)))
      (broadcastInDim S16x10 ![0, 1] bcast_S16x1_S16x10_0_1 (broadcastInDim S16x1 ![0] bcast_S16_S16x1_0
        (Host.reduceAdd (mulf ge ge) (constant (F := F) S_ .f32 0x00000000#32) reducesTo_S16x128_S16_d1 h_S_))))
    (broadcastInDim S16x10 ![0, 1] bcast_S1x10_S16x10_0_1 (broadcastInDim S1x10 ![1] bcast_S10_S1x10_1
      (Host.reduceAdd (mulf P P) (constant (F := F) S_ .f32 0x00000000#32) reducesTo_S10x128_S10_d1 h_S_)))

noncomputable def kLogits (dist : Vec F S16x10 .f32) (lw : Vec F S2x10 .f32) : Vec F S16x2 .f32 :=
  Host.dotGeneral dot_S16x10_S10x2_S16x2_1_0_0_1_n_n none
    (Host.log (Host.divf
      (addf dist (fill bcast_S_S16x10 0x3F800000#32))
      (addf dist (fill bcast_S_S16x10 0x38D1B717#32))))
    (transpose S10x2 [1, 0] lw transposes_S2x10_S10x2_1_0)

noncomputable def kExps (l : Vec F S16x2 .f32) : Vec F S16x2 .f32 :=
  Host.exp (subf l
    (broadcastInDim S16x2 ![0, 1] bcast_S16x1_S16x2_0_1 (broadcastInDim S16x1 ![0] bcast_S16_S16x1_0
      (maximumf (fill bcast_S_S16 0xFF800000#32)
        (Host.reduce FloatOps.maximumf l (constant (F := F) S_ .f32 0xFF800000#32) reducesTo_S16x2_S16_d1 h_S_)))))

noncomputable def kProbs (l : Vec F S16x2 .f32) : Vec F S16x2 .f32 :=
  Host.divf (kExps l)
    (broadcastInDim S16x2 ![0, 1] bcast_S16x1_S16x2_0_1 (broadcastInDim S16x1 ![0] bcast_S16_S16x1_0
      (Host.reduceAdd (kExps l) (constant (F := F) S_ .f32 0x00000000#32) reducesTo_S16x2_S16_d1 h_S_)))

variable (m : (ℓ : Loc nD τ sig) → Buf (Elt F) ℓ)

/-- The intermediate arrays of one call of the activation. -/
noncomputable def callRefs (c : fn_elu.Bufs) : List (Ref sig .tc) :=
  [c.cst.ref, c.v0.ref, c.v1.ref, c.cst_0.ref, c.v2.ref, c.v3.ref, c.cst_1.ref, c.call0.v0.ref, c.call0.v1.ref, c.call0.v2.ref,
    c.v5.ref, c.cst_2.ref, c.v6.ref, c.v7.ref, c.call1.v0.ref]

/-- Every operation of the stretch writes an array of the list. -/
noncomputable abbrev WritesIn (ops : List (HloOp τ sig (Elt F))) (W : List (Ref sig .tc)) : Prop :=
  ops.Forall fun op => op.writes ⊆ (W.map (Proc.devRef (τ := τ) .tc)).toFinset

/-- A single array of the list, as a set of buffers, lies inside the list's set. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

noncomputable abbrev wA : List (Ref sig .tc) :=
  [main_v0, main_v1, main_v2, main_v3, main_c, main_v4, main_v5]
theorem opsA_writes : WritesIn (F := F) opsA wA := by
  repeat' apply And.intro
  all_goals exact sub_of_mem (by decide)

noncomputable abbrev wB : List (Ref sig .tc) :=
  [main_cst, main_v8, main_v9, main_v10, main_v11, main_v12, main_v13] ++ callRefs main_call0
theorem opsB_writes : WritesIn (F := F) opsB wB := by
  repeat' apply And.intro
  all_goals exact sub_of_mem (by decide)

noncomputable abbrev wC : List (Ref sig .tc) :=
  [main_cst_0, main_v17, main_v18, main_v19, main_v20, main_v21, main_v22] ++ callRefs main_call1
theorem opsC_writes : WritesIn (F := F) opsC wC := by
  repeat' apply And.intro
  all_goals exact sub_of_mem (by decide)

noncomputable abbrev wD : List (Ref sig .tc) :=
  [main_cst_1, main_v26, main_v27, main_v28, main_v29, main_v30, main_v31] ++ callRefs main_call2 ++ [main_cst_2, main_v33, main_cst_3, main_v34, main_v35, main_v36, main_cst_4, main_v37, main_v38, main_v39, main_cst_5, main_v40, main_v41, main_v42, main_v43, main_v44, main_v45, main_v46, main_cst_6, main_v47, main_v48, main_v49, main_cst_7, main_v50, main_v51, main_v52, main_v53, main_v54, main_cst_8, main_v55, main_v56, main_v57, main_v58, main_cst_9, main_v59, main_v60, main_cst_10, main_v61, main_v62, main_v63, main_v64, main_v65, main_v66, main_cst_11, main_v67, main_cst_12, main_v68, main_v69, main_v70, main_v71, main_v72, main_v73, main_cst_13, main_v74, main_v75, main_v76, main_v77]
theorem opsD_writes : WritesIn (F := F) opsD wD := by
  repeat' apply And.intro
  all_goals exact sub_of_mem (by decide)

/-- The stages in order, and the references written on the way from each to the next. -/
noncomputable def Vs : ℕ → Dev nD → Valuation τ sig (Elt F)
  | 0 => V0 m | 1 => V1 m | 2 => V2 m | 3 => V3 m | 4 => V4 m | 5 => V5 m | 6 => V6 m | 7 => V7 m | 8 => V8 m | 9 => V9 m
  | _ => V10 m
noncomputable def ws : ℕ → List (Ref sig .tc)
  | 0 => wA | 1 => [main_v6] | 2 => [main_v7] | 3 => wB | 4 => [main_v15] | 5 => [main_v16] | 6 => wC | 7 => [main_v24]
  | 8 => [main_v25] | 9 => wD | _ => []

/-- A stage changes only what it writes: a host stretch its results, a kernel its one array. -/
theorem step (d : Dev nD) {r : Ref sig .tc} : ∀ k, r ∉ ws k → Vs m (k + 1) d (dr r) = Vs m k d (dr r)
  | 0, h => after_of_writes_sub opsA _ opsA_writes h
  | 3, h => after_of_writes_sub opsB _ opsB_writes h
  | 6, h => after_of_writes_sub opsC _ opsC_writes h
  | 9, h => after_of_writes_sub opsD _ opsD_writes h
  | 1, h | 2, h | 4, h | 5, h | 7, h | 8, h => Function.update_of_ne (devRef_ne_of_ne (List.ne_of_not_mem_cons h)) _ _
  | _ + 10, _ => rfl

/-- An array that none of `n` consecutive stages writes holds after them what it held before. -/
theorem kept (d : Dev nD) {r : Ref sig .tc} (j : ℕ) :
    ∀ n, (∀ i < n, r ∉ ws (j + i)) → Vs m (j + n) d (dr r) = Vs m j d (dr r)
  | 0, _ => rfl
  | n + 1, h => (step m d (j + n) (h n (Nat.lt_succ_self n))).trans (kept d j n fun i hi => h i (Nat.lt_succ_of_lt hi))

variable (W : Valuation τ sig (Elt F))

section Reads
attribute [local irreducible] Host.scatterAdd Host.reduceAdd Host.reduce concatenate

theorem opsA_v3 : after opsA W (dr main_v3) = kDst (W (dr main_arg1)) := by
  dsimp only [opsA]; after_results; rfl

theorem opsA_v5 : after opsA W (dr main_v5) = kSrcPad (W (dr main_arg1)) := by
  dsimp only [opsA]; after_results; rfl

set_option maxRecDepth 8192 in
theorem opsB_v14 : after opsB W (dr main_v14) = kHost (W (dr main_v7)) (W (dr main_v3)) (W (dr main_arg4)) := by
  dsimp only [opsB]; after_results_simp; rfl

set_option maxRecDepth 8192 in
theorem opsC_v23 : after opsC W (dr main_v23) = kHost (W (dr main_v16)) (W (dr main_v3)) (W (dr main_arg6)) := by
  dsimp only [opsC]; after_results_simp; rfl

set_option maxRecDepth 32768
set_option maxHeartbeats 1600000

theorem opsD_v32 : after opsD W (dr main_v32) = kHost (W (dr main_v25)) (W (dr main_v3)) (W (dr main_arg8)) := by
  dsimp only [opsD]; after_results_simp; rfl

/-- Each later result of the last stretch is its function of the one before. -/
theorem opsD_v44 : after opsD W (dr main_v44) = kGraph (after opsD W (dr main_v32)) (W (dr main_arg2)) := by
  rw [opsD_v32]; dsimp only [opsD]; after_results_simp; rfl

theorem opsD_v58 : after opsD W (dr main_v58) = kDist (after opsD W (dr main_v44)) (W (dr main_arg9)) := by
  rw [opsD_v44, opsD_v32]; dsimp only [opsD]; after_results_simp; rfl

theorem opsD_v66 : after opsD W (dr main_v66) = kLogits (after opsD W (dr main_v58)) (W (dr main_arg10)) := by
  rw [opsD_v58, opsD_v44, opsD_v32]; dsimp only [opsD]; after_results_simp; rfl

theorem opsD_v77 : after opsD W (dr main_v77) = kProbs (after opsD W (dr main_v66)) := by
  rw [opsD_v66, opsD_v58, opsD_v44, opsD_v32]; dsimp only [opsD]; after_results_simp; rfl

end Reads

variable (d : Dev nD)

theorem V1_arg0 : V1 m d (dr main_arg0) = arg m d main_arg0 := kept m d 0 1 (by decide)
theorem V1_arg3 : V1 m d (dr main_arg3) = arg m d main_arg3 := kept m d 0 1 (by decide)
theorem V3_arg4 : V3 m d (dr main_arg4) = arg m d main_arg4 := kept m d 0 3 (by decide)
theorem V4_arg5 : V4 m d (dr main_arg5) = arg m d main_arg5 := kept m d 0 4 (by decide)
theorem V6_arg6 : V6 m d (dr main_arg6) = arg m d main_arg6 := kept m d 0 6 (by decide)
theorem V7_arg7 : V7 m d (dr main_arg7) = arg m d main_arg7 := kept m d 0 7 (by decide)
theorem V9_arg8 : V9 m d (dr main_arg8) = arg m d main_arg8 := kept m d 0 9 (by decide)
theorem V9_arg2 : V9 m d (dr main_arg2) = arg m d main_arg2 := kept m d 0 9 (by decide)
theorem V9_arg9 : V9 m d (dr main_arg9) = arg m d main_arg9 := kept m d 0 9 (by decide)
theorem V9_arg10 : V9 m d (dr main_arg10) = arg m d main_arg10 := kept m d 0 9 (by decide)
/-- An array no stage writes holds at the end what it held at the start. -/
theorem V10_arg {r : Ref sig .tc} (h : ∀ i < 10, r ∉ ws (0 + i)) : V10 m d (dr r) = arg m d r := kept m d 0 10 h

/-- The padded sources and the destinations are computed by the first stretch and never written again. -/
theorem V1_v5 : V1 m d (dr main_v5) = kSrcPad (m ((SparseCore.T d).loc main_arg1)) := by
  unfold V1; rw [opsA_v5]; rfl
theorem V1_v3 : V1 m d (dr main_v3) = kDst (arg m d main_arg1) := by
  unfold V1; rw [opsA_v3]; rfl
theorem V2_v5 : V2 m d (dr main_v5) = kSrcPad (m ((SparseCore.T d).loc main_arg1)) := (kept m d 1 1 (by decide)).trans (V1_v5 m d)
theorem V5_v5 : V5 m d (dr main_v5) = kSrcPad (m ((SparseCore.T d).loc main_arg1)) := (kept m d 1 4 (by decide)).trans (V1_v5 m d)
theorem V8_v5 : V8 m d (dr main_v5) = kSrcPad (m ((SparseCore.T d).loc main_arg1)) := (kept m d 1 7 (by decide)).trans (V1_v5 m d)
theorem V3_v3 : V3 m d (dr main_v3) = kDst (arg m d main_arg1) := (kept m d 1 2 (by decide)).trans (V1_v3 m d)
theorem V6_v3 : V6 m d (dr main_v3) = kDst (arg m d main_arg1) := (kept m d 1 5 (by decide)).trans (V1_v3 m d)
theorem V9_v3 : V9 m d (dr main_v3) = kDst (arg m d main_arg1) := (kept m d 1 8 (by decide)).trans (V1_v3 m d)

theorem V4_v14 : V4 m d (dr main_v14) = kHost (V3 m d (dr main_v7)) (kDst (arg m d main_arg1)) (arg m d main_arg4) := by
  unfold V4; rw [opsB_v14, V3_v3, V3_arg4]
theorem V7_v23 : V7 m d (dr main_v23) = kHost (V6 m d (dr main_v16)) (kDst (arg m d main_arg1)) (arg m d main_arg6) := by
  unfold V7; rw [opsC_v23, V6_v3, V6_arg6]
theorem V10_v32 : V10 m d (dr main_v32) = kHost (V9 m d (dr main_v25)) (kDst (arg m d main_arg1)) (arg m d main_arg8) := by
  unfold V10; rw [opsD_v32, V9_v3, V9_arg8]

theorem V10_v44 : V10 m d (dr main_v44) = kGraph (V10 m d (dr main_v32)) (arg m d main_arg2) := by
  unfold V10; rw [opsD_v44, V9_arg2]
theorem V10_v58 : V10 m d (dr main_v58) = kDist (V10 m d (dr main_v44)) (arg m d main_arg9) := by
  unfold V10; rw [opsD_v58, V9_arg9]
theorem V10_v66 : V10 m d (dr main_v66) = kLogits (V10 m d (dr main_v58)) (arg m d main_arg10) := by
  unfold V10; rw [opsD_v66, V9_arg10]
theorem V10_v77 : V10 m d (dr main_v77) = kProbs (V10 m d (dr main_v66)) := by
  unfold V10; rw [opsD_v77]

end Cert.KernelIdeal.Hand

end
-- ==== Proof.KernelVal.lean ====
import proofs.«207978_g39513699123711_cont_8to1_b_1293_21_alg».proof.Proof.ValsRead

noncomputable section

namespace Cert.KernelIdeal.Hand

open Cert.KernelIdeal Cert.KernelIdeal.Gen
open Idealize.ShloMosaic Idealize.ShloMosaic.StableHlo Idealize.SL.Sem

variable {F : FTy → Type} [FloatOps F]

/-- One layer: the product, its rows gathered at the padded sources, then the host part. -/
def kLayer (h : Vec F S10000x128 .f32) (W : Vec F S128x128 .f32) (b : Vec F S128 .f32) (ei : Vec F S2x320000 .i32) :
    Vec F S10000x128 .f32 :=
  kHost (gatherRows (mmVal h W) (kSrcPad ei)) (kDst ei) b

def kH3 (x : Vec F S10000x128 .f32) (ei : Vec F S2x320000 .i32) (W1 : Vec F S128x128 .f32) (b1 : Vec F S128 .f32)
    (W2 : Vec F S128x128 .f32) (b2 : Vec F S128 .f32) (W3 : Vec F S128x128 .f32) (b3 : Vec F S128 .f32) : Vec F S10000x128 .f32 :=
  kLayer (kLayer (kLayer x W1 b1 ei) W2 b2 ei) W3 b3 ei

variable (m : (ℓ : Loc nD τ sig) → Buf (Elt F) ℓ) (d : Dev nD)

/-- The node embedding after one, two and three layers, from the initial arrays. -/
def kH1 : Vec F S10000x128 .f32 := kLayer (arg m d main_arg0) (arg m d main_arg3) (arg m d main_arg4) (arg m d main_arg1)
def kH2 : Vec F S10000x128 .f32 := kLayer (kH1 m d) (arg m d main_arg5) (arg m d main_arg6) (arg m d main_arg1)
def kH : Vec F S10000x128 .f32 := kLayer (kH2 m d) (arg m d main_arg7) (arg m d main_arg8) (arg m d main_arg1)

theorem V2_v6 : V2 m d (dr main_v6) = mmVal (arg m d main_arg0) (arg m d main_arg3) := by
  unfold V2; rw [Function.update_self, V1_arg0, V1_arg3]
theorem V3_v7 : V3 m d (dr main_v7) = gatherRows (mmVal (arg m d main_arg0) (arg m d main_arg3)) (kSrcPad (arg m d main_arg1)) := by
  unfold V3; rw [Function.update_self, V2_v6, V2_v5]
theorem V4_layer : V4 m d (dr main_v14) = kH1 m d := by
  rw [V4_v14, V3_v7]; rfl
theorem V5_v15 : V5 m d (dr main_v15) = mmVal (kH1 m d) (arg m d main_arg5) := by
  unfold V5; rw [Function.update_self, V4_layer, V4_arg5]
theorem V6_v16 : V6 m d (dr main_v16) = gatherRows (mmVal (kH1 m d) (arg m d main_arg5)) (kSrcPad (arg m d main_arg1)) := by
  unfold V6; rw [Function.update_self, V5_v15, V5_v5]
theorem V7_layer : V7 m d (dr main_v23) = kH2 m d := by
  rw [V7_v23, V6_v16]; rfl
theorem V8_v24 : V8 m d (dr main_v24) = mmVal (kH2 m d) (arg m d main_arg7) := by
  unfold V8; rw [Function.update_self, V7_layer, V7_arg7]
theorem V9_v25 : V9 m d (dr main_v25) = gatherRows (mmVal (kH2 m d) (arg m d main_arg7)) (kSrcPad (arg m d main_arg1)) := by
  unfold V9; rw [Function.update_self, V8_v24, V8_v5]

/-- Each result array holds, at the end, its function of the initial arrays. -/
theorem V10_h3 : V10 m d (dr main_v32) = kH m d := by
  rw [V10_v32, V9_v25]; rfl
theorem V10_graph : V10 m d (dr main_v44) = kGraph (kH m d) (arg m d main_arg2) := by
  rw [V10_v44, V10_h3]
theorem V10_dist : V10 m d (dr main_v58) = kDist (kGraph (kH m d) (arg m d main_arg2)) (arg m d main_arg9) := by
  rw [V10_v58, V10_graph]
theorem V10_logits : V10 m d (dr main_v66) = kLogits (kDist (kGraph (kH m d) (arg m d main_arg2)) (arg m d main_arg9)) (arg m d main_arg10) := by
  rw [V10_v66, V10_dist]
theorem V10_probs : V10 m d (dr main_v77) = kProbs (kLogits (kDist (kGraph (kH m d) (arg m d main_arg2)) (arg m d main_arg9)) (arg m d main_arg10)) := by
  rw [V10_v77, V10_logits]

end Cert.KernelIdeal.Hand

end
-- ==== Proof.Spec.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

open scoped BigOperators

namespace Cert.Spec

open Idealize.ShloMosaic Idealize.ShloMosaic.ValueIdx

noncomputable abbrev S10000x128 : Shape := ⟨2, ![10000, 128]⟩
noncomputable abbrev S1000x128 : Shape := ⟨2, ![1000, 128]⟩
noncomputable abbrev S128x128 : Shape := ⟨2, ![128, 128]⟩
noncomputable abbrev S320000x128 : Shape := ⟨2, ![320000, 128]⟩
noncomputable abbrev S320000x1 : Shape := ⟨2, ![320000, 1]⟩
noncomputable abbrev S320000 : Shape := ⟨1, ![320000]⟩
noncomputable abbrev S320128 : Shape := ⟨1, ![320128]⟩
noncomputable abbrev S128 : Shape := ⟨1, ![128]⟩
noncomputable abbrev S_ : Shape := ⟨0, ![]⟩

section Matmul
variable {F : FTy → Type} [FloatOps F]

noncomputable def rowBlock (x : FVec F S10000x128 .f32) (t : Fin 10) : FVec F S1000x128 .f32 :=
  fun y => x (ix2 (⟨1000 * t.val + (y 0).val, by have := t.isLt; have := idx2_lt0 y; omega⟩ : Fin 10000) (y 1 : Fin 128))

noncomputable def mmBlock (xb : FVec F S1000x128 .f32) (w : FVec F S128x128 .f32) : FVec F S1000x128 .f32 :=
  matmul (DotDims.plain 1000 128 128) none (truncf .bf16 xb (by decide)) (truncf .bf16 w (by decide))
    (constant S1000x128 .f32 0x00000000#32)

noncomputable def mmVal (x : FVec F S10000x128 .f32) (w : FVec F S128x128 .f32) : FVec F S10000x128 .f32 :=
  fun i => mmBlock (rowBlock x ⟨(i 0).val / 1000, by have := idx2_lt0 i; omega⟩) w
    (ix2 (⟨(i 0).val % 1000, Nat.mod_lt _ (by decide)⟩ : Fin 1000) (i 1 : Fin 128))

end Matmul

theorem mmBlock_apply (xb : FVec Ideal S1000x128 .f32) (w : FVec Ideal S128x128 .f32) (a : Fin 1000) (b : Fin 128) :
    mmBlock xb w (ix2 a b) = ∑ c : Fin 128, xb (ix2 a c) * w (ix2 c b) := by
  unfold mmBlock
  rw [matmul_zero_eq_dotGeneral, StackMember.dotGeneral_plain_apply]
  rfl

theorem mmVal_eq_dotGeneral (x : FVec Ideal S10000x128 .f32) (w : FVec Ideal S128x128 .f32) :
    mmVal x w = Host.dotGeneral (DotDims.plain 10000 128 128) none x w := by
  funext i
  obtain ⟨r, j, rfl⟩ : ∃ (r : Fin 10000) (j : Fin 128), i = ix2 r j := ⟨i 0, i 1, eq_ix2 i⟩
  rw [StackMember.dotGeneral_plain_apply]
  unfold mmVal
  rw [mmBlock_apply]
  refine Finset.sum_congr rfl fun c _ => ?_
  unfold rowBlock
  congr 2
  funext a
  match a with
  | ⟨0, _⟩ => exact Fin.ext (by show 1000 * (r.val / 1000) + r.val % 1000 = r.val; omega)
  | ⟨1, _⟩ => rfl

section Gather

variable {α : Type}

noncomputable abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowsDims N R C wf) x idx (ix2 e j)
      = x (ix2 (⟨min (idx (ix2 e (0 : Fin 1))).toInt.toNat (N - 1), by omega⟩ : Fin N) j) := by
  have hsi : (rowsDims N R C wf).siIdx (ix2 e j) ⟨0, Nat.one_pos⟩ = ix2 e (0 : Fin 1) := by
    funext b; refine Fin.ext ?_
    match b with
    | ⟨0, _⟩ => rfl
    | ⟨1, _⟩ => rfl
  unfold Host.gather
  congr 1
  funext a
  refine Fin.ext ?_
  match a with
  | ⟨0, _⟩ => exact congrArg (fun k => min (idx k).toInt.toNat (N - 1)) hsi
  | ⟨1, _⟩ =>
    have h1 : (1 : Fin 2) ∉ [(0 : Fin 2)] := by decide
    show (rowsDims N R C wf).start (ix2 e j) idx 1 + (rowsDims N R C wf).batchCoord (ix2 e j) 1
      + (rowsDims N R C wf).offCoord (ix2 e j) 1 = j.val
    rw [GatherDims.batchCoord_eq_zero _ _ _ List.not_mem_nil, GatherDims.start, dif_neg h1, GatherDims.offCoord,
      dif_pos ((GatherDims.mem_sKept _ _).mpr ⟨h1, List.not_mem_nil⟩), Nat.add_zero, Nat.zero_add]
    rfl

end Gather

-- A word below 10000 read signed is itself.
theorem toInt_of_lt (a : BitVec 32) (h : a.toNat < 10000) : a.toInt = (a.toNat : Int) := by
  rw [BitVec.toInt_eq_toNat_cond]; split <;> omega

theorem cmpi_slt_zero_of_lt (a : BitVec 32) (h : a.toNat < 10000) : IntOp.cmpi .slt a 0#32 = 0#1 := by
  have hn : ¬ ((a.toNat : Int) < 0) := by omega
  simp [IntOp.cmpi, BitVec.slt, toInt_of_lt a h, hn]

theorem wrap_apply (src z t : IVec S320000 32) (i : S320000.Idx) (hz : z i = 0#32) (h : (src i).toNat < 10000) :
    select (cmpi .slt src z) (addi src t) src i = src i := by
  rw [select_apply]
  show Scalar.select (IntOp.cmpi .slt (src i) (z i)) _ _ = _
  rw [hz, cmpi_slt_zero_of_lt _ h, select_zero]

theorem bcast0_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

theorem col_apply {α : Type} (h : S320000.BroadcastsInDim S320000x1 (![0] : Fin 1 → Fin 2)) (x : S320000.Idx → α)
    (e : Fin 320000) (q : Fin 1) : broadcastInDim S320000x1 ![0] h x (ix2 e q) = x (ix1 e) :=
  broadcastInDim_apply _ h x _ (ix1 e) (fun a => by
    match a with
    | ⟨0, _⟩ => rfl)

theorem lanes_apply {α : Type} (h : S320000x1.BroadcastsInDim S320000x128 (![0, 1] : Fin 2 → Fin 2)) (x : S320000x1.Idx → α)
    (e : Fin 320000) (j : Fin 128) : broadcastInDim S320000x128 ![0, 1] h x (ix2 e j) = x (ix2 e (0 : Fin 1)) :=
  broadcastInDim_apply _ h x _ (ix2 e (0 : Fin 1)) (fun a => by
    match a with
    | ⟨0, _⟩ => rfl
    | ⟨1, _⟩ => rfl)

theorem pad_apply {α : Type} (h : Shape.Concatenates [S320000, S128] S320128 0) (x : S320000.Idx → α) (p : S128.Idx → α)
    (e : Fin 320000) :
    concatenate S320128 0 [⟨S320000, x⟩, ⟨S128, p⟩] h (ix1 (⟨e.val, by omega⟩ : Fin 320128)) = x (ix1 e) :=
  concatenate_pair_apply_left 0 x p h _ rfl (ix1 e) (fun b => by
    match b with
    | ⟨0, _⟩ => rfl)

theorem one_f32 : Ideal.ofBits .f32 0x3F800000#32 = 1 := IdealRules.sign_bit.ideal_onePat .f32

theorem gather_ones_apply (wf : GatherDims.WF S10000x128 S320000x1 S320000x128 [1] [0] [] [0] [] 1 ![1, 128])
    (tab : FVec Ideal S10000x128 .f32) (idxc : IVec S320000x1 32) (ones : FVec Ideal S320000x128 .f32)
    (e : Fin 320000) (j : Fin 128) (a : BitVec 32) (hidx : idxc (ix2 e (0 : Fin 1)) = a) (ha : a.toNat < 10000)
    (hones : ones (ix2 e j) = 1) :
    mulf (Host.gather (rowsDims 10000 320000 128 wf) tab idxc) ones (ix2 e j)
      = tab (ix2 (⟨a.toNat % 10000, Nat.mod_lt _ (by decide)⟩ : Fin 10000) j) := by
  subst hidx
  rw [mulf_apply, hones, mul_one, gather_rows_apply (by decide) wf]
  refine congrArg (fun r : Fin 10000 => tab (ix2 r j)) (Fin.ext ?_)
  show min (idxc (ix2 e (0 : Fin 1))).toInt.toNat (10000 - 1) = (idxc (ix2 e (0 : Fin 1))).toNat % 10000
  rw [toInt_of_lt _ ha]
  omega

end Cert.Spec

end
-- ==== Proof.Bridge.lean ====
import proofs.«207978_g39513699123711_cont_8to1_b_1293_21_alg».proof.Proof.ValDefs
import proofs.«207978_g39513699123711_cont_8to1_b_1293_21_alg».proof.Proof.Gen.ReferenceIdeal
import proofs.«207978_g39513699123711_cont_8to1_b_1293_21_alg».proof.Proof.Spec

noncomputable section

namespace Cert.KernelIdeal.Hand

open Cert.KernelIdeal Cert.KernelIdeal.Gen
open Idealize.ShloMosaic

/-- The product computed block of rows by block of rows is the product of the whole arrays. -/
theorem mmVal_eq_ref (x : FVec Ideal S10000x128 .f32) (w : FVec Ideal S128x128 .f32) :
    mmVal (F := Ideal) x w = Host.dotGeneral (F := Ideal) Cert.ReferenceIdeal.dot_S10000x128_S128x128_S10000x128_1_0_0_1_n_n none x w :=
  Spec.mmVal_eq_dotGeneral x w

end Cert.KernelIdeal.Hand

end
-- ==== Proof.BridgeNet.lean ====
import proofs.«207978_g39513699123711_cont_8to1_b_1293_21_alg».proof.Proof.Bridge
import proofs.«207978_g39513699123711_cont_8to1_b_1293_21_alg».proof.Proof.KernelVal
import proofs.«207978_g39513699123711_cont_8to1_b_1293_21_alg».proof.Proof.RefRun

noncomputable section

namespace Cert.KernelIdeal.Hand

open Cert.KernelIdeal Cert.KernelIdeal.Gen
open Idealize.ShloMosaic Idealize.ShloMosaic.ValueIdx
open Cert.ReferenceIdeal.Hand

/-- Row `e` of the weighted gather is row `src e` of the table times one, and the padded list begins with the sources. -/
theorem gather_eq_ref (tab : FVec Ideal S10000x128 .f32) (ei : IVec S2x320000 32) (hei : ∀ i, (ei i).toNat < 10000) :
    mulf (F := Ideal) (Host.gather Cert.ReferenceIdeal.gather_S10000x128_S320000x1_S320000x128_1_0_n_n_0_1_1128 tab (refIdx (refSrc (F := Ideal) ei))) (refOnesW (F := Ideal))
      = gatherRows (F := Ideal) tab (kSrcPad (F := Ideal) ei) := by
  funext i
  obtain ⟨e, j, rfl⟩ : ∃ (e : Fin 320000) (j : Fin 128), i = ix2 e j := ⟨i 0, i 1, eq_ix2 i⟩
  refine (Spec.gather_ones_apply Cert.ReferenceIdeal.Gen.gather_S10000x128_S320000x1_S320000x128_1_0_n_n_0_1_1128_wf
    tab _ _ e j (refSrc (F := Ideal) ei (ix1 e)) ?_ (hei _) ?_).trans (congrArg tab (funext fun a => Fin.ext ?_))
  · exact Spec.wrap_apply (refSrc (F := Ideal) ei) _ _ _ (Spec.bcast0_apply _ _ _) (hei _)
  · exact Spec.one_f32
  · match a with
    | ⟨0, _⟩ => exact congrArg (·.toNat % 10000) (Spec.pad_apply _ (refSrc (F := Ideal) ei) _ e).symm
    | ⟨1, _⟩ => rfl

/-- A layer is the reference's: same host part, the product is the dot product, the gathered rows the weighted gather. -/
theorem kLayer_eq_ref (h : FVec Ideal S10000x128 .f32) (W : FVec Ideal S128x128 .f32) (b : FVec Ideal S128 .f32)
    (ei : IVec S2x320000 32) (hei : ∀ i, (ei i).toNat < 10000) :
    kLayer (F := Ideal) h W b ei = refLayer (F := Ideal) h W b (refSrc (F := Ideal) ei) (refDst (F := Ideal) ei) := by
  unfold kLayer; rw [mmVal_eq_ref]
  exact congrArg (kHost (F := Ideal) · (kDst (F := Ideal) ei) b) (gather_eq_ref _ ei hei).symm

theorem kH3_eq_ref (x : FVec Ideal S10000x128 .f32) (ei : IVec S2x320000 32) (hei : ∀ i, (ei i).toNat < 10000)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) :
    kH3 (F := Ideal) x ei W1 b1 W2 b2 W3 b3 = refH3 (F := Ideal) x ei W1 b1 W2 b2 W3 b3 := by
  unfold kH3
  rw [kLayer_eq_ref x W1 b1 ei hei, kLayer_eq_ref _ W2 b2 ei hei, kLayer_eq_ref _ W3 b3 ei hei]
  rfl

/-- The readout is the same text on both sides, so the five results agree once the node embeddings do. -/
theorem kResults_eq_ref (x : FVec Ideal S10000x128 .f32) (ei : IVec S2x320000 32) (hei : ∀ i, (ei i).toNat < 10000)
    (batch : IVec S10000 32) (W1 : FVec Ideal S128x128 .f32) (b1 : FVec Ideal S128 .f32) (W2 : FVec Ideal S128x128 .f32)
    (b2 : FVec Ideal S128 .f32) (W3 : FVec Ideal S128x128 .f32) (b3 : FVec Ideal S128 .f32) (P : FVec Ideal S10x128 .f32)
    (lw : FVec Ideal S2x10 .f32) :
    kH3 (F := Ideal) x ei W1 b1 W2 b2 W3 b3 = refH3 (F := Ideal) x ei W1 b1 W2 b2 W3 b3
    ∧ kGraph (F := Ideal) (kH3 (F := Ideal) x ei W1 b1 W2 b2 W3 b3) batch
        = refGraph (F := Ideal) (refH3 (F := Ideal) x ei W1 b1 W2 b2 W3 b3) batch
    ∧ kDist (F := Ideal) (kGraph (F := Ideal) (kH3 (F := Ideal) x ei W1 b1 W2 b2 W3 b3) batch) P
        = refDist (F := Ideal) (refGraph (F := Ideal) (refH3 (F := Ideal) x ei W1 b1 W2 b2 W3 b3) batch) P
    ∧ kLogits (F := Ideal) (kDist (F := Ideal) (kGraph (F := Ideal) (kH3 (F := Ideal) x ei W1 b1 W2 b2 W3 b3) batch) P) lw
        = refLogits (F := Ideal) (refDist (F := Ideal) (refGraph (F := Ideal) (refH3 (F := Ideal) x ei W1 b1 W2 b2 W3 b3) batch) P) lw
    ∧ kProbs (F := Ideal) (kLogits (F := Ideal) (kDist (F := Ideal) (kGraph (F := Ideal) (kH3 (F := Ideal) x ei W1 b1 W2 b2 W3 b3) batch) P) lw)
        = refProbs (F := Ideal) (refLogits (F := Ideal) (refDist (F := Ideal) (refGraph (F := Ideal) (refH3 (F := Ideal) x ei W1 b1 W2 b2 W3 b3) batch) P) lw) := by
  rw [kH3_eq_ref x ei hei W1 b1 W2 b2 W3 b3]
  exact ⟨rfl, rfl, rfl, rfl, rfl⟩

end Cert.KernelIdeal.Hand

end
-- ==== Proof.Payloads.lean ====
import proofs.«207978_g39513699123711_cont_8to1_b_1293_21_alg».proof.Proof.Vals

noncomputable section

namespace Cert.KernelIdeal.Hand

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers (shareTok)

variable {F : FTy → Type} [FloatOps F]

variable (m : (ℓ : Loc nD τ sig) → Buf (Elt F) ℓ)

noncomputable def tileNo (c : Fin 2) (i : Fin 16) : ℕ := 2 * i.val + c.val
noncomputable def rowsOf (w : ℕ) : Finset S320000x128.Idx := Finset.univ.filter fun j => 10000 * w ≤ (j 0).val ∧ (j 0).val < 10000 * w + 10000
noncomputable def coreRows (c : Fin 2) : Finset S320000x128.Idx := Finset.univ.biUnion fun i : Fin 16 => rowsOf (tileNo c i)

noncomputable abbrev qC (c : Fin 2) : PosShare TreeShare := shareTok fullShare 2 c
noncomputable abbrev qT (c : Fin 2) (i : Fin 16) : PosShare TreeShare := shareTok (qC c) 16 i

noncomputable def stP (q : Fin 3) (d : Dev nD) (c : Fin 2) : sProp (MM F) :=
  match q with
  | 0 => iprop(((SparseCore.T d).loc main_v6 ↦{qC c} V2 m d (dr main_v6)) ∗ ((SparseCore.T d).loc main_v5 ↦{qC c} V2 m d (dr main_v5))
      ∗ ∃ f, (SparseCore.T d).loc main_v7 ↦[coreRows c]{fullShare} f)
  | 1 => iprop(((SparseCore.T d).loc main_v15 ↦{qC c} V5 m d (dr main_v15)) ∗ ((SparseCore.T d).loc main_v5 ↦{qC c} V5 m d (dr main_v5))
      ∗ ∃ f, (SparseCore.T d).loc main_v16 ↦[coreRows c]{fullShare} f)
  | 2 => iprop(((SparseCore.T d).loc main_v24 ↦{qC c} V8 m d (dr main_v24)) ∗ ((SparseCore.T d).loc main_v5 ↦{qC c} V8 m d (dr main_v5))
      ∗ ∃ f, (SparseCore.T d).loc main_v25 ↦[coreRows c]{fullShare} f)
noncomputable def dnP (q : Fin 3) (d : Dev nD) (c : Fin 2) : sProp (MM F) :=
  match q with
  | 0 => iprop(((SparseCore.T d).loc main_v6 ↦{qC c} V2 m d (dr main_v6)) ∗ ((SparseCore.T d).loc main_v5 ↦{qC c} V2 m d (dr main_v5))
      ∗ (SparseCore.T d).loc main_v7 ↦[coreRows c]{fullShare} V3 m d (dr main_v7))
  | 1 => iprop(((SparseCore.T d).loc main_v15 ↦{qC c} V5 m d (dr main_v15)) ∗ ((SparseCore.T d).loc main_v5 ↦{qC c} V5 m d (dr main_v5))
      ∗ (SparseCore.T d).loc main_v16 ↦[coreRows c]{fullShare} V6 m d (dr main_v16))
  | 2 => iprop(((SparseCore.T d).loc main_v24 ↦{qC c} V8 m d (dr main_v24)) ∗ ((SparseCore.T d).loc main_v5 ↦{qC c} V8 m d (dr main_v5))
      ∗ (SparseCore.T d).loc main_v25 ↦[coreRows c]{fullShare} V9 m d (dr main_v25))
noncomputable def goP (q : Fin 3) (d : Dev nD) (c : Fin 2) (i : Fin 16) : sProp (MM F) :=
  match q with
  | 0 => iprop(((SparseCore.T d).loc main_v6 ↦{qT c i} V2 m d (dr main_v6)) ∗ ((SparseCore.T d).loc main_v5 ↦{qT c i} V2 m d (dr main_v5))
      ∗ ∃ f, (SparseCore.T d).loc main_v7 ↦[rowsOf (tileNo c i)]{fullShare} f)
  | 1 => iprop(((SparseCore.T d).loc main_v15 ↦{qT c i} V5 m d (dr main_v15)) ∗ ((SparseCore.T d).loc main_v5 ↦{qT c i} V5 m d (dr main_v5))
      ∗ ∃ f, (SparseCore.T d).loc main_v16 ↦[rowsOf (tileNo c i)]{fullShare} f)
  | 2 => iprop(((SparseCore.T d).loc main_v24 ↦{qT c i} V8 m d (dr main_v24)) ∗ ((SparseCore.T d).loc main_v5 ↦{qT c i} V8 m d (dr main_v5))
      ∗ ∃ f, (SparseCore.T d).loc main_v25 ↦[rowsOf (tileNo c i)]{fullShare} f)
noncomputable def tdP (q : Fin 3) (d : Dev nD) (c : Fin 2) (i : Fin 16) : sProp (MM F) :=
  match q with
  | 0 => iprop(((SparseCore.T d).loc main_v6 ↦{qT c i} V2 m d (dr main_v6)) ∗ ((SparseCore.T d).loc main_v5 ↦{qT c i} V2 m d (dr main_v5))
      ∗ (SparseCore.T d).loc main_v7 ↦[rowsOf (tileNo c i)]{fullShare} V3 m d (dr main_v7))
  | 1 => iprop(((SparseCore.T d).loc main_v15 ↦{qT c i} V5 m d (dr main_v15)) ∗ ((SparseCore.T d).loc main_v5 ↦{qT c i} V5 m d (dr main_v5))
      ∗ (SparseCore.T d).loc main_v16 ↦[rowsOf (tileNo c i)]{fullShare} V6 m d (dr main_v16))
  | 2 => iprop(((SparseCore.T d).loc main_v24 ↦{qT c i} V8 m d (dr main_v24)) ∗ ((SparseCore.T d).loc main_v5 ↦{qT c i} V8 m d (dr main_v5))
      ∗ (SparseCore.T d).loc main_v25 ↦[rowsOf (tileNo c i)]{fullShare} V9 m d (dr main_v25))

noncomputable def P : (K (F := F)).Pay (nD := nD) (Val := Elt F) (Name := ℕ) (U := UU) where
  st := fun q d c => stP m q d (Fin.cast (nCore_eq q) c)
  dn := fun q d c => dnP m q d (Fin.cast (nCore_eq q) c)
  go := fun q d c i => goP m q d (Fin.cast (nCore_eq q) c) (Fin.cast (nSub_eq q) i)
  td := fun q d c i => tdP m q d (Fin.cast (nCore_eq q) c) (Fin.cast (nSub_eq q) i)
  x := fun _ _ => iprop(emp)

instance P_storable : (P (F := F) m).IsStorable where
  st q d c := by unfold P stP; dsimp only; match q with | 0 | 1 | 2 => infer_instance
  dn q d c := by unfold P dnP; dsimp only; match q with | 0 | 1 | 2 => infer_instance
  go q d c i := by unfold P goP; dsimp only; match q with | 0 | 1 | 2 => infer_instance
  td q d c i := by unfold P tdP; dsimp only; match q with | 0 | 1 | 2 => infer_instance

end Cert.KernelIdeal.Hand

end
-- ==== Proof.Split.lean ====
import proofs.«207978_g39513699123711_cont_8to1_b_1293_21_alg».proof.Proof.Payloads

noncomputable section

namespace Cert.KernelIdeal.Hand

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

theorem mem_rowsOf {w : ℕ} {j : S320000x128.Idx} : j ∈ rowsOf w ↔ 10000 * w ≤ (j 0).val ∧ (j 0).val < 10000 * w + 10000 := by
  simp only [rowsOf, Finset.mem_filter, Finset.mem_univ, true_and]

-- Blocks of 10000 rows with different numbers do not meet.
theorem rowsOf_disjoint {w w' : ℕ} (h : w ≠ w') : Disjoint (rowsOf w) (rowsOf w') := by
  rw [Finset.disjoint_left]; intro j hj hj'
  rw [mem_rowsOf] at hj hj'
  exact h (by omega)

-- A tile's number 2 i + c determines the core c < 2 and the tile i.
theorem tileNo_inj {c c' : Fin 2} {i i' : Fin 16} (e : tileNo c i = tileNo c' i') : c = c' ∧ i = i' := by
  simp only [tileNo] at e
  exact ⟨Fin.ext (by omega), Fin.ext (by omega)⟩

theorem tileRows_disjoint (c : Fin 2) : ∀ i ∈ (Finset.univ : Finset (Fin 16)), ∀ i' ∈ (Finset.univ : Finset (Fin 16)), i ≠ i' →
    Disjoint (rowsOf (tileNo c i)) (rowsOf (tileNo c i')) :=
  fun _ _ _ _ h => rowsOf_disjoint fun e => h (tileNo_inj e).2

theorem coreRows_disjoint : ∀ c ∈ (Finset.univ : Finset (Fin 2)), ∀ c' ∈ (Finset.univ : Finset (Fin 2)), c ≠ c' → Disjoint (coreRows c) (coreRows c') :=
  fun _ _ _ _ h => (Finset.disjoint_biUnion_left _ _ _).mpr fun _ _ => (Finset.disjoint_biUnion_right _ _ _).mpr fun _ _ =>
    rowsOf_disjoint fun e => h (tileNo_inj e).1

-- Row j lies in block j / 10000 = 2 (j / 20000) + (j / 10000) % 2.
theorem coreRows_biUnion : (Finset.univ : Finset (Fin 2)).biUnion coreRows = (Finset.univ : Finset S320000x128.Idx) := by
  refine Finset.eq_univ_iff_forall.mpr fun j => ?_
  have hj : (j 0).val < 320000 := Idealize.ShloMosaic.ValueIdx.idx2_lt0 j
  exact Finset.mem_biUnion.mpr ⟨⟨(j 0).val / 10000 % 2, by omega⟩, Finset.mem_univ _, Finset.mem_biUnion.mpr
    ⟨⟨(j 0).val / 20000, by omega⟩, Finset.mem_univ _, mem_rowsOf.mpr (by simp only [tileNo]; omega)⟩⟩

-- A family indexed by Fin n, read through a cast from an equal n', is the same family.
theorem split_cast {n n' : ℕ} (h : n = n') {A B : sProp (MM F)} {Φ Ψ : Fin n' → sProp (MM F)}
    (hs : A ⊢ |={Set.univ}=> iprop((bigSep Finset.univ Φ) ∗ ((bigSep Finset.univ Ψ) -∗ B))) :
    A ⊢ |={Set.univ}=> iprop((bigSep Finset.univ fun i : Fin n => Φ (Fin.cast h i)) ∗ ((bigSep Finset.univ fun i : Fin n => Ψ (Fin.cast h i)) -∗ B)) := by
  subst h; exact hs

section Generic

variable {ℓt ℓi ℓo : Loc nD τ sig}

-- Read shares of the table and the indices split into n tokens and join again; the output's rows split along a partition R of U.
theorem split_pieces (n : ℕ) (q : PosShare TreeShare) (ft : Buf (Elt F) ℓt) (fi : Buf (Elt F) ℓi) (f fo : Buf (Elt F) ℓo)
    (R : Fin n → Finset (Idx ℓo)) (hR : ∀ i ∈ (Finset.univ : Finset (Fin n)), ∀ i' ∈ (Finset.univ : Finset (Fin n)), i ≠ i' → Disjoint (R i) (R i'))
    {U : Finset (Idx ℓo)} (hU : Finset.univ.biUnion R = U) :
    (iprop((ℓt ↦{q} ft) ∗ (ℓi ↦{q} fi) ∗ ℓo ↦[U]{fullShare} f) : sProp (MM F))
      ⊢ |={Set.univ}=> iprop((bigSep Finset.univ fun i : Fin n => iprop((ℓt ↦{shareTok q n i} ft) ∗ (ℓi ↦{shareTok q n i} fi) ∗ ∃ f, ℓo ↦[R i]{fullShare} f))
        ∗ ((bigSep Finset.univ fun i : Fin n => iprop((ℓt ↦{shareTok q n i} ft) ∗ (ℓi ↦{shareTok q n i} fi) ∗ ℓo ↦[R i]{fullShare} fo))
            -∗ iprop((ℓt ↦{q} ft) ∗ (ℓi ↦{q} fi) ∗ ℓo ↦[U]{fullShare} fo))) := by
  subst hU
  simp only [pointsTo_biUnion Finset.univ R hR]
  rw [bigSep_sep', bigSep_sep', bigSep_sep', bigSep_sep']
  iintro ⟨Ht, Hi, Ho⟩
  ihave Ht' := (pointsTo_toks_split q n) $$ Ht
  icases Ht' with ⟨Htd, Hts⟩
  ihave Hi' := (pointsTo_toks_split q n) $$ Hi
  icases Hi' with ⟨Hid, His⟩
  imodintro
  isplitl [Hts His Ho]
  · iframe Hts His
    have hmono : (bigSep Finset.univ fun i : Fin n => (ℓo ↦[R i]{fullShare} f : sProp (MM F)))
        ⊢ bigSep Finset.univ fun i : Fin n => (iprop(∃ f, ℓo ↦[R i]{fullShare} f) : sProp (MM F)) :=
      bigSep_mono fun i _ => BIClass.exists_intro (Φ := fun g => (ℓo ↦[R i]{fullShare} g : sProp (MM F))) f
    iapply hmono; iexact Ho
  · iintro ⟨Hts, His, Hos⟩
    iframe Hos
    isplitl [Htd Hts]
    · iapply (pointsTo_toks_join q n); iframe
    · iapply (pointsTo_toks_join q n); iframe

-- An existential in the third factor of a premise is opened.
theorem ex3 {A B G : sProp (MM F)} {β : Type} {Φ : β → sProp (MM F)} (h : ∀ f, iprop(A ∗ B ∗ Φ f) ⊢ G) : iprop(A ∗ B ∗ ∃ f, Φ f) ⊢ G := by
  iintro ⟨HA, HB, %f, HΦ⟩
  iapply (h f); iframe

end Generic

section Concrete

variable [FloatOps F] (m : (ℓ : Loc nD τ sig) → Buf (Elt F) ℓ)

-- A core's operands split among its sixteen tiles, and the tiles' results gather.
theorem vecSplit (q : Fin 3) : (K (F := F)).VecSplit' (P m) q := by
  intro d c
  refine split_cast (nSub_eq q) (A := stP m q d (Fin.cast (nCore_eq q) c)) (B := dnP m q d (Fin.cast (nCore_eq q) c))
    (Φ := goP m q d (Fin.cast (nCore_eq q) c)) (Ψ := tdP m q d (Fin.cast (nCore_eq q) c)) ?_
  generalize Fin.cast (nCore_eq q) c = c'
  fin_cases q
  · exact ex3 fun f => split_pieces (ℓo := (SparseCore.T d).loc main_v7) 16 (qC c') _ _ f (V3 m d (dr main_v7)) _ (tileRows_disjoint c') rfl
  · exact ex3 fun f => split_pieces (ℓo := (SparseCore.T d).loc main_v16) 16 (qC c') _ _ f (V6 m d (dr main_v16)) _ (tileRows_disjoint c') rfl
  · exact ex3 fun f => split_pieces (ℓo := (SparseCore.T d).loc main_v25) 16 (qC c') _ _ f (V9 m d (dr main_v25)) _ (tileRows_disjoint c') rfl

end Concrete

end Cert.KernelIdeal.Hand

end
-- ==== Proof.PreOK.lean ====
import proofs.«207978_g39513699123711_cont_8to1_b_1293_21_alg».proof.Proof.PreRange
import proofs.«207978_g39513699123711_cont_8to1_b_1293_21_alg».proof.Proof.ValsRead
import proofs.«207978_g39513699123711_cont_8to1_b_1293_21_alg».proof.Proof.Vals

noncomputable section

namespace Cert.KernelIdeal.Hand

open Cert.KernelIdeal Cert.KernelIdeal.Gen
open Idealize.ShloMosaic Idealize.ShloMosaic.ValueIdx Idealize.SL.Sem

variable {F : FTy → Type} [FloatOps F]

-- An entry of the padded source list is a source entry or a padding zero.
theorem srcPad_lt (ei : Vec F S2x320000 .i32) (h : ∀ i, (ei i).toNat < 10000) (j : S320128.Idx) :
    (kSrcPad ei j).toNat < 10000 := by
  obtain ⟨q, rfl⟩ : ∃ q : Fin 320128, j = ix1 q := ⟨j 0, eq_ix1 j⟩
  unfold kSrcPad
  by_cases hq : q.val < 320000
  · rw [concatenate_pair_apply_left 0 _ _ concatenates_S320000_S128_S320128_d0 (ix1 q) rfl (ix1 (⟨q.val, hq⟩ : Fin 320000))
      (fun b => by
        match b with
        | ⟨0, _⟩ => rfl)]
    exact h _
  · rw [concatenate_pair_apply_right 0 _ _ concatenates_S320000_S128_S320128_d0 (ix1 q) rfl rfl
      (ix1 (⟨q.val - 320000, by have := q.isLt; omega⟩ : Fin 128))
      (fun b hb => by
        match b with
        | ⟨0, _⟩ => exact absurd rfl hb)
      (by show (q.val - 320000) + 320000 = q.val; omega)]
    show (0#32 : BitVec 32).toNat < 10000
    decide

def PreOK (m : (ℓ : Loc nD τ sig) → Buf (Elt F) ℓ) : Prop :=
  ∀ (d : Dev nD) (j : S320128.Idx), ((kSrcPad (F := F) (m ((SparseCore.T d).loc main_arg1))) j).toNat < 10000

theorem preOK_of_pre [Cert.Pre_input_domain.Facts] (m : (ℓ : Loc nD τ sig) → Buf (Elt F) ℓ)
    (h : ∀ c : Dev nD, (Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))) = (fun _ => 1#1)) : PreOK m :=
  fun d j => srcPad_lt _ (Cert.Pre_input_domain.Hand.pre_edge_lt _ _ _ _ _ _ _ _ _ _ _ (h d)) j

-- Each of the three calls reads the padded source list.
theorem idx_lt (m : (ℓ : Loc nD τ sig) → Buf (Elt F) ℓ) (hp : PreOK m) (d : Dev nD) :
    (∀ j : S320128.Idx, ((V2 m d (dr main_v5) : Vec F S320128 .i32) j).toNat < 10000)
    ∧ (∀ j : S320128.Idx, ((V5 m d (dr main_v5) : Vec F S320128 .i32) j).toNat < 10000)
    ∧ (∀ j : S320128.Idx, ((V8 m d (dr main_v5) : Vec F S320128 .i32) j).toNat < 10000) := by
  rw [V2_v5, V5_v5, V8_v5]
  exact ⟨hp d, hp d, hp d⟩

end Cert.KernelIdeal.Hand

end
-- ==== Proof.ScBody.lean ====
import proofs.«207978_g39513699123711_cont_8to1_b_1293_21_alg».proof.Proof.Common
import proofs.«207978_g39513699123711_cont_8to1_b_1293_21_alg».proof.Proof.ValDefs
import Idealize.ShloMosaic.Lib.SparseCore.Stream
import Idealize.ShloMosaic.Lib.Transfers
import Idealize.ShloMosaic.Lib.ValueIdx
import Idealize.ShloMosaic.Lib.Tactic

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

noncomputable abbrev cV1 (L : grid1.Coords) : Fin τ.nSC := (L 0).castLE hcore1
noncomputable abbrev jV1 (L : grid1.Coords) : Fin τ.nSub := (L 1).castLE hsub1

noncomputable abbrev pV (L : grid1.Coords) : Proc τ := .scVector (cV1 L) (jV1 L)
noncomputable abbrev VT1 (d : Dev nD) (L : grid1.Coords) : Thread nD τ := V d (cV1 L) (jV1 L)
abbrev SV (F : FTy → Type) (d : Dev nD) (L : grid1.Coords) : Type := Buf (Elt F) ((VT1 d L).loc cc1_scratch0)
abbrev RowBuf : Type := Memref sig .scVector .vmem S128x128 .f32

noncomputable abbrev tabLoc (d : Dev nD) : Loc nD τ sig := (SparseCore.T d).loc main_v6
noncomputable abbrev idxLoc (d : Dev nD) : Loc nD τ sig := (SparseCore.T d).loc main_v5
noncomputable abbrev outLoc (d : Dev nD) : Loc nD τ sig := (SparseCore.T d).loc main_v7

noncomputable def ebase (L : grid1.Coords) : Nat := 20000 * (L 1).val + 10000 * (L 0).val

theorem ebase_le (L : grid1.Coords) : ebase L + 10000 ≤ 320000 := by
  have h0 : (L 0).val < 2 := (L 0).isLt
  have h1 : (L 1).val < 16 := (L 1).isLt
  unfold ebase; omega

noncomputable def tileRows (L : grid1.Coords) : Finset S320000x128.Idx :=
  Finset.univ.filter fun x => ebase L ≤ (x 0).val ∧ (x 0).val < ebase L + 10000

theorem mem_tileRows {L : grid1.Coords} {x : S320000x128.Idx} :
    x ∈ tileRows L ↔ ebase L ≤ (x 0).val ∧ (x 0).val < ebase L + 10000 := by
  simp [tileRows]

abbrev semBase1 : Nat := 5

noncomputable abbrev csem (k : Nat) (hk : k < 33 := by decide) : DmaSem sig := ⟨k, hk⟩
noncomputable abbrev smA : DmaSem sig := ⟨semBase1 + 0, by decide⟩
noncomputable abbrev smB : DmaSem sig := ⟨semBase1 + 1, by decide⟩
noncomputable abbrev smC : DmaSem sig := ⟨semBase1 + 2, by decide⟩
noncomputable abbrev smD : DmaSem sig := ⟨semBase1 + 3, by decide⟩
noncomputable abbrev smE : DmaSem sig := ⟨semBase1 + 4, by decide⟩
noncomputable abbrev smF : DmaSem sig := ⟨semBase1 + 5, by decide⟩

noncomputable abbrev dcell (d : Dev nD) (c : Fin τ.nSC) (i : Fin τ.nSub) (k : Fin 6) : GSem nD τ sig :=
  (V d c i, .dma (csem (semBase1 + k.val) (by have := k.isLt; unfold semBase1; omega)))

noncomputable abbrev cells0 (d : Dev nD) (L : grid1.Coords) : sProp (MM F) :=
  iprop(semVal (VT1 d L, SemLoc.dma smA) 0 ∗ semVal (VT1 d L, SemLoc.dma smB) 0 ∗ semVal (VT1 d L, SemLoc.dma smC) 0
    ∗ semVal (VT1 d L, SemLoc.dma smD) 0 ∗ semVal (VT1 d L, SemLoc.dma smE) 0 ∗ semVal (VT1 d L, SemLoc.dma smF) 0)

theorem dcell_mem (d : Dev nD) (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

theorem ownSems0_V (d : Dev nD) (L : grid1.Coords) :
    (ownSems0 (VT1 d L) : sProp (MM F))
      = iprop(cells0 d L
          ∗ bigSep ((ownCells (VT1 d L)) \ Finset.univ.image (dcell d (cV1 L) (jV1 L))) fun g => semVal g 0) := by
  unfold SparseCore.Cfg.ownSems0
  rw [SparseCore.bigSep_sdiff_split' (t := Finset.univ.image (dcell d (cV1 L) (jV1 L)))
      (Finset.image_subset_iff.mpr fun k _ => dcell_mem d (cV1 L) (jV1 L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl
theorem ownBufs_V (d : Dev nD) (L : grid1.Coords) :
    (ownBufs (VT1 d L) : sProp (MM F))
      = iprop((∃ f, (VT1 d L).loc cc1_scratch0 ↦{fullShare} f) ∗ (∃ f, (VT1 d L).loc cc1_scratch1 ↦{fullShare} f)
          ∗ (∃ f, (VT1 d L).loc cc1_scratch2 ↦{fullShare} f)
          ∗ bigSep ((((ownRefs (τ := τ) (pV L)).erase ((pV L).devRef cc1_scratch0)).erase ((pV L).devRef cc1_scratch1)).erase ((pV L).devRef cc1_scratch2))
              fun b => iprop(∃ f, ((d, b) : Loc nD τ sig) ↦{fullShare} f)) := by
  have hne {a b : Ref sig .scVector} (h : a ≠ b) : (pV L).devRef a ≠ (pV L).devRef b := fun e => h (Proc.devRef_injective _ e)
  unfold SparseCore.Cfg.ownBufs
  refine (SparseCore.bigSep_erase' (SparseCore.Cfg.mem_ownRefs_of_owner (p := pV L) (b := (pV L).devRef cc1_scratch0) rfl)).trans ?_
  rw [SparseCore.bigSep_erase' (Finset.mem_erase.mpr ⟨hne (by decide), SparseCore.Cfg.mem_ownRefs_of_owner (p := pV L) (b := (pV L).devRef cc1_scratch1) rfl⟩),
    SparseCore.bigSep_erase' (Finset.mem_erase.mpr ⟨hne (by decide), Finset.mem_erase.mpr ⟨hne (by decide), SparseCore.Cfg.mem_ownRefs_of_owner (p := pV L) (b := (pV L).devRef cc1_scratch2) rfl⟩⟩)]

noncomputable abbrev tW : Memref sig .scVector .hbm S10000x128 .f32 := Memref.whole main_v6_scv
noncomputable abbrev iW : Memref sig .scVector .hbm S320128 .i32 := Memref.whole main_v5_scv
noncomputable abbrev oW : Memref sig .scVector .hbm S320000x128 .f32 := Memref.whole main_v7_scv
noncomputable abbrev sW : Memref sig .scVector .vmem S10112 .i32 := Memref.whole cc1_scratch0
noncomputable abbrev r1W : RowBuf := Memref.whole cc1_scratch1
noncomputable abbrev r2W : RowBuf := Memref.whole cc1_scratch2

noncomputable abbrev tAll : Memref sig .scVector .hbm S10000x128 .f32 :=
  tW.slice (Rect.unit (s := S10000x128) ![0, 0] S10000x128.size inb_S10000x128_S10000x128_0_0) (fun _ => rfl)

noncomputable abbrev offsM (off : Fin 1 → Nat) (inb : ∀ a, off a + S128.size a ≤ S10112.size a) : Memref sig .scVector .vmem S128 .i32 :=
  sW.slice (Rect.unit (s := S10112) off S128.size inb) (fun _ => rfl)

noncomputable abbrev iWin (L : grid1.Coords) : Memref sig .scVector .hbm S10112 .i32 :=
  iW.slice (Rect.unit (s := S320128) (k1_off1 L) S10112.size (k1_off1_inb L)) (fun _ => rfl)

theorem pts_r1 (d : Dev nD) (L : grid1.Coords) (f : Buf (Elt F) ((VT1 d L).loc cc1_scratch1)) :
    ((r1W).view.loc (VT1 d L) ↦[(r1W).view.set]{fullShare} f : sProp (MM F)) = (VT1 d L).loc cc1_scratch1 ↦{fullShare} f := by
  rw [View.set_whole]
theorem pts_r2 (d : Dev nD) (L : grid1.Coords) (f : Buf (Elt F) ((VT1 d L).loc cc1_scratch2)) :
    ((r2W).view.loc (VT1 d L) ↦[(r2W).view.set]{fullShare} f : sProp (MM F)) = (VT1 d L).loc cc1_scratch2 ↦{fullShare} f := by
  rw [View.set_whole]

noncomputable abbrev Sh (H : Nat) : Shape := ⟨2, ![H, 128]⟩

noncomputable abbrev oWin (H : Nat) (offc : Fin 2 → Nat) (inbc : ∀ a, offc a + (Sh H).size a ≤ S320000x128.size a) : Memref sig .scVector .hbm (Sh H) .f32 :=
  oW.slice (Rect.unit (s := S320000x128) offc (Sh H).size inbc) (fun _ => rfl)

section Values

variable [FloatOps F] (d : Dev nD) (L : grid1.Coords) (tab : Vec F S10000x128 .f32) (idx : Vec F S320128 .i32)

def SVok (sv : SV F d L) : Prop :=
  ∀ (i : S10112.Idx) (j : S320128.Idx), (j 0).val = ebase L + (i 0).val → sv i = idx j

def RowsOK (H : Nat) (sv : SV F d L) (g : (Sh H).Idx → Elt F .f32) (o : Nat) : Prop :=
  ∀ (y : (Sh H).Idx) (i : S10112.Idx) (t : S10000x128.Idx),
    (i 0).val = o + (y 0).val → (t 0).val = (sv i).toNat → (t 1).val = (y 1).val → g y = tab t

def OutOK (f : Buf (Elt F) (outLoc d)) (n : Nat) : Prop :=
  ∀ x : S320000x128.Idx, ebase L ≤ (x 0).val → (x 0).val < ebase L + n → f x = gatherRows tab idx x

theorem hin_offs (sv : SV F d L) (hsv : ∀ i : S10112.Idx, (sv i).toNat < 10000)
    (off : Fin 1 → Nat) (inb : ∀ a, off a + S128.size a ≤ S10112.size a) (hg : S10000x128.Gathers 0 S128x128) :
    ∀ x, ((offsM off inb).view.read (Elt F) sv x).toNat < S10000x128.size hg.axis :=
  fun x => hsv ((offsM off inb).view.emb x)

theorem rowMajor_symm_S128 : ∀ k : Fin S128.numel, ((S128.rowMajor.symm k) 0).val = k.val := by decide +kernel

theorem rows_ok (sv : SV F d L) (off : Fin 1 → Nat) (inb : ∀ a, off a + S128.size a ≤ S10112.size a)
    (hg : S10000x128.Gathers 0 S128x128) (hn : S128.numel = S128x128.size hg.axis')
    (hin' : ∀ x, ((offsM off inb).view.read (Elt F) sv x).toNat < S10000x128.size hg.axis) :
    RowsOK d L tab 128 sv (SparseCore.gatherPayload hg ((tAll).view.read (Elt F) tab) (SparseCore.rows ((offsM off inb).view.read (Elt F) sv) hn hin')) (off 0) := by
  intro y i t hi ht0 ht1
  have hemb : (offsM off inb).view.emb (S128.rowMajor.symm ((y 0).cast hn.symm)) = i := by
    funext b; apply Fin.ext
    match b with
    | ⟨0, _⟩ =>
      show off 0 + 1 * ((S128.rowMajor.symm ((y 0).cast hn.symm)) 0).val = (i 0).val
      rw [rowMajor_symm_S128, hi, Nat.one_mul]; rfl
  have h0 : ((hg.idx _ y) 0).val = (sv ((offsM off inb).view.emb (S128.rowMajor.symm ((y 0).cast hn.symm)))).toNat :=
    congrArg Fin.val (Shape.Gathers.idx_axis hg (SparseCore.rows _ hn hin') y)
  have h1 : ((hg.idx _ y) 1).val = (y 1).val := Shape.Gathers.idx_of_ne hg (SparseCore.rows _ hn hin') y 1 (by decide)
  show tab ((tAll).view.emb (hg.idx _ y)) = tab t
  congr 1
  funext a
  apply Fin.ext
  match a with
  | ⟨0, _⟩ => show 0 + 1 * ((hg.idx _ y) 0).val = (t 0).val; rw [h0, hemb, ht0]; omega
  | ⟨1, _⟩ => show 0 + 1 * ((hg.idx _ y) 1).val = (t 1).val; rw [h1, ht1]; omega

theorem out_step (H : Nat) (f : Buf (Elt F) (outLoc d)) (n : Nat) (hn : n + H ≤ 10000) (offc : Fin 2 → Nat)
    (inbc : ∀ a, offc a + (Sh H).size a ≤ S320000x128.size a)
    (h0 : offc 0 = ebase L + n) (h1 : offc 1 = 0)
    (sv : SV F d L) (hSV : SVok d L idx sv) (hin : ∀ j, (idx j).toNat < 10000)
    (g : (Sh H).Idx → Elt F .f32) (hg : RowsOK d L tab H sv g n)
    (hf : OutOK d L tab idx f n) :
    OutOK d L tab idx (View.write (Elt F) (oWin H offc inbc).view f
      (ReadAs.same.apply g) Finset.univ) (n + H) := by
  intro x hlo hhi
  have hx1 : (x 1).val < 128 := idx2_lt1 x
  have hx0 : (x 0).val < 320000 := idx2_lt0 x
  have heb := ebase_le L
  by_cases hx : (x 0).val < ebase L + n
  · rw [View.write_of_not_mem]
    · exact hf x hlo hx
    · rw [View.setOn_univ]
      intro hm
      simp only [Memref.view_slice, Memref.view_whole, View.set_slice_whole, Rect.mem_set_unit] at hm
      have := (hm 0).1
      omega
  · obtain ⟨y, hy0, hy1⟩ : ∃ y : (Sh H).Idx, (y 0).val = (x 0).val - (ebase L + n) ∧ (y 1).val = (x 1).val :=
      ⟨ix2 (n0 := H) (n1 := 128) ⟨(x 0).val - (ebase L + n), by omega⟩ ⟨(x 1).val, hx1⟩, rfl, rfl⟩
    have hyH : (y 0).val < H := idx2_lt0 y
    have hxy : (oWin H offc inbc).view.emb y = x := by
      funext a; apply Fin.ext
      match a with
      | ⟨0, _⟩ => show offc 0 + 1 * (y 0).val = (x 0).val; omega
      | ⟨1, _⟩ => show offc 1 + 1 * (y 1).val = (x 1).val; omega
    obtain ⟨i, hi⟩ : ∃ i : S10112.Idx, (i 0).val = n + (y 0).val := ⟨ix1 (n := 10112) ⟨n + (y 0).val, by omega⟩, rfl⟩
    unfold gatherRows
    refine ((congrArg _ hxy.symm).trans ((View.write_emb_of_mem _ _ (Finset.mem_univ y)).trans (cast_eq _ _))).trans (hg y i _ hi ?_ ?_)
    · show (idx (ix1 (n := 320128) ⟨(x 0).val, _⟩)).toNat % 10000 = (sv i).toNat
      rw [hSV i (ix1 (n := 320128) ⟨(x 0).val, by omega⟩) (by show (x 0).val = ebase L + (i 0).val; omega)]
      exact Nat.mod_eq_of_lt (hin _)
    · show (x 1).val = (y 1).val; omega

theorem rows16 (sv : SV F d L) (g1 : BufTy.Contents (Elt F) (r1W).view.ty) (o : Nat)
    (h : RowsOK d L tab 128 sv (View.read (Elt F) (r1W).view g1) o) :
    RowsOK d L tab 16 sv (View.read (Elt F) ((r1W).slice (Rect.unit (s := S128x128) ![0, 0] S16x128.size inb_S128x128_S16x128_0_0) (fun _ => rfl)).view g1) o := by
  intro y i t hi ht0 ht1
  refine h ((Rect.unit (s := S128x128) ![0, 0] S16x128.size inb_S128x128_S16x128_0_0).emb y) i t ?_ ht0 ?_
  · show (i 0).val = o + (0 + 1 * (y 0).val); omega
  · show (t 1).val = 0 + 1 * (y 1).val; omega

noncomputable abbrev svOf (fs0 : SV F d L) : SV F d L :=
  View.write (Elt F) (sW).view fs0 (ReadAs.same.apply (View.read (Elt F) (iWin L).view idx)) Finset.univ

theorem svOf_apply (fs0 : SV F d L) (i : S10112.Idx) :
    svOf d L idx fs0 i = idx ((iWin L).view.emb i) := by
  unfold svOf
  rw [View.write_whole_univ]
  rfl

theorem svOk (fs0 : SV F d L) : SVok d L idx (svOf d L idx fs0) := by
  intro i j hj
  rw [svOf_apply]
  congr 1
  funext a
  apply Fin.ext
  match a with
  | ⟨0, _⟩ =>
    show (k1_off1 L 0 + 1 * (i 0).val) = (j 0).val
    rw [k1_off1_eq]; simp [ebase] at hj ⊢; omega

theorem svLt (hin : ∀ j, (idx j).toNat < 10000) (fs0 : SV F d L) :
    ∀ i : S10112.Idx, (svOf d L idx fs0 i).toNat < 10000 := by
  intro i; rw [svOf_apply]; exact hin _

theorem chunk_subset (H : Nat) (offc : Fin 2 → Nat) (inbc : ∀ a, offc a + (Sh H).size a ≤ S320000x128.size a)
    (n : Nat) (hn : n + H ≤ 10000) (h0 : offc 0 = ebase L + n) :
    (oWin H offc inbc).view.set ⊆ tileRows L := by
  intro x hx
  simp only [Memref.view_slice, Memref.view_whole, View.set_slice_whole, Rect.mem_set_unit] at hx
  have hx0 : offc 0 ≤ (x 0).val ∧ (x 0).val < offc 0 + H := hx 0
  rw [mem_tileRows]
  omega

theorem off2_0 (k : Fin k1_t1_loop.trips) : (k1_off2 L k 0#32) 0 = ebase L + 256 * k.val := congrFun (k1_off2_eq L k 0) 0
theorem off2_1 (k : Fin k1_t1_loop.trips) : (k1_off2 L k 1#32) 0 = ebase L + (256 * k.val + 128) :=
  (congrFun (k1_off2_eq L k 1) 0).trans (Nat.add_assoc _ _ _)
theorem off2_0c (k : Fin k1_t1_loop.trips) : (k1_off2 L k 0#32) 1 = 0 := congrFun (k1_off2_eq L k 0) 1
theorem off2_1c (k : Fin k1_t1_loop.trips) : (k1_off2 L k 1#32) 1 = 0 := congrFun (k1_off2_eq L k 1) 1
theorem off5_0c : (k1_off5 L) 1 = 0 := congrFun (k1_off5_eq L) 1
theorem off3_0 (k : Fin k1_t1_loop.trips) : (k1_off3 k) 0 = 128 * (2 * (k.val + 1)) := by
  rw [k1_off3_eq]; simp; omega
theorem off4_0 (k : Fin k1_t1_loop.trips) : (k1_off4 k) 0 = 128 * (2 * (k.val + 1) + 1) := by
  rw [k1_off4_eq]; simp; omega
theorem off5_0 : (k1_off5 L) 0 = ebase L + 9984 := congrFun (k1_off5_eq L) 0

end Values

section Slot

variable [FloatOps F] (rW : RowBuf) (sm : DmaSem sig) (d : Dev nD) (L : grid1.Coords) (q h : PosShare TreeShare)
  (tab : Vec F S10000x128 .f32) (sv : SV F d L)

/-- What a slot's pending gather of the list window at `o` delivers: the slot's rows, the table's share, the window. -/
noncomputable def slotD (o : Nat) (So : Finset (Idx ((sW).view.loc (VT1 d L)))) : sProp (MM F) :=
  iprop(∃ fr', ⌜RowsOK d L tab 128 sv (rW.view.read (Elt F) fr') o⌝ ∗ (rW.view.loc (VT1 d L) ↦[rW.view.set]{fullShare} fr')
    ∗ ((tAll).view.loc (VT1 d L) ↦[(tAll).view.set]{q} tab) ∗ ((sW).view.loc (VT1 d L) ↦[So]{h} sv))

/-- A slot with a gather pending on its cell. -/
noncomputable def slotF (o : Nat) : sProp (MM F) :=
  iprop(∃ So, Transfers.Flight countersEmb (VT1 d L) (.dma sm) (default : HIx 3) rW.view.dmaCredit (slotD rW d L q h tab sv o So)
    ∗ ((sW).view.loc (VT1 d L) ↦[Finset.univ \ So]{h} sv))

/-- A slot idle: its rows at some contents, its shares of the table and the list, its cell at zero. -/
noncomputable def slotI : sProp (MM F) :=
  iprop((∃ fr, rW.view.loc (VT1 d L) ↦[rW.view.set]{fullShare} fr)
    ∗ ((tAll).view.loc (VT1 d L) ↦[(tAll).view.set]{q} tab) ∗ ((sW).view.loc (VT1 d L) ↦{h} sv) ∗ semVal (VT1 d L, SemLoc.dma sm) 0)

/-- A slot before trip chunk `c`: that chunk's gather pending while there is such a chunk, else idle. -/
noncomputable def slotS (c : Nat) : sProp (MM F) :=
  if c < 78 then slotF rW sm d L q h tab sv (128 * c) else slotI rW sm d L q h tab sv

/-- The gather's issue on an idle slot: the landed rows are the rows the list window names. -/
theorem gather_step (off : Fin 1 → Nat) (inb : ∀ a, off a + S128.size a ≤ S10112.size a) (hsv : ∀ i : S10112.Idx, (sv i).toNat < 10000)
    {hp} {hg : S10000x128.Gathers 0 S128x128} {hn hsrc he hsp hr}
    {α : Type} {k : PUnit → Prog (TpuEff nD τ sig (Elt F) Λ₀ (VT1 d L).2) α} {Q : α → sProp (MM F)} :
    (slotI rW sm d L q h tab sv : sProp (MM F))
      ⊢ iprop((slotF rW sm d L q h tab sv (off 0) -∗ wp frame (wpE (defs₀ (F := F)) 𝒱₀ (VT1 d L) none) Set.univ (k ⟨⟩) Q)
          -∗ wp frame (wpE (defs₀ (F := F)) 𝒱₀ (VT1 d L) none) Set.univ
              (SparseCore.enqueueIndirectGather hp tAll rW hg (offsM off inb) hn sm hsrc he hsp hr >>= k) Q) := by
  unfold slotI
  iintro ⟨⟨%fr, Hr⟩, HT, Hs, Hc⟩ Hk
  ihave Hs' := (pointsTo_split_subset (q := h) (f := sv) (S := Finset.univ) (Finset.subset_univ (offsM off inb).view.set)).1 $$ Hs
  icases Hs' with ⟨Hso, Hsr⟩
  have hD : (iprop((rW.view.loc (VT1 d L) ↦[rW.view.set]{fullShare}
        (View.write (Elt F) rW.view fr (SparseCore.gatherPayload hg ((tAll).view.read (Elt F) tab)
          (SparseCore.rows ((offsM off inb).view.read (Elt F) sv) hn (hin_offs d L sv hsv off inb hg))) Finset.univ))
      ∗ ((tAll).view.loc (VT1 d L) ↦[(tAll).view.set]{q} tab) ∗ ((offsM off inb).view.loc (VT1 d L) ↦[(offsM off inb).view.set]{h} sv)) : sProp (MM F))
      ⊢ slotD rW d L q h tab sv (off 0) (offsM off inb).view.set := by
    unfold slotD
    iintro ⟨Hr, HT, Hso⟩
    iexists _
    isplitr
    swap
    · isplitl [Hr]; · iexact Hr
      iframe HT
      iexact Hso
    ipureintro
    rw [View.read_write_univ]
    exact rows_ok d L tab sv off inb hg hn (hin_offs d L sv hsv off inb hg)
  iapply (SparseCore.wp_indirectGatherLocal countersEmb 𝒱₀ (VT1 d L) none (hg := hg) (default : HIx 3) rW.view.dmaCredit
      (SparseCore.sum_rowCredit_eq_dmaCredit rW hg.axis' (fun _ => rfl)) (by decide) (hin_offs d L sv hsv off inb hg)) $$ [HT Hr Hso Hc]
  · iframe HT Hr Hso
    iexact Hc
  iintro Hfl
  iapply Hk
  unfold slotF
  iexists (offsM off inb).view.set
  isplitl [Hfl]
  · iapply (Transfers.Flight_mono countersEmb (VT1 d L) hD) $$ Hfl
  · iexact Hsr

/-- The wait for a slot's gather hands back the slot's rows, now the gathered ones, and its shares. -/
theorem slot_wait (o : Nat) (O : CellTallies nD τ sig (HIx 3)) (W : Waits sig (HIx 3))
    {sp' : Space} {s' : Shape} {e' : EltTy} {srcw : Memref sig (VT1 d L).2.kind sp' s' e'} {hsrc : srcw.view.WordExact} {hdst : rW.view.WordExact}
    {α : Type} {k : PUnit → Prog (TpuEff nD τ sig (Elt F) Λ₀ (VT1 d L).2) α} {Q : α → sProp (MM F)} :
    (iprop(slotF rW sm d L q h tab sv o ∗ owes (VT1 d L) O W ∗ Transfers.MayWaits (VT1 d L) (default : HIx 3) O) : sProp (MM F))
      ⊢ iprop((iprop((∃ fr', ⌜RowsOK d L tab 128 sv (rW.view.read (Elt F) fr') o⌝ ∗ (rW.view.loc (VT1 d L) ↦[rW.view.set]{fullShare} fr'))
              ∗ ((tAll).view.loc (VT1 d L) ↦[(tAll).view.set]{q} tab) ∗ ((sW).view.loc (VT1 d L) ↦{h} sv)
              ∗ semVal (VT1 d L, SemLoc.dma sm) 0 ∗ owes (VT1 d L) O (insert (SemLoc.dma sm, (default : HIx 3)) W))
            -∗ wp frame (wpE (defs₀ (F := F)) 𝒱₀ (VT1 d L) none) Set.univ (k ⟨⟩) Q)
          -∗ wp frame (wpE (defs₀ (F := F)) 𝒱₀ (VT1 d L) none) Set.univ (.op (.waitDma2 sm srcw rW hsrc hdst) k) Q) := by
  unfold slotF
  iintro ⟨⟨%So, Hfl, Hsr⟩, HO, #Hmw⟩ Hk
  iapply (Transfers.wp_waitLocalO countersEmb 𝒱₀ (VT1 d L) none (default : HIx 3) (rfl : rW.view.dmaCredit = _)) $$ [Hfl HO]
  · isplitl [Hfl]; · iexact Hfl
    isplitl [HO]; · iexact HO
    iapply (Transfers.MayWaits.elim (SemLoc.dma sm)) $$ Hmw
  unfold slotD
  iintro ⟨⟨%fr', %hfr, Hr, HT, Hso⟩, Hc, HO⟩
  iapply Hk
  isplitl [Hr]
  · iexists fr'; isplitr; · ipureintro; exact hfr
    iexact Hr
  isplitl [HT]; · iexact HT
  isplitl [Hso Hsr]
  · iapply (pointsTo_split_subset (q := h) (f := sv) (S := Finset.univ) (Finset.subset_univ So)).2
    iframe Hso
    iexact Hsr
  iframe Hc
  iexact HO

end Slot

section SlotState

variable [FloatOps F] (rW : RowBuf) (sm : DmaSem sig) (d : Dev nD) (L : grid1.Coords) (tab : Vec F S10000x128 .f32)
  {q h : PosShare TreeShare} {sv : SV F d L}

theorem slotS_pos {c : Nat} (hc : c < 78) : slotS rW sm d L q h tab sv c = slotF rW sm d L q h tab sv (128 * c) := if_pos hc
theorem slotS_neg {c : Nat} (hc : ¬ c < 78) : slotS rW sm d L q h tab sv c = slotI rW sm d L q h tab sv := if_neg hc
theorem slotF_congr {o o' : Nat} (e : o = o') : (slotF rW sm d L q h tab sv o : sProp (MM F)) ⊢ slotF rW sm d L q h tab sv o' := by
  subst e; exact BI.Entails.refl _

end SlotState

/-- Waits recorded at no round keep a wait set inside `W` up to such waits. -/
theorem ins_none {W W' : Waits sig (HIx 3)} (hW' : ∀ p ∈ W', p ∈ W ∨ p.2 = none) (s : SemLoc sig) :
    ∀ p ∈ insert (s, (default : HIx 3)) W', p ∈ W ∨ p.2 = none := fun p hp =>
  (Finset.mem_insert.mp hp).elim (fun e => .inr (e ▸ rfl)) (hW' p)

section Inv

variable [FloatOps F] (d : Dev nD) (L : grid1.Coords) (tab : Vec F S10000x128 .f32) (idx : Vec F S320128 .i32)

noncomputable def inv (fs0 : SV F d L) (qT : PosShare TreeShare)
    (O : CellTallies nD τ sig (HIx 3)) (W : Waits sig (HIx 3)) (k : Nat) (_ : PUnit) : sProp (MM F) :=
  iprop(Transfers.MayWaits (VT1 d L) (default : HIx 3) O
    ∗ slotS r1W smA d L qT.left fullShare.left tab (svOf d L idx fs0) (2 * k)
    ∗ slotS r2W smB d L qT.right fullShare.right tab (svOf d L idx fs0) (2 * k + 1)
    ∗ semVal (VT1 d L, SemLoc.dma smD) 0 ∗ semVal (VT1 d L, SemLoc.dma smE) 0
    ∗ (∃ f, ⌜OutOK d L tab idx f (256 * k)⌝ ∗ outLoc d ↦[tileRows L]{fullShare} f)
    ∗ ∃ W', ⌜∀ p ∈ W', p ∈ W ∨ p.2 = none⌝ ∗ owes (VT1 d L) O W')

end Inv

theorem trips39 : k1_t1_loop.trips = 39 := by decide
theorem cond1_iff : ∀ t : Fin k1_t1_loop.trips, k1_cond1 t = 1#1 ↔ t.val < 38 := by decide +kernel
theorem cond2_iff : ∀ t : Fin k1_t1_loop.trips, k1_cond2 t = 1#1 ↔ t.val < 38 := by decide +kernel

set_option maxHeartbeats 16000000 in
theorem tile_body [FloatOps F] (d : Dev nD) (L : grid1.Coords)
    (tab : Vec F S10000x128 .f32) (idx : Vec F S320128 .i32) (hin : ∀ j, (idx j).toNat < 10000)
    (O : CellTallies nD τ sig (HIx 3)) (W : Waits sig (HIx 3)) (hO : ∀ g, O g none = 0) (qT qI : PosShare TreeShare) :
    (iprop(levAts (K (F := F)).L (K (F := F)).lev ∗ (tabLoc d ↦{qT} tab) ∗ (idxLoc d ↦{qI} idx)
        ∗ (∃ f, outLoc d ↦[tileRows L]{fullShare} f)
        ∗ scopedBufs (VT1 d L) ∗ scopedSems0 (VT1 d L) ∗ owes (VT1 d L) O W) : sProp (MM F))
      ⊢ wp frame (wpE (defs₀ (F := F)) 𝒱₀ (VT1 d L) none) Set.univ
          (cc1_gk L (Memref.whole main_v6_scv) (Memref.isWhole_whole _) (Memref.whole main_v5_scv) (Memref.isWhole_whole _)
            (Memref.whole main_v7_scv) (Memref.isWhole_whole _) (Memref.whole cc1_scratch0) (Memref.isWhole_whole _)
            (Memref.whole cc1_scratch1) (Memref.isWhole_whole _) (Memref.whole cc1_scratch2) (Memref.isWhole_whole _)
            cc1_scratch3 cc1_scratch4 cc1_scoped0 cc1_scoped1 cc1_scoped2 cc1_scoped3)
          fun _ => iprop((tabLoc d ↦{qT} tab) ∗ (idxLoc d ↦{qI} idx)
            ∗ (outLoc d ↦[tileRows L]{fullShare} gatherRows tab idx)
            ∗ scopedBufs (VT1 d L) ∗ scopedSems0 (VT1 d L)
            ∗ ∃ W', ⌜∀ p ∈ W', p ∈ W ∨ p.2 = none⌝ ∗ owes (VT1 d L) O W') := by
  simp only [cc1_gk_eq_skeleton]; unfold cc1_gk_skel
  rw [(K (F := F)).scopedBufs_V facts d (cV1 L) (jV1 L), SparseCore.Cfg.scopedSems0_V (Val := Elt F) d (cV1 L) (jV1 L), ownSems0_V, ownBufs_V]
  iintro ⟨#Hlv, HT, HI, ⟨%fo, Hout⟩, ⟨⟨%fs0, Hs0⟩, ⟨%fr1, Hr1⟩, ⟨%fr2, Hr2⟩, Hbufs⟩, ⟨⟨Hc5, Hc6, Hc7, Hc8, Hc9, Hc10⟩, Hsems⟩, HO⟩
  ihave Hmw := (show levAts (K (F := F)).L (K (F := F)).lev ⊢ Transfers.MayWaits (VT1 d L) (default : HIx 3) O from
    (K (F := F)).mayWaits_none (thr := VT1 d L) hO) $$ Hlv
  ihave HT2 := (pointsTo_share (PosShare.mem_left_op_right qT)).1 $$ HT
  icases HT2 with ⟨HTl, HTr⟩
  ihave HTl' := (pointsTo_split_subset (q := qT.left) (f := tab) (S := Finset.univ) (Finset.subset_univ (tAll).view.set)).1 $$ HTl
  icases HTl' with ⟨HTl, HTlr⟩
  ihave HTr' := (pointsTo_split_subset (q := qT.right) (f := tab) (S := Finset.univ) (Finset.subset_univ (tAll).view.set)).1 $$ HTr
  icases HTr' with ⟨HTr, HTrr⟩
  sl_exec
  ihave HIw := (pointsTo_split_subset (q := qI) (f := idx) (S := Finset.univ) (Finset.subset_univ (iWin L).view.set)).1 $$ HI
  icases HIw with ⟨HIw, HIr⟩
  iapply (Transfers.wp_dmaLocal countersEmb 𝒱₀ (VT1 d L) none (default : HIx 3) _ rfl (View.amount_pos _ _ (show 0 < S10112.numel by decide)) (Finset.subset_univ (sW).view.set)) $$ [HIw Hs0 Hc7]
  · iframe HIw Hs0
    iexact Hc7
  iintro Hci
  sl_exec
  have hsv := svLt d L idx hin fs0
  have hSV := svOk d L idx fs0
  ihave Hs2 := (pointsTo_share (PosShare.mem_left_op_right fullShare)).1 $$ Hci_dst
  icases Hs2 with ⟨HsL, HsR⟩
  ihave Hr1' := (Entails.of_eq (pts_r1 (F := F) d L _).symm) $$ Hr1
  iapply (gather_step r1W smA d L qT.left fullShare.left tab (svOf d L idx fs0) ![0] inb_S10112_S128_0 hsv) $$ [Hr1' HTl HsL Hc5]
  · unfold slotI
    isplitl [Hr1']; · iexists _; iexact Hr1'
    isplitl [HTl]; · iexact HTl
    isplitl [HsL]; · iexact HsL
    iexact Hc5
  iintro HF1
  sl_exec
  ihave Hr2' := (Entails.of_eq (pts_r2 (F := F) d L _).symm) $$ Hr2
  iapply (gather_step r2W smB d L qT.right fullShare.right tab (svOf d L idx fs0) ![128] inb_S10112_S128_128 hsv) $$ [Hr2' HTr HsR Hc6]
  · unfold slotI
    isplitl [Hr2']; · iexists _; iexact Hr2'
    isplitl [HTr]; · iexact HTr
    isplitl [HsR]; · iexact HsR
    iexact Hc6
  iintro HF2
  sl_exec
  sl_for (inv d L tab idx fs0 qT O W) $$ [HF1 HF2 Hc8 Hc9 Hout HO]
  case region =>
    intro k acc
    have hk39 : k.val < 39 := lt_of_lt_of_eq k.isLt trips39
    unfold inv
    iintro ⟨#Hmw, HS1, HS2, Hc8, Hc9, ⟨%f, %hf, Hout⟩, %W', %hW', HO⟩
    rcases Nat.lt_or_ge k.val 38 with h38 | h38
    · have hc1 : k1_cond1 k = 1#1 := (cond1_iff k).mpr h38
      have hc2 : k1_cond2 k = 1#1 := (cond2_iff k).mpr h38

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k1_off2 L k 0#32) _ (256 * k.val) (by omega) (off2_0 L k))) $$ [Hr1 Hout Hc8]
      · iframe Hr1 Hout
        iexact Hc8
      iintro Hco1
      sl_exec
      iapply (gather_step r1W smA d L qT.left fullShare.left tab (svOf d L idx fs0) (k1_off3 k) (k1_off3_inb k hc1) hsv) $$ [Hco1_src HTl HsL Hc5]
      · unfold slotI
        isplitl [Hco1_src]; · iexists _; iexact Hco1_src
        isplitl [HTl]; · iexact HTl
        isplitl [HsL]; · iexact HsL
        iexact Hc5
      iintro HF1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k1_off2 L k 1#32) _ (256 * k.val + 128) (by omega) (off2_1 L k))) $$ [Hr2 Hco1_dst Hc9]
      · iframe Hr2 Hco1_dst
        iexact Hc9
      iintro Hco2
      sl_exec
      iapply (gather_step r2W smB d L qT.right fullShare.right tab (svOf d L idx fs0) (k1_off4 k) (k1_off4_inb k hc2) hsv) $$ [Hco2_src HTr HsR Hc6]
      · unfold slotI
        isplitl [Hco2_src]; · iexists _; iexact Hco2_src
        isplitl [HTr]; · iexact HTr
        isplitl [HsR]; · iexact HsR
        iexact Hc6
      iintro HF2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k1_off2 L k 0#32) (k1_off2_inb L k 0) (off2_0 L k) (off2_0c L k)
        (svOf d L idx fs0) hSV hin _ hg1' hf
      have o2 := out_step d L tab idx 128 _ (256 * k.val + 128) (by omega) (k1_off2 L k 1#32) (k1_off2_inb L k 1) (off2_1 L k) (off2_1c L k)
        (svOf d L idx fs0) hSV hin _ hg2' o1
      isplitl []; · iexact Hmw
      isplitl [HF1]
      · iapply (Entails.of_eq (slotS_pos r1W smA d L tab (by omega : 2 * (k.val + 1) < 78)).symm)
        iapply (slotF_congr r1W smA d L tab (off3_0 k)); iexact HF1
      isplitl [HF2]
      · iapply (Entails.of_eq (slotS_pos r2W smB d L tab (by omega : 2 * (k.val + 1) + 1 < 78)).symm)
        iapply (slotF_congr r2W smB d L tab (off4_0 k)); iexact HF2
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

    · have hc1 : ¬ k1_cond1 k = 1#1 := fun h => absurd ((cond1_iff k).mp h) (by omega)
      have hc2 : ¬ k1_cond2 k = 1#1 := fun h => absurd ((cond2_iff k).mp h) (by omega)

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k1_off2 L k 0#32) _ (256 * k.val) (by omega) (off2_0 L k))) $$ [Hr1 Hout Hc8]
      · iframe Hr1 Hout
        iexact Hc8
      iintro Hco1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k1_off2 L k 1#32) _ (256 * k.val + 128) (by omega) (off2_1 L k))) $$ [Hr2 Hco1_dst Hc9]
      · iframe Hr2 Hco1_dst
        iexact Hc9
      iintro Hco2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k1_off2 L k 0#32) (k1_off2_inb L k 0) (off2_0 L k) (off2_0c L k)
        (svOf d L idx fs0) hSV hin _ hg1' hf
      have o2 := out_step d L tab idx 128 _ (256 * k.val + 128) (by omega) (k1_off2 L k 1#32) (k1_off2_inb L k 1) (off2_1 L k) (off2_1c L k)
        (svOf d L idx fs0) hSV hin _ hg2' o1
      isplitl []; · iexact Hmw
      isplitl [Hco1_src HTl HsL Hc5]
      · iapply (Entails.of_eq (slotS_neg r1W smA d L tab (by omega : ¬ 2 * (k.val + 1) < 78)).symm)
        unfold slotI
        isplitl [Hco1_src]; · iexists _; iexact Hco1_src
        isplitl [HTl]; · iexact HTl
        isplitl [HsL]; · iexact HsL
        iexact Hc5
      isplitl [Hco2_src HTr HsR Hc6]
      · iapply (Entails.of_eq (slotS_neg r2W smB d L tab (by omega : ¬ 2 * (k.val + 1) + 1 < 78)).symm)
        unfold slotI
        isplitl [Hco2_src]; · iexists _; iexact Hco2_src
        isplitl [HTr]; · iexact HTr
        isplitl [HsR]; · iexact HsR
        iexact Hc6
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

  · unfold inv
    isplitl []; · iexact Hmw
    isplitl [HF1]
    · iapply (Entails.of_eq (slotS_pos r1W smA d L tab (by omega : 2 * 0 < 78)).symm)
      iapply (slotF_congr r1W smA d L tab (show (![0] : Fin 1 → Nat) 0 = 128 * (2 * 0) from rfl)); iexact HF1
    isplitl [HF2]
    · iapply (Entails.of_eq (slotS_pos r2W smB d L tab (by omega : 2 * 0 + 1 < 78)).symm)
      iapply (slotF_congr r2W smB d L tab (show (![128] : Fin 1 → Nat) 0 = 128 * (2 * 0 + 1) from rfl)); iexact HF2
    isplitl [Hc8]; · iexact Hc8
    isplitl [Hc9]; · iexact Hc9
    isplitl [Hout]
    · iexists fo; isplitr
      · ipureintro; intro x hlo hhi; omega
      · iexact Hout
    iexists _; isplitr
    swap; · iexact HO
    ipureintro; exact ins_none (fun _ hp => .inl hp) _
  iintro %acc HI
  unfold inv
  icases HI with ⟨-, HS1, HS2, Hc8, Hc9, ⟨%f, %hf, Hout⟩, %W', %hW', HO⟩
  ihave HI1 := (Entails.of_eq (slotS_neg r1W smA d L tab (by decide : ¬ 2 * k1_t1_loop.trips < 78))) $$ HS1
  ihave HI2 := (Entails.of_eq (slotS_neg r2W smB d L tab (by decide : ¬ 2 * k1_t1_loop.trips + 1 < 78))) $$ HS2
  have hf' : OutOK d L tab idx f 9984 := fun x hlo hhi =>
    hf x hlo (lt_of_lt_of_eq hhi (congrArg (fun z => ebase L + z) (show 9984 = 256 * k1_t1_loop.trips by decide)))
  sl_exec
  iapply (gather_step r1W smA d L qT.left fullShare.left tab (svOf d L idx fs0) ![9984] inb_S10112_S128_9984 hsv) $$ [HI1]
  · iexact HI1
  iintro HF1
  sl_exec
  iapply (slot_wait r1W smA d L qT.left fullShare.left tab (svOf d L idx fs0) _ O W') $$ [HF1 HO]
  · iframe HF1 HO
    iexact Hmw
  iintro ⟨⟨%g1, %hg1, Hr1⟩, HTl, HsL, Hc5, HO⟩
  sl_exec
  ihave Hr16 := (pointsTo_split_subset (q := fullShare) (f := g1) (View.set_slice_subset (r1W).view (Rect.unit (s := S128x128) ![0, 0] S16x128.size inb_S128x128_S16x128_0_0))).1 $$ Hr1
  icases Hr16 with ⟨Hr16, Hr1r⟩
  iapply (Transfers.wp_dmaLocal countersEmb 𝒱₀ (VT1 d L) none (default : HIx 3) _ rfl (View.amount_pos _ _ (show 0 < S16x128.numel by decide))
      (chunk_subset L 16 (k1_off5 L) _ 9984 (by omega) (off5_0 L))) $$ [Hr16 Hout Hc10]
  · iframe Hr16 Hout
    iexact Hc10
  iintro Hco3
  sl_exec
  sl_step
  have o3 := out_step d L tab idx 16 f 9984 (by omega) (k1_off5 L) (k1_off5_inb L) (off5_0 L) (off5_0c L) (svOf d L idx fs0) hSV hin _
    (rows16 d L tab (svOf d L idx fs0) g1 _ hg1) hf'
  unfold slotI
  icases HI2 with ⟨⟨%g2, Hr2⟩, HTr, HsR, Hc6⟩
  isplitl [HTl HTlr HTr HTrr]
  · iapply (pointsTo_share (PosShare.mem_left_op_right qT)).2
    isplitl [HTl HTlr]
    · iapply (pointsTo_split_subset (q := qT.left) (f := tab) (S := Finset.univ) (Finset.subset_univ (tAll).view.set)).2
      isplitl [HTl]; · iexact HTl
      iexact HTlr
    · iapply (pointsTo_split_subset (q := qT.right) (f := tab) (S := Finset.univ) (Finset.subset_univ (tAll).view.set)).2
      isplitl [HTr]; · iexact HTr
      iexact HTrr
  isplitl [HIr]; · iexact HIr
  isplitl [Hco3_dst]
  · iapply (Entails.of_eq (pointsTo_congr (fun i hi => o3 i (mem_tileRows.mp hi).1 (mem_tileRows.mp hi).2)))
    iexact Hco3_dst
  isplitl [HsL HsR Hr1r Hr2 Hbufs]
  · isplitl [HsL HsR]
    · iexists (svOf d L idx fs0)
      iapply (pointsTo_share (PosShare.mem_left_op_right fullShare)).2
      isplitl [HsL]; · iexact HsL
      iexact HsR
    isplitl [Hr1r]; · iexists g1; iapply (Entails.of_eq (pts_r1 (F := F) d L _)); iexact Hr1r
    isplitl [Hr2]; · iexists g2; iapply (Entails.of_eq (pts_r2 (F := F) d L _)); iexact Hr2
    iexact Hbufs
  isplitl [Hc5 Hc6 Hci Hc8 Hc9 Hco3 Hsems]
  · isplitl [Hc5 Hc6 Hci Hc8 Hc9 Hco3]
    · isplitl [Hc5]; · iexact Hc5
      isplitl [Hc6]; · iexact Hc6
      isplitl [Hci]; · iexact Hci
      isplitl [Hc8]; · iexact Hc8
      isplitl [Hc9]; · iexact Hc9
      iexact Hco3
    iexact Hsems
  iexists _; isplitr
  swap; · iexact HO
  ipureintro; exact ins_none (ins_none hW' _) _

end Cert.KernelIdeal.Hand

end
-- ==== Proof.ScBody3.lean ====
import proofs.«207978_g39513699123711_cont_8to1_b_1293_21_alg».proof.Proof.Common
import proofs.«207978_g39513699123711_cont_8to1_b_1293_21_alg».proof.Proof.ValDefs
import Idealize.ShloMosaic.Lib.SparseCore.Stream
import Idealize.ShloMosaic.Lib.Transfers
import Idealize.ShloMosaic.Lib.ValueIdx
import Idealize.ShloMosaic.Lib.Tactic

noncomputable section

namespace Cert.KernelIdeal.Hand.Call3

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

noncomputable abbrev cV1 (L : grid3.Coords) : Fin τ.nSC := (L 0).castLE hcore3
noncomputable abbrev jV1 (L : grid3.Coords) : Fin τ.nSub := (L 1).castLE hsub3

noncomputable abbrev pV (L : grid3.Coords) : Proc τ := .scVector (cV1 L) (jV1 L)
noncomputable abbrev VT1 (d : Dev nD) (L : grid3.Coords) : Thread nD τ := V d (cV1 L) (jV1 L)
abbrev SV (F : FTy → Type) (d : Dev nD) (L : grid3.Coords) : Type := Buf (Elt F) ((VT1 d L).loc cc3_scratch0)
abbrev RowBuf : Type := Memref sig .scVector .vmem S128x128 .f32

noncomputable abbrev tabLoc (d : Dev nD) : Loc nD τ sig := (SparseCore.T d).loc main_v15
noncomputable abbrev idxLoc (d : Dev nD) : Loc nD τ sig := (SparseCore.T d).loc main_v5
noncomputable abbrev outLoc (d : Dev nD) : Loc nD τ sig := (SparseCore.T d).loc main_v16

noncomputable def ebase (L : grid3.Coords) : Nat := 20000 * (L 1).val + 10000 * (L 0).val

theorem ebase_le (L : grid3.Coords) : ebase L + 10000 ≤ 320000 := by
  have h0 : (L 0).val < 2 := (L 0).isLt
  have h1 : (L 1).val < 16 := (L 1).isLt
  unfold ebase; omega

noncomputable def tileRows (L : grid3.Coords) : Finset S320000x128.Idx :=
  Finset.univ.filter fun x => ebase L ≤ (x 0).val ∧ (x 0).val < ebase L + 10000

theorem mem_tileRows {L : grid3.Coords} {x : S320000x128.Idx} :
    x ∈ tileRows L ↔ ebase L ≤ (x 0).val ∧ (x 0).val < ebase L + 10000 := by
  simp [tileRows]

abbrev semBase1 : Nat := 16

noncomputable abbrev csem (k : Nat) (hk : k < 33 := by decide) : DmaSem sig := ⟨k, hk⟩
noncomputable abbrev smA : DmaSem sig := ⟨semBase1 + 0, by decide⟩
noncomputable abbrev smB : DmaSem sig := ⟨semBase1 + 1, by decide⟩
noncomputable abbrev smC : DmaSem sig := ⟨semBase1 + 2, by decide⟩
noncomputable abbrev smD : DmaSem sig := ⟨semBase1 + 3, by decide⟩
noncomputable abbrev smE : DmaSem sig := ⟨semBase1 + 4, by decide⟩
noncomputable abbrev smF : DmaSem sig := ⟨semBase1 + 5, by decide⟩

noncomputable abbrev dcell (d : Dev nD) (c : Fin τ.nSC) (i : Fin τ.nSub) (k : Fin 6) : GSem nD τ sig :=
  (V d c i, .dma (csem (semBase1 + k.val) (by have := k.isLt; unfold semBase1; omega)))

noncomputable abbrev cells0 (d : Dev nD) (L : grid3.Coords) : sProp (MM F) :=
  iprop(semVal (VT1 d L, SemLoc.dma smA) 0 ∗ semVal (VT1 d L, SemLoc.dma smB) 0 ∗ semVal (VT1 d L, SemLoc.dma smC) 0
    ∗ semVal (VT1 d L, SemLoc.dma smD) 0 ∗ semVal (VT1 d L, SemLoc.dma smE) 0 ∗ semVal (VT1 d L, SemLoc.dma smF) 0)

theorem dcell_mem (d : Dev nD) (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

theorem ownSems0_V (d : Dev nD) (L : grid3.Coords) :
    (ownSems0 (VT1 d L) : sProp (MM F))
      = iprop(cells0 d L
          ∗ bigSep ((ownCells (VT1 d L)) \ Finset.univ.image (dcell d (cV1 L) (jV1 L))) fun g => semVal g 0) := by
  unfold SparseCore.Cfg.ownSems0
  rw [SparseCore.bigSep_sdiff_split' (t := Finset.univ.image (dcell d (cV1 L) (jV1 L)))
      (Finset.image_subset_iff.mpr fun k _ => dcell_mem d (cV1 L) (jV1 L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl
theorem ownBufs_V (d : Dev nD) (L : grid3.Coords) :
    (ownBufs (VT1 d L) : sProp (MM F))
      = iprop((∃ f, (VT1 d L).loc cc3_scratch0 ↦{fullShare} f) ∗ (∃ f, (VT1 d L).loc cc3_scratch1 ↦{fullShare} f)
          ∗ (∃ f, (VT1 d L).loc cc3_scratch2 ↦{fullShare} f)
          ∗ bigSep ((((ownRefs (τ := τ) (pV L)).erase ((pV L).devRef cc3_scratch0)).erase ((pV L).devRef cc3_scratch1)).erase ((pV L).devRef cc3_scratch2))
              fun b => iprop(∃ f, ((d, b) : Loc nD τ sig) ↦{fullShare} f)) := by
  have hne {a b : Ref sig .scVector} (h : a ≠ b) : (pV L).devRef a ≠ (pV L).devRef b := fun e => h (Proc.devRef_injective _ e)
  unfold SparseCore.Cfg.ownBufs
  refine (SparseCore.bigSep_erase' (SparseCore.Cfg.mem_ownRefs_of_owner (p := pV L) (b := (pV L).devRef cc3_scratch0) rfl)).trans ?_
  rw [SparseCore.bigSep_erase' (Finset.mem_erase.mpr ⟨hne (by decide), SparseCore.Cfg.mem_ownRefs_of_owner (p := pV L) (b := (pV L).devRef cc3_scratch1) rfl⟩),
    SparseCore.bigSep_erase' (Finset.mem_erase.mpr ⟨hne (by decide), Finset.mem_erase.mpr ⟨hne (by decide), SparseCore.Cfg.mem_ownRefs_of_owner (p := pV L) (b := (pV L).devRef cc3_scratch2) rfl⟩⟩)]

noncomputable abbrev tW : Memref sig .scVector .hbm S10000x128 .f32 := Memref.whole main_v15_scv
noncomputable abbrev iW : Memref sig .scVector .hbm S320128 .i32 := Memref.whole main_v5_scv
noncomputable abbrev oW : Memref sig .scVector .hbm S320000x128 .f32 := Memref.whole main_v16_scv
noncomputable abbrev sW : Memref sig .scVector .vmem S10112 .i32 := Memref.whole cc3_scratch0
noncomputable abbrev r1W : RowBuf := Memref.whole cc3_scratch1
noncomputable abbrev r2W : RowBuf := Memref.whole cc3_scratch2

noncomputable abbrev tAll : Memref sig .scVector .hbm S10000x128 .f32 :=
  tW.slice (Rect.unit (s := S10000x128) ![0, 0] S10000x128.size inb_S10000x128_S10000x128_0_0) (fun _ => rfl)

noncomputable abbrev offsM (off : Fin 1 → Nat) (inb : ∀ a, off a + S128.size a ≤ S10112.size a) : Memref sig .scVector .vmem S128 .i32 :=
  sW.slice (Rect.unit (s := S10112) off S128.size inb) (fun _ => rfl)

noncomputable abbrev iWin (L : grid3.Coords) : Memref sig .scVector .hbm S10112 .i32 :=
  iW.slice (Rect.unit (s := S320128) (k3_off1 L) S10112.size (k3_off1_inb L)) (fun _ => rfl)

theorem pts_r1 (d : Dev nD) (L : grid3.Coords) (f : Buf (Elt F) ((VT1 d L).loc cc3_scratch1)) :
    ((r1W).view.loc (VT1 d L) ↦[(r1W).view.set]{fullShare} f : sProp (MM F)) = (VT1 d L).loc cc3_scratch1 ↦{fullShare} f := by
  rw [View.set_whole]
theorem pts_r2 (d : Dev nD) (L : grid3.Coords) (f : Buf (Elt F) ((VT1 d L).loc cc3_scratch2)) :
    ((r2W).view.loc (VT1 d L) ↦[(r2W).view.set]{fullShare} f : sProp (MM F)) = (VT1 d L).loc cc3_scratch2 ↦{fullShare} f := by
  rw [View.set_whole]

noncomputable abbrev Sh (H : Nat) : Shape := ⟨2, ![H, 128]⟩

noncomputable abbrev oWin (H : Nat) (offc : Fin 2 → Nat) (inbc : ∀ a, offc a + (Sh H).size a ≤ S320000x128.size a) : Memref sig .scVector .hbm (Sh H) .f32 :=
  oW.slice (Rect.unit (s := S320000x128) offc (Sh H).size inbc) (fun _ => rfl)

section Values

variable [FloatOps F] (d : Dev nD) (L : grid3.Coords) (tab : Vec F S10000x128 .f32) (idx : Vec F S320128 .i32)

def SVok (sv : SV F d L) : Prop :=
  ∀ (i : S10112.Idx) (j : S320128.Idx), (j 0).val = ebase L + (i 0).val → sv i = idx j

def RowsOK (H : Nat) (sv : SV F d L) (g : (Sh H).Idx → Elt F .f32) (o : Nat) : Prop :=
  ∀ (y : (Sh H).Idx) (i : S10112.Idx) (t : S10000x128.Idx),
    (i 0).val = o + (y 0).val → (t 0).val = (sv i).toNat → (t 1).val = (y 1).val → g y = tab t

def OutOK (f : Buf (Elt F) (outLoc d)) (n : Nat) : Prop :=
  ∀ x : S320000x128.Idx, ebase L ≤ (x 0).val → (x 0).val < ebase L + n → f x = gatherRows tab idx x

theorem hin_offs (sv : SV F d L) (hsv : ∀ i : S10112.Idx, (sv i).toNat < 10000)
    (off : Fin 1 → Nat) (inb : ∀ a, off a + S128.size a ≤ S10112.size a) (hg : S10000x128.Gathers 0 S128x128) :
    ∀ x, ((offsM off inb).view.read (Elt F) sv x).toNat < S10000x128.size hg.axis :=
  fun x => hsv ((offsM off inb).view.emb x)

theorem rowMajor_symm_S128 : ∀ k : Fin S128.numel, ((S128.rowMajor.symm k) 0).val = k.val := by decide +kernel

theorem rows_ok (sv : SV F d L) (off : Fin 1 → Nat) (inb : ∀ a, off a + S128.size a ≤ S10112.size a)
    (hg : S10000x128.Gathers 0 S128x128) (hn : S128.numel = S128x128.size hg.axis')
    (hin' : ∀ x, ((offsM off inb).view.read (Elt F) sv x).toNat < S10000x128.size hg.axis) :
    RowsOK d L tab 128 sv (SparseCore.gatherPayload hg ((tAll).view.read (Elt F) tab) (SparseCore.rows ((offsM off inb).view.read (Elt F) sv) hn hin')) (off 0) := by
  intro y i t hi ht0 ht1
  have hemb : (offsM off inb).view.emb (S128.rowMajor.symm ((y 0).cast hn.symm)) = i := by
    funext b; apply Fin.ext
    match b with
    | ⟨0, _⟩ =>
      show off 0 + 1 * ((S128.rowMajor.symm ((y 0).cast hn.symm)) 0).val = (i 0).val
      rw [rowMajor_symm_S128, hi, Nat.one_mul]; rfl
  have h0 : ((hg.idx _ y) 0).val = (sv ((offsM off inb).view.emb (S128.rowMajor.symm ((y 0).cast hn.symm)))).toNat :=
    congrArg Fin.val (Shape.Gathers.idx_axis hg (SparseCore.rows _ hn hin') y)
  have h1 : ((hg.idx _ y) 1).val = (y 1).val := Shape.Gathers.idx_of_ne hg (SparseCore.rows _ hn hin') y 1 (by decide)
  show tab ((tAll).view.emb (hg.idx _ y)) = tab t
  congr 1
  funext a
  apply Fin.ext
  match a with
  | ⟨0, _⟩ => show 0 + 1 * ((hg.idx _ y) 0).val = (t 0).val; rw [h0, hemb, ht0]; omega
  | ⟨1, _⟩ => show 0 + 1 * ((hg.idx _ y) 1).val = (t 1).val; rw [h1, ht1]; omega

theorem out_step (H : Nat) (f : Buf (Elt F) (outLoc d)) (n : Nat) (hn : n + H ≤ 10000) (offc : Fin 2 → Nat)
    (inbc : ∀ a, offc a + (Sh H).size a ≤ S320000x128.size a)
    (h0 : offc 0 = ebase L + n) (h1 : offc 1 = 0)
    (sv : SV F d L) (hSV : SVok d L idx sv) (hin : ∀ j, (idx j).toNat < 10000)
    (g : (Sh H).Idx → Elt F .f32) (hg : RowsOK d L tab H sv g n)
    (hf : OutOK d L tab idx f n) :
    OutOK d L tab idx (View.write (Elt F) (oWin H offc inbc).view f
      (ReadAs.same.apply g) Finset.univ) (n + H) := by
  intro x hlo hhi
  have hx1 : (x 1).val < 128 := idx2_lt1 x
  have hx0 : (x 0).val < 320000 := idx2_lt0 x
  have heb := ebase_le L
  by_cases hx : (x 0).val < ebase L + n
  · rw [View.write_of_not_mem]
    · exact hf x hlo hx
    · rw [View.setOn_univ]
      intro hm
      simp only [Memref.view_slice, Memref.view_whole, View.set_slice_whole, Rect.mem_set_unit] at hm
      have := (hm 0).1
      omega
  · obtain ⟨y, hy0, hy1⟩ : ∃ y : (Sh H).Idx, (y 0).val = (x 0).val - (ebase L + n) ∧ (y 1).val = (x 1).val :=
      ⟨ix2 (n0 := H) (n1 := 128) ⟨(x 0).val - (ebase L + n), by omega⟩ ⟨(x 1).val, hx1⟩, rfl, rfl⟩
    have hyH : (y 0).val < H := idx2_lt0 y
    have hxy : (oWin H offc inbc).view.emb y = x := by
      funext a; apply Fin.ext
      match a with
      | ⟨0, _⟩ => show offc 0 + 1 * (y 0).val = (x 0).val; omega
      | ⟨1, _⟩ => show offc 1 + 1 * (y 1).val = (x 1).val; omega
    obtain ⟨i, hi⟩ : ∃ i : S10112.Idx, (i 0).val = n + (y 0).val := ⟨ix1 (n := 10112) ⟨n + (y 0).val, by omega⟩, rfl⟩
    unfold gatherRows
    refine ((congrArg _ hxy.symm).trans ((View.write_emb_of_mem _ _ (Finset.mem_univ y)).trans (cast_eq _ _))).trans (hg y i _ hi ?_ ?_)
    · show (idx (ix1 (n := 320128) ⟨(x 0).val, _⟩)).toNat % 10000 = (sv i).toNat
      rw [hSV i (ix1 (n := 320128) ⟨(x 0).val, by omega⟩) (by show (x 0).val = ebase L + (i 0).val; omega)]
      exact Nat.mod_eq_of_lt (hin _)
    · show (x 1).val = (y 1).val; omega

theorem rows16 (sv : SV F d L) (g1 : BufTy.Contents (Elt F) (r1W).view.ty) (o : Nat)
    (h : RowsOK d L tab 128 sv (View.read (Elt F) (r1W).view g1) o) :
    RowsOK d L tab 16 sv (View.read (Elt F) ((r1W).slice (Rect.unit (s := S128x128) ![0, 0] S16x128.size inb_S128x128_S16x128_0_0) (fun _ => rfl)).view g1) o := by
  intro y i t hi ht0 ht1
  refine h ((Rect.unit (s := S128x128) ![0, 0] S16x128.size inb_S128x128_S16x128_0_0).emb y) i t ?_ ht0 ?_
  · show (i 0).val = o + (0 + 1 * (y 0).val); omega
  · show (t 1).val = 0 + 1 * (y 1).val; omega

noncomputable abbrev svOf (fs0 : SV F d L) : SV F d L :=
  View.write (Elt F) (sW).view fs0 (ReadAs.same.apply (View.read (Elt F) (iWin L).view idx)) Finset.univ

theorem svOf_apply (fs0 : SV F d L) (i : S10112.Idx) :
    svOf d L idx fs0 i = idx ((iWin L).view.emb i) := by
  unfold svOf
  rw [View.write_whole_univ]
  rfl

theorem svOk (fs0 : SV F d L) : SVok d L idx (svOf d L idx fs0) := by
  intro i j hj
  rw [svOf_apply]
  congr 1
  funext a
  apply Fin.ext
  match a with
  | ⟨0, _⟩ =>
    show (k3_off1 L 0 + 1 * (i 0).val) = (j 0).val
    rw [k3_off1_eq]; simp [ebase] at hj ⊢; omega

theorem svLt (hin : ∀ j, (idx j).toNat < 10000) (fs0 : SV F d L) :
    ∀ i : S10112.Idx, (svOf d L idx fs0 i).toNat < 10000 := by
  intro i; rw [svOf_apply]; exact hin _

theorem chunk_subset (H : Nat) (offc : Fin 2 → Nat) (inbc : ∀ a, offc a + (Sh H).size a ≤ S320000x128.size a)
    (n : Nat) (hn : n + H ≤ 10000) (h0 : offc 0 = ebase L + n) :
    (oWin H offc inbc).view.set ⊆ tileRows L := by
  intro x hx
  simp only [Memref.view_slice, Memref.view_whole, View.set_slice_whole, Rect.mem_set_unit] at hx
  have hx0 : offc 0 ≤ (x 0).val ∧ (x 0).val < offc 0 + H := hx 0
  rw [mem_tileRows]
  omega

theorem off2_0 (k : Fin k3_t1_loop.trips) : (k3_off2 L k 0#32) 0 = ebase L + 256 * k.val := congrFun (k3_off2_eq L k 0) 0
theorem off2_1 (k : Fin k3_t1_loop.trips) : (k3_off2 L k 1#32) 0 = ebase L + (256 * k.val + 128) :=
  (congrFun (k3_off2_eq L k 1) 0).trans (Nat.add_assoc _ _ _)
theorem off2_0c (k : Fin k3_t1_loop.trips) : (k3_off2 L k 0#32) 1 = 0 := congrFun (k3_off2_eq L k 0) 1
theorem off2_1c (k : Fin k3_t1_loop.trips) : (k3_off2 L k 1#32) 1 = 0 := congrFun (k3_off2_eq L k 1) 1
theorem off5_0c : (k3_off5 L) 1 = 0 := congrFun (k3_off5_eq L) 1
theorem off3_0 (k : Fin k3_t1_loop.trips) : (k3_off3 k) 0 = 128 * (2 * (k.val + 1)) := by
  rw [k3_off3_eq]; simp; omega
theorem off4_0 (k : Fin k3_t1_loop.trips) : (k3_off4 k) 0 = 128 * (2 * (k.val + 1) + 1) := by
  rw [k3_off4_eq]; simp; omega
theorem off5_0 : (k3_off5 L) 0 = ebase L + 9984 := congrFun (k3_off5_eq L) 0

end Values

section Slot

variable [FloatOps F] (rW : RowBuf) (sm : DmaSem sig) (d : Dev nD) (L : grid3.Coords) (q h : PosShare TreeShare)
  (tab : Vec F S10000x128 .f32) (sv : SV F d L)

/-- What a slot's pending gather of the list window at `o` delivers: the slot's rows, the table's share, the window. -/
noncomputable def slotD (o : Nat) (So : Finset (Idx ((sW).view.loc (VT1 d L)))) : sProp (MM F) :=
  iprop(∃ fr', ⌜RowsOK d L tab 128 sv (rW.view.read (Elt F) fr') o⌝ ∗ (rW.view.loc (VT1 d L) ↦[rW.view.set]{fullShare} fr')
    ∗ ((tAll).view.loc (VT1 d L) ↦[(tAll).view.set]{q} tab) ∗ ((sW).view.loc (VT1 d L) ↦[So]{h} sv))

/-- A slot with a gather pending on its cell. -/
noncomputable def slotF (o : Nat) : sProp (MM F) :=
  iprop(∃ So, Transfers.Flight countersEmb (VT1 d L) (.dma sm) (default : HIx 3) rW.view.dmaCredit (slotD rW d L q h tab sv o So)
    ∗ ((sW).view.loc (VT1 d L) ↦[Finset.univ \ So]{h} sv))

/-- A slot idle: its rows at some contents, its shares of the table and the list, its cell at zero. -/
noncomputable def slotI : sProp (MM F) :=
  iprop((∃ fr, rW.view.loc (VT1 d L) ↦[rW.view.set]{fullShare} fr)
    ∗ ((tAll).view.loc (VT1 d L) ↦[(tAll).view.set]{q} tab) ∗ ((sW).view.loc (VT1 d L) ↦{h} sv) ∗ semVal (VT1 d L, SemLoc.dma sm) 0)

/-- A slot before trip chunk `c`: that chunk's gather pending while there is such a chunk, else idle. -/
noncomputable def slotS (c : Nat) : sProp (MM F) :=
  if c < 78 then slotF rW sm d L q h tab sv (128 * c) else slotI rW sm d L q h tab sv

/-- The gather's issue on an idle slot: the landed rows are the rows the list window names. -/
theorem gather_step (off : Fin 1 → Nat) (inb : ∀ a, off a + S128.size a ≤ S10112.size a) (hsv : ∀ i : S10112.Idx, (sv i).toNat < 10000)
    {hp} {hg : S10000x128.Gathers 0 S128x128} {hn hsrc he hsp hr}
    {α : Type} {k : PUnit → Prog (TpuEff nD τ sig (Elt F) Λ₀ (VT1 d L).2) α} {Q : α → sProp (MM F)} :
    (slotI rW sm d L q h tab sv : sProp (MM F))
      ⊢ iprop((slotF rW sm d L q h tab sv (off 0) -∗ wp frame (wpE (defs₀ (F := F)) 𝒱₀ (VT1 d L) none) Set.univ (k ⟨⟩) Q)
          -∗ wp frame (wpE (defs₀ (F := F)) 𝒱₀ (VT1 d L) none) Set.univ
              (SparseCore.enqueueIndirectGather hp tAll rW hg (offsM off inb) hn sm hsrc he hsp hr >>= k) Q) := by
  unfold slotI
  iintro ⟨⟨%fr, Hr⟩, HT, Hs, Hc⟩ Hk
  ihave Hs' := (pointsTo_split_subset (q := h) (f := sv) (S := Finset.univ) (Finset.subset_univ (offsM off inb).view.set)).1 $$ Hs
  icases Hs' with ⟨Hso, Hsr⟩
  have hD : (iprop((rW.view.loc (VT1 d L) ↦[rW.view.set]{fullShare}
        (View.write (Elt F) rW.view fr (SparseCore.gatherPayload hg ((tAll).view.read (Elt F) tab)
          (SparseCore.rows ((offsM off inb).view.read (Elt F) sv) hn (hin_offs d L sv hsv off inb hg))) Finset.univ))
      ∗ ((tAll).view.loc (VT1 d L) ↦[(tAll).view.set]{q} tab) ∗ ((offsM off inb).view.loc (VT1 d L) ↦[(offsM off inb).view.set]{h} sv)) : sProp (MM F))
      ⊢ slotD rW d L q h tab sv (off 0) (offsM off inb).view.set := by
    unfold slotD
    iintro ⟨Hr, HT, Hso⟩
    iexists _
    isplitr
    swap
    · isplitl [Hr]; · iexact Hr
      iframe HT
      iexact Hso
    ipureintro
    rw [View.read_write_univ]
    exact rows_ok d L tab sv off inb hg hn (hin_offs d L sv hsv off inb hg)
  iapply (SparseCore.wp_indirectGatherLocal countersEmb 𝒱₀ (VT1 d L) none (hg := hg) (default : HIx 3) rW.view.dmaCredit
      (SparseCore.sum_rowCredit_eq_dmaCredit rW hg.axis' (fun _ => rfl)) (by decide) (hin_offs d L sv hsv off inb hg)) $$ [HT Hr Hso Hc]
  · iframe HT Hr Hso
    iexact Hc
  iintro Hfl
  iapply Hk
  unfold slotF
  iexists (offsM off inb).view.set
  isplitl [Hfl]
  · iapply (Transfers.Flight_mono countersEmb (VT1 d L) hD) $$ Hfl
  · iexact Hsr

/-- The wait for a slot's gather hands back the slot's rows, now the gathered ones, and its shares. -/
theorem slot_wait (o : Nat) (O : CellTallies nD τ sig (HIx 3)) (W : Waits sig (HIx 3))
    {sp' : Space} {s' : Shape} {e' : EltTy} {srcw : Memref sig (VT1 d L).2.kind sp' s' e'} {hsrc : srcw.view.WordExact} {hdst : rW.view.WordExact}
    {α : Type} {k : PUnit → Prog (TpuEff nD τ sig (Elt F) Λ₀ (VT1 d L).2) α} {Q : α → sProp (MM F)} :
    (iprop(slotF rW sm d L q h tab sv o ∗ owes (VT1 d L) O W ∗ Transfers.MayWaits (VT1 d L) (default : HIx 3) O) : sProp (MM F))
      ⊢ iprop((iprop((∃ fr', ⌜RowsOK d L tab 128 sv (rW.view.read (Elt F) fr') o⌝ ∗ (rW.view.loc (VT1 d L) ↦[rW.view.set]{fullShare} fr'))
              ∗ ((tAll).view.loc (VT1 d L) ↦[(tAll).view.set]{q} tab) ∗ ((sW).view.loc (VT1 d L) ↦{h} sv)
              ∗ semVal (VT1 d L, SemLoc.dma sm) 0 ∗ owes (VT1 d L) O (insert (SemLoc.dma sm, (default : HIx 3)) W))
            -∗ wp frame (wpE (defs₀ (F := F)) 𝒱₀ (VT1 d L) none) Set.univ (k ⟨⟩) Q)
          -∗ wp frame (wpE (defs₀ (F := F)) 𝒱₀ (VT1 d L) none) Set.univ (.op (.waitDma2 sm srcw rW hsrc hdst) k) Q) := by
  unfold slotF
  iintro ⟨⟨%So, Hfl, Hsr⟩, HO, #Hmw⟩ Hk
  iapply (Transfers.wp_waitLocalO countersEmb 𝒱₀ (VT1 d L) none (default : HIx 3) (rfl : rW.view.dmaCredit = _)) $$ [Hfl HO]
  · isplitl [Hfl]; · iexact Hfl
    isplitl [HO]; · iexact HO
    iapply (Transfers.MayWaits.elim (SemLoc.dma sm)) $$ Hmw
  unfold slotD
  iintro ⟨⟨%fr', %hfr, Hr, HT, Hso⟩, Hc, HO⟩
  iapply Hk
  isplitl [Hr]
  · iexists fr'; isplitr; · ipureintro; exact hfr
    iexact Hr
  isplitl [HT]; · iexact HT
  isplitl [Hso Hsr]
  · iapply (pointsTo_split_subset (q := h) (f := sv) (S := Finset.univ) (Finset.subset_univ So)).2
    iframe Hso
    iexact Hsr
  iframe Hc
  iexact HO

end Slot

section SlotState

variable [FloatOps F] (rW : RowBuf) (sm : DmaSem sig) (d : Dev nD) (L : grid3.Coords) (tab : Vec F S10000x128 .f32)
  {q h : PosShare TreeShare} {sv : SV F d L}

theorem slotS_pos {c : Nat} (hc : c < 78) : slotS rW sm d L q h tab sv c = slotF rW sm d L q h tab sv (128 * c) := if_pos hc
theorem slotS_neg {c : Nat} (hc : ¬ c < 78) : slotS rW sm d L q h tab sv c = slotI rW sm d L q h tab sv := if_neg hc
theorem slotF_congr {o o' : Nat} (e : o = o') : (slotF rW sm d L q h tab sv o : sProp (MM F)) ⊢ slotF rW sm d L q h tab sv o' := by
  subst e; exact BI.Entails.refl _

end SlotState

/-- Waits recorded at no round keep a wait set inside `W` up to such waits. -/
theorem ins_none {W W' : Waits sig (HIx 3)} (hW' : ∀ p ∈ W', p ∈ W ∨ p.2 = none) (s : SemLoc sig) :
    ∀ p ∈ insert (s, (default : HIx 3)) W', p ∈ W ∨ p.2 = none := fun p hp =>
  (Finset.mem_insert.mp hp).elim (fun e => .inr (e ▸ rfl)) (hW' p)

section Inv

variable [FloatOps F] (d : Dev nD) (L : grid3.Coords) (tab : Vec F S10000x128 .f32) (idx : Vec F S320128 .i32)

noncomputable def inv (fs0 : SV F d L) (qT : PosShare TreeShare)
    (O : CellTallies nD τ sig (HIx 3)) (W : Waits sig (HIx 3)) (k : Nat) (_ : PUnit) : sProp (MM F) :=
  iprop(Transfers.MayWaits (VT1 d L) (default : HIx 3) O
    ∗ slotS r1W smA d L qT.left fullShare.left tab (svOf d L idx fs0) (2 * k)
    ∗ slotS r2W smB d L qT.right fullShare.right tab (svOf d L idx fs0) (2 * k + 1)
    ∗ semVal (VT1 d L, SemLoc.dma smD) 0 ∗ semVal (VT1 d L, SemLoc.dma smE) 0
    ∗ (∃ f, ⌜OutOK d L tab idx f (256 * k)⌝ ∗ outLoc d ↦[tileRows L]{fullShare} f)
    ∗ ∃ W', ⌜∀ p ∈ W', p ∈ W ∨ p.2 = none⌝ ∗ owes (VT1 d L) O W')

end Inv

theorem trips39 : k3_t1_loop.trips = 39 := by decide
theorem cond1_iff : ∀ t : Fin k3_t1_loop.trips, k3_cond1 t = 1#1 ↔ t.val < 38 := by decide +kernel
theorem cond2_iff : ∀ t : Fin k3_t1_loop.trips, k3_cond2 t = 1#1 ↔ t.val < 38 := by decide +kernel

set_option maxHeartbeats 16000000 in
theorem tile_body [FloatOps F] (d : Dev nD) (L : grid3.Coords)
    (tab : Vec F S10000x128 .f32) (idx : Vec F S320128 .i32) (hin : ∀ j, (idx j).toNat < 10000)
    (O : CellTallies nD τ sig (HIx 3)) (W : Waits sig (HIx 3)) (hO : ∀ g, O g none = 0) (qT qI : PosShare TreeShare) :
    (iprop(levAts (K (F := F)).L (K (F := F)).lev ∗ (tabLoc d ↦{qT} tab) ∗ (idxLoc d ↦{qI} idx)
        ∗ (∃ f, outLoc d ↦[tileRows L]{fullShare} f)
        ∗ scopedBufs (VT1 d L) ∗ scopedSems0 (VT1 d L) ∗ owes (VT1 d L) O W) : sProp (MM F))
      ⊢ wp frame (wpE (defs₀ (F := F)) 𝒱₀ (VT1 d L) none) Set.univ
          (cc3_gk L (Memref.whole main_v15_scv) (Memref.isWhole_whole _) (Memref.whole main_v5_scv) (Memref.isWhole_whole _)
            (Memref.whole main_v16_scv) (Memref.isWhole_whole _) (Memref.whole cc3_scratch0) (Memref.isWhole_whole _)
            (Memref.whole cc3_scratch1) (Memref.isWhole_whole _) (Memref.whole cc3_scratch2) (Memref.isWhole_whole _)
            cc3_scratch3 cc3_scratch4 cc3_scoped0 cc3_scoped1 cc3_scoped2 cc3_scoped3)
          fun _ => iprop((tabLoc d ↦{qT} tab) ∗ (idxLoc d ↦{qI} idx)
            ∗ (outLoc d ↦[tileRows L]{fullShare} gatherRows tab idx)
            ∗ scopedBufs (VT1 d L) ∗ scopedSems0 (VT1 d L)
            ∗ ∃ W', ⌜∀ p ∈ W', p ∈ W ∨ p.2 = none⌝ ∗ owes (VT1 d L) O W') := by
  simp only [cc3_gk_eq_skeleton]; unfold cc3_gk_skel
  rw [(K (F := F)).scopedBufs_V facts d (cV1 L) (jV1 L), SparseCore.Cfg.scopedSems0_V (Val := Elt F) d (cV1 L) (jV1 L), ownSems0_V, ownBufs_V]
  iintro ⟨#Hlv, HT, HI, ⟨%fo, Hout⟩, ⟨⟨%fs0, Hs0⟩, ⟨%fr1, Hr1⟩, ⟨%fr2, Hr2⟩, Hbufs⟩, ⟨⟨Hc5, Hc6, Hc7, Hc8, Hc9, Hc10⟩, Hsems⟩, HO⟩
  ihave Hmw := (show levAts (K (F := F)).L (K (F := F)).lev ⊢ Transfers.MayWaits (VT1 d L) (default : HIx 3) O from
    (K (F := F)).mayWaits_none (thr := VT1 d L) hO) $$ Hlv
  ihave HT2 := (pointsTo_share (PosShare.mem_left_op_right qT)).1 $$ HT
  icases HT2 with ⟨HTl, HTr⟩
  ihave HTl' := (pointsTo_split_subset (q := qT.left) (f := tab) (S := Finset.univ) (Finset.subset_univ (tAll).view.set)).1 $$ HTl
  icases HTl' with ⟨HTl, HTlr⟩
  ihave HTr' := (pointsTo_split_subset (q := qT.right) (f := tab) (S := Finset.univ) (Finset.subset_univ (tAll).view.set)).1 $$ HTr
  icases HTr' with ⟨HTr, HTrr⟩
  sl_exec
  ihave HIw := (pointsTo_split_subset (q := qI) (f := idx) (S := Finset.univ) (Finset.subset_univ (iWin L).view.set)).1 $$ HI
  icases HIw with ⟨HIw, HIr⟩
  iapply (Transfers.wp_dmaLocal countersEmb 𝒱₀ (VT1 d L) none (default : HIx 3) _ rfl (View.amount_pos _ _ (show 0 < S10112.numel by decide)) (Finset.subset_univ (sW).view.set)) $$ [HIw Hs0 Hc7]
  · iframe HIw Hs0
    iexact Hc7
  iintro Hci
  sl_exec
  have hsv := svLt d L idx hin fs0
  have hSV := svOk d L idx fs0
  ihave Hs2 := (pointsTo_share (PosShare.mem_left_op_right fullShare)).1 $$ Hci_dst
  icases Hs2 with ⟨HsL, HsR⟩
  ihave Hr1' := (Entails.of_eq (pts_r1 (F := F) d L _).symm) $$ Hr1
  iapply (gather_step r1W smA d L qT.left fullShare.left tab (svOf d L idx fs0) ![0] inb_S10112_S128_0 hsv) $$ [Hr1' HTl HsL Hc5]
  · unfold slotI
    isplitl [Hr1']; · iexists _; iexact Hr1'
    isplitl [HTl]; · iexact HTl
    isplitl [HsL]; · iexact HsL
    iexact Hc5
  iintro HF1
  sl_exec
  ihave Hr2' := (Entails.of_eq (pts_r2 (F := F) d L _).symm) $$ Hr2
  iapply (gather_step r2W smB d L qT.right fullShare.right tab (svOf d L idx fs0) ![128] inb_S10112_S128_128 hsv) $$ [Hr2' HTr HsR Hc6]
  · unfold slotI
    isplitl [Hr2']; · iexists _; iexact Hr2'
    isplitl [HTr]; · iexact HTr
    isplitl [HsR]; · iexact HsR
    iexact Hc6
  iintro HF2
  sl_exec
  sl_for (inv d L tab idx fs0 qT O W) $$ [HF1 HF2 Hc8 Hc9 Hout HO]
  case region =>
    intro k acc
    have hk39 : k.val < 39 := lt_of_lt_of_eq k.isLt trips39
    unfold inv
    iintro ⟨#Hmw, HS1, HS2, Hc8, Hc9, ⟨%f, %hf, Hout⟩, %W', %hW', HO⟩
    rcases Nat.lt_or_ge k.val 38 with h38 | h38
    · have hc1 : k3_cond1 k = 1#1 := (cond1_iff k).mpr h38
      have hc2 : k3_cond2 k = 1#1 := (cond2_iff k).mpr h38

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k3_off2 L k 0#32) _ (256 * k.val) (by omega) (off2_0 L k))) $$ [Hr1 Hout Hc8]
      · iframe Hr1 Hout
        iexact Hc8
      iintro Hco1
      sl_exec
      iapply (gather_step r1W smA d L qT.left fullShare.left tab (svOf d L idx fs0) (k3_off3 k) (k3_off3_inb k hc1) hsv) $$ [Hco1_src HTl HsL Hc5]
      · unfold slotI
        isplitl [Hco1_src]; · iexists _; iexact Hco1_src
        isplitl [HTl]; · iexact HTl
        isplitl [HsL]; · iexact HsL
        iexact Hc5
      iintro HF1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k3_off2 L k 1#32) _ (256 * k.val + 128) (by omega) (off2_1 L k))) $$ [Hr2 Hco1_dst Hc9]
      · iframe Hr2 Hco1_dst
        iexact Hc9
      iintro Hco2
      sl_exec
      iapply (gather_step r2W smB d L qT.right fullShare.right tab (svOf d L idx fs0) (k3_off4 k) (k3_off4_inb k hc2) hsv) $$ [Hco2_src HTr HsR Hc6]
      · unfold slotI
        isplitl [Hco2_src]; · iexists _; iexact Hco2_src
        isplitl [HTr]; · iexact HTr
        isplitl [HsR]; · iexact HsR
        iexact Hc6
      iintro HF2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k3_off2 L k 0#32) (k3_off2_inb L k 0) (off2_0 L k) (off2_0c L k)
        (svOf d L idx fs0) hSV hin _ hg1' hf
      have o2 := out_step d L tab idx 128 _ (256 * k.val + 128) (by omega) (k3_off2 L k 1#32) (k3_off2_inb L k 1) (off2_1 L k) (off2_1c L k)
        (svOf d L idx fs0) hSV hin _ hg2' o1
      isplitl []; · iexact Hmw
      isplitl [HF1]
      · iapply (Entails.of_eq (slotS_pos r1W smA d L tab (by omega : 2 * (k.val + 1) < 78)).symm)
        iapply (slotF_congr r1W smA d L tab (off3_0 k)); iexact HF1
      isplitl [HF2]
      · iapply (Entails.of_eq (slotS_pos r2W smB d L tab (by omega : 2 * (k.val + 1) + 1 < 78)).symm)
        iapply (slotF_congr r2W smB d L tab (off4_0 k)); iexact HF2
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

    · have hc1 : ¬ k3_cond1 k = 1#1 := fun h => absurd ((cond1_iff k).mp h) (by omega)
      have hc2 : ¬ k3_cond2 k = 1#1 := fun h => absurd ((cond2_iff k).mp h) (by omega)

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k3_off2 L k 0#32) _ (256 * k.val) (by omega) (off2_0 L k))) $$ [Hr1 Hout Hc8]
      · iframe Hr1 Hout
        iexact Hc8
      iintro Hco1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k3_off2 L k 1#32) _ (256 * k.val + 128) (by omega) (off2_1 L k))) $$ [Hr2 Hco1_dst Hc9]
      · iframe Hr2 Hco1_dst
        iexact Hc9
      iintro Hco2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k3_off2 L k 0#32) (k3_off2_inb L k 0) (off2_0 L k) (off2_0c L k)
        (svOf d L idx fs0) hSV hin _ hg1' hf
      have o2 := out_step d L tab idx 128 _ (256 * k.val + 128) (by omega) (k3_off2 L k 1#32) (k3_off2_inb L k 1) (off2_1 L k) (off2_1c L k)
        (svOf d L idx fs0) hSV hin _ hg2' o1
      isplitl []; · iexact Hmw
      isplitl [Hco1_src HTl HsL Hc5]
      · iapply (Entails.of_eq (slotS_neg r1W smA d L tab (by omega : ¬ 2 * (k.val + 1) < 78)).symm)
        unfold slotI
        isplitl [Hco1_src]; · iexists _; iexact Hco1_src
        isplitl [HTl]; · iexact HTl
        isplitl [HsL]; · iexact HsL
        iexact Hc5
      isplitl [Hco2_src HTr HsR Hc6]
      · iapply (Entails.of_eq (slotS_neg r2W smB d L tab (by omega : ¬ 2 * (k.val + 1) + 1 < 78)).symm)
        unfold slotI
        isplitl [Hco2_src]; · iexists _; iexact Hco2_src
        isplitl [HTr]; · iexact HTr
        isplitl [HsR]; · iexact HsR
        iexact Hc6
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

  · unfold inv
    isplitl []; · iexact Hmw
    isplitl [HF1]
    · iapply (Entails.of_eq (slotS_pos r1W smA d L tab (by omega : 2 * 0 < 78)).symm)
      iapply (slotF_congr r1W smA d L tab (show (![0] : Fin 1 → Nat) 0 = 128 * (2 * 0) from rfl)); iexact HF1
    isplitl [HF2]
    · iapply (Entails.of_eq (slotS_pos r2W smB d L tab (by omega : 2 * 0 + 1 < 78)).symm)
      iapply (slotF_congr r2W smB d L tab (show (![128] : Fin 1 → Nat) 0 = 128 * (2 * 0 + 1) from rfl)); iexact HF2
    isplitl [Hc8]; · iexact Hc8
    isplitl [Hc9]; · iexact Hc9
    isplitl [Hout]
    · iexists fo; isplitr
      · ipureintro; intro x hlo hhi; omega
      · iexact Hout
    iexists _; isplitr
    swap; · iexact HO
    ipureintro; exact ins_none (fun _ hp => .inl hp) _
  iintro %acc HI
  unfold inv
  icases HI with ⟨-, HS1, HS2, Hc8, Hc9, ⟨%f, %hf, Hout⟩, %W', %hW', HO⟩
  ihave HI1 := (Entails.of_eq (slotS_neg r1W smA d L tab (by decide : ¬ 2 * k3_t1_loop.trips < 78))) $$ HS1
  ihave HI2 := (Entails.of_eq (slotS_neg r2W smB d L tab (by decide : ¬ 2 * k3_t1_loop.trips + 1 < 78))) $$ HS2
  have hf' : OutOK d L tab idx f 9984 := fun x hlo hhi =>
    hf x hlo (lt_of_lt_of_eq hhi (congrArg (fun z => ebase L + z) (show 9984 = 256 * k3_t1_loop.trips by decide)))
  sl_exec
  iapply (gather_step r1W smA d L qT.left fullShare.left tab (svOf d L idx fs0) ![9984] inb_S10112_S128_9984 hsv) $$ [HI1]
  · iexact HI1
  iintro HF1
  sl_exec
  iapply (slot_wait r1W smA d L qT.left fullShare.left tab (svOf d L idx fs0) _ O W') $$ [HF1 HO]
  · iframe HF1 HO
    iexact Hmw
  iintro ⟨⟨%g1, %hg1, Hr1⟩, HTl, HsL, Hc5, HO⟩
  sl_exec
  ihave Hr16 := (pointsTo_split_subset (q := fullShare) (f := g1) (View.set_slice_subset (r1W).view (Rect.unit (s := S128x128) ![0, 0] S16x128.size inb_S128x128_S16x128_0_0))).1 $$ Hr1
  icases Hr16 with ⟨Hr16, Hr1r⟩
  iapply (Transfers.wp_dmaLocal countersEmb 𝒱₀ (VT1 d L) none (default : HIx 3) _ rfl (View.amount_pos _ _ (show 0 < S16x128.numel by decide))
      (chunk_subset L 16 (k3_off5 L) _ 9984 (by omega) (off5_0 L))) $$ [Hr16 Hout Hc10]
  · iframe Hr16 Hout
    iexact Hc10
  iintro Hco3
  sl_exec
  sl_step
  have o3 := out_step d L tab idx 16 f 9984 (by omega) (k3_off5 L) (k3_off5_inb L) (off5_0 L) (off5_0c L) (svOf d L idx fs0) hSV hin _
    (rows16 d L tab (svOf d L idx fs0) g1 _ hg1) hf'
  unfold slotI
  icases HI2 with ⟨⟨%g2, Hr2⟩, HTr, HsR, Hc6⟩
  isplitl [HTl HTlr HTr HTrr]
  · iapply (pointsTo_share (PosShare.mem_left_op_right qT)).2
    isplitl [HTl HTlr]
    · iapply (pointsTo_split_subset (q := qT.left) (f := tab) (S := Finset.univ) (Finset.subset_univ (tAll).view.set)).2
      isplitl [HTl]; · iexact HTl
      iexact HTlr
    · iapply (pointsTo_split_subset (q := qT.right) (f := tab) (S := Finset.univ) (Finset.subset_univ (tAll).view.set)).2
      isplitl [HTr]; · iexact HTr
      iexact HTrr
  isplitl [HIr]; · iexact HIr
  isplitl [Hco3_dst]
  · iapply (Entails.of_eq (pointsTo_congr (fun i hi => o3 i (mem_tileRows.mp hi).1 (mem_tileRows.mp hi).2)))
    iexact Hco3_dst
  isplitl [HsL HsR Hr1r Hr2 Hbufs]
  · isplitl [HsL HsR]
    · iexists (svOf d L idx fs0)
      iapply (pointsTo_share (PosShare.mem_left_op_right fullShare)).2
      isplitl [HsL]; · iexact HsL
      iexact HsR
    isplitl [Hr1r]; · iexists g1; iapply (Entails.of_eq (pts_r1 (F := F) d L _)); iexact Hr1r
    isplitl [Hr2]; · iexists g2; iapply (Entails.of_eq (pts_r2 (F := F) d L _)); iexact Hr2
    iexact Hbufs
  isplitl [Hc5 Hc6 Hci Hc8 Hc9 Hco3 Hsems]
  · isplitl [Hc5 Hc6 Hci Hc8 Hc9 Hco3]
    · isplitl [Hc5]; · iexact Hc5
      isplitl [Hc6]; · iexact Hc6
      isplitl [Hci]; · iexact Hci
      isplitl [Hc8]; · iexact Hc8
      isplitl [Hc9]; · iexact Hc9
      iexact Hco3
    iexact Hsems
  iexists _; isplitr
  swap; · iexact HO
  ipureintro; exact ins_none (ins_none hW' _) _

end Cert.KernelIdeal.Hand.Call3

end
-- ==== Proof.ScBody5.lean ====
import proofs.«207978_g39513699123711_cont_8to1_b_1293_21_alg».proof.Proof.Common
import proofs.«207978_g39513699123711_cont_8to1_b_1293_21_alg».proof.Proof.ValDefs
import Idealize.ShloMosaic.Lib.SparseCore.Stream
import Idealize.ShloMosaic.Lib.Transfers
import Idealize.ShloMosaic.Lib.ValueIdx
import Idealize.ShloMosaic.Lib.Tactic

noncomputable section

namespace Cert.KernelIdeal.Hand.Call5

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

noncomputable abbrev cV1 (L : grid5.Coords) : Fin τ.nSC := (L 0).castLE hcore5
noncomputable abbrev jV1 (L : grid5.Coords) : Fin τ.nSub := (L 1).castLE hsub5

noncomputable abbrev pV (L : grid5.Coords) : Proc τ := .scVector (cV1 L) (jV1 L)
noncomputable abbrev VT1 (d : Dev nD) (L : grid5.Coords) : Thread nD τ := V d (cV1 L) (jV1 L)
abbrev SV (F : FTy → Type) (d : Dev nD) (L : grid5.Coords) : Type := Buf (Elt F) ((VT1 d L).loc cc5_scratch0)
abbrev RowBuf : Type := Memref sig .scVector .vmem S128x128 .f32

noncomputable abbrev tabLoc (d : Dev nD) : Loc nD τ sig := (SparseCore.T d).loc main_v24
noncomputable abbrev idxLoc (d : Dev nD) : Loc nD τ sig := (SparseCore.T d).loc main_v5
noncomputable abbrev outLoc (d : Dev nD) : Loc nD τ sig := (SparseCore.T d).loc main_v25

noncomputable def ebase (L : grid5.Coords) : Nat := 20000 * (L 1).val + 10000 * (L 0).val

theorem ebase_le (L : grid5.Coords) : ebase L + 10000 ≤ 320000 := by
  have h0 : (L 0).val < 2 := (L 0).isLt
  have h1 : (L 1).val < 16 := (L 1).isLt
  unfold ebase; omega

noncomputable def tileRows (L : grid5.Coords) : Finset S320000x128.Idx :=
  Finset.univ.filter fun x => ebase L ≤ (x 0).val ∧ (x 0).val < ebase L + 10000

theorem mem_tileRows {L : grid5.Coords} {x : S320000x128.Idx} :
    x ∈ tileRows L ↔ ebase L ≤ (x 0).val ∧ (x 0).val < ebase L + 10000 := by
  simp [tileRows]

abbrev semBase1 : Nat := 27

noncomputable abbrev csem (k : Nat) (hk : k < 33 := by decide) : DmaSem sig := ⟨k, hk⟩
noncomputable abbrev smA : DmaSem sig := ⟨semBase1 + 0, by decide⟩
noncomputable abbrev smB : DmaSem sig := ⟨semBase1 + 1, by decide⟩
noncomputable abbrev smC : DmaSem sig := ⟨semBase1 + 2, by decide⟩
noncomputable abbrev smD : DmaSem sig := ⟨semBase1 + 3, by decide⟩
noncomputable abbrev smE : DmaSem sig := ⟨semBase1 + 4, by decide⟩
noncomputable abbrev smF : DmaSem sig := ⟨semBase1 + 5, by decide⟩

noncomputable abbrev dcell (d : Dev nD) (c : Fin τ.nSC) (i : Fin τ.nSub) (k : Fin 6) : GSem nD τ sig :=
  (V d c i, .dma (csem (semBase1 + k.val) (by have := k.isLt; unfold semBase1; omega)))

noncomputable abbrev cells0 (d : Dev nD) (L : grid5.Coords) : sProp (MM F) :=
  iprop(semVal (VT1 d L, SemLoc.dma smA) 0 ∗ semVal (VT1 d L, SemLoc.dma smB) 0 ∗ semVal (VT1 d L, SemLoc.dma smC) 0
    ∗ semVal (VT1 d L, SemLoc.dma smD) 0 ∗ semVal (VT1 d L, SemLoc.dma smE) 0 ∗ semVal (VT1 d L, SemLoc.dma smF) 0)

theorem dcell_mem (d : Dev nD) (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

theorem ownSems0_V (d : Dev nD) (L : grid5.Coords) :
    (ownSems0 (VT1 d L) : sProp (MM F))
      = iprop(cells0 d L
          ∗ bigSep ((ownCells (VT1 d L)) \ Finset.univ.image (dcell d (cV1 L) (jV1 L))) fun g => semVal g 0) := by
  unfold SparseCore.Cfg.ownSems0
  rw [SparseCore.bigSep_sdiff_split' (t := Finset.univ.image (dcell d (cV1 L) (jV1 L)))
      (Finset.image_subset_iff.mpr fun k _ => dcell_mem d (cV1 L) (jV1 L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl
theorem ownBufs_V (d : Dev nD) (L : grid5.Coords) :
    (ownBufs (VT1 d L) : sProp (MM F))
      = iprop((∃ f, (VT1 d L).loc cc5_scratch0 ↦{fullShare} f) ∗ (∃ f, (VT1 d L).loc cc5_scratch1 ↦{fullShare} f)
          ∗ (∃ f, (VT1 d L).loc cc5_scratch2 ↦{fullShare} f)
          ∗ bigSep ((((ownRefs (τ := τ) (pV L)).erase ((pV L).devRef cc5_scratch0)).erase ((pV L).devRef cc5_scratch1)).erase ((pV L).devRef cc5_scratch2))
              fun b => iprop(∃ f, ((d, b) : Loc nD τ sig) ↦{fullShare} f)) := by
  have hne {a b : Ref sig .scVector} (h : a ≠ b) : (pV L).devRef a ≠ (pV L).devRef b := fun e => h (Proc.devRef_injective _ e)
  unfold SparseCore.Cfg.ownBufs
  refine (SparseCore.bigSep_erase' (SparseCore.Cfg.mem_ownRefs_of_owner (p := pV L) (b := (pV L).devRef cc5_scratch0) rfl)).trans ?_
  rw [SparseCore.bigSep_erase' (Finset.mem_erase.mpr ⟨hne (by decide), SparseCore.Cfg.mem_ownRefs_of_owner (p := pV L) (b := (pV L).devRef cc5_scratch1) rfl⟩),
    SparseCore.bigSep_erase' (Finset.mem_erase.mpr ⟨hne (by decide), Finset.mem_erase.mpr ⟨hne (by decide), SparseCore.Cfg.mem_ownRefs_of_owner (p := pV L) (b := (pV L).devRef cc5_scratch2) rfl⟩⟩)]

noncomputable abbrev tW : Memref sig .scVector .hbm S10000x128 .f32 := Memref.whole main_v24_scv
noncomputable abbrev iW : Memref sig .scVector .hbm S320128 .i32 := Memref.whole main_v5_scv
noncomputable abbrev oW : Memref sig .scVector .hbm S320000x128 .f32 := Memref.whole main_v25_scv
noncomputable abbrev sW : Memref sig .scVector .vmem S10112 .i32 := Memref.whole cc5_scratch0
noncomputable abbrev r1W : RowBuf := Memref.whole cc5_scratch1
noncomputable abbrev r2W : RowBuf := Memref.whole cc5_scratch2

noncomputable abbrev tAll : Memref sig .scVector .hbm S10000x128 .f32 :=
  tW.slice (Rect.unit (s := S10000x128) ![0, 0] S10000x128.size inb_S10000x128_S10000x128_0_0) (fun _ => rfl)

noncomputable abbrev offsM (off : Fin 1 → Nat) (inb : ∀ a, off a + S128.size a ≤ S10112.size a) : Memref sig .scVector .vmem S128 .i32 :=
  sW.slice (Rect.unit (s := S10112) off S128.size inb) (fun _ => rfl)

noncomputable abbrev iWin (L : grid5.Coords) : Memref sig .scVector .hbm S10112 .i32 :=
  iW.slice (Rect.unit (s := S320128) (k5_off1 L) S10112.size (k5_off1_inb L)) (fun _ => rfl)

theorem pts_r1 (d : Dev nD) (L : grid5.Coords) (f : Buf (Elt F) ((VT1 d L).loc cc5_scratch1)) :
    ((r1W).view.loc (VT1 d L) ↦[(r1W).view.set]{fullShare} f : sProp (MM F)) = (VT1 d L).loc cc5_scratch1 ↦{fullShare} f := by
  rw [View.set_whole]
theorem pts_r2 (d : Dev nD) (L : grid5.Coords) (f : Buf (Elt F) ((VT1 d L).loc cc5_scratch2)) :
    ((r2W).view.loc (VT1 d L) ↦[(r2W).view.set]{fullShare} f : sProp (MM F)) = (VT1 d L).loc cc5_scratch2 ↦{fullShare} f := by
  rw [View.set_whole]

noncomputable abbrev Sh (H : Nat) : Shape := ⟨2, ![H, 128]⟩

noncomputable abbrev oWin (H : Nat) (offc : Fin 2 → Nat) (inbc : ∀ a, offc a + (Sh H).size a ≤ S320000x128.size a) : Memref sig .scVector .hbm (Sh H) .f32 :=
  oW.slice (Rect.unit (s := S320000x128) offc (Sh H).size inbc) (fun _ => rfl)

section Values

variable [FloatOps F] (d : Dev nD) (L : grid5.Coords) (tab : Vec F S10000x128 .f32) (idx : Vec F S320128 .i32)

def SVok (sv : SV F d L) : Prop :=
  ∀ (i : S10112.Idx) (j : S320128.Idx), (j 0).val = ebase L + (i 0).val → sv i = idx j

def RowsOK (H : Nat) (sv : SV F d L) (g : (Sh H).Idx → Elt F .f32) (o : Nat) : Prop :=
  ∀ (y : (Sh H).Idx) (i : S10112.Idx) (t : S10000x128.Idx),
    (i 0).val = o + (y 0).val → (t 0).val = (sv i).toNat → (t 1).val = (y 1).val → g y = tab t

def OutOK (f : Buf (Elt F) (outLoc d)) (n : Nat) : Prop :=
  ∀ x : S320000x128.Idx, ebase L ≤ (x 0).val → (x 0).val < ebase L + n → f x = gatherRows tab idx x

theorem hin_offs (sv : SV F d L) (hsv : ∀ i : S10112.Idx, (sv i).toNat < 10000)
    (off : Fin 1 → Nat) (inb : ∀ a, off a + S128.size a ≤ S10112.size a) (hg : S10000x128.Gathers 0 S128x128) :
    ∀ x, ((offsM off inb).view.read (Elt F) sv x).toNat < S10000x128.size hg.axis :=
  fun x => hsv ((offsM off inb).view.emb x)

theorem rowMajor_symm_S128 : ∀ k : Fin S128.numel, ((S128.rowMajor.symm k) 0).val = k.val := by decide +kernel

theorem rows_ok (sv : SV F d L) (off : Fin 1 → Nat) (inb : ∀ a, off a + S128.size a ≤ S10112.size a)
    (hg : S10000x128.Gathers 0 S128x128) (hn : S128.numel = S128x128.size hg.axis')
    (hin' : ∀ x, ((offsM off inb).view.read (Elt F) sv x).toNat < S10000x128.size hg.axis) :
    RowsOK d L tab 128 sv (SparseCore.gatherPayload hg ((tAll).view.read (Elt F) tab) (SparseCore.rows ((offsM off inb).view.read (Elt F) sv) hn hin')) (off 0) := by
  intro y i t hi ht0 ht1
  have hemb : (offsM off inb).view.emb (S128.rowMajor.symm ((y 0).cast hn.symm)) = i := by
    funext b; apply Fin.ext
    match b with
    | ⟨0, _⟩ =>
      show off 0 + 1 * ((S128.rowMajor.symm ((y 0).cast hn.symm)) 0).val = (i 0).val
      rw [rowMajor_symm_S128, hi, Nat.one_mul]; rfl
  have h0 : ((hg.idx _ y) 0).val = (sv ((offsM off inb).view.emb (S128.rowMajor.symm ((y 0).cast hn.symm)))).toNat :=
    congrArg Fin.val (Shape.Gathers.idx_axis hg (SparseCore.rows _ hn hin') y)
  have h1 : ((hg.idx _ y) 1).val = (y 1).val := Shape.Gathers.idx_of_ne hg (SparseCore.rows _ hn hin') y 1 (by decide)
  show tab ((tAll).view.emb (hg.idx _ y)) = tab t
  congr 1
  funext a
  apply Fin.ext
  match a with
  | ⟨0, _⟩ => show 0 + 1 * ((hg.idx _ y) 0).val = (t 0).val; rw [h0, hemb, ht0]; omega
  | ⟨1, _⟩ => show 0 + 1 * ((hg.idx _ y) 1).val = (t 1).val; rw [h1, ht1]; omega

theorem out_step (H : Nat) (f : Buf (Elt F) (outLoc d)) (n : Nat) (hn : n + H ≤ 10000) (offc : Fin 2 → Nat)
    (inbc : ∀ a, offc a + (Sh H).size a ≤ S320000x128.size a)
    (h0 : offc 0 = ebase L + n) (h1 : offc 1 = 0)
    (sv : SV F d L) (hSV : SVok d L idx sv) (hin : ∀ j, (idx j).toNat < 10000)
    (g : (Sh H).Idx → Elt F .f32) (hg : RowsOK d L tab H sv g n)
    (hf : OutOK d L tab idx f n) :
    OutOK d L tab idx (View.write (Elt F) (oWin H offc inbc).view f
      (ReadAs.same.apply g) Finset.univ) (n + H) := by
  intro x hlo hhi
  have hx1 : (x 1).val < 128 := idx2_lt1 x
  have hx0 : (x 0).val < 320000 := idx2_lt0 x
  have heb := ebase_le L
  by_cases hx : (x 0).val < ebase L + n
  · rw [View.write_of_not_mem]
    · exact hf x hlo hx
    · rw [View.setOn_univ]
      intro hm
      simp only [Memref.view_slice, Memref.view_whole, View.set_slice_whole, Rect.mem_set_unit] at hm
      have := (hm 0).1
      omega
  · obtain ⟨y, hy0, hy1⟩ : ∃ y : (Sh H).Idx, (y 0).val = (x 0).val - (ebase L + n) ∧ (y 1).val = (x 1).val :=
      ⟨ix2 (n0 := H) (n1 := 128) ⟨(x 0).val - (ebase L + n), by omega⟩ ⟨(x 1).val, hx1⟩, rfl, rfl⟩
    have hyH : (y 0).val < H := idx2_lt0 y
    have hxy : (oWin H offc inbc).view.emb y = x := by
      funext a; apply Fin.ext
      match a with
      | ⟨0, _⟩ => show offc 0 + 1 * (y 0).val = (x 0).val; omega
      | ⟨1, _⟩ => show offc 1 + 1 * (y 1).val = (x 1).val; omega
    obtain ⟨i, hi⟩ : ∃ i : S10112.Idx, (i 0).val = n + (y 0).val := ⟨ix1 (n := 10112) ⟨n + (y 0).val, by omega⟩, rfl⟩
    unfold gatherRows
    refine ((congrArg _ hxy.symm).trans ((View.write_emb_of_mem _ _ (Finset.mem_univ y)).trans (cast_eq _ _))).trans (hg y i _ hi ?_ ?_)
    · show (idx (ix1 (n := 320128) ⟨(x 0).val, _⟩)).toNat % 10000 = (sv i).toNat
      rw [hSV i (ix1 (n := 320128) ⟨(x 0).val, by omega⟩) (by show (x 0).val = ebase L + (i 0).val; omega)]
      exact Nat.mod_eq_of_lt (hin _)
    · show (x 1).val = (y 1).val; omega

theorem rows16 (sv : SV F d L) (g1 : BufTy.Contents (Elt F) (r1W).view.ty) (o : Nat)
    (h : RowsOK d L tab 128 sv (View.read (Elt F) (r1W).view g1) o) :
    RowsOK d L tab 16 sv (View.read (Elt F) ((r1W).slice (Rect.unit (s := S128x128) ![0, 0] S16x128.size inb_S128x128_S16x128_0_0) (fun _ => rfl)).view g1) o := by
  intro y i t hi ht0 ht1
  refine h ((Rect.unit (s := S128x128) ![0, 0] S16x128.size inb_S128x128_S16x128_0_0).emb y) i t ?_ ht0 ?_
  · show (i 0).val = o + (0 + 1 * (y 0).val); omega
  · show (t 1).val = 0 + 1 * (y 1).val; omega

noncomputable abbrev svOf (fs0 : SV F d L) : SV F d L :=
  View.write (Elt F) (sW).view fs0 (ReadAs.same.apply (View.read (Elt F) (iWin L).view idx)) Finset.univ

theorem svOf_apply (fs0 : SV F d L) (i : S10112.Idx) :
    svOf d L idx fs0 i = idx ((iWin L).view.emb i) := by
  unfold svOf
  rw [View.write_whole_univ]
  rfl

theorem svOk (fs0 : SV F d L) : SVok d L idx (svOf d L idx fs0) := by
  intro i j hj
  rw [svOf_apply]
  congr 1
  funext a
  apply Fin.ext
  match a with
  | ⟨0, _⟩ =>
    show (k5_off1 L 0 + 1 * (i 0).val) = (j 0).val
    rw [k5_off1_eq]; simp [ebase] at hj ⊢; omega

theorem svLt (hin : ∀ j, (idx j).toNat < 10000) (fs0 : SV F d L) :
    ∀ i : S10112.Idx, (svOf d L idx fs0 i).toNat < 10000 := by
  intro i; rw [svOf_apply]; exact hin _

theorem chunk_subset (H : Nat) (offc : Fin 2 → Nat) (inbc : ∀ a, offc a + (Sh H).size a ≤ S320000x128.size a)
    (n : Nat) (hn : n + H ≤ 10000) (h0 : offc 0 = ebase L + n) :
    (oWin H offc inbc).view.set ⊆ tileRows L := by
  intro x hx
  simp only [Memref.view_slice, Memref.view_whole, View.set_slice_whole, Rect.mem_set_unit] at hx
  have hx0 : offc 0 ≤ (x 0).val ∧ (x 0).val < offc 0 + H := hx 0
  rw [mem_tileRows]
  omega

theorem off2_0 (k : Fin k5_t1_loop.trips) : (k5_off2 L k 0#32) 0 = ebase L + 256 * k.val := congrFun (k5_off2_eq L k 0) 0
theorem off2_1 (k : Fin k5_t1_loop.trips) : (k5_off2 L k 1#32) 0 = ebase L + (256 * k.val + 128) :=
  (congrFun (k5_off2_eq L k 1) 0).trans (Nat.add_assoc _ _ _)
theorem off2_0c (k : Fin k5_t1_loop.trips) : (k5_off2 L k 0#32) 1 = 0 := congrFun (k5_off2_eq L k 0) 1
theorem off2_1c (k : Fin k5_t1_loop.trips) : (k5_off2 L k 1#32) 1 = 0 := congrFun (k5_off2_eq L k 1) 1
theorem off5_0c : (k5_off5 L) 1 = 0 := congrFun (k5_off5_eq L) 1
theorem off3_0 (k : Fin k5_t1_loop.trips) : (k5_off3 k) 0 = 128 * (2 * (k.val + 1)) := by
  rw [k5_off3_eq]; simp; omega
theorem off4_0 (k : Fin k5_t1_loop.trips) : (k5_off4 k) 0 = 128 * (2 * (k.val + 1) + 1) := by
  rw [k5_off4_eq]; simp; omega
theorem off5_0 : (k5_off5 L) 0 = ebase L + 9984 := congrFun (k5_off5_eq L) 0

end Values

section Slot

variable [FloatOps F] (rW : RowBuf) (sm : DmaSem sig) (d : Dev nD) (L : grid5.Coords) (q h : PosShare TreeShare)
  (tab : Vec F S10000x128 .f32) (sv : SV F d L)

/-- What a slot's pending gather of the list window at `o` delivers: the slot's rows, the table's share, the window. -/
noncomputable def slotD (o : Nat) (So : Finset (Idx ((sW).view.loc (VT1 d L)))) : sProp (MM F) :=
  iprop(∃ fr', ⌜RowsOK d L tab 128 sv (rW.view.read (Elt F) fr') o⌝ ∗ (rW.view.loc (VT1 d L) ↦[rW.view.set]{fullShare} fr')
    ∗ ((tAll).view.loc (VT1 d L) ↦[(tAll).view.set]{q} tab) ∗ ((sW).view.loc (VT1 d L) ↦[So]{h} sv))

/-- A slot with a gather pending on its cell. -/
noncomputable def slotF (o : Nat) : sProp (MM F) :=
  iprop(∃ So, Transfers.Flight countersEmb (VT1 d L) (.dma sm) (default : HIx 3) rW.view.dmaCredit (slotD rW d L q h tab sv o So)
    ∗ ((sW).view.loc (VT1 d L) ↦[Finset.univ \ So]{h} sv))

/-- A slot idle: its rows at some contents, its shares of the table and the list, its cell at zero. -/
noncomputable def slotI : sProp (MM F) :=
  iprop((∃ fr, rW.view.loc (VT1 d L) ↦[rW.view.set]{fullShare} fr)
    ∗ ((tAll).view.loc (VT1 d L) ↦[(tAll).view.set]{q} tab) ∗ ((sW).view.loc (VT1 d L) ↦{h} sv) ∗ semVal (VT1 d L, SemLoc.dma sm) 0)

/-- A slot before trip chunk `c`: that chunk's gather pending while there is such a chunk, else idle. -/
noncomputable def slotS (c : Nat) : sProp (MM F) :=
  if c < 78 then slotF rW sm d L q h tab sv (128 * c) else slotI rW sm d L q h tab sv

/-- The gather's issue on an idle slot: the landed rows are the rows the list window names. -/
theorem gather_step (off : Fin 1 → Nat) (inb : ∀ a, off a + S128.size a ≤ S10112.size a) (hsv : ∀ i : S10112.Idx, (sv i).toNat < 10000)
    {hp} {hg : S10000x128.Gathers 0 S128x128} {hn hsrc he hsp hr}
    {α : Type} {k : PUnit → Prog (TpuEff nD τ sig (Elt F) Λ₀ (VT1 d L).2) α} {Q : α → sProp (MM F)} :
    (slotI rW sm d L q h tab sv : sProp (MM F))
      ⊢ iprop((slotF rW sm d L q h tab sv (off 0) -∗ wp frame (wpE (defs₀ (F := F)) 𝒱₀ (VT1 d L) none) Set.univ (k ⟨⟩) Q)
          -∗ wp frame (wpE (defs₀ (F := F)) 𝒱₀ (VT1 d L) none) Set.univ
              (SparseCore.enqueueIndirectGather hp tAll rW hg (offsM off inb) hn sm hsrc he hsp hr >>= k) Q) := by
  unfold slotI
  iintro ⟨⟨%fr, Hr⟩, HT, Hs, Hc⟩ Hk
  ihave Hs' := (pointsTo_split_subset (q := h) (f := sv) (S := Finset.univ) (Finset.subset_univ (offsM off inb).view.set)).1 $$ Hs
  icases Hs' with ⟨Hso, Hsr⟩
  have hD : (iprop((rW.view.loc (VT1 d L) ↦[rW.view.set]{fullShare}
        (View.write (Elt F) rW.view fr (SparseCore.gatherPayload hg ((tAll).view.read (Elt F) tab)
          (SparseCore.rows ((offsM off inb).view.read (Elt F) sv) hn (hin_offs d L sv hsv off inb hg))) Finset.univ))
      ∗ ((tAll).view.loc (VT1 d L) ↦[(tAll).view.set]{q} tab) ∗ ((offsM off inb).view.loc (VT1 d L) ↦[(offsM off inb).view.set]{h} sv)) : sProp (MM F))
      ⊢ slotD rW d L q h tab sv (off 0) (offsM off inb).view.set := by
    unfold slotD
    iintro ⟨Hr, HT, Hso⟩
    iexists _
    isplitr
    swap
    · isplitl [Hr]; · iexact Hr
      iframe HT
      iexact Hso
    ipureintro
    rw [View.read_write_univ]
    exact rows_ok d L tab sv off inb hg hn (hin_offs d L sv hsv off inb hg)
  iapply (SparseCore.wp_indirectGatherLocal countersEmb 𝒱₀ (VT1 d L) none (hg := hg) (default : HIx 3) rW.view.dmaCredit
      (SparseCore.sum_rowCredit_eq_dmaCredit rW hg.axis' (fun _ => rfl)) (by decide) (hin_offs d L sv hsv off inb hg)) $$ [HT Hr Hso Hc]
  · iframe HT Hr Hso
    iexact Hc
  iintro Hfl
  iapply Hk
  unfold slotF
  iexists (offsM off inb).view.set
  isplitl [Hfl]
  · iapply (Transfers.Flight_mono countersEmb (VT1 d L) hD) $$ Hfl
  · iexact Hsr

/-- The wait for a slot's gather hands back the slot's rows, now the gathered ones, and its shares. -/
theorem slot_wait (o : Nat) (O : CellTallies nD τ sig (HIx 3)) (W : Waits sig (HIx 3))
    {sp' : Space} {s' : Shape} {e' : EltTy} {srcw : Memref sig (VT1 d L).2.kind sp' s' e'} {hsrc : srcw.view.WordExact} {hdst : rW.view.WordExact}
    {α : Type} {k : PUnit → Prog (TpuEff nD τ sig (Elt F) Λ₀ (VT1 d L).2) α} {Q : α → sProp (MM F)} :
    (iprop(slotF rW sm d L q h tab sv o ∗ owes (VT1 d L) O W ∗ Transfers.MayWaits (VT1 d L) (default : HIx 3) O) : sProp (MM F))
      ⊢ iprop((iprop((∃ fr', ⌜RowsOK d L tab 128 sv (rW.view.read (Elt F) fr') o⌝ ∗ (rW.view.loc (VT1 d L) ↦[rW.view.set]{fullShare} fr'))
              ∗ ((tAll).view.loc (VT1 d L) ↦[(tAll).view.set]{q} tab) ∗ ((sW).view.loc (VT1 d L) ↦{h} sv)
              ∗ semVal (VT1 d L, SemLoc.dma sm) 0 ∗ owes (VT1 d L) O (insert (SemLoc.dma sm, (default : HIx 3)) W))
            -∗ wp frame (wpE (defs₀ (F := F)) 𝒱₀ (VT1 d L) none) Set.univ (k ⟨⟩) Q)
          -∗ wp frame (wpE (defs₀ (F := F)) 𝒱₀ (VT1 d L) none) Set.univ (.op (.waitDma2 sm srcw rW hsrc hdst) k) Q) := by
  unfold slotF
  iintro ⟨⟨%So, Hfl, Hsr⟩, HO, #Hmw⟩ Hk
  iapply (Transfers.wp_waitLocalO countersEmb 𝒱₀ (VT1 d L) none (default : HIx 3) (rfl : rW.view.dmaCredit = _)) $$ [Hfl HO]
  · isplitl [Hfl]; · iexact Hfl
    isplitl [HO]; · iexact HO
    iapply (Transfers.MayWaits.elim (SemLoc.dma sm)) $$ Hmw
  unfold slotD
  iintro ⟨⟨%fr', %hfr, Hr, HT, Hso⟩, Hc, HO⟩
  iapply Hk
  isplitl [Hr]
  · iexists fr'; isplitr; · ipureintro; exact hfr
    iexact Hr
  isplitl [HT]; · iexact HT
  isplitl [Hso Hsr]
  · iapply (pointsTo_split_subset (q := h) (f := sv) (S := Finset.univ) (Finset.subset_univ So)).2
    iframe Hso
    iexact Hsr
  iframe Hc
  iexact HO

end Slot

section SlotState

variable [FloatOps F] (rW : RowBuf) (sm : DmaSem sig) (d : Dev nD) (L : grid5.Coords) (tab : Vec F S10000x128 .f32)
  {q h : PosShare TreeShare} {sv : SV F d L}

theorem slotS_pos {c : Nat} (hc : c < 78) : slotS rW sm d L q h tab sv c = slotF rW sm d L q h tab sv (128 * c) := if_pos hc
theorem slotS_neg {c : Nat} (hc : ¬ c < 78) : slotS rW sm d L q h tab sv c = slotI rW sm d L q h tab sv := if_neg hc
theorem slotF_congr {o o' : Nat} (e : o = o') : (slotF rW sm d L q h tab sv o : sProp (MM F)) ⊢ slotF rW sm d L q h tab sv o' := by
  subst e; exact BI.Entails.refl _

end SlotState

/-- Waits recorded at no round keep a wait set inside `W` up to such waits. -/
theorem ins_none {W W' : Waits sig (HIx 3)} (hW' : ∀ p ∈ W', p ∈ W ∨ p.2 = none) (s : SemLoc sig) :
    ∀ p ∈ insert (s, (default : HIx 3)) W', p ∈ W ∨ p.2 = none := fun p hp =>
  (Finset.mem_insert.mp hp).elim (fun e => .inr (e ▸ rfl)) (hW' p)

section Inv

variable [FloatOps F] (d : Dev nD) (L : grid5.Coords) (tab : Vec F S10000x128 .f32) (idx : Vec F S320128 .i32)

noncomputable def inv (fs0 : SV F d L) (qT : PosShare TreeShare)
    (O : CellTallies nD τ sig (HIx 3)) (W : Waits sig (HIx 3)) (k : Nat) (_ : PUnit) : sProp (MM F) :=
  iprop(Transfers.MayWaits (VT1 d L) (default : HIx 3) O
    ∗ slotS r1W smA d L qT.left fullShare.left tab (svOf d L idx fs0) (2 * k)
    ∗ slotS r2W smB d L qT.right fullShare.right tab (svOf d L idx fs0) (2 * k + 1)
    ∗ semVal (VT1 d L, SemLoc.dma smD) 0 ∗ semVal (VT1 d L, SemLoc.dma smE) 0
    ∗ (∃ f, ⌜OutOK d L tab idx f (256 * k)⌝ ∗ outLoc d ↦[tileRows L]{fullShare} f)
    ∗ ∃ W', ⌜∀ p ∈ W', p ∈ W ∨ p.2 = none⌝ ∗ owes (VT1 d L) O W')

end Inv

theorem trips39 : k5_t1_loop.trips = 39 := by decide
theorem cond1_iff : ∀ t : Fin k5_t1_loop.trips, k5_cond1 t = 1#1 ↔ t.val < 38 := by decide +kernel
theorem cond2_iff : ∀ t : Fin k5_t1_loop.trips, k5_cond2 t = 1#1 ↔ t.val < 38 := by decide +kernel

set_option maxHeartbeats 16000000 in
theorem tile_body [FloatOps F] (d : Dev nD) (L : grid5.Coords)
    (tab : Vec F S10000x128 .f32) (idx : Vec F S320128 .i32) (hin : ∀ j, (idx j).toNat < 10000)
    (O : CellTallies nD τ sig (HIx 3)) (W : Waits sig (HIx 3)) (hO : ∀ g, O g none = 0) (qT qI : PosShare TreeShare) :
    (iprop(levAts (K (F := F)).L (K (F := F)).lev ∗ (tabLoc d ↦{qT} tab) ∗ (idxLoc d ↦{qI} idx)
        ∗ (∃ f, outLoc d ↦[tileRows L]{fullShare} f)
        ∗ scopedBufs (VT1 d L) ∗ scopedSems0 (VT1 d L) ∗ owes (VT1 d L) O W) : sProp (MM F))
      ⊢ wp frame (wpE (defs₀ (F := F)) 𝒱₀ (VT1 d L) none) Set.univ
          (cc5_gk L (Memref.whole main_v24_scv) (Memref.isWhole_whole _) (Memref.whole main_v5_scv) (Memref.isWhole_whole _)
            (Memref.whole main_v25_scv) (Memref.isWhole_whole _) (Memref.whole cc5_scratch0) (Memref.isWhole_whole _)
            (Memref.whole cc5_scratch1) (Memref.isWhole_whole _) (Memref.whole cc5_scratch2) (Memref.isWhole_whole _)
            cc5_scratch3 cc5_scratch4 cc5_scoped0 cc5_scoped1 cc5_scoped2 cc5_scoped3)
          fun _ => iprop((tabLoc d ↦{qT} tab) ∗ (idxLoc d ↦{qI} idx)
            ∗ (outLoc d ↦[tileRows L]{fullShare} gatherRows tab idx)
            ∗ scopedBufs (VT1 d L) ∗ scopedSems0 (VT1 d L)
            ∗ ∃ W', ⌜∀ p ∈ W', p ∈ W ∨ p.2 = none⌝ ∗ owes (VT1 d L) O W') := by
  simp only [cc5_gk_eq_skeleton]; unfold cc5_gk_skel
  rw [(K (F := F)).scopedBufs_V facts d (cV1 L) (jV1 L), SparseCore.Cfg.scopedSems0_V (Val := Elt F) d (cV1 L) (jV1 L), ownSems0_V, ownBufs_V]
  iintro ⟨#Hlv, HT, HI, ⟨%fo, Hout⟩, ⟨⟨%fs0, Hs0⟩, ⟨%fr1, Hr1⟩, ⟨%fr2, Hr2⟩, Hbufs⟩, ⟨⟨Hc5, Hc6, Hc7, Hc8, Hc9, Hc10⟩, Hsems⟩, HO⟩
  ihave Hmw := (show levAts (K (F := F)).L (K (F := F)).lev ⊢ Transfers.MayWaits (VT1 d L) (default : HIx 3) O from
    (K (F := F)).mayWaits_none (thr := VT1 d L) hO) $$ Hlv
  ihave HT2 := (pointsTo_share (PosShare.mem_left_op_right qT)).1 $$ HT
  icases HT2 with ⟨HTl, HTr⟩
  ihave HTl' := (pointsTo_split_subset (q := qT.left) (f := tab) (S := Finset.univ) (Finset.subset_univ (tAll).view.set)).1 $$ HTl
  icases HTl' with ⟨HTl, HTlr⟩
  ihave HTr' := (pointsTo_split_subset (q := qT.right) (f := tab) (S := Finset.univ) (Finset.subset_univ (tAll).view.set)).1 $$ HTr
  icases HTr' with ⟨HTr, HTrr⟩
  sl_exec
  ihave HIw := (pointsTo_split_subset (q := qI) (f := idx) (S := Finset.univ) (Finset.subset_univ (iWin L).view.set)).1 $$ HI
  icases HIw with ⟨HIw, HIr⟩
  iapply (Transfers.wp_dmaLocal countersEmb 𝒱₀ (VT1 d L) none (default : HIx 3) _ rfl (View.amount_pos _ _ (show 0 < S10112.numel by decide)) (Finset.subset_univ (sW).view.set)) $$ [HIw Hs0 Hc7]
  · iframe HIw Hs0
    iexact Hc7
  iintro Hci
  sl_exec
  have hsv := svLt d L idx hin fs0
  have hSV := svOk d L idx fs0
  ihave Hs2 := (pointsTo_share (PosShare.mem_left_op_right fullShare)).1 $$ Hci_dst
  icases Hs2 with ⟨HsL, HsR⟩
  ihave Hr1' := (Entails.of_eq (pts_r1 (F := F) d L _).symm) $$ Hr1
  iapply (gather_step r1W smA d L qT.left fullShare.left tab (svOf d L idx fs0) ![0] inb_S10112_S128_0 hsv) $$ [Hr1' HTl HsL Hc5]
  · unfold slotI
    isplitl [Hr1']; · iexists _; iexact Hr1'
    isplitl [HTl]; · iexact HTl
    isplitl [HsL]; · iexact HsL
    iexact Hc5
  iintro HF1
  sl_exec
  ihave Hr2' := (Entails.of_eq (pts_r2 (F := F) d L _).symm) $$ Hr2
  iapply (gather_step r2W smB d L qT.right fullShare.right tab (svOf d L idx fs0) ![128] inb_S10112_S128_128 hsv) $$ [Hr2' HTr HsR Hc6]
  · unfold slotI
    isplitl [Hr2']; · iexists _; iexact Hr2'
    isplitl [HTr]; · iexact HTr
    isplitl [HsR]; · iexact HsR
    iexact Hc6
  iintro HF2
  sl_exec
  sl_for (inv d L tab idx fs0 qT O W) $$ [HF1 HF2 Hc8 Hc9 Hout HO]
  case region =>
    intro k acc
    have hk39 : k.val < 39 := lt_of_lt_of_eq k.isLt trips39
    unfold inv
    iintro ⟨#Hmw, HS1, HS2, Hc8, Hc9, ⟨%f, %hf, Hout⟩, %W', %hW', HO⟩
    rcases Nat.lt_or_ge k.val 38 with h38 | h38
    · have hc1 : k5_cond1 k = 1#1 := (cond1_iff k).mpr h38
      have hc2 : k5_cond2 k = 1#1 := (cond2_iff k).mpr h38

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k5_off2 L k 0#32) _ (256 * k.val) (by omega) (off2_0 L k))) $$ [Hr1 Hout Hc8]
      · iframe Hr1 Hout
        iexact Hc8
      iintro Hco1
      sl_exec
      iapply (gather_step r1W smA d L qT.left fullShare.left tab (svOf d L idx fs0) (k5_off3 k) (k5_off3_inb k hc1) hsv) $$ [Hco1_src HTl HsL Hc5]
      · unfold slotI
        isplitl [Hco1_src]; · iexists _; iexact Hco1_src
        isplitl [HTl]; · iexact HTl
        isplitl [HsL]; · iexact HsL
        iexact Hc5
      iintro HF1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k5_off2 L k 1#32) _ (256 * k.val + 128) (by omega) (off2_1 L k))) $$ [Hr2 Hco1_dst Hc9]
      · iframe Hr2 Hco1_dst
        iexact Hc9
      iintro Hco2
      sl_exec
      iapply (gather_step r2W smB d L qT.right fullShare.right tab (svOf d L idx fs0) (k5_off4 k) (k5_off4_inb k hc2) hsv) $$ [Hco2_src HTr HsR Hc6]
      · unfold slotI
        isplitl [Hco2_src]; · iexists _; iexact Hco2_src
        isplitl [HTr]; · iexact HTr
        isplitl [HsR]; · iexact HsR
        iexact Hc6
      iintro HF2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k5_off2 L k 0#32) (k5_off2_inb L k 0) (off2_0 L k) (off2_0c L k)
        (svOf d L idx fs0) hSV hin _ hg1' hf
      have o2 := out_step d L tab idx 128 _ (256 * k.val + 128) (by omega) (k5_off2 L k 1#32) (k5_off2_inb L k 1) (off2_1 L k) (off2_1c L k)
        (svOf d L idx fs0) hSV hin _ hg2' o1
      isplitl []; · iexact Hmw
      isplitl [HF1]
      · iapply (Entails.of_eq (slotS_pos r1W smA d L tab (by omega : 2 * (k.val + 1) < 78)).symm)
        iapply (slotF_congr r1W smA d L tab (off3_0 k)); iexact HF1
      isplitl [HF2]
      · iapply (Entails.of_eq (slotS_pos r2W smB d L tab (by omega : 2 * (k.val + 1) + 1 < 78)).symm)
        iapply (slotF_congr r2W smB d L tab (off4_0 k)); iexact HF2
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

    · have hc1 : ¬ k5_cond1 k = 1#1 := fun h => absurd ((cond1_iff k).mp h) (by omega)
      have hc2 : ¬ k5_cond2 k = 1#1 := fun h => absurd ((cond2_iff k).mp h) (by omega)

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k5_off2 L k 0#32) _ (256 * k.val) (by omega) (off2_0 L k))) $$ [Hr1 Hout Hc8]
      · iframe Hr1 Hout
        iexact Hc8
      iintro Hco1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k5_off2 L k 1#32) _ (256 * k.val + 128) (by omega) (off2_1 L k))) $$ [Hr2 Hco1_dst Hc9]
      · iframe Hr2 Hco1_dst
        iexact Hc9
      iintro Hco2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k5_off2 L k 0#32) (k5_off2_inb L k 0) (off2_0 L k) (off2_0c L k)
        (svOf d L idx fs0) hSV hin _ hg1' hf
      have o2 := out_step d L tab idx 128 _ (256 * k.val + 128) (by omega) (k5_off2 L k 1#32) (k5_off2_inb L k 1) (off2_1 L k) (off2_1c L k)
        (svOf d L idx fs0) hSV hin _ hg2' o1
      isplitl []; · iexact Hmw
      isplitl [Hco1_src HTl HsL Hc5]
      · iapply (Entails.of_eq (slotS_neg r1W smA d L tab (by omega : ¬ 2 * (k.val + 1) < 78)).symm)
        unfold slotI
        isplitl [Hco1_src]; · iexists _; iexact Hco1_src
        isplitl [HTl]; · iexact HTl
        isplitl [HsL]; · iexact HsL
        iexact Hc5
      isplitl [Hco2_src HTr HsR Hc6]
      · iapply (Entails.of_eq (slotS_neg r2W smB d L tab (by omega : ¬ 2 * (k.val + 1) + 1 < 78)).symm)
        unfold slotI
        isplitl [Hco2_src]; · iexists _; iexact Hco2_src
        isplitl [HTr]; · iexact HTr
        isplitl [HsR]; · iexact HsR
        iexact Hc6
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

  · unfold inv
    isplitl []; · iexact Hmw
    isplitl [HF1]
    · iapply (Entails.of_eq (slotS_pos r1W smA d L tab (by omega : 2 * 0 < 78)).symm)
      iapply (slotF_congr r1W smA d L tab (show (![0] : Fin 1 → Nat) 0 = 128 * (2 * 0) from rfl)); iexact HF1
    isplitl [HF2]
    · iapply (Entails.of_eq (slotS_pos r2W smB d L tab (by omega : 2 * 0 + 1 < 78)).symm)
      iapply (slotF_congr r2W smB d L tab (show (![128] : Fin 1 → Nat) 0 = 128 * (2 * 0 + 1) from rfl)); iexact HF2
    isplitl [Hc8]; · iexact Hc8
    isplitl [Hc9]; · iexact Hc9
    isplitl [Hout]
    · iexists fo; isplitr
      · ipureintro; intro x hlo hhi; omega
      · iexact Hout
    iexists _; isplitr
    swap; · iexact HO
    ipureintro; exact ins_none (fun _ hp => .inl hp) _
  iintro %acc HI
  unfold inv
  icases HI with ⟨-, HS1, HS2, Hc8, Hc9, ⟨%f, %hf, Hout⟩, %W', %hW', HO⟩
  ihave HI1 := (Entails.of_eq (slotS_neg r1W smA d L tab (by decide : ¬ 2 * k5_t1_loop.trips < 78))) $$ HS1
  ihave HI2 := (Entails.of_eq (slotS_neg r2W smB d L tab (by decide : ¬ 2 * k5_t1_loop.trips + 1 < 78))) $$ HS2
  have hf' : OutOK d L tab idx f 9984 := fun x hlo hhi =>
    hf x hlo (lt_of_lt_of_eq hhi (congrArg (fun z => ebase L + z) (show 9984 = 256 * k5_t1_loop.trips by decide)))
  sl_exec
  iapply (gather_step r1W smA d L qT.left fullShare.left tab (svOf d L idx fs0) ![9984] inb_S10112_S128_9984 hsv) $$ [HI1]
  · iexact HI1
  iintro HF1
  sl_exec
  iapply (slot_wait r1W smA d L qT.left fullShare.left tab (svOf d L idx fs0) _ O W') $$ [HF1 HO]
  · iframe HF1 HO
    iexact Hmw
  iintro ⟨⟨%g1, %hg1, Hr1⟩, HTl, HsL, Hc5, HO⟩
  sl_exec
  ihave Hr16 := (pointsTo_split_subset (q := fullShare) (f := g1) (View.set_slice_subset (r1W).view (Rect.unit (s := S128x128) ![0, 0] S16x128.size inb_S128x128_S16x128_0_0))).1 $$ Hr1
  icases Hr16 with ⟨Hr16, Hr1r⟩
  iapply (Transfers.wp_dmaLocal countersEmb 𝒱₀ (VT1 d L) none (default : HIx 3) _ rfl (View.amount_pos _ _ (show 0 < S16x128.numel by decide))
      (chunk_subset L 16 (k5_off5 L) _ 9984 (by omega) (off5_0 L))) $$ [Hr16 Hout Hc10]
  · iframe Hr16 Hout
    iexact Hc10
  iintro Hco3
  sl_exec
  sl_step
  have o3 := out_step d L tab idx 16 f 9984 (by omega) (k5_off5 L) (k5_off5_inb L) (off5_0 L) (off5_0c L) (svOf d L idx fs0) hSV hin _
    (rows16 d L tab (svOf d L idx fs0) g1 _ hg1) hf'
  unfold slotI
  icases HI2 with ⟨⟨%g2, Hr2⟩, HTr, HsR, Hc6⟩
  isplitl [HTl HTlr HTr HTrr]
  · iapply (pointsTo_share (PosShare.mem_left_op_right qT)).2
    isplitl [HTl HTlr]
    · iapply (pointsTo_split_subset (q := qT.left) (f := tab) (S := Finset.univ) (Finset.subset_univ (tAll).view.set)).2
      isplitl [HTl]; · iexact HTl
      iexact HTlr
    · iapply (pointsTo_split_subset (q := qT.right) (f := tab) (S := Finset.univ) (Finset.subset_univ (tAll).view.set)).2
      isplitl [HTr]; · iexact HTr
      iexact HTrr
  isplitl [HIr]; · iexact HIr
  isplitl [Hco3_dst]
  · iapply (Entails.of_eq (pointsTo_congr (fun i hi => o3 i (mem_tileRows.mp hi).1 (mem_tileRows.mp hi).2)))
    iexact Hco3_dst
  isplitl [HsL HsR Hr1r Hr2 Hbufs]
  · isplitl [HsL HsR]
    · iexists (svOf d L idx fs0)
      iapply (pointsTo_share (PosShare.mem_left_op_right fullShare)).2
      isplitl [HsL]; · iexact HsL
      iexact HsR
    isplitl [Hr1r]; · iexists g1; iapply (Entails.of_eq (pts_r1 (F := F) d L _)); iexact Hr1r
    isplitl [Hr2]; · iexists g2; iapply (Entails.of_eq (pts_r2 (F := F) d L _)); iexact Hr2
    iexact Hbufs
  isplitl [Hc5 Hc6 Hci Hc8 Hc9 Hco3 Hsems]
  · isplitl [Hc5 Hc6 Hci Hc8 Hc9 Hco3]
    · isplitl [Hc5]; · iexact Hc5
      isplitl [Hc6]; · iexact Hc6
      isplitl [Hci]; · iexact Hci
      isplitl [Hc8]; · iexact Hc8
      isplitl [Hc9]; · iexact Hc9
      iexact Hco3
    iexact Hsems
  iexists _; isplitr
  swap; · iexact HO
  ipureintro; exact ins_none (ins_none hW' _) _

end Cert.KernelIdeal.Hand.Call5

end
-- ==== Proof.Obl.lean ====
import proofs.«207978_g39513699123711_cont_8to1_b_1293_21_alg».proof.Proof.Split
import proofs.«207978_g39513699123711_cont_8to1_b_1293_21_alg».proof.Proof.PreOK
import proofs.«207978_g39513699123711_cont_8to1_b_1293_21_alg».proof.Proof.ScBody
import proofs.«207978_g39513699123711_cont_8to1_b_1293_21_alg».proof.Proof.ScBody3
import proofs.«207978_g39513699123711_cont_8to1_b_1293_21_alg».proof.Proof.ScBody5

noncomputable section

namespace Cert.KernelIdeal.Hand

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

-- The three calls run on the same 2 × 16 grid: the coordinates of tile s of core c.
noncomputable def coordsV (c : Fin (grid1.bound 0)) (s : Fin (grid1.bound 1)) : grid1.Coords :=
  fun | 0 => c | 1 => s | ⟨_ + 2, h⟩ => absurd h (Nat.not_lt.2 (Nat.le_add_left _ _))

omit [FloatOps F] in
-- 20000 s + 10000 c = 10000 (2 s + c).
theorem tileRows1_eq (c : Fin (grid1.bound 0)) (s : Fin (grid1.bound 1)) :
    tileRows (coordsV c s) = rowsOf (tileNo ⟨c.val, c.isLt⟩ ⟨s.val, s.isLt⟩) := by
  ext x
  rw [mem_tileRows, mem_rowsOf]
  have h0 : ((coordsV c s) 0).val = c.val := rfl
  have h1 : ((coordsV c s) 1).val = s.val := rfl
  simp only [ebase, tileNo]
  constructor <;> intro h <;> omega

omit [FloatOps F] in
theorem tileRows3_eq (c : Fin (grid1.bound 0)) (s : Fin (grid1.bound 1)) :
    Call3.tileRows (coordsV c s) = rowsOf (tileNo ⟨c.val, c.isLt⟩ ⟨s.val, s.isLt⟩) := tileRows1_eq c s

omit [FloatOps F] in
theorem tileRows5_eq (c : Fin (grid1.bound 0)) (s : Fin (grid1.bound 1)) :
    Call5.tileRows (coordsV c s) = rowsOf (tileNo ⟨c.val, c.isLt⟩ ⟨s.val, s.isLt⟩) := tileRows1_eq c s

omit [FloatOps F] in
-- A tile's obligation follows from its kernel's triple: the operands regroup, and the bound on the recorded waits only weakens.
theorem tile_wrap {Ef : Type → Type _} {wE : Set ℕ → ∀ ⦃β : Type⦄, Ef β → sWPT (MM F) β} {prog : Prog Ef PUnit}
    {lv t i o o' sb ss : sProp (MM F)} {Ws : Type} {ow : Ws → sProp (MM F)} {W : Ws} {φ φ' : Ws → Prop} (hφ : ∀ W', φ W' → φ' W')
    (hb : iprop(lv ∗ t ∗ i ∗ o ∗ sb ∗ ss ∗ ow W) ⊢ wp frame wE Set.univ prog fun _ => iprop(t ∗ i ∗ o' ∗ sb ∗ ss ∗ ∃ W', ⌜φ W'⌝ ∗ ow W')) :
    iprop(lv ∗ emp ∗ iprop(t ∗ i ∗ o) ∗ sb ∗ ss ∗ ow W)
      ⊢ wp frame wE Set.univ prog fun _ => iprop(iprop(t ∗ i ∗ o') ∗ sb ∗ ss ∗ ∃ W', ⌜φ' W'⌝ ∗ ow W') := by
  refine BIBase.Entails.trans ?_ (hb.trans (wp_mono frame _ _ fun _ => ?_))
  · iintro ⟨Hlv, -, ⟨Ht, Hi, Ho⟩, Hsb, Hss, HO⟩
    iframe
  · iintro ⟨Ht, Hi, Ho, Hsb, Hss, %W', %hW', HO⟩
    iframe Ht Hi Ho Hsb Hss
    iexists W'; isplitr
    · ipureintro; exact hφ W' hW'
    · iexact HO

theorem defs₀_tile1 (c : Fin τ.nSC) (s : Fin τ.nSub) :
    defs₀ (F := F) (.scVector c s) 1 ()
      = SparseCore.onTile hcore1 hsub1 (fun c s => cc1_gk (coordsV c s)
          (Memref.whole main_v6_scv) (Memref.isWhole_whole _) (Memref.whole main_v5_scv) (Memref.isWhole_whole _) (Memref.whole main_v7_scv) (Memref.isWhole_whole _)
          (Memref.whole cc1_scratch0) (Memref.isWhole_whole _) (Memref.whole cc1_scratch1) (Memref.isWhole_whole _) (Memref.whole cc1_scratch2) (Memref.isWhole_whole _)
          cc1_scratch3 cc1_scratch4 cc1_scoped0 cc1_scoped1 cc1_scoped2 cc1_scoped3) ⟨⟩ c s := rfl

theorem tileObl0 (hp : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_tile1]; simp only [SparseCore.onTile, hc, and_self, ↓reduceDIte]
  have hb := tile_body (F := F) d (coordsV ⟨_, hc.1⟩ ⟨_, hc.2⟩) (V2 m d (dr main_v6)) (V2 m d (dr main_v5)) (idx_lt m hp d).1 O W hO
    (qT (Fin.cast (nCore_eq 0) c) (Fin.cast (nSub_eq 0) i)) (qT (Fin.cast (nCore_eq 0) c) (Fin.cast (nSub_eq 0) i))
  rw [tileRows1_eq] at hb
  exact tile_wrap (fun _ h p hp => (h p hp).imp_right Or.inl) hb

theorem defs₀_tile3 (c : Fin τ.nSC) (s : Fin τ.nSub) :
    defs₀ (F := F) (.scVector c s) 3 ()
      = SparseCore.onTile hcore3 hsub3 (fun c s => cc3_gk (coordsV c s)
          (Memref.whole main_v15_scv) (Memref.isWhole_whole _) (Memref.whole main_v5_scv) (Memref.isWhole_whole _) (Memref.whole main_v16_scv) (Memref.isWhole_whole _)
          (Memref.whole cc3_scratch0) (Memref.isWhole_whole _) (Memref.whole cc3_scratch1) (Memref.isWhole_whole _) (Memref.whole cc3_scratch2) (Memref.isWhole_whole _)
          cc3_scratch3 cc3_scratch4 cc3_scoped0 cc3_scoped1 cc3_scoped2 cc3_scoped3) ⟨⟩ c s := rfl

theorem tileObl1 (hp : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 3 ())) _
  refine BIBase.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_tile3]; simp only [SparseCore.onTile, hc, and_self, ↓reduceDIte]
  have hb := Call3.tile_body (F := F) d (coordsV ⟨_, hc.1⟩ ⟨_, hc.2⟩) (V5 m d (dr main_v15)) (V5 m d (dr main_v5)) (idx_lt m hp d).2.1 O W hO
    (qT (Fin.cast (nCore_eq 1) c) (Fin.cast (nSub_eq 1) i)) (qT (Fin.cast (nCore_eq 1) c) (Fin.cast (nSub_eq 1) i))
  rw [tileRows3_eq] at hb
  exact tile_wrap (fun _ h p hp => (h p hp).imp_right Or.inl) hb

theorem defs₀_tile5 (c : Fin τ.nSC) (s : Fin τ.nSub) :
    defs₀ (F := F) (.scVector c s) 5 ()
      = SparseCore.onTile hcore5 hsub5 (fun c s => cc5_gk (coordsV c s)
          (Memref.whole main_v24_scv) (Memref.isWhole_whole _) (Memref.whole main_v5_scv) (Memref.isWhole_whole _) (Memref.whole main_v25_scv) (Memref.isWhole_whole _)
          (Memref.whole cc5_scratch0) (Memref.isWhole_whole _) (Memref.whole cc5_scratch1) (Memref.isWhole_whole _) (Memref.whole cc5_scratch2) (Memref.isWhole_whole _)
          cc5_scratch3 cc5_scratch4 cc5_scoped0 cc5_scoped1 cc5_scoped2 cc5_scoped3) ⟨⟩ c s := rfl

theorem tileObl2 (hp : PreOK m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 5 ())) _
  refine BIBase.Entails.trans ?_ (Pipeline.wp_liftProg (D (F := F)) (Pipeline.defs_kernel pcfgs defs₀) 𝒱₀ _ Set.univ none _ _)
  have hc : ((K (F := F)).core 2 c).val < grid5.bound 0 ∧ ((K (F := F)).sub 2 i).val < grid5.bound 1 := ⟨c.isLt, i.isLt⟩
  rw [defs₀_tile5]; simp only [SparseCore.onTile, hc, and_self, ↓reduceDIte]
  have hb := Call5.tile_body (F := F) d (coordsV ⟨_, hc.1⟩ ⟨_, hc.2⟩) (V8 m d (dr main_v24)) (V8 m d (dr main_v5)) (idx_lt m hp d).2.2 O W hO
    (qT (Fin.cast (nCore_eq 2) c) (Fin.cast (nSub_eq 2) i)) (qT (Fin.cast (nCore_eq 2) c) (Fin.cast (nSub_eq 2) i))
  rw [tileRows5_eq] at hb
  exact tile_wrap (fun _ h p hp => (h p hp).imp_right Or.inl) hb

end Cert.KernelIdeal.Hand

end
-- ==== Proof.TcEntry.lean ====
import proofs.«207978_g39513699123711_cont_8to1_b_1293_21_alg».proof.Proof.Common

noncomputable section

namespace Cert.KernelIdeal.Hand

open Cert.KernelIdeal Cert.KernelIdeal.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable (a : (p : Fin 3) → (pcfgs (F := F) p).Adm)

theorem phinj :
    Function.Injective (Pipeline.cellOf (nD := nD) (τ := τ) (Pipeline.pin (pcfgs (F := F)) a)) :=
  cellOf_inj

noncomputable abbrev pipeGhost (p : Fin 3) (d : Dev nD) : sProp (MM F) :=
  iprop(Pipeline.cellsGhost (Pipeline.pin (pcfgs (F := F)) a) EP p d ∗ Pipeline.toksInit (Pipeline.pin (pcfgs (F := F)) a) EP p d)

set_option backward.isDefEq.respectTransparency.types false in
-- A region entered from @main runs from its pre to its post, by the region rule.
theorem region_step [FloatOps F] {P : (K (F := F)).Pay (nD := nD) (Val := Elt F) (Name := ℕ) (U := UU)}
    (κ : GSem nD τ sig → ℕ) {lv : GSem nD τ sig → HIx 3 → ℕ}
    (a : (p : Fin 3) → (pcfgs (F := F) p).Adm)
    (pdats : (p : Fin 3) → (c : Dev nD) → Pipeline.Dat τ (Elt F) (HIx 3) ℕ UU ℕ (Pipeline.pin (pcfgs (F := F)) a p) c)
    {p : Fin 3} (R : Pipeline.RegionSeg (pcfgs (F := F)) a pdats none defs₀ 𝒱₀ (K (F := F)).L lv p) (d : Dev nD)
    {α : Type} (k : PUnit → Prog (TpuEff nD τ sig (Elt F) (SparseCore.Sig (ΛP (F := F)) 3) .tc) α) (Q : α → sProp (MM F)) :
    iprop((K (F := F)).ctx EH P κ lv ∗ boundary (T d) ∗ R.pre d ∗ pipeGhost a p d
        ∗ (iprop(boundary (T d) ∗ R.post d) -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry p)) ()) >>= k) Q := by
  classical
  rw [wp_bind, show (Prog.lift (.customCall (SparseCore.inner (Pipeline.entry p)) ()) :
        Prog (TpuEff nD τ sig (Elt F) (SparseCore.Sig (ΛP (F := F)) 3) .tc) PUnit)
      = SparseCore.liftProg (Prog.lift (.customCall (Pipeline.entry p) ())) from rfl]
  refine BIBase.Entails.trans ?_ ((K (F := F)).wp_liftProg D 𝒱 (T d) Set.univ none _ _)
  iintro ⟨#Hctx, Hb, Hpre, ⟨Hg, Ht⟩, Hk⟩
  ihave Hlev := (SparseCore.Cfg.ctx_levAts κ) $$ Hctx
  iapply (Pipeline.RegionSeg.wp (pcfgs (F := F)) a pdats none (phinj a) EP defs₀ 𝒱₀ (K (F := F)).L lv R d none
    (fun u h => (Option.not_mem_none u h).elim) Prog.ret _)
  iframe Hb Hpre Hlev Hg Ht
  iintro H
  rw [wp_ret]; imodintro
  iapply Hk; iexact H

noncomputable abbrev tcOwes (d : Dev nD) (n : ℕ) : sProp (MM F) :=
  iprop(∃ W, ⌜(K (F := F)).WBelow (T d) W (8 * n)⌝ ∗ owes (T d) ((K (F := F)).Otc d n) W)

noncomputable def tcRest (d : Dev nD) (n : ℕ) : sProp (MM F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : (K (F := F)).tcSt EH d n = iprop(tcOwes (F := F) d n ∗ tcRest (F := F) d n) := by
  unfold SparseCore.Cfg.tcSt tcRest; rfl

-- Every tally owed sits at a call's index, whose level is positive; index none has level 0.
theorem Otc_none (d : Dev nD) (n : ℕ) (g : GSem nD τ sig) : (K (F := F)).Otc d n g none = 0 := by
  by_contra h
  have hl := SparseCore.Cfg.lev_of_Otc_pos (K := K (F := F)) (d := d) (n := n) (g := g) (ι := none) (Nat.pos_of_ne_zero h)
  rw [SparseCore.Cfg.lev_none] at hl
  omega

-- Owing with the recorded pairs at or below level b is owing within those pairs and a loop's own, which sit at level 0.
theorem owes_within (cfg : Pipeline.Cfg sig Λ₀) (d : Dev nD) (O : CellTallies nD τ sig (HIx 3)) (b : ℕ) :
    iprop(∃ W, ⌜(K (F := F)).WBelow (T d) W b⌝ ∗ owes (T d) O W)
      ⊣⊢ (Pipeline.owesWithin d O ({pr | (K (F := F)).lev (T d, pr.1) pr.2 ≤ b} ∪ cfg.waitPairs none) : sProp (MM F)) := by
  constructor <;> iintro ⟨%W, %hW, HO⟩ <;> iexists W <;> isplitr
  · ipureintro; exact fun pr h => Or.inl (hW pr (Finset.mem_coe.mp h))
  · iexact HO
  · ipureintro
    intro pr hpr
    rcases hW (Finset.mem_coe.mpr hpr) with h | ⟨w, s, rfl⟩
    · exact h
    · exact Nat.zero_le _
  · iexact HO

noncomputable def u₀ : UU :=
  (initOf (K (F := F)).hsCells (K (F := F)).hsToks,
    (initOf (Pipeline.cells (Pipeline.pin (pcfgs (F := F)) a) (phinj a)) (Pipeline.launchToks (Pipeline.pin (pcfgs (F := F)) a) (phinj a)), 1))

noncomputable abbrev pipesGhost (d : Dev nD) : sProp (MM F) :=
  iprop(pipeGhost a 0 d ∗ pipeGhost a 1 d ∗ pipeGhost a 2 d)

-- The launch element splits into the handshakes' rounds and, per device, the three pipelines' ghost state.
theorem launch_split :
    (ownU (u₀ a) : sProp (MM F))
      ⊢ |={Set.univ}=> iprop(BI.own (EH (initOf (K (F := F)).hsCells (K (F := F)).hsToks)) ∗ bigSep Finset.univ fun d : Dev nD => pipesGhost a d) := by
  have hEP : ∀ x : UP, (BI.own (((Emb.inl : Emb UP (UP × Counters)).trans (embR : Emb (UP × Counters) (MM F))) x) : sProp (MM F)) = BI.own (EP x) := fun x => by
    unfold EP embR; rfl
  have hjoin : iprop((bigSep Finset.univ fun c : Dev nD => bigSep Finset.univ fun p => Pipeline.cellsGhost (Pipeline.pin (pcfgs (F := F)) a) EP p c)
        ∗ (bigSep Finset.univ fun c : Dev nD => bigSep Finset.univ fun p => (Pipeline.toksInit (Pipeline.pin (pcfgs (F := F)) a) EP p c : sProp (MM F))))
      ⊢ bigSep Finset.univ fun d : Dev nD => pipesGhost a d := by
    rw [← bigSep_sep']
    refine bigSep_mono fun d _ => ?_
    rw [← bigSep_sep', bigSep_W0]
    exact BI.Entails.refl _
  unfold u₀
  iintro Hu
  ihave H := (ownU_pair _ _) $$ Hu
  icases H with ⟨HH, HR⟩
  ihave H2 := (own_pair_emb (embR : Emb (UP × Counters) (MM F)) _ (1 : Counters)) $$ HR
  icases H2 with ⟨HP, -⟩
  ihave HP' := (BIBase.Entails.of_eq (hEP _)) $$ HP
  imod (Pipeline.fund_ghost (Pipeline.pin (pcfgs (F := F)) a) EP (phinj a)) $$ HP' with ⟨Hg, Ht⟩
  imodintro
  iframe HH
  iapply hjoin
  iframe

end Cert.KernelIdeal.Hand

end
-- ==== Proof.TcBody0.lean ====
import proofs.«207978_g39513699123711_cont_8to1_b_1293_21_alg».proof.Proof.Common
import proofs.«207978_g39513699123711_cont_8to1_b_1293_21_alg».proof.Proof.ValDefs
import Idealize.ShloMosaic.Lib.Pipeline.FrameBody
import Idealize.ShloMosaic.Lib.Pipeline.Value

noncomputable section

namespace Cert.KernelIdeal.Hand

open Cert.KernelIdeal Cert.KernelIdeal.Gen

open Idealize.ShloMosaic Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region0

variable (Vb : (c : Dev nD) → (b : Ref sig .tc) → Buf (Elt F) ((c.tc : Thread nD τ).loc b))
  (O : Dev nD → CellTallies nD τ sig (HIx 3)) (bnd : ℕ)

noncomputable def iblk0 (c : Dev nD) (w : Fin cfg0.W) (t : Fin cfg0.N) : ((cfg0.win w).xblock (cfg0.grid.coords t)).Idx → Elt F (cfg0.win w).elt :=
  ((cfg0.win w).blk t).view.read (Elt F) (Vb c (Pipeline.arrRef spec0 w))

theorem zz0 : (![0, 0] : Fin 2 → Nat) = fun _ => 0 := funext fun a => by fin_cases a <;> rfl

-- Both loads read a whole buffer and the one store covers the result's: the inputs stay, the result holds their payload.
theorem sound_kernel0 (c : Dev nD) (E : Set ℕ) (i : grid0.Coords) (arg1 : Memref sig .tc .vmem S1000x128 .f32) (harg1 : arg1.IsWhole)
    (arg2 : Memref sig .tc .vmem S128x128 .f32) (harg2 : arg2.IsWhole) (arg3 : Memref sig .tc .vmem S1000x128 .f32) (harg3 : arg3.IsWhole)
    (x0 : Vec F S1000x128 .f32) (x1 : Vec F S128x128 .f32) (Kc : PUnit → sProp (MM F)) :
    iprop(owns (c.tc : Thread nD τ) arg1 fullShare x0 ∗ owns (c.tc : Thread nD τ) arg2 fullShare x1 ∗ (∃ d, owns (c.tc : Thread nD τ) arg3 fullShare d)
        ∗ (iprop(owns (c.tc : Thread nD τ) arg1 fullShare x0 ∗ owns (c.tc : Thread nD τ) arg2 fullShare x1 ∗ owns (c.tc : Thread nD τ) arg3 fullShare (k0_pay1 x0 x1)) -∗ Kc ⟨⟩))
      ⊢ wp frame (wpE (defs₀ (F := F)) Variants.none (c.tc : Thread nD τ) none) E (cc0__mm_body i arg1 harg1 arg2 harg2 arg3 harg3) Kc := by
  simp only [cc0__mm_body_eq_skeleton]; unfold cc0__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zz0 inb_S1000x128_S1000x128_0_0 y⟩),
    View.canon_unit_zero zz0, View.readAt_eq_ld, View.readAt_eq_ld, View.ld_unit_zero zz0, View.ld_unit_zero zz0]

noncomputable def dat0 (c : Dev nD) : Dat τ (Elt F) (HIx 3) ℕ UU ℕ cfg0 c where
  A w := Vb c (Pipeline.arrRef spec0 w)
  after w t := match w with
    | ⟨0, _⟩ => iblk0 Vb c 0 t
    | ⟨1, _⟩ => iblk0 Vb c 1 t
    | ⟨2, _⟩ => k0_pay1 (iblk0 Vb c 0 t) (iblk0 Vb c 1 t)
  Φ _ := Pipeline.scopedRest spec0 c
  q _ := fullShare
  owed _ := O c
  recorded _ := {pr | (K (F := F)).lev (T c, pr.1) pr.2 ≤ bnd}

-- The body leaves each input's block in place, so at every point an input window holds its block.
theorem before0 (c : Dev nD) (t : Fin cfg0.N) :
    (∀ d, (dat0 Vb O bnd c).before 0 t d = iblk0 Vb c 0 t) ∧ ∀ d, (dat0 Vb O bnd c).before 1 t d = iblk0 Vb c 1 t := by
  constructor <;> intro d <;>
  exact (Dat.before_in_eq_fetched _ _ rfl (fun _ => rfl) (fun _ _ _ => rfl) (fun _ => rfl) t d).trans rfl

theorem body_obligation0 (c : Dev nD) : BodyObligation (dat0 (F := F) Vb O bnd c) (defs₀ (F := F)) Variants.none none Set.univ := fun t => by
  rw [bigSep_W0, bigSep_W0]
  show iprop((dat0 Vb O bnd c).Φ t.castSucc ∗ (dat0 Vb O bnd c).owesAt none t.castSucc
      ∗ (∃ d, owns (c.tc : Thread nD τ) (st0_0 t) fullShare ((dat0 Vb O bnd c).before 0 t d))
      ∗ (∃ d, owns (c.tc : Thread nD τ) (st0_1 t) fullShare ((dat0 Vb O bnd c).before 1 t d))
      ∗ (∃ d, owns (c.tc : Thread nD τ) (st0_2 t) fullShare ((dat0 Vb O bnd c).before 2 t d)))
    ⊢ wp frame (wpE (defs₀ (F := F)) Variants.none (c.tc : Thread nD τ) none) Set.univ (bodyAt0 t) fun _ =>
      iprop((dat0 Vb O bnd c).Φ t.castSucc ∗ (dat0 Vb O bnd c).owesAt none t.castSucc
        ∗ owns (c.tc : Thread nD τ) (st0_0 t) fullShare (iblk0 Vb c 0 t) ∗ owns (c.tc : Thread nD τ) (st0_1 t) fullShare (iblk0 Vb c 1 t)
        ∗ owns (c.tc : Thread nD τ) (st0_2 t) fullShare (k0_pay1 (iblk0 Vb c 0 t) (iblk0 Vb c 1 t)))
  simp only [(before0 Vb O bnd c t).1, (before0 Vb O bnd c t).2]
  iintro ⟨HΦ, Ho, ⟨%d0, H0⟩, ⟨%d1, H1⟩, ⟨%d2, H2⟩⟩
  iapply (sound_kernel0 c Set.univ (grid0.coords t) _ _ _ _ _ _ (iblk0 Vb c 0 t) (iblk0 Vb c 1 t) _)
  iframe H0 H1
  isplitl [H2]; · iexists _; iexact H2
  iintro H
  iframe

theorem idx0 (t : Fin cfg0.N) :
    win0_0.index t 0 = t.val ∧ win0_0.index t 1 = 0 ∧ win0_1.index t 0 = 0 ∧ win0_1.index t 1 = 0
      ∧ win0_2.index t 0 = t.val ∧ win0_2.index t 1 = 0 := by
  rcases fin_N0 t with rfl | rfl | rfl | rfl | rfl | rfl | rfl | rfl | rfl | rfl <;> decide +kernel

noncomputable abbrev pt0 (t : Fin cfg0.N) : Fin 10 := ⟨t.val, by have hN : cfg0.N = 10 := N_0; have := t.isLt; omega⟩

-- Element y of block t of the operand and of the result sits at row 1000 t + y 0, column y 1.
theorem emb0 (t : Fin cfg0.N) (y : S1000x128.Idx) :
    (((win0_0.rect t).emb y 0 : ℕ) = 1000 * t.val + (y 0).val ∧ ((win0_0.rect t).emb y 1 : ℕ) = (y 1).val)
      ∧ ((win0_2.rect t).emb y 0 : ℕ) = 1000 * t.val + (y 0).val ∧ ((win0_2.rect t).emb y 1 : ℕ) = (y 1).val := by
  obtain ⟨h0, h1, -, -, h2, h3⟩ := idx0 t
  refine ⟨⟨?_, win0_0.rect_emb_val_of_index_zero t 1 h1 y⟩, ?_, win0_2.rect_emb_val_of_index_zero t 1 h3 y⟩
  · rw [win0_0.rect_emb_val t y 0, h0]; show t.val * 1000 + (y 0).val = _; omega
  · rw [win0_2.rect_emb_val t y 0, h2]; show t.val * 1000 + (y 0).val = _; omega

theorem iblk0_0_eq (c : Dev nD) (t : Fin cfg0.N) : iblk0 Vb c 0 t = rowBlock (Vb c main_arg0) (pt0 t) :=
  funext fun y => congrArg (Vb c main_arg0) (Shape.idx_ext₂ (emb0 t y).1.1 (emb0 t y).1.2)

theorem iblk0_1_eq (c : Dev nD) (t : Fin cfg0.N) : iblk0 Vb c 1 t = Vb c main_arg3 :=
  funext fun y => congrArg (Vb c main_arg3) (Shape.idx_ext₂ (win0_1.rect_emb_val_of_index_zero t 0 (idx0 t).2.2.1 y)
    (win0_1.rect_emb_val_of_index_zero t 1 (idx0 t).2.2.2.1 y))

-- A shape cast to the same shape is the identity, so every call's payload is the first call's.
theorem pay0_eq (a : Vec F S1000x128 .f32) (b : Vec F S128x128 .f32) : k0_pay1 a b = Gen.k0_pay1 a b := by
  first | rfl | (unfold k0_pay1 Gen.k0_pay1; rw [shapeCast_self])

theorem mmVal_block0 (x : Vec F S10000x128 .f32) (w : Vec F S128x128 .f32) (t : Fin 10) (y : S1000x128.Idx) (j : S10000x128.Idx)
    (h0 : (j 0).val = 1000 * t.val + (y 0).val) (h1 : (j 1).val = (y 1).val) :
    mmVal x w j = k0_pay1 (rowBlock x t) w y := by
  have hy := idx2_lt0 y
  refine (congrArg₂ (fun a b => Gen.k0_pay1 (rowBlock x a) w b) (Fin.ext ?_) (Shape.idx_ext₂ ?_ h1)).trans (congrFun (pay0_eq _ w) y).symm
  · show (j 0).val / 1000 = t.val; omega
  · show (j 0).val % 1000 = (y 0).val; omega

theorem flushed0_eq (c : Dev nD) (t : Fin cfg0.N) :
    (dat0 Vb O bnd c).flushed 2 t = (win0_2.blk t).view.read (Elt F) (mmVal (Vb c main_arg0) (Vb c main_arg3)) := by
  show (cfg0.win 2).cut (grid0.coords t) (k0_pay1 (iblk0 Vb c 0 t) (iblk0 Vb c 1 t)) = _
  rw [iblk0_0_eq, iblk0_1_eq]
  exact funext fun y => (mmVal_block0 _ _ (pt0 t) y _ (emb0 t y).2.1 (emb0 t y).2.2).symm

-- Row r of the result lies in block r / 1000.
theorem cover0 (i : S10000x128.Idx) :
    ∃ t : Fin cfg0.N, (cfg0.win 2).flush t = true ∧ i ∈ ((cfg0.win 2).blk t).view.set := by
  have hi := idx2_lt0 i
  have hN : cfg0.N = 10 := N_0
  let t : Fin cfg0.N := ⟨(i 0).val / 1000, by omega⟩
  let y : S1000x128.Idx := ix2 (n0 := 1000) (n1 := 128) ⟨(i 0).val % 1000, Nat.mod_lt _ (by decide)⟩ ⟨(i 1).val, idx2_lt1 i⟩
  have hy : (win0_2.rect t).emb y = i := Shape.idx_ext₂
    ((emb0 t y).2.1.trans (by show 1000 * ((i 0).val / 1000) + (i 0).val % 1000 = _; omega)) (emb0 t y).2.2
  exact ⟨t, flush0_2 t, hy ▸ (win0_2.blk t).view.emb_mem_set y⟩

theorem value0 (c : Dev nD) : (dat0 Vb O bnd c).arrAt 2 cfg0.N = mmVal (Vb c main_arg0) (Vb c main_arg3) :=
  (dat0 Vb O bnd c).arrAt_eq_of_cover 2 _ (fun t _ => flushed0_eq Vb O bnd c t) cover0

-- The region's arrays are its three arrays whole at the full share.
theorem arrays0_eq (c : Dev nD) (Fa : (w : Fin cfg0.W) → Buf (Elt F) ((cfg0.win w).arr.view.loc (c.tc : Thread nD τ))) :
    ((dat0 Vb O bnd c).arrays Fa : sProp (MM F))
      = iprop(((c.tc : Thread nD τ).loc main_arg0 ↦{fullShare} Fa 0) ∗ ((c.tc : Thread nD τ).loc main_arg3 ↦{fullShare} Fa 1) ∗ ((c.tc : Thread nD τ).loc main_v6 ↦{fullShare} Fa 2)) := by
  refine Eq.trans ?_ (bigSep_W0 fun w : Fin cfg0.W => (((c.tc : Thread nD τ).loc (Pipeline.arrRef spec0 w)) ↦{fullShare} Fa w : sProp (MM F)))
  unfold Dat.arrays
  refine bigSep_congr fun w _ => ?_
  rw [(arr_whole0 w).set_eq_univ, (dat0 Vb O bnd c).share_full (fun _ => rfl) w]
  first | done | rfl

theorem entry_arrays0 (c : Dev nD) :
    (iprop(((c.tc : Thread nD τ).loc main_arg0 ↦{fullShare} Vb c main_arg0) ∗ ((c.tc : Thread nD τ).loc main_arg3 ↦{fullShare} Vb c main_arg3)
        ∗ ((c.tc : Thread nD τ).loc main_v6 ↦{fullShare} Vb c main_v6)) : sProp (MM F))
      ⊢ (dat0 Vb O bnd c).arrays ((dat0 Vb O bnd c).arrAt · 0) := by
  rw [arrays0_eq]
  first | done | exact .rfl

theorem exit_arrays0 (c : Dev nD) :
    ((dat0 Vb O bnd c).arrays ((dat0 Vb O bnd c).arrAt · cfg0.N) : sProp (MM F))
      ⊢ iprop(((c.tc : Thread nD τ).loc main_arg0 ↦{fullShare} Vb c main_arg0) ∗ ((c.tc : Thread nD τ).loc main_arg3 ↦{fullShare} Vb c main_arg3)
        ∗ ((c.tc : Thread nD τ).loc main_v6 ↦{fullShare} mmVal (Vb c main_arg0) (Vb c main_arg3))) := by
  rw [arrays0_eq, ← value0 Vb O bnd c]
  exact .rfl

end Region0

end Cert.KernelIdeal.Hand

end
-- ==== Proof.TcBody2.lean ====
import proofs.«207978_g39513699123711_cont_8to1_b_1293_21_alg».proof.Proof.Common
import proofs.«207978_g39513699123711_cont_8to1_b_1293_21_alg».proof.Proof.ValDefs
import Idealize.ShloMosaic.Lib.Pipeline.FrameBody
import Idealize.ShloMosaic.Lib.Pipeline.Value

noncomputable section

namespace Cert.KernelIdeal.Hand

open Cert.KernelIdeal Cert.KernelIdeal.Gen

open Idealize.ShloMosaic Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region2

variable (Vb : (c : Dev nD) → (b : Ref sig .tc) → Buf (Elt F) ((c.tc : Thread nD τ).loc b))
  (O : Dev nD → CellTallies nD τ sig (HIx 3)) (bnd : ℕ)

noncomputable def iblk2 (c : Dev nD) (w : Fin cfg2.W) (t : Fin cfg2.N) : ((cfg2.win w).xblock (cfg2.grid.coords t)).Idx → Elt F (cfg2.win w).elt :=
  ((cfg2.win w).blk t).view.read (Elt F) (Vb c (Pipeline.arrRef spec2 w))

theorem zz2 : (![0, 0] : Fin 2 → Nat) = fun _ => 0 := funext fun a => by fin_cases a <;> rfl

-- Both loads read a whole buffer and the one store covers the result's: the inputs stay, the result holds their payload.
theorem sound_kernel2 (c : Dev nD) (E : Set ℕ) (i : grid2.Coords) (arg1 : Memref sig .tc .vmem S1000x128 .f32) (harg1 : arg1.IsWhole)
    (arg2 : Memref sig .tc .vmem S128x128 .f32) (harg2 : arg2.IsWhole) (arg3 : Memref sig .tc .vmem S1000x128 .f32) (harg3 : arg3.IsWhole)
    (x0 : Vec F S1000x128 .f32) (x1 : Vec F S128x128 .f32) (Kc : PUnit → sProp (MM F)) :
    iprop(owns (c.tc : Thread nD τ) arg1 fullShare x0 ∗ owns (c.tc : Thread nD τ) arg2 fullShare x1 ∗ (∃ d, owns (c.tc : Thread nD τ) arg3 fullShare d)
        ∗ (iprop(owns (c.tc : Thread nD τ) arg1 fullShare x0 ∗ owns (c.tc : Thread nD τ) arg2 fullShare x1 ∗ owns (c.tc : Thread nD τ) arg3 fullShare (k2_pay1 x0 x1)) -∗ Kc ⟨⟩))
      ⊢ wp frame (wpE (defs₀ (F := F)) Variants.none (c.tc : Thread nD τ) none) E (cc2__mm_body i arg1 harg1 arg2 harg2 arg3 harg3) Kc := by
  simp only [cc2__mm_body_eq_skeleton]; unfold cc2__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zz2 inb_S1000x128_S1000x128_0_0 y⟩),
    View.canon_unit_zero zz2, View.readAt_eq_ld, View.readAt_eq_ld, View.ld_unit_zero zz2, View.ld_unit_zero zz2]

noncomputable def dat2 (c : Dev nD) : Dat τ (Elt F) (HIx 3) ℕ UU ℕ cfg2 c where
  A w := Vb c (Pipeline.arrRef spec2 w)
  after w t := match w with
    | ⟨0, _⟩ => iblk2 Vb c 0 t
    | ⟨1, _⟩ => iblk2 Vb c 1 t
    | ⟨2, _⟩ => k2_pay1 (iblk2 Vb c 0 t) (iblk2 Vb c 1 t)
  Φ _ := Pipeline.scopedRest spec2 c
  q _ := fullShare
  owed _ := O c
  recorded _ := {pr | (K (F := F)).lev (T c, pr.1) pr.2 ≤ bnd}

-- The body leaves each input's block in place, so at every point an input window holds its block.
theorem before2 (c : Dev nD) (t : Fin cfg2.N) :
    (∀ d, (dat2 Vb O bnd c).before 0 t d = iblk2 Vb c 0 t) ∧ ∀ d, (dat2 Vb O bnd c).before 1 t d = iblk2 Vb c 1 t := by
  constructor <;> intro d <;>
  exact (Dat.before_in_eq_fetched _ _ rfl (fun _ => rfl) (fun _ _ _ => rfl) (fun _ => rfl) t d).trans rfl

theorem body_obligation2 (c : Dev nD) : BodyObligation (dat2 (F := F) Vb O bnd c) (defs₀ (F := F)) Variants.none none Set.univ := fun t => by
  rw [bigSep_W2, bigSep_W2]
  show iprop((dat2 Vb O bnd c).Φ t.castSucc ∗ (dat2 Vb O bnd c).owesAt none t.castSucc
      ∗ (∃ d, owns (c.tc : Thread nD τ) (st2_0 t) fullShare ((dat2 Vb O bnd c).before 0 t d))
      ∗ (∃ d, owns (c.tc : Thread nD τ) (st2_1 t) fullShare ((dat2 Vb O bnd c).before 1 t d))
      ∗ (∃ d, owns (c.tc : Thread nD τ) (st2_2 t) fullShare ((dat2 Vb O bnd c).before 2 t d)))
    ⊢ wp frame (wpE (defs₀ (F := F)) Variants.none (c.tc : Thread nD τ) none) Set.univ (bodyAt2 t) fun _ =>
      iprop((dat2 Vb O bnd c).Φ t.castSucc ∗ (dat2 Vb O bnd c).owesAt none t.castSucc
        ∗ owns (c.tc : Thread nD τ) (st2_0 t) fullShare (iblk2 Vb c 0 t) ∗ owns (c.tc : Thread nD τ) (st2_1 t) fullShare (iblk2 Vb c 1 t)
        ∗ owns (c.tc : Thread nD τ) (st2_2 t) fullShare (k2_pay1 (iblk2 Vb c 0 t) (iblk2 Vb c 1 t)))
  simp only [(before2 Vb O bnd c t).1, (before2 Vb O bnd c t).2]
  iintro ⟨HΦ, Ho, ⟨%d0, H0⟩, ⟨%d1, H1⟩, ⟨%d2, H2⟩⟩
  iapply (sound_kernel2 c Set.univ (grid2.coords t) _ _ _ _ _ _ (iblk2 Vb c 0 t) (iblk2 Vb c 1 t) _)
  iframe H0 H1
  isplitl [H2]; · iexists _; iexact H2
  iintro H
  iframe

theorem idx2 (t : Fin cfg2.N) :
    win2_0.index t 0 = t.val ∧ win2_0.index t 1 = 0 ∧ win2_1.index t 0 = 0 ∧ win2_1.index t 1 = 0
      ∧ win2_2.index t 0 = t.val ∧ win2_2.index t 1 = 0 := by
  rcases fin_N2 t with rfl | rfl | rfl | rfl | rfl | rfl | rfl | rfl | rfl | rfl <;> decide +kernel

noncomputable abbrev pt2 (t : Fin cfg2.N) : Fin 10 := ⟨t.val, by have hN : cfg2.N = 10 := N_2; have := t.isLt; omega⟩

-- Element y of block t of the operand and of the result sits at row 1000 t + y 0, column y 1.
theorem emb2 (t : Fin cfg2.N) (y : S1000x128.Idx) :
    (((win2_0.rect t).emb y 0 : ℕ) = 1000 * t.val + (y 0).val ∧ ((win2_0.rect t).emb y 1 : ℕ) = (y 1).val)
      ∧ ((win2_2.rect t).emb y 0 : ℕ) = 1000 * t.val + (y 0).val ∧ ((win2_2.rect t).emb y 1 : ℕ) = (y 1).val := by
  obtain ⟨h0, h1, -, -, h2, h3⟩ := idx2 t
  refine ⟨⟨?_, win2_0.rect_emb_val_of_index_zero t 1 h1 y⟩, ?_, win2_2.rect_emb_val_of_index_zero t 1 h3 y⟩
  · rw [win2_0.rect_emb_val t y 0, h0]; show t.val * 1000 + (y 0).val = _; omega
  · rw [win2_2.rect_emb_val t y 0, h2]; show t.val * 1000 + (y 0).val = _; omega

theorem iblk2_0_eq (c : Dev nD) (t : Fin cfg2.N) : iblk2 Vb c 0 t = rowBlock (Vb c main_v14) (pt2 t) :=
  funext fun y => congrArg (Vb c main_v14) (Shape.idx_ext₂ (emb2 t y).1.1 (emb2 t y).1.2)

theorem iblk2_1_eq (c : Dev nD) (t : Fin cfg2.N) : iblk2 Vb c 1 t = Vb c main_arg5 :=
  funext fun y => congrArg (Vb c main_arg5) (Shape.idx_ext₂ (win2_1.rect_emb_val_of_index_zero t 0 (idx2 t).2.2.1 y)
    (win2_1.rect_emb_val_of_index_zero t 1 (idx2 t).2.2.2.1 y))

-- A shape cast to the same shape is the identity, so every call's payload is the first call's.
theorem pay2_eq (a : Vec F S1000x128 .f32) (b : Vec F S128x128 .f32) : k2_pay1 a b = Gen.k0_pay1 a b := by
  first | rfl | (unfold k2_pay1 Gen.k0_pay1; rw [shapeCast_self])

theorem mmVal_block2 (x : Vec F S10000x128 .f32) (w : Vec F S128x128 .f32) (t : Fin 10) (y : S1000x128.Idx) (j : S10000x128.Idx)
    (h0 : (j 0).val = 1000 * t.val + (y 0).val) (h1 : (j 1).val = (y 1).val) :
    mmVal x w j = k2_pay1 (rowBlock x t) w y := by
  have hy := idx2_lt0 y
  refine (congrArg₂ (fun a b => Gen.k0_pay1 (rowBlock x a) w b) (Fin.ext ?_) (Shape.idx_ext₂ ?_ h1)).trans (congrFun (pay2_eq _ w) y).symm
  · show (j 0).val / 1000 = t.val; omega
  · show (j 0).val % 1000 = (y 0).val; omega

theorem flushed2_eq (c : Dev nD) (t : Fin cfg2.N) :
    (dat2 Vb O bnd c).flushed 2 t = (win2_2.blk t).view.read (Elt F) (mmVal (Vb c main_v14) (Vb c main_arg5)) := by
  show (cfg2.win 2).cut (grid2.coords t) (k2_pay1 (iblk2 Vb c 0 t) (iblk2 Vb c 1 t)) = _
  rw [iblk2_0_eq, iblk2_1_eq]
  exact funext fun y => (mmVal_block2 _ _ (pt2 t) y _ (emb2 t y).2.1 (emb2 t y).2.2).symm

-- Row r of the result lies in block r / 1000.
theorem cover2 (i : S10000x128.Idx) :
    ∃ t : Fin cfg2.N, (cfg2.win 2).flush t = true ∧ i ∈ ((cfg2.win 2).blk t).view.set := by
  have hi := idx2_lt0 i
  have hN : cfg2.N = 10 := N_2
  let t : Fin cfg2.N := ⟨(i 0).val / 1000, by omega⟩
  let y : S1000x128.Idx := ix2 (n0 := 1000) (n1 := 128) ⟨(i 0).val % 1000, Nat.mod_lt _ (by decide)⟩ ⟨(i 1).val, idx2_lt1 i⟩
  have hy : (win2_2.rect t).emb y = i := Shape.idx_ext₂
    ((emb2 t y).2.1.trans (by show 1000 * ((i 0).val / 1000) + (i 0).val % 1000 = _; omega)) (emb2 t y).2.2
  exact ⟨t, flush2_2 t, hy ▸ (win2_2.blk t).view.emb_mem_set y⟩

theorem value2 (c : Dev nD) : (dat2 Vb O bnd c).arrAt 2 cfg2.N = mmVal (Vb c main_v14) (Vb c main_arg5) :=
  (dat2 Vb O bnd c).arrAt_eq_of_cover 2 _ (fun t _ => flushed2_eq Vb O bnd c t) cover2

-- The region's arrays are its three arrays whole at the full share.
theorem arrays2_eq (c : Dev nD) (Fa : (w : Fin cfg2.W) → Buf (Elt F) ((cfg2.win w).arr.view.loc (c.tc : Thread nD τ))) :
    ((dat2 Vb O bnd c).arrays Fa : sProp (MM F))
      = iprop(((c.tc : Thread nD τ).loc main_v14 ↦{fullShare} Fa 0) ∗ ((c.tc : Thread nD τ).loc main_arg5 ↦{fullShare} Fa 1) ∗ ((c.tc : Thread nD τ).loc main_v15 ↦{fullShare} Fa 2)) := by
  refine Eq.trans ?_ (bigSep_W2 fun w : Fin cfg2.W => (((c.tc : Thread nD τ).loc (Pipeline.arrRef spec2 w)) ↦{fullShare} Fa w : sProp (MM F)))
  unfold Dat.arrays
  refine bigSep_congr fun w _ => ?_
  rw [(arr_whole2 w).set_eq_univ, (dat2 Vb O bnd c).share_full (fun _ => rfl) w]
  first | done | rfl

theorem entry_arrays2 (c : Dev nD) :
    (iprop(((c.tc : Thread nD τ).loc main_v14 ↦{fullShare} Vb c main_v14) ∗ ((c.tc : Thread nD τ).loc main_arg5 ↦{fullShare} Vb c main_arg5)
        ∗ ((c.tc : Thread nD τ).loc main_v15 ↦{fullShare} Vb c main_v15)) : sProp (MM F))
      ⊢ (dat2 Vb O bnd c).arrays ((dat2 Vb O bnd c).arrAt · 0) := by
  rw [arrays2_eq]
  first | done | exact .rfl

theorem exit_arrays2 (c : Dev nD) :
    ((dat2 Vb O bnd c).arrays ((dat2 Vb O bnd c).arrAt · cfg2.N) : sProp (MM F))
      ⊢ iprop(((c.tc : Thread nD τ).loc main_v14 ↦{fullShare} Vb c main_v14) ∗ ((c.tc : Thread nD τ).loc main_arg5 ↦{fullShare} Vb c main_arg5)
        ∗ ((c.tc : Thread nD τ).loc main_v15 ↦{fullShare} mmVal (Vb c main_v14) (Vb c main_arg5))) := by
  rw [arrays2_eq, ← value2 Vb O bnd c]
  exact .rfl

end Region2

end Cert.KernelIdeal.Hand

end
-- ==== Proof.TcBody4.lean ====
import proofs.«207978_g39513699123711_cont_8to1_b_1293_21_alg».proof.Proof.Common
import proofs.«207978_g39513699123711_cont_8to1_b_1293_21_alg».proof.Proof.ValDefs
import Idealize.ShloMosaic.Lib.Pipeline.FrameBody
import Idealize.ShloMosaic.Lib.Pipeline.Value

noncomputable section

namespace Cert.KernelIdeal.Hand

open Cert.KernelIdeal Cert.KernelIdeal.Gen

open Idealize.ShloMosaic Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region4

variable (Vb : (c : Dev nD) → (b : Ref sig .tc) → Buf (Elt F) ((c.tc : Thread nD τ).loc b))
  (O : Dev nD → CellTallies nD τ sig (HIx 3)) (bnd : ℕ)

noncomputable def iblk4 (c : Dev nD) (w : Fin cfg4.W) (t : Fin cfg4.N) : ((cfg4.win w).xblock (cfg4.grid.coords t)).Idx → Elt F (cfg4.win w).elt :=
  ((cfg4.win w).blk t).view.read (Elt F) (Vb c (Pipeline.arrRef spec4 w))

theorem zz4 : (![0, 0] : Fin 2 → Nat) = fun _ => 0 := funext fun a => by fin_cases a <;> rfl

-- Both loads read a whole buffer and the one store covers the result's: the inputs stay, the result holds their payload.
theorem sound_kernel4 (c : Dev nD) (E : Set ℕ) (i : grid4.Coords) (arg1 : Memref sig .tc .vmem S1000x128 .f32) (harg1 : arg1.IsWhole)
    (arg2 : Memref sig .tc .vmem S128x128 .f32) (harg2 : arg2.IsWhole) (arg3 : Memref sig .tc .vmem S1000x128 .f32) (harg3 : arg3.IsWhole)
    (x0 : Vec F S1000x128 .f32) (x1 : Vec F S128x128 .f32) (Kc : PUnit → sProp (MM F)) :
    iprop(owns (c.tc : Thread nD τ) arg1 fullShare x0 ∗ owns (c.tc : Thread nD τ) arg2 fullShare x1 ∗ (∃ d, owns (c.tc : Thread nD τ) arg3 fullShare d)
        ∗ (iprop(owns (c.tc : Thread nD τ) arg1 fullShare x0 ∗ owns (c.tc : Thread nD τ) arg2 fullShare x1 ∗ owns (c.tc : Thread nD τ) arg3 fullShare (k4_pay1 x0 x1)) -∗ Kc ⟨⟩))
      ⊢ wp frame (wpE (defs₀ (F := F)) Variants.none (c.tc : Thread nD τ) none) E (cc4__mm_body i arg1 harg1 arg2 harg2 arg3 harg3) Kc := by
  simp only [cc4__mm_body_eq_skeleton]; unfold cc4__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zz4 inb_S1000x128_S1000x128_0_0 y⟩),
    View.canon_unit_zero zz4, View.readAt_eq_ld, View.readAt_eq_ld, View.ld_unit_zero zz4, View.ld_unit_zero zz4]

noncomputable def dat4 (c : Dev nD) : Dat τ (Elt F) (HIx 3) ℕ UU ℕ cfg4 c where
  A w := Vb c (Pipeline.arrRef spec4 w)
  after w t := match w with
    | ⟨0, _⟩ => iblk4 Vb c 0 t
    | ⟨1, _⟩ => iblk4 Vb c 1 t
    | ⟨2, _⟩ => k4_pay1 (iblk4 Vb c 0 t) (iblk4 Vb c 1 t)
  Φ _ := Pipeline.scopedRest spec4 c
  q _ := fullShare
  owed _ := O c
  recorded _ := {pr | (K (F := F)).lev (T c, pr.1) pr.2 ≤ bnd}

-- The body leaves each input's block in place, so at every point an input window holds its block.
theorem before4 (c : Dev nD) (t : Fin cfg4.N) :
    (∀ d, (dat4 Vb O bnd c).before 0 t d = iblk4 Vb c 0 t) ∧ ∀ d, (dat4 Vb O bnd c).before 1 t d = iblk4 Vb c 1 t := by
  constructor <;> intro d <;>
  exact (Dat.before_in_eq_fetched _ _ rfl (fun _ => rfl) (fun _ _ _ => rfl) (fun _ => rfl) t d).trans rfl

theorem body_obligation4 (c : Dev nD) : BodyObligation (dat4 (F := F) Vb O bnd c) (defs₀ (F := F)) Variants.none none Set.univ := fun t => by
  rw [bigSep_W4, bigSep_W4]
  show iprop((dat4 Vb O bnd c).Φ t.castSucc ∗ (dat4 Vb O bnd c).owesAt none t.castSucc
      ∗ (∃ d, owns (c.tc : Thread nD τ) (st4_0 t) fullShare ((dat4 Vb O bnd c).before 0 t d))
      ∗ (∃ d, owns (c.tc : Thread nD τ) (st4_1 t) fullShare ((dat4 Vb O bnd c).before 1 t d))
      ∗ (∃ d, owns (c.tc : Thread nD τ) (st4_2 t) fullShare ((dat4 Vb O bnd c).before 2 t d)))
    ⊢ wp frame (wpE (defs₀ (F := F)) Variants.none (c.tc : Thread nD τ) none) Set.univ (bodyAt4 t) fun _ =>
      iprop((dat4 Vb O bnd c).Φ t.castSucc ∗ (dat4 Vb O bnd c).owesAt none t.castSucc
        ∗ owns (c.tc : Thread nD τ) (st4_0 t) fullShare (iblk4 Vb c 0 t) ∗ owns (c.tc : Thread nD τ) (st4_1 t) fullShare (iblk4 Vb c 1 t)
        ∗ owns (c.tc : Thread nD τ) (st4_2 t) fullShare (k4_pay1 (iblk4 Vb c 0 t) (iblk4 Vb c 1 t)))
  simp only [(before4 Vb O bnd c t).1, (before4 Vb O bnd c t).2]
  iintro ⟨HΦ, Ho, ⟨%d0, H0⟩, ⟨%d1, H1⟩, ⟨%d2, H2⟩⟩
  iapply (sound_kernel4 c Set.univ (grid4.coords t) _ _ _ _ _ _ (iblk4 Vb c 0 t) (iblk4 Vb c 1 t) _)
  iframe H0 H1
  isplitl [H2]; · iexists _; iexact H2
  iintro H
  iframe

theorem idx4 (t : Fin cfg4.N) :
    win4_0.index t 0 = t.val ∧ win4_0.index t 1 = 0 ∧ win4_1.index t 0 = 0 ∧ win4_1.index t 1 = 0
      ∧ win4_2.index t 0 = t.val ∧ win4_2.index t 1 = 0 := by
  rcases fin_N4 t with rfl | rfl | rfl | rfl | rfl | rfl | rfl | rfl | rfl | rfl <;> decide +kernel

noncomputable abbrev pt4 (t : Fin cfg4.N) : Fin 10 := ⟨t.val, by have hN : cfg4.N = 10 := N_4; have := t.isLt; omega⟩

-- Element y of block t of the operand and of the result sits at row 1000 t + y 0, column y 1.
theorem emb4 (t : Fin cfg4.N) (y : S1000x128.Idx) :
    (((win4_0.rect t).emb y 0 : ℕ) = 1000 * t.val + (y 0).val ∧ ((win4_0.rect t).emb y 1 : ℕ) = (y 1).val)
      ∧ ((win4_2.rect t).emb y 0 : ℕ) = 1000 * t.val + (y 0).val ∧ ((win4_2.rect t).emb y 1 : ℕ) = (y 1).val := by
  obtain ⟨h0, h1, -, -, h2, h3⟩ := idx4 t
  refine ⟨⟨?_, win4_0.rect_emb_val_of_index_zero t 1 h1 y⟩, ?_, win4_2.rect_emb_val_of_index_zero t 1 h3 y⟩
  · rw [win4_0.rect_emb_val t y 0, h0]; show t.val * 1000 + (y 0).val = _; omega
  · rw [win4_2.rect_emb_val t y 0, h2]; show t.val * 1000 + (y 0).val = _; omega

theorem iblk4_0_eq (c : Dev nD) (t : Fin cfg4.N) : iblk4 Vb c 0 t = rowBlock (Vb c main_v23) (pt4 t) :=
  funext fun y => congrArg (Vb c main_v23) (Shape.idx_ext₂ (emb4 t y).1.1 (emb4 t y).1.2)

theorem iblk4_1_eq (c : Dev nD) (t : Fin cfg4.N) : iblk4 Vb c 1 t = Vb c main_arg7 :=
  funext fun y => congrArg (Vb c main_arg7) (Shape.idx_ext₂ (win4_1.rect_emb_val_of_index_zero t 0 (idx4 t).2.2.1 y)
    (win4_1.rect_emb_val_of_index_zero t 1 (idx4 t).2.2.2.1 y))

-- A shape cast to the same shape is the identity, so every call's payload is the first call's.
theorem pay4_eq (a : Vec F S1000x128 .f32) (b : Vec F S128x128 .f32) : k4_pay1 a b = Gen.k0_pay1 a b := by
  first | rfl | (unfold k4_pay1 Gen.k0_pay1; rw [shapeCast_self])

theorem mmVal_block4 (x : Vec F S10000x128 .f32) (w : Vec F S128x128 .f32) (t : Fin 10) (y : S1000x128.Idx) (j : S10000x128.Idx)
    (h0 : (j 0).val = 1000 * t.val + (y 0).val) (h1 : (j 1).val = (y 1).val) :
    mmVal x w j = k4_pay1 (rowBlock x t) w y := by
  have hy := idx2_lt0 y
  refine (congrArg₂ (fun a b => Gen.k0_pay1 (rowBlock x a) w b) (Fin.ext ?_) (Shape.idx_ext₂ ?_ h1)).trans (congrFun (pay4_eq _ w) y).symm
  · show (j 0).val / 1000 = t.val; omega
  · show (j 0).val % 1000 = (y 0).val; omega

theorem flushed4_eq (c : Dev nD) (t : Fin cfg4.N) :
    (dat4 Vb O bnd c).flushed 2 t = (win4_2.blk t).view.read (Elt F) (mmVal (Vb c main_v23) (Vb c main_arg7)) := by
  show (cfg4.win 2).cut (grid4.coords t) (k4_pay1 (iblk4 Vb c 0 t) (iblk4 Vb c 1 t)) = _
  rw [iblk4_0_eq, iblk4_1_eq]
  exact funext fun y => (mmVal_block4 _ _ (pt4 t) y _ (emb4 t y).2.1 (emb4 t y).2.2).symm

-- Row r of the result lies in block r / 1000.
theorem cover4 (i : S10000x128.Idx) :
    ∃ t : Fin cfg4.N, (cfg4.win 2).flush t = true ∧ i ∈ ((cfg4.win 2).blk t).view.set := by
  have hi := idx2_lt0 i
  have hN : cfg4.N = 10 := N_4
  let t : Fin cfg4.N := ⟨(i 0).val / 1000, by omega⟩
  let y : S1000x128.Idx := ix2 (n0 := 1000) (n1 := 128) ⟨(i 0).val % 1000, Nat.mod_lt _ (by decide)⟩ ⟨(i 1).val, idx2_lt1 i⟩
  have hy : (win4_2.rect t).emb y = i := Shape.idx_ext₂
    ((emb4 t y).2.1.trans (by show 1000 * ((i 0).val / 1000) + (i 0).val % 1000 = _; omega)) (emb4 t y).2.2
  exact ⟨t, flush4_2 t, hy ▸ (win4_2.blk t).view.emb_mem_set y⟩

theorem value4 (c : Dev nD) : (dat4 Vb O bnd c).arrAt 2 cfg4.N = mmVal (Vb c main_v23) (Vb c main_arg7) :=
  (dat4 Vb O bnd c).arrAt_eq_of_cover 2 _ (fun t _ => flushed4_eq Vb O bnd c t) cover4

-- The region's arrays are its three arrays whole at the full share.
theorem arrays4_eq (c : Dev nD) (Fa : (w : Fin cfg4.W) → Buf (Elt F) ((cfg4.win w).arr.view.loc (c.tc : Thread nD τ))) :
    ((dat4 Vb O bnd c).arrays Fa : sProp (MM F))
      = iprop(((c.tc : Thread nD τ).loc main_v23 ↦{fullShare} Fa 0) ∗ ((c.tc : Thread nD τ).loc main_arg7 ↦{fullShare} Fa 1) ∗ ((c.tc : Thread nD τ).loc main_v24 ↦{fullShare} Fa 2)) := by
  refine Eq.trans ?_ (bigSep_W4 fun w : Fin cfg4.W => (((c.tc : Thread nD τ).loc (Pipeline.arrRef spec4 w)) ↦{fullShare} Fa w : sProp (MM F)))
  unfold Dat.arrays
  refine bigSep_congr fun w _ => ?_
  rw [(arr_whole4 w).set_eq_univ, (dat4 Vb O bnd c).share_full (fun _ => rfl) w]
  first | done | rfl

theorem entry_arrays4 (c : Dev nD) :
    (iprop(((c.tc : Thread nD τ).loc main_v23 ↦{fullShare} Vb c main_v23) ∗ ((c.tc : Thread nD τ).loc main_arg7 ↦{fullShare} Vb c main_arg7)
        ∗ ((c.tc : Thread nD τ).loc main_v24 ↦{fullShare} Vb c main_v24)) : sProp (MM F))
      ⊢ (dat4 Vb O bnd c).arrays ((dat4 Vb O bnd c).arrAt · 0) := by
  rw [arrays4_eq]
  first | done | exact .rfl

theorem exit_arrays4 (c : Dev nD) :
    ((dat4 Vb O bnd c).arrays ((dat4 Vb O bnd c).arrAt · cfg4.N) : sProp (MM F))
      ⊢ iprop(((c.tc : Thread nD τ).loc main_v23 ↦{fullShare} Vb c main_v23) ∗ ((c.tc : Thread nD τ).loc main_arg7 ↦{fullShare} Vb c main_arg7)
        ∗ ((c.tc : Thread nD τ).loc main_v24 ↦{fullShare} mmVal (Vb c main_v23) (Vb c main_arg7))) := by
  rw [arrays4_eq, ← value4 Vb O bnd c]
  exact .rfl

end Region4

end Cert.KernelIdeal.Hand

end
-- ==== Proof.TcData.lean ====
import proofs.«207978_g39513699123711_cont_8to1_b_1293_21_alg».proof.Proof.TcBody0
import proofs.«207978_g39513699123711_cont_8to1_b_1293_21_alg».proof.Proof.TcBody2
import proofs.«207978_g39513699123711_cont_8to1_b_1293_21_alg».proof.Proof.TcBody4

noncomputable section

namespace Cert.KernelIdeal.Hand

open Cert.KernelIdeal Cert.KernelIdeal.Gen

open Idealize.ShloMosaic
open Idealize.ShloMosaic.SparseCore.Cfg (HIx)
open Idealize.ShloMosaic.Pipeline (Dat)

variable {F : FTy → Type} [FloatOps F]

noncomputable abbrev adm : (p : Fin 3) → (pcfgs (F := F) p).Adm := fun p => (cfgs p).toPCfg_adm

variable (Vb : Fin 3 → (c : Dev nD) → (b : Ref sig .tc) → Buf (Elt F) ((c.tc : Thread nD τ).loc b))
  (O : Fin 3 → Dev nD → CellTallies nD τ sig (HIx 3)) (bnd : Fin 3 → ℕ)

noncomputable def pdats : (p : Fin 3) → (c : Dev nD) → Dat τ (Elt F) (HIx 3) ℕ UU ℕ (Pipeline.pin (pcfgs (F := F)) adm p) c
  | ⟨0, _⟩ => fun c => dat0 (Vb 0) (O 0) (bnd 0) c
  | ⟨1, _⟩ => fun c => dat2 (Vb 1) (O 1) (bnd 1) c
  | ⟨2, _⟩ => fun c => dat4 (Vb 2) (O 2) (bnd 2) c

end Cert.KernelIdeal.Hand

end
-- ==== Proof.TcRegion0.lean ====
import proofs.«207978_g39513699123711_cont_8to1_b_1293_21_alg».proof.Proof.TcData
import proofs.«207978_g39513699123711_cont_8to1_b_1293_21_alg».proof.Proof.TcEntry

noncomputable section

namespace Cert.KernelIdeal.Hand

open Cert.KernelIdeal Cert.KernelIdeal.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (Vb : Fin 3 → (c : Dev nD) → (b : Ref sig .tc) → Buf (Elt F) ((c.tc : Thread nD τ).loc b))
  (O : Fin 3 → Dev nD → CellTallies nD τ sig (HIx 3)) (bnd : Fin 3 → ℕ)

set_option backward.isDefEq.respectTransparency.types false in
noncomputable def region0 (hO : ∀ c g, O 0 c g none = 0) :
    Pipeline.RegionSeg (pcfgs (F := F)) adm (pdats Vb O bnd) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (Vb 0) (O 0) (bnd 0) c).loose
  hwaits c := Pipeline.cellsWaits_intro (Pipeline.pin (pcfgs (F := F)) adm) (pdats Vb O bnd) none 0 c fun w s t =>
    SparseCore.Cfg.mayWait_none (K := K (F := F)) _ (hO c)
  pre c := iprop(((c.tc : Thread nD τ).loc main_arg0 ↦{fullShare} Vb 0 c main_arg0) ∗ ((c.tc : Thread nD τ).loc main_arg3 ↦{fullShare} Vb 0 c main_arg3)
    ∗ ((c.tc : Thread nD τ).loc main_v6 ↦{fullShare} Vb 0 c main_v6)
    ∗ ∃ W, ⌜(K (F := F)).WBelow (T c) W (bnd 0)⌝ ∗ owes (T c) (O 0 c) W)
  post c := iprop(((c.tc : Thread nD τ).loc main_arg0 ↦{fullShare} Vb 0 c main_arg0) ∗ ((c.tc : Thread nD τ).loc main_arg3 ↦{fullShare} Vb 0 c main_arg3)
    ∗ ((c.tc : Thread nD τ).loc main_v6 ↦{fullShare} mmVal (Vb 0 c main_arg0) (Vb 0 c main_arg3))
    ∗ ∃ W, ⌜(K (F := F)).WBelow (T c) W (bnd 0)⌝ ∗ owes (T c) (O 0 c) W)
  X _ := iprop(emp)
  Y _ := iprop(emp)
  Z _ := iprop(emp)
  hentry c := by
    rw [Pipeline.ownSems0_none]
    iintro ⟨⟨Hx, Hw, Hy, HO⟩, -, -⟩
    imodintro
    isplitl [Hx Hw Hy]
    · iapply (entry_arrays0 (Vb 0) (O 0) (bnd 0) c); iframe
    isplitr; · unfold Pipeline.prefHeld; rw [show (Finset.univ : Finset (Fin 0)) = ∅ from rfl, BI.bigSep_empty]; iempintro
    isplitl [HO]; · iapply (owes_within cfg0 c (O 0 c) (bnd 0)).1; iexact HO
    isplitr <;> iempintro
  hin c := by
    rw [show (pdats Vb O bnd 0 c).Φ 0 = Pipeline.scopedRest spec0 c from rfl]
    iintro ⟨-, -, Hr⟩; iexact Hr
  hout c := by
    rw [Pipeline.ownSems0_none, show (pdats Vb O bnd 0 c).Φ (Fin.last _) = Pipeline.scopedRest spec0 c from rfl]
    iintro Hr
    iframe; iempintro
  hexit c := by
    refine (sep_mono (exit_arrays0 (Vb 0) (O 0) (bnd 0) c) .rfl).trans ?_
    iintro ⟨⟨Hx, Hw, Hy⟩, HO, -, -⟩
    imodintro
    iframe Hx Hw Hy
    iapply (owes_within cfg0 c (O 0 c) (bnd 0)).2; iexact HO

end Cert.KernelIdeal.Hand

end
-- ==== Proof.TcRegion2.lean ====
import proofs.«207978_g39513699123711_cont_8to1_b_1293_21_alg».proof.Proof.TcData
import proofs.«207978_g39513699123711_cont_8to1_b_1293_21_alg».proof.Proof.TcEntry

noncomputable section

namespace Cert.KernelIdeal.Hand

open Cert.KernelIdeal Cert.KernelIdeal.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (Vb : Fin 3 → (c : Dev nD) → (b : Ref sig .tc) → Buf (Elt F) ((c.tc : Thread nD τ).loc b))
  (O : Fin 3 → Dev nD → CellTallies nD τ sig (HIx 3)) (bnd : Fin 3 → ℕ)

set_option backward.isDefEq.respectTransparency.types false in
noncomputable def region2 (hO : ∀ c g, O 1 c g none = 0) :
    Pipeline.RegionSeg (pcfgs (F := F)) adm (pdats Vb O bnd) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (Vb 1) (O 1) (bnd 1) c).loose
  hwaits c := Pipeline.cellsWaits_intro (Pipeline.pin (pcfgs (F := F)) adm) (pdats Vb O bnd) none 1 c fun w s t =>
    SparseCore.Cfg.mayWait_none (K := K (F := F)) _ (hO c)
  pre c := iprop(((c.tc : Thread nD τ).loc main_v14 ↦{fullShare} Vb 1 c main_v14) ∗ ((c.tc : Thread nD τ).loc main_arg5 ↦{fullShare} Vb 1 c main_arg5)
    ∗ ((c.tc : Thread nD τ).loc main_v15 ↦{fullShare} Vb 1 c main_v15)
    ∗ ∃ W, ⌜(K (F := F)).WBelow (T c) W (bnd 1)⌝ ∗ owes (T c) (O 1 c) W)
  post c := iprop(((c.tc : Thread nD τ).loc main_v14 ↦{fullShare} Vb 1 c main_v14) ∗ ((c.tc : Thread nD τ).loc main_arg5 ↦{fullShare} Vb 1 c main_arg5)
    ∗ ((c.tc : Thread nD τ).loc main_v15 ↦{fullShare} mmVal (Vb 1 c main_v14) (Vb 1 c main_arg5))
    ∗ ∃ W, ⌜(K (F := F)).WBelow (T c) W (bnd 1)⌝ ∗ owes (T c) (O 1 c) W)
  X _ := iprop(emp)
  Y _ := iprop(emp)
  Z _ := iprop(emp)
  hentry c := by
    rw [Pipeline.ownSems0_none]
    iintro ⟨⟨Hx, Hw, Hy, HO⟩, -, -⟩
    imodintro
    isplitl [Hx Hw Hy]
    · iapply (entry_arrays2 (Vb 1) (O 1) (bnd 1) c); iframe
    isplitr; · unfold Pipeline.prefHeld; rw [show (Finset.univ : Finset (Fin 0)) = ∅ from rfl, BI.bigSep_empty]; iempintro
    isplitl [HO]; · iapply (owes_within cfg2 c (O 1 c) (bnd 1)).1; iexact HO
    isplitr <;> iempintro
  hin c := by
    rw [show (pdats Vb O bnd 1 c).Φ 0 = Pipeline.scopedRest spec2 c from rfl]
    iintro ⟨-, -, Hr⟩; iexact Hr
  hout c := by
    rw [Pipeline.ownSems0_none, show (pdats Vb O bnd 1 c).Φ (Fin.last _) = Pipeline.scopedRest spec2 c from rfl]
    iintro Hr
    iframe; iempintro
  hexit c := by
    refine (sep_mono (exit_arrays2 (Vb 1) (O 1) (bnd 1) c) .rfl).trans ?_
    iintro ⟨⟨Hx, Hw, Hy⟩, HO, -, -⟩
    imodintro
    iframe Hx Hw Hy
    iapply (owes_within cfg2 c (O 1 c) (bnd 1)).2; iexact HO

end Cert.KernelIdeal.Hand

end
-- ==== Proof.TcRegion4.lean ====
import proofs.«207978_g39513699123711_cont_8to1_b_1293_21_alg».proof.Proof.TcData
import proofs.«207978_g39513699123711_cont_8to1_b_1293_21_alg».proof.Proof.TcEntry

noncomputable section

namespace Cert.KernelIdeal.Hand

open Cert.KernelIdeal Cert.KernelIdeal.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (Vb : Fin 3 → (c : Dev nD) → (b : Ref sig .tc) → Buf (Elt F) ((c.tc : Thread nD τ).loc b))
  (O : Fin 3 → Dev nD → CellTallies nD τ sig (HIx 3)) (bnd : Fin 3 → ℕ)

set_option backward.isDefEq.respectTransparency.types false in
noncomputable def region4 (hO : ∀ c g, O 2 c g none = 0) :
    Pipeline.RegionSeg (pcfgs (F := F)) adm (pdats Vb O bnd) none defs₀ 𝒱₀ (K (F := F)).L (K (F := F)).lev 2 where
  win := launch4.win.to₀
  block_pos := launch4.block_pos
  stage_whole := launch4.stage_whole
  K := PEmpty
  osem k := k.elim
  ho := Pipeline.OwnSemFacts.none _
  hbody c := (body_obligation4 (Vb 2) (O 2) (bnd 2) c).loose
  hwaits c := Pipeline.cellsWaits_intro (Pipeline.pin (pcfgs (F := F)) adm) (pdats Vb O bnd) none 2 c fun w s t =>
    SparseCore.Cfg.mayWait_none (K := K (F := F)) _ (hO c)
  pre c := iprop(((c.tc : Thread nD τ).loc main_v23 ↦{fullShare} Vb 2 c main_v23) ∗ ((c.tc : Thread nD τ).loc main_arg7 ↦{fullShare} Vb 2 c main_arg7)
    ∗ ((c.tc : Thread nD τ).loc main_v24 ↦{fullShare} Vb 2 c main_v24)
    ∗ ∃ W, ⌜(K (F := F)).WBelow (T c) W (bnd 2)⌝ ∗ owes (T c) (O 2 c) W)
  post c := iprop(((c.tc : Thread nD τ).loc main_v23 ↦{fullShare} Vb 2 c main_v23) ∗ ((c.tc : Thread nD τ).loc main_arg7 ↦{fullShare} Vb 2 c main_arg7)
    ∗ ((c.tc : Thread nD τ).loc main_v24 ↦{fullShare} mmVal (Vb 2 c main_v23) (Vb 2 c main_arg7))
    ∗ ∃ W, ⌜(K (F := F)).WBelow (T c) W (bnd 2)⌝ ∗ owes (T c) (O 2 c) W)
  X _ := iprop(emp)
  Y _ := iprop(emp)
  Z _ := iprop(emp)
  hentry c := by
    rw [Pipeline.ownSems0_none]
    iintro ⟨⟨Hx, Hw, Hy, HO⟩, -, -⟩
    imodintro
    isplitl [Hx Hw Hy]
    · iapply (entry_arrays4 (Vb 2) (O 2) (bnd 2) c); iframe
    isplitr; · unfold Pipeline.prefHeld; rw [show (Finset.univ : Finset (Fin 0)) = ∅ from rfl, BI.bigSep_empty]; iempintro
    isplitl [HO]; · iapply (owes_within cfg4 c (O 2 c) (bnd 2)).1; iexact HO
    isplitr <;> iempintro
  hin c := by
    rw [show (pdats Vb O bnd 2 c).Φ 0 = Pipeline.scopedRest spec4 c from rfl]
    iintro ⟨-, -, Hr⟩; iexact Hr
  hout c := by
    rw [Pipeline.ownSems0_none, show (pdats Vb O bnd 2 c).Φ (Fin.last _) = Pipeline.scopedRest spec4 c from rfl]
    iintro Hr
    iframe; iempintro
  hexit c := by
    refine (sep_mono (exit_arrays4 (Vb 2) (O 2) (bnd 2) c) .rfl).trans ?_
    iintro ⟨⟨Hx, Hw, Hy⟩, HO, -, -⟩
    imodintro
    iframe Hx Hw Hy
    iapply (owes_within cfg4 c (O 2 c) (bnd 2)).2; iexact HO

end Cert.KernelIdeal.Hand

end
-- ==== Proof.TcRegion.lean ====
import proofs.«207978_g39513699123711_cont_8to1_b_1293_21_alg».proof.Proof.TcRegion0
import proofs.«207978_g39513699123711_cont_8to1_b_1293_21_alg».proof.Proof.TcRegion2
import proofs.«207978_g39513699123711_cont_8to1_b_1293_21_alg».proof.Proof.TcRegion4
-- ==== Proof.HostRun.lean ====
import proofs.«207978_g39513699123711_cont_8to1_b_1293_21_alg».proof.Proof.Vals
import Idealize.ShloMosaic.Lib.Pipeline.Frame

noncomputable section

namespace Cert.KernelIdeal.Hand

open Cert.KernelIdeal Cert.KernelIdeal.Gen
open Idealize.ShloMosaic Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

noncomputable abbrev Sall : Finset (DevRef τ sig) := Pipeline.ucRefs τ sig

theorem dr_mem_Sall {r : Ref sig .tc} (h : r.isScoped = false) : dr r ∈ Sall :=
  Finset.mem_filter.mpr ⟨devRef_mem_tcRefs r, fun h' => Bool.false_ne_true (h.symm.trans h')⟩

omit [FloatOps F] in
-- The launch's resources in the form the host lines consume: the unscoped arrays as one held set.
theorem tcRes_held (m : (ℓ : Loc nD τ sig) → Buf (Elt F) ℓ) (ρ : Dev nD → PrngReg) (d : Dev nD) :
    ((K (F := F)).tcRes m ρ d : sProp (MM F))
      = iprop(boundary (SparseCore.T d) ∗ held (SparseCore.T d) Sall (V0 m d) ∗ (K (F := F)).tcSems0 d ∗ prngReg d (ρ d)) := by
  unfold SparseCore.Cfg.tcRes
  rw [show (unscopedBufs d (fun b => m ((SparseCore.T d).loc b)) : sProp (MM F)) = held (SparseCore.T d) Sall (V0 m d) from
    Pipeline.unscopedBufs_held (Ix := HIx 3) (Name := ℕ) (U := UU) (Lvl := ℕ) d (launchContents m d)]

-- A host operation touches TensorCore arrays only and allocates nothing.
abbrev Host (op : HloOp τ sig (Elt F)) : Prop := op.bufs ⊆ tcRefs τ sig ∧ op.fresh = ∅

theorem opsA_host : (opsA (F := F)).Forall Host := by
  repeat' constructor
  all_goals simp only [nullary_bufs_sub, unary_bufs_sub, binary_bufs_sub, reshape_bufs_sub]

theorem opsB_host : (opsB (F := F)).Forall Host := by
  repeat' constructor
  all_goals simp only [nullary_bufs_sub, unary_bufs_sub, binary_bufs_sub, ternary_bufs_sub]

theorem opsC_host : (opsC (F := F)).Forall Host := by
  repeat' constructor
  all_goals simp only [nullary_bufs_sub, unary_bufs_sub, binary_bufs_sub, ternary_bufs_sub]

theorem opsD_host : (opsD (F := F)).Forall Host := by
  repeat' constructor
  all_goals simp only [nullary_bufs_sub, unary_bufs_sub, binary_bufs_sub, ternary_bufs_sub]

set_option backward.isDefEq.respectTransparency.types false in
-- A line of host operations at the head of the TensorCore's program takes the held set from `V` to `after ops V`.
theorem stretch {ops : List (HloOp τ sig (Elt F))} (h : ops.Forall Host) (d : Dev nD) (V : Valuation τ sig (Elt F)) {β : Type}
    (k : PUnit → Prog (TpuEff nD τ sig (Elt F) (SparseCore.Sig (ΛP (F := F)) 3) .tc) β) (Kp : β → sProp (MM F)) :
    iprop(boundary (SparseCore.T d) ∗ (held (SparseCore.T d) Sall V : sProp (MM F)))
      ⊢ iprop(((boundary (SparseCore.T d) ∗ (held (SparseCore.T d) Sall (after ops V) : sProp (MM F)))
                -∗ wp frame (wpE ((K (F := F)).defs (D (F := F))) 𝒱 (SparseCore.T d) none) Set.univ (k ⟨⟩) Kp)
        -∗ wp frame (wpE ((K (F := F)).defs (D (F := F))) 𝒱 (SparseCore.T d) none) Set.univ (seq ops >>= k) Kp) :=
  have h := List.forall_iff_forall_mem.mp h
  wp_seq 𝒱 none Set.univ d Sall k ops (fun op ho => Pipeline.sub_ucRefs op (h op ho).1) (fun op ho => (h op ho).2) V

-- Three distinct unscoped arrays.
abbrev Three (r1 r2 r3 : Ref sig .tc) : Prop :=
  r1.isScoped = false ∧ r2.isScoped = false ∧ r3.isScoped = false ∧ r1 ≠ r2 ∧ r1 ≠ r3 ∧ r2 ≠ r3

omit [FloatOps F] in
-- The held set is three of its arrays and the rest.
theorem held_take3 (d : Dev nD) (V : Valuation τ sig (Elt F)) (r1 r2 r3 : Ref sig .tc) (h : Three r1 r2 r3) :
    (held (SparseCore.T d) Sall V : sProp (MM F))
      = iprop(((SparseCore.T d).loc r1 ↦{fullShare} V (dr r1)) ∗ ((SparseCore.T d).loc r2 ↦{fullShare} V (dr r2)) ∗ ((SparseCore.T d).loc r3 ↦{fullShare} V (dr r3))
          ∗ held (SparseCore.T d) (Sall \ {dr r1, dr r2, dr r3}) V) := by
  obtain ⟨h1, h2, h3, h12, h13, h23⟩ := h
  have hsub : ({dr r1, dr r2, dr r3} : Finset (DevRef τ sig)) ⊆ Sall :=
    Finset.insert_subset (dr_mem_Sall h1) (Finset.insert_subset (dr_mem_Sall h2) (Finset.singleton_subset_iff.mpr (dr_mem_Sall h3)))
  have n1 : dr r1 ∉ ({dr r2, dr r3} : Finset (DevRef τ sig)) := fun hb =>
    (Finset.mem_insert.mp hb).elim (devRef_ne_of_ne h12) fun hb => devRef_ne_of_ne h13 (Finset.mem_singleton.mp hb)
  have n2 : dr r2 ∉ ({dr r3} : Finset (DevRef τ sig)) := fun hb => devRef_ne_of_ne h23 (Finset.mem_singleton.mp hb)
  rw [held_sub_split (SparseCore.T d) hsub V]
  conv_lhs => unfold held
  rw [SparseCore.bigSep_insert' n1, SparseCore.bigSep_insert' n2, bigSep_singleton]
  exact equiv_iff.mp ⟨sep_assoc.trans (sep_mono_r sep_assoc), (sep_mono_r sep_assoc').trans sep_assoc'⟩

omit [FloatOps F] in
-- Put back with the third at new contents, they are the held set at the valuation updated there.
theorem held_put3 (d : Dev nD) (V : Valuation τ sig (Elt F)) (r1 r2 r3 : Ref sig .tc) (h : Three r1 r2 r3) (f : (dr r3).ty.Contents (Elt F)) :
    (iprop(((SparseCore.T d).loc r1 ↦{fullShare} V (dr r1)) ∗ ((SparseCore.T d).loc r2 ↦{fullShare} V (dr r2)) ∗ ((SparseCore.T d).loc r3 ↦{fullShare} f)
          ∗ held (SparseCore.T d) (Sall \ {dr r1, dr r2, dr r3}) V) : sProp (MM F))
      = held (SparseCore.T d) Sall (Function.update V (dr r3) f) := by
  rw [held_take3 d (Function.update V (dr r3) f) r1 r2 r3 h,
    Function.update_of_ne (devRef_ne_of_ne h.2.2.2.2.1), Function.update_of_ne (devRef_ne_of_ne h.2.2.2.2.2), Function.update_self,
    held_congr (SparseCore.T d) (V := Function.update V (dr r3) f) (V' := V) fun b hb => Function.update_of_ne (fun e =>
      (Finset.mem_sdiff.mp hb).2 (by rw [e]; exact Finset.mem_insert_of_mem (Finset.mem_insert_of_mem (Finset.mem_singleton_self _)))) _ _]

end Cert.KernelIdeal.Hand

end
-- ==== Proof.Layer.lean ====
import proofs.«207978_g39513699123711_cont_8to1_b_1293_21_alg».proof.Proof.TcEntry
import proofs.«207978_g39513699123711_cont_8to1_b_1293_21_alg».proof.Proof.TcRegion
import proofs.«207978_g39513699123711_cont_8to1_b_1293_21_alg».proof.Proof.HostRun
import proofs.«207978_g39513699123711_cont_8to1_b_1293_21_alg».proof.Proof.Split

noncomputable section

namespace Cert.KernelIdeal.Hand

open Cert.KernelIdeal Cert.KernelIdeal.Gen

open Idealize.ShloMosaic
open Idealize.ShloMosaic.StableHlo (held)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

-- The arrays when region p is entered.
noncomputable def Vb : Fin 3 → (c : Dev nD) → (b : Ref sig .tc) → Buf (Elt F) ((c.tc : Thread nD τ).loc b)
  | ⟨0, _⟩ => fun c b => V1 m c (dr b)
  | ⟨1, _⟩ => fun c b => V4 m c (dr b)
  | ⟨2, _⟩ => fun c b => V7 m c (dr b)

noncomputable abbrev Ob : Fin 3 → Dev nD → CellTallies nD τ sig (HIx 3) := fun p d => (K (F := F)).Otc d p.val
noncomputable abbrev bnd : Fin 3 → ℕ := fun p => 8 * p.val

omit [FloatOps F] in
theorem hOb (p : Fin 3) : ∀ (c : Dev nD) (g : GSem nD τ sig), Ob (F := F) p c g none = 0 := fun c g => Otc_none c p.val g

-- Writing at a the value an update at a already has there changes nothing.
omit [FloatOps F] in
theorem upd_self {α : Type} [DecidableEq α] {β : α → Type} (f : ∀ a, β a) (a : α) (v : β a) :
    Function.update f a (Function.update f a v a) = Function.update f a v := by rw [Function.update_self]

-- One layer: three arrays leave the held set for region q and return with the product; three leave for call q, are split between the two cores, and return with the gathered rows.
theorem layer (κ : GSem nD τ sig → ℕ) (d : Dev nD) {q : Fin 3}
    (R : Pipeline.RegionSeg pcfgs adm (pdats (Vb m) (Ob (F := F)) bnd) none defs₀ 𝒱₀ (K (F := F)).L (K (F := F)).lev q) {α : Type}
    (k : PUnit → Prog (TpuEff nD τ sig (Elt F) (SparseCore.Sig (ΛP (F := F)) 3) .tc) α) (Q : α → sProp (MM F))
    {Vi Vo : Valuation τ sig (Elt F)} {x w y y' r t i o o' r' : sProp (MM F)}
    (e1 : held (T d) Sall Vi = iprop(x ∗ w ∗ y ∗ r)) (e2 : iprop(x ∗ w ∗ y' ∗ r) = iprop(t ∗ i ∗ o ∗ r')) (e3 : iprop(t ∗ i ∗ o' ∗ r') = held (T d) Sall Vo)
    (hpre : iprop(x ∗ w ∗ y ∗ tcOwes d q.val) ⊢ R.pre d) (hpost : R.post d ⊢ iprop(x ∗ w ∗ y' ∗ tcOwes d q.val))
    (hs : iprop(t ∗ i ∗ o) ⊢ |={Set.univ}=> iprop((bigSep Finset.univ fun c => stP m q d c) ∗ ((bigSep Finset.univ fun c => dnP m q d c) -∗ iprop(t ∗ i ∗ o')))) :
    iprop((K (F := F)).ctx EH (P m) κ ∗ (K (F := F)).tcSt EH d q.val ∗ boundary (T d) ∗ held (T d) Sall Vi ∗ pipeGhost adm q d
        ∗ (iprop((K (F := F)).tcSt EH d (q.val + 1) ∗ boundary (T d) ∗ held (T d) Sall Vo)
            -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry q)) ()) >>= fun _ => (K (F := F)).run d q >>= k) Q := by
  rw [tcSt_eq d q.val, e1]
  iintro ⟨#Hctx, ⟨HO, Hrest⟩, Hb, ⟨Hx, Hw, Hy, Hheld⟩, Hg, Hk⟩
  iapply (region_step (P := P m) κ adm (pdats (Vb m) (Ob (F := F)) bnd) R d (fun _ => (K (F := F)).run d q >>= k) Q)
  iframe Hctx Hb Hg
  isplitl [Hx Hw Hy HO]
  · iapply hpre; iframe
  iintro ⟨Hb, Hpost⟩
  ihave Hp := hpost $$ Hpost
  icases Hp with ⟨Hx, Hw, Hy, HO⟩
  ihave Hh := (BIBase.Entails.of_eq e2) $$ [Hx Hw Hy Hheld]
  · iframe
  icases Hh with ⟨Ht, Hi, Ho, Hheld⟩
  rw [wp_bind]
  imod (split_cast (nCore_eq q) hs) $$ [Ht Hi Ho] with ⟨Hcs, Hback⟩
  · iframe
  iapply ((K (F := F)).wp_run (D (F := F)) 𝒱 (EH := EH) (P := P m) κ d q)
  iframe Hctx
  isplitl [HO Hrest]
  · iapply (BIBase.Entails.of_eq (tcSt_eq d q.val).symm); iframe
  isplitl [Hcs]; · iexact Hcs
  iintro ⟨Hst, Hdn⟩
  ihave Hp := Hback $$ [Hdn]
  · iexact Hdn
  icases Hp with ⟨Ht, Hi, Ho⟩
  iapply Hk
  iframe Hst Hb
  iapply (BIBase.Entails.of_eq e3); iframe

end Cert.KernelIdeal.Hand

end
-- ==== Proof.Final.lean ====
import proofs.«207978_g39513699123711_cont_8to1_b_1293_21_alg».proof.Proof.ValsRead
import proofs.«207978_g39513699123711_cont_8to1_b_1293_21_alg».proof.Proof.HostRun

noncomputable section

namespace Cert.KernelIdeal.Hand

open Cert.KernelIdeal Cert.KernelIdeal.Gen
open Idealize.ShloMosaic Idealize.ShloMosaic.StableHlo
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

noncomputable def FIN (d : Dev nD) : sProp (MM F) := StableHlo.held (SparseCore.T d) Sall (V10 m d)

def fq (d : Dev nD) (s' : Phys nD τ sig (Elt F)) : Prop :=
  ∀ b : Ref sig .tc, dr b ∈ Sall → s'.mem.mem ((SparseCore.T d).loc b) = V10 m d (dr b)

-- A held array agrees with the state at every index.
theorem hfin (d : Dev nD) (s' : Phys nD τ sig (Elt F)) : iprop(FIN m d ∗ SI s') ⊢ (⌜fq m d s'⌝ : sProp (MM F)) := by
  unfold fq
  refine Entails.trans (forall_intro fun b => ?_) pure_forall.2
  by_cases hb : dr b ∈ Sall
  · unfold FIN StableHlo.held
    refine Entails.trans (sep_mono_left (bigSep_elim hb)) ?_
    iintro ⟨Hb, HSI⟩
    ihave H := (SI_pointsTo_agree (st := s') (ℓ := (SparseCore.T d).loc b) (I := Finset.univ) (q := fullShare) (f := V10 m d (dr b))) $$ [HSI Hb]
    · isplitl [HSI] <;> iassumption
    icases H with %hx
    ipureintro; intro _; exact funext fun i => hx i (Finset.mem_univ i)
  · exact BI.pure_intro (fun h => absurd h hb)

def QC : PUnit × MemSt nD τ sig (Elt F) → Prop := fun r =>
  ∀ c : Dev nD,
    r.2.mem ((c.tc : Thread nD τ).loc main_v66) = V10 m c (dr main_v66)
    ∧ r.2.mem ((c.tc : Thread nD τ).loc main_v77) = V10 m c (dr main_v77)
    ∧ r.2.mem ((c.tc : Thread nD τ).loc main_v32) = V10 m c (dr main_v32)
    ∧ r.2.mem ((c.tc : Thread nD τ).loc main_v44) = V10 m c (dr main_v44)
    ∧ r.2.mem ((c.tc : Thread nD τ).loc main_v58) = V10 m c (dr main_v58)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)

theorem hQ : ∀ s' : Phys nD τ sig (Elt F), (∀ d, fq m d s') → QC m (⟨⟩, s'.mem) := by
  intro s' h c
  have hc := fun b hb => h c b (dr_mem_Sall hb)
  have ha (r : Ref sig .tc) (hs : r.isScoped = false) hw := (hc r hs).trans (V10_arg m c (r := r) hw)
  exact ⟨hc main_v66 rfl, hc main_v77 rfl, hc main_v32 rfl, hc main_v44 rfl, hc main_v58 rfl,
    ha main_arg0 rfl (by decide), ha main_arg1 rfl (by decide), ha main_arg2 rfl (by decide),
    ha main_arg3 rfl (by decide), ha main_arg4 rfl (by decide), ha main_arg5 rfl (by decide),
    ha main_arg6 rfl (by decide), ha main_arg7 rfl (by decide), ha main_arg8 rfl (by decide),
    ha main_arg9 rfl (by decide), ha main_arg10 rfl (by decide)⟩

end Cert.KernelIdeal.Hand

end
-- ==== Proof.MainEq.lean ====
import proofs.«207978_g39513699123711_cont_8to1_b_1293_21_alg».proof.Proof.MainOps

noncomputable section

namespace Cert.KernelIdeal.Hand

open Cert.KernelIdeal Cert.KernelIdeal.Gen
open Idealize.ShloMosaic Idealize.ShloMosaic.StableHlo Idealize.SL.Sem

variable {F : FTy → Type} [FloatOps F]

set_option maxRecDepth 4096 in
set_option maxHeartbeats 4000000 in
theorem main_eq (d : Dev nD) : main (F := F) d = mainSeq d := by
  simp only [main, main_part0, main_part1, fn_elu.body, fn_where.body, fn_where_0.body, seq, bind_assoc, pure_bind]
  rfl

end Cert.KernelIdeal.Hand

end
-- ==== Proof.Launch.lean ====
import proofs.«207978_g39513699123711_cont_8to1_b_1293_21_alg».proof.Proof.Obl
import proofs.«207978_g39513699123711_cont_8to1_b_1293_21_alg».proof.Proof.Layer
import proofs.«207978_g39513699123711_cont_8to1_b_1293_21_alg».proof.Proof.HostRun
import proofs.«207978_g39513699123711_cont_8to1_b_1293_21_alg».proof.Proof.Final
import proofs.«207978_g39513699123711_cont_8to1_b_1293_21_alg».proof.Proof.MainEq

noncomputable section

namespace Cert.KernelIdeal.Hand

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

variable (m : (ℓ : Loc nD τ sig) → Buf (Elt F) ℓ) (ρ : Dev nD → PrngReg)

-- No thread is handed anything beyond the calls' operands.
theorem Px_emp : (bigSep Finset.univ fun thr : Thread nD τ => bigSep Finset.univ fun q : Fin 3 => (P m).x q thr) = (iprop(emp) : sProp (MM F)) :=
  (bigSep_congr fun _ _ => bigSep_emp_const _).trans (bigSep_emp_const _)

theorem hu₀ : iprop(ownU (u₀ (F := F) adm) ∗ (P m).oxCred ∗ (K (F := F)).freeSems0)
    ⊢ |={Set.univ}=> iprop(BI.own (EH (initOf (K (F := F)).hsCells (K (F := F)).hsToks)) ∗ (bigSep Finset.univ fun d : Dev nD => pipesGhost adm d)
        ∗ bigSep Finset.univ fun thr : Thread nD τ => bigSep Finset.univ fun q : Fin 3 => (P m).x q thr) := by
  rw [Px_emp]
  iintro ⟨Hu, -, -⟩
  imod (launch_split (F := F) adm) $$ Hu with ⟨HH, HG⟩
  imodintro
  iframe

set_option backward.isDefEq.respectTransparency.types false in
-- The main program is four stretches of host operations around three layers.
theorem hmain (κ : GSem nD τ sig → ℕ) (d : Dev nD) :
    iprop((K (F := F)).ctx EH (P m) κ ∗ (K (F := F)).tcSt EH d 0 ∗ (K (F := F)).tcRes m ρ d ∗ pipesGhost adm d)
      ⊢ wp frame (wpE ((K (F := F)).defs (D (F := F))) 𝒱 (SparseCore.T d) none) Set.univ (main d)
          fun _ => iprop((K (F := F)).tcSt EH d 3 ∗ held (SparseCore.T d) Sall (V10 m d)) := by
  rw [main_eq, tcRes_held]
  unfold mainSeq
  rw [show (seq opsD : Prog (TpuEff nD τ sig (Elt F) (SparseCore.Sig (Pipeline.Sig Λ₀ (Fin 3) fun p => (pcfgs (F := F) p).Adm) 3) .tc) PUnit)
      = (seq opsD >>= fun _ => pure ⟨⟩) from (bind_pure _).symm]
  iintro ⟨#Hctx, Hst, ⟨Hb, Hheld, -, -⟩, Hg0, Hg1, Hg2⟩
  iapply (stretch opsA_host d _ _ _) $$ [Hb Hheld]
  · iframe
  iintro ⟨Hb, Hheld⟩
  iapply (layer m κ d (region0 (Vb m) Ob bnd (hOb 0)) _ _ (held_take3 d (V1 m d) main_arg0 main_arg3 main_v6 (by decide))
    ((held_put3 d _ _ _ _ (by decide) _).trans (held_take3 d _ main_v6 main_v5 main_v7 (by decide)))
    ((held_put3 d _ _ _ _ (by decide) _).trans (congrArg _ (upd_self _ _ _))) .rfl .rfl
    (split_pieces (ℓo := (SparseCore.T d).loc main_v7) 2 fullShare _ _ _ (V3 m d (dr main_v7)) coreRows coreRows_disjoint coreRows_biUnion))
  iframe Hctx Hb Hg0
  isplitl [Hst]; · iexact Hst
  isplitl [Hheld]; · iexact Hheld
  iintro ⟨Hst, Hb, Hheld⟩
  iapply (stretch opsB_host d _ _ _) $$ [Hb Hheld]
  · iframe
  iintro ⟨Hb, Hheld⟩
  iapply (layer m κ d (region2 (Vb m) Ob bnd (hOb 1)) _ _ (held_take3 d (V4 m d) main_v14 main_arg5 main_v15 (by decide))
    ((held_put3 d _ _ _ _ (by decide) _).trans (held_take3 d _ main_v15 main_v5 main_v16 (by decide)))
    ((held_put3 d _ _ _ _ (by decide) _).trans (congrArg _ (upd_self _ _ _))) .rfl .rfl
    (split_pieces (ℓo := (SparseCore.T d).loc main_v16) 2 fullShare _ _ _ (V6 m d (dr main_v16)) coreRows coreRows_disjoint coreRows_biUnion))
  iframe Hctx Hb Hg1
  isplitl [Hst]; · iexact Hst
  isplitl [Hheld]; · iexact Hheld
  iintro ⟨Hst, Hb, Hheld⟩
  iapply (stretch opsC_host d _ _ _) $$ [Hb Hheld]
  · iframe
  iintro ⟨Hb, Hheld⟩
  iapply (layer m κ d (region4 (Vb m) Ob bnd (hOb 2)) _ _ (held_take3 d (V7 m d) main_v23 main_arg7 main_v24 (by decide))
    ((held_put3 d _ _ _ _ (by decide) _).trans (held_take3 d _ main_v24 main_v5 main_v25 (by decide)))
    ((held_put3 d _ _ _ _ (by decide) _).trans (congrArg _ (upd_self _ _ _))) .rfl .rfl
    (split_pieces (ℓo := (SparseCore.T d).loc main_v25) 2 fullShare _ _ _ (V9 m d (dr main_v25)) coreRows coreRows_disjoint coreRows_biUnion))
  iframe Hctx Hb Hg2
  isplitl [Hst]; · iexact Hst
  isplitl [Hheld]; · iexact Hheld
  iintro ⟨Hst, Hb, Hheld⟩
  iapply (stretch opsD_host d _ _ _) $$ [Hb Hheld]
  · iframe
  iintro ⟨-, Hheld⟩
  rw [wp_pure]; imodintro
  isplitl [Hst]; · iexact Hst
  iexact Hheld

theorem run_main [∀ e, Nonempty (Elt F e)] (hp : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q, hq with | 0, h => nomatch h | 1, h => nomatch h | 2, h => nomatch h)
    (fun q _ => match q with | 0 => tileObl0 m hp | 1 => tileObl1 m hp | 2 => tileObl2 m hp)
    (fun q _ => SparseCore.Cfg.VecSplit.of_plain (vecSplit m q))
    m ρ main (fun d => pipesGhost adm d) (FIN m) (u₀ (F := F) adm) (hu₀ m) (hmain m ρ) (fq m) (hfin m) (QC m) (hQ m)

end Cert.KernelIdeal.Hand

end
-- ==== Proof.K.Common.lean ====
import proofs.«207978_g39513699123711_cont_8to1_b_1293_21_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«207978_g39513699123711_cont_8to1_b_1293_21_alg».proof.Proof.Gen.Kernel
import proofs.«207978_g39513699123711_cont_8to1_b_1293_21_alg».proof.Proof.Gen.Kernel.Skeleton
import proofs.«207978_g39513699123711_cont_8to1_b_1293_21_alg».proof.Proof.Gen.Kernel.Launch
import proofs.«207978_g39513699123711_cont_8to1_b_1293_21_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

noncomputable abbrev ΛP : Labels := Pipeline.Sig Λ₀ (Fin 3) fun p => (pcfgs (F := F) p).Adm
noncomputable abbrev K : SparseCore.Cfg τ sig (ΛP (F := F)) 3 := sc (F := F)
noncomputable abbrev D [FloatOps F] : Defs nD τ sig (Elt F) (ΛP (F := F)) := Pipeline.defs pcfgs defs₀
noncomputable abbrev 𝒱₀ : Variants := Variants.none
noncomputable abbrev 𝒱 : Variants := 𝒱₀.lift
noncomputable abbrev v₀ : 𝒱.V := Sum.inl none

theorem nCore_eq (q : Fin 3) : (K (F := F)).nCore q = 2 := by fin_cases q <;> rfl
theorem nSub_eq (q : Fin 3) : (K (F := F)).nSub q = 16 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

noncomputable abbrev UH : Type := URounds (GSem nD τ sig) ℕ
noncomputable abbrev UP : Type := URounds (GSem nD τ sig) Unit
noncomputable abbrev UU : Type := UH × (UP × Counters)

noncomputable abbrev MM (F : FTy → Type) : Type := MT nD τ sig (HIx 3) (Elt F) ℕ UU ℕ

noncomputable abbrev EH : Emb UH (MM F) := embL
noncomputable def EP : Emb UP (MM F) :=
  ((Emb.inl : Emb UP (UP × Counters)).trans (Emb.inr : Emb (UP × Counters) UU)).trans
    (uEmb (nD := nD) (sig := sig) (Ix := HIx 3) (Val := Elt F) (Name := ℕ) (U := UU) (Lvl := ℕ)).toEmb

instance EP_landsIn : (EP : Emb UP (MM F)).LandsIn (upEmb : UEmb _ (MM F)) := by unfold EP; infer_instance

end Cert.Kernel.Hand

end
-- ==== Proof.K.MainOps.lean ====
import proofs.«207978_g39513699123711_cont_8to1_b_1293_21_alg».proof.Proof.K.Common

noncomputable section

namespace Cert.Kernel.Hand

open Cert.Kernel Cert.Kernel.Gen
open Idealize.ShloMosaic Idealize.ShloMosaic.StableHlo Idealize.SL.Sem

variable {F : FTy → Type} [FloatOps F]

-- The edge list's two rows as flat index lists, the sources padded with zeros.
noncomputable abbrev opsA : List (HloOp τ sig (Elt F)) :=
  [ StableHlo.unary main_arg1 main_v0 (extractStridedSlice S1x320000 ![0, 0] · slices_S2x320000_S1x320000_0_0),
    StableHlo.reshape main_v0 main_v1 rfl shapeCasts_S1x320000_S320000,
    StableHlo.unary main_arg1 main_v2 (extractStridedSlice S1x320000 ![1, 0] · slices_S2x320000_S1x320000_1_0),
    StableHlo.reshape main_v2 main_v3 rfl shapeCasts_S1x320000_S320000,
    StableHlo.nullary main_c (constantI S_ 32 0#32),
    StableHlo.unary main_c main_v4 (broadcastInDim S128 ![] bcast_S_S128),
    StableHlo.binary main_v1 main_v4 main_v5 (fun a b => concatenate S320128 0 [⟨S320000, a⟩, ⟨S128, b⟩] concatenates_S320000_S128_S320128_d0) ]

-- One layer's host part: the gathered rows `g` summed at their destination rows, plus the bias `b`, through the exponential linear unit; then `rest`.
noncomputable abbrev layerOps (cst : TRef sig ⟨S_, .f32⟩) (z : TRef sig ⟨S10000x128, .f32⟩) (ix : TRef sig ⟨S320000x1, .i32⟩)
    (g : TRef sig ⟨S320000x128, .f32⟩) (s : TRef sig ⟨S10000x128, .f32⟩) (b : TRef sig ⟨S128, .f32⟩) (b1 : TRef sig ⟨S1x128, .f32⟩)
    (b2 y : TRef sig ⟨S10000x128, .f32⟩) (φ : fn_elu.Bufs) (rest : List (HloOp τ sig (Elt F))) : List (HloOp τ sig (Elt F)) :=
  TRef.nullary cst (constant S_ .f32 0x00000000#32) ::
  TRef.unary cst z (broadcastInDim S10000x128 ![] bcast_S_S10000x128) ::
  TRef.unary (.of main_v3 : TRef sig ⟨S320000, .i32⟩) ix (broadcastInDim S320000x1 ![0] bcast_S320000_S320000x1_0) ::
  TRef.ternary z ix g s (fun x i u => Host.scatterAdd scatter_S10000x128_S320000x1_S320000x128_1_0_0_1 x i u) ::
  TRef.unary b b1 (broadcastInDim S1x128 ![1] bcast_S128_S1x128_1) ::
  TRef.unary b1 b2 (broadcastInDim S10000x128 ![0, 1] bcast_S1x128_S10000x128_0_1) ::
  TRef.binary s b2 y addf ::
  TRef.nullary φ.cst (constant S_ .f32 0x00000000#32) ::
  TRef.unary φ.cst φ.v0 (broadcastInDim S10000x128 ![] bcast_S_S10000x128) ::
  TRef.binary y φ.v0 φ.v1 (cmpf .ogt) ::
  TRef.nullary φ.cst_0 (constant S_ .f32 0x00000000#32) ::
  TRef.unary φ.cst_0 φ.v2 (broadcastInDim S10000x128 ![] bcast_S_S10000x128) ::
  TRef.binary y φ.v2 φ.v3 (cmpf .ogt) ::
  TRef.nullary φ.cst_1 (constant S_ .f32 0x00000000#32) ::
  TRef.unary φ.cst_1 φ.call0.v0 id ::
  TRef.unary φ.call0.v0 φ.call0.v1 (broadcastInDim S10000x128 ![] bcast_S_S10000x128) ::
  TRef.ternary φ.v3 φ.call0.v1 y φ.call0.v2 select ::
  TRef.unary φ.call0.v2 φ.v5 Host.expm1 ::
  TRef.nullary φ.cst_2 (constant S_ .f32 0x3F800000#32) ::
  TRef.unary φ.cst_2 φ.v6 (broadcastInDim S10000x128 ![] bcast_S_S10000x128) ::
  TRef.binary φ.v6 φ.v5 φ.v7 mulf ::
  TRef.ternary φ.v1 y φ.v7 φ.call1.v0 select :: rest

noncomputable abbrev opsB : List (HloOp τ sig (Elt F)) :=
  layerOps (.of main_cst) (.of main_v8) (.of main_v9) (.of main_v7) (.of main_v10) (.of main_arg4) (.of main_v11) (.of main_v12) (.of main_v13) main_call0 []

noncomputable abbrev opsC : List (HloOp τ sig (Elt F)) :=
  layerOps (.of main_cst_0) (.of main_v17) (.of main_v18) (.of main_v16) (.of main_v19) (.of main_arg6) (.of main_v20) (.of main_v21) (.of main_v22) main_call1 []

-- The readout: each graph's mean row, its squared distances to the ten centres, log ((d + 1) / (d + 1e-4)) mapped linearly to two scores, their softmax.
noncomputable abbrev readout : List (HloOp τ sig (Elt F)) :=
  [ StableHlo.nullary main_cst_2 (constant S_ .f32 0x3F800000#32),
    StableHlo.unary main_cst_2 main_v33 (broadcastInDim S10000 ![] bcast_S_S10000),
    StableHlo.nullary main_cst_3 (constant S_ .f32 0x00000000#32),
    StableHlo.unary main_cst_3 main_v34 (broadcastInDim S16 ![] bcast_S_S16),
    StableHlo.unary main_arg2 main_v35 (broadcastInDim S10000x1 ![0] bcast_S10000_S10000x1_0),
    StableHlo.ternary main_v34 main_v35 main_v33 main_v36 (fun x i u => Host.scatterAdd scatter_S16_S10000x1_S10000_n_0_0_1 x i u),
    StableHlo.nullary main_cst_4 (constant S_ .f32 0x00000000#32),
    StableHlo.unary main_cst_4 main_v37 (broadcastInDim S16x128 ![] bcast_S_S16x128),
    StableHlo.unary main_arg2 main_v38 (broadcastInDim S10000x1 ![0] bcast_S10000_S10000x1_0),
    StableHlo.ternary main_v37 main_v38 main_v32 main_v39 (fun x i u => Host.scatterAdd scatter_S16x128_S10000x1_S10000x128_1_0_0_1 x i u),
    StableHlo.nullary main_cst_5 (constant S_ .f32 0x3F800000#32),
    StableHlo.unary main_cst_5 main_v40 (broadcastInDim S16 ![] bcast_S_S16),
    StableHlo.binary main_v36 main_v40 main_v41 maximumf,
    StableHlo.unary main_v41 main_v42 (broadcastInDim S16x1 ![0] bcast_S16_S16x1_0),
    StableHlo.unary main_v42 main_v43 (broadcastInDim S16x128 ![0, 1] bcast_S16x1_S16x128_0_1),
    StableHlo.binary main_v39 main_v43 main_v44 Host.divf,
    StableHlo.unary main_arg9 main_v45 (transpose S128x10 [1, 0] · transposes_S10x128_S128x10_1_0),
    StableHlo.binary main_v44 main_v45 main_v46 (fun l r => Host.dotGeneral dot_S16x128_S128x10_S16x10_1_0_0_1_n_n none l r),
    StableHlo.nullary main_cst_6 (constant S_ .f32 0xC0000000#32),
    StableHlo.unary main_cst_6 main_v47 (broadcastInDim S16x10 ![] bcast_S_S16x10),
    StableHlo.binary main_v47 main_v46 main_v48 mulf,
    StableHlo.binary main_v44 main_v44 main_v49 mulf,
    StableHlo.nullary main_cst_7 (constant S_ .f32 0x00000000#32),
    StableHlo.binary main_v49 main_cst_7 main_v50 (fun x v => Host.reduceAdd x v reducesTo_S16x128_S16_d1 h_S_),
    StableHlo.unary main_v50 main_v51 (broadcastInDim S16x1 ![0] bcast_S16_S16x1_0),
    StableHlo.unary main_v51 main_v52 (broadcastInDim S16x10 ![0, 1] bcast_S16x1_S16x10_0_1),
    StableHlo.binary main_v48 main_v52 main_v53 addf,
    StableHlo.binary main_arg9 main_arg9 main_v54 mulf,
    StableHlo.nullary main_cst_8 (constant S_ .f32 0x00000000#32),
    StableHlo.binary main_v54 main_cst_8 main_v55 (fun x v => Host.reduceAdd x v reducesTo_S10x128_S10_d1 h_S_),
    StableHlo.unary main_v55 main_v56 (broadcastInDim S1x10 ![1] bcast_S10_S1x10_1),
    StableHlo.unary main_v56 main_v57 (broadcastInDim S16x10 ![0, 1] bcast_S1x10_S16x10_0_1),
    StableHlo.binary main_v53 main_v57 main_v58 addf,
    StableHlo.nullary main_cst_9 (constant S_ .f32 0x3F800000#32),
    StableHlo.unary main_cst_9 main_v59 (broadcastInDim S16x10 ![] bcast_S_S16x10),
    StableHlo.binary main_v58 main_v59 main_v60 addf,
    StableHlo.nullary main_cst_10 (constant S_ .f32 0x38D1B717#32),
    StableHlo.unary main_cst_10 main_v61 (broadcastInDim S16x10 ![] bcast_S_S16x10),
    StableHlo.binary main_v58 main_v61 main_v62 addf,
    StableHlo.binary main_v60 main_v62 main_v63 Host.divf,
    StableHlo.unary main_v63 main_v64 Host.log,
    StableHlo.unary main_arg10 main_v65 (transpose S10x2 [1, 0] · transposes_S2x10_S10x2_1_0),
    StableHlo.binary main_v64 main_v65 main_v66 (fun l r => Host.dotGeneral dot_S16x10_S10x2_S16x2_1_0_0_1_n_n none l r),
    StableHlo.nullary main_cst_11 (constant S_ .f32 0xFF800000#32),
    StableHlo.binary main_v66 main_cst_11 main_v67 (fun x v => Host.reduce FloatOps.maximumf x v reducesTo_S16x2_S16_d1 h_S_),
    StableHlo.nullary main_cst_12 (constant S_ .f32 0xFF800000#32),
    StableHlo.unary main_cst_12 main_v68 (broadcastInDim S16 ![] bcast_S_S16),
    StableHlo.binary main_v68 main_v67 main_v69 maximumf,
    StableHlo.unary main_v69 main_v70 (broadcastInDim S16x1 ![0] bcast_S16_S16x1_0),
    StableHlo.unary main_v70 main_v71 (broadcastInDim S16x2 ![0, 1] bcast_S16x1_S16x2_0_1),
    StableHlo.binary main_v66 main_v71 main_v72 subf,
    StableHlo.unary main_v72 main_v73 Host.exp,
    StableHlo.nullary main_cst_13 (constant S_ .f32 0x00000000#32),
    StableHlo.binary main_v73 main_cst_13 main_v74 (fun x v => Host.reduceAdd x v reducesTo_S16x2_S16_d1 h_S_),
    StableHlo.unary main_v74 main_v75 (broadcastInDim S16x1 ![0] bcast_S16_S16x1_0),
    StableHlo.unary main_v75 main_v76 (broadcastInDim S16x2 ![0, 1] bcast_S16x1_S16x2_0_1),
    StableHlo.binary main_v73 main_v76 main_v77 Host.divf ]

noncomputable abbrev opsD : List (HloOp τ sig (Elt F)) :=
  layerOps (.of main_cst_1) (.of main_v26) (.of main_v27) (.of main_v25) (.of main_v28) (.of main_arg8) (.of main_v29) (.of main_v30) (.of main_v31) main_call2 readout

noncomputable abbrev mainSeq (d : Dev nD) : Prog (TpuEff nD τ sig (Elt F) (SparseCore.Sig (Pipeline.Sig Λ₀ (Fin 3) fun p => (pcfgs (F := F) p).Adm) 3) .tc) PUnit :=
  seq opsA >>= fun _ => Prog.lift (.customCall (SparseCore.inner (Pipeline.entry 0)) ()) >>= fun _ => (sc (F := F)).run d 0 >>= fun _ =>
  seq opsB >>= fun _ => Prog.lift (.customCall (SparseCore.inner (Pipeline.entry 1)) ()) >>= fun _ => (sc (F := F)).run d 1 >>= fun _ =>
  seq opsC >>= fun _ => Prog.lift (.customCall (SparseCore.inner (Pipeline.entry 2)) ()) >>= fun _ => (sc (F := F)).run d 2 >>= fun _ =>
  seq opsD

end Cert.Kernel.Hand

end
-- ==== Proof.K.ValDefs.lean ====
import Idealize.ShloMosaic.Lib.ValueIdx
import proofs.«207978_g39513699123711_cont_8to1_b_1293_21_alg».proof.Proof.Gen.Kernel.Skeleton

noncomputable section

namespace Cert.Kernel.Hand

open Cert.Kernel Cert.Kernel.Gen
open Idealize.ShloMosaic Idealize.ShloMosaic.ValueIdx

variable {F : FTy → Type} [FloatOps F]

noncomputable def rowBlock (x : Vec F S10000x128 .f32) (t : Fin 10) : Vec F S1000x128 .f32 :=
  fun y => x (ix2 (n0 := 10000) (n1 := 128) ⟨1000 * t.val + (y 0).val, by have := idx2_lt0 y; have := t.isLt; omega⟩ ⟨(y 1).val, idx2_lt1 y⟩)

noncomputable def mmVal (x : Vec F S10000x128 .f32) (w : Vec F S128x128 .f32) : Vec F S10000x128 .f32 :=
  fun i => k0_pay1 (rowBlock x ⟨(i 0).val / 1000, by have := idx2_lt0 i; omega⟩) w
    (ix2 (n0 := 1000) (n1 := 128) ⟨(i 0).val % 1000, Nat.mod_lt _ (by decide)⟩ ⟨(i 1).val, idx2_lt1 i⟩)

noncomputable def gatherRows (tab : Vec F S10000x128 .f32) (idx : Vec F S320128 .i32) : Vec F S320000x128 .f32 :=
  fun i => tab (ix2 (n0 := 10000) (n1 := 128)
    ⟨(idx (ix1 (n := 320128) ⟨(i 0).val, by have := idx2_lt0 i; omega⟩)).toNat % 10000, Nat.mod_lt _ (by decide)⟩ ⟨(i 1).val, idx2_lt1 i⟩)

end Cert.Kernel.Hand

end
-- ==== Proof.K.Vals.lean ====
import proofs.«207978_g39513699123711_cont_8to1_b_1293_21_alg».proof.Proof.K.MainOps
import proofs.«207978_g39513699123711_cont_8to1_b_1293_21_alg».proof.Proof.K.ValDefs

noncomputable section

namespace Cert.Kernel.Hand

open Cert.Kernel Cert.Kernel.Gen
open Idealize.ShloMosaic Idealize.ShloMosaic.StableHlo Idealize.SL.Sem

variable {F : FTy → Type} [FloatOps F]
variable (m : (ℓ : Loc nD τ sig) → Buf (Elt F) ℓ)

abbrev dr (b : Ref sig .tc) : DevRef τ sig := Proc.devRef .tc b

/-- What array `r` of device `d` holds at the start. -/
noncomputable abbrev arg (d : Dev nD) (r : Ref sig .tc) := m ((SparseCore.T d).loc r)

noncomputable def V0 (d : Dev nD) : Valuation τ sig (Elt F) := launchContents m d
noncomputable def V1 (d : Dev nD) : Valuation τ sig (Elt F) := after opsA (V0 m d)
noncomputable def V2 (d : Dev nD) : Valuation τ sig (Elt F) := Function.update (V1 m d) (dr main_v6) (mmVal (V1 m d (dr main_arg0)) (V1 m d (dr main_arg3)))
noncomputable def V3 (d : Dev nD) : Valuation τ sig (Elt F) := Function.update (V2 m d) (dr main_v7) (gatherRows (V2 m d (dr main_v6)) (V2 m d (dr main_v5)))
noncomputable def V4 (d : Dev nD) : Valuation τ sig (Elt F) := after opsB (V3 m d)
noncomputable def V5 (d : Dev nD) : Valuation τ sig (Elt F) := Function.update (V4 m d) (dr main_v15) (mmVal (V4 m d (dr main_v14)) (V4 m d (dr main_arg5)))
noncomputable def V6 (d : Dev nD) : Valuation τ sig (Elt F) := Function.update (V5 m d) (dr main_v16) (gatherRows (V5 m d (dr main_v15)) (V5 m d (dr main_v5)))
noncomputable def V7 (d : Dev nD) : Valuation τ sig (Elt F) := after opsC (V6 m d)
noncomputable def V8 (d : Dev nD) : Valuation τ sig (Elt F) := Function.update (V7 m d) (dr main_v24) (mmVal (V7 m d (dr main_v23)) (V7 m d (dr main_arg7)))
noncomputable def V9 (d : Dev nD) : Valuation τ sig (Elt F) := Function.update (V8 m d) (dr main_v25) (gatherRows (V8 m d (dr main_v24)) (V8 m d (dr main_v5)))
noncomputable def V10 (d : Dev nD) : Valuation τ sig (Elt F) := after opsD (V9 m d)

end Cert.Kernel.Hand

end
-- ==== Proof.K.Payloads.lean ====
import proofs.«207978_g39513699123711_cont_8to1_b_1293_21_alg».proof.Proof.K.Vals

noncomputable section

namespace Cert.Kernel.Hand

open Cert.Kernel Cert.Kernel.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers (shareTok)

variable {F : FTy → Type} [FloatOps F]

variable (m : (ℓ : Loc nD τ sig) → Buf (Elt F) ℓ)

noncomputable def tileNo (c : Fin 2) (i : Fin 16) : ℕ := 2 * i.val + c.val
noncomputable def rowsOf (w : ℕ) : Finset S320000x128.Idx := Finset.univ.filter fun j => 10000 * w ≤ (j 0).val ∧ (j 0).val < 10000 * w + 10000
noncomputable def coreRows (c : Fin 2) : Finset S320000x128.Idx := Finset.univ.biUnion fun i : Fin 16 => rowsOf (tileNo c i)

noncomputable abbrev qC (c : Fin 2) : PosShare TreeShare := shareTok fullShare 2 c
noncomputable abbrev qT (c : Fin 2) (i : Fin 16) : PosShare TreeShare := shareTok (qC c) 16 i

noncomputable def stP (q : Fin 3) (d : Dev nD) (c : Fin 2) : sProp (MM F) :=
  match q with
  | 0 => iprop(((SparseCore.T d).loc main_v6 ↦{qC c} V2 m d (dr main_v6)) ∗ ((SparseCore.T d).loc main_v5 ↦{qC c} V2 m d (dr main_v5))
      ∗ ∃ f, (SparseCore.T d).loc main_v7 ↦[coreRows c]{fullShare} f)
  | 1 => iprop(((SparseCore.T d).loc main_v15 ↦{qC c} V5 m d (dr main_v15)) ∗ ((SparseCore.T d).loc main_v5 ↦{qC c} V5 m d (dr main_v5))
      ∗ ∃ f, (SparseCore.T d).loc main_v16 ↦[coreRows c]{fullShare} f)
  | 2 => iprop(((SparseCore.T d).loc main_v24 ↦{qC c} V8 m d (dr main_v24)) ∗ ((SparseCore.T d).loc main_v5 ↦{qC c} V8 m d (dr main_v5))
      ∗ ∃ f, (SparseCore.T d).loc main_v25 ↦[coreRows c]{fullShare} f)
noncomputable def dnP (q : Fin 3) (d : Dev nD) (c : Fin 2) : sProp (MM F) :=
  match q with
  | 0 => iprop(((SparseCore.T d).loc main_v6 ↦{qC c} V2 m d (dr main_v6)) ∗ ((SparseCore.T d).loc main_v5 ↦{qC c} V2 m d (dr main_v5))
      ∗ (SparseCore.T d).loc main_v7 ↦[coreRows c]{fullShare} V3 m d (dr main_v7))
  | 1 => iprop(((SparseCore.T d).loc main_v15 ↦{qC c} V5 m d (dr main_v15)) ∗ ((SparseCore.T d).loc main_v5 ↦{qC c} V5 m d (dr main_v5))
      ∗ (SparseCore.T d).loc main_v16 ↦[coreRows c]{fullShare} V6 m d (dr main_v16))
  | 2 => iprop(((SparseCore.T d).loc main_v24 ↦{qC c} V8 m d (dr main_v24)) ∗ ((SparseCore.T d).loc main_v5 ↦{qC c} V8 m d (dr main_v5))
      ∗ (SparseCore.T d).loc main_v25 ↦[coreRows c]{fullShare} V9 m d (dr main_v25))
noncomputable def goP (q : Fin 3) (d : Dev nD) (c : Fin 2) (i : Fin 16) : sProp (MM F) :=
  match q with
  | 0 => iprop(((SparseCore.T d).loc main_v6 ↦{qT c i} V2 m d (dr main_v6)) ∗ ((SparseCore.T d).loc main_v5 ↦{qT c i} V2 m d (dr main_v5))
      ∗ ∃ f, (SparseCore.T d).loc main_v7 ↦[rowsOf (tileNo c i)]{fullShare} f)
  | 1 => iprop(((SparseCore.T d).loc main_v15 ↦{qT c i} V5 m d (dr main_v15)) ∗ ((SparseCore.T d).loc main_v5 ↦{qT c i} V5 m d (dr main_v5))
      ∗ ∃ f, (SparseCore.T d).loc main_v16 ↦[rowsOf (tileNo c i)]{fullShare} f)
  | 2 => iprop(((SparseCore.T d).loc main_v24 ↦{qT c i} V8 m d (dr main_v24)) ∗ ((SparseCore.T d).loc main_v5 ↦{qT c i} V8 m d (dr main_v5))
      ∗ ∃ f, (SparseCore.T d).loc main_v25 ↦[rowsOf (tileNo c i)]{fullShare} f)
noncomputable def tdP (q : Fin 3) (d : Dev nD) (c : Fin 2) (i : Fin 16) : sProp (MM F) :=
  match q with
  | 0 => iprop(((SparseCore.T d).loc main_v6 ↦{qT c i} V2 m d (dr main_v6)) ∗ ((SparseCore.T d).loc main_v5 ↦{qT c i} V2 m d (dr main_v5))
      ∗ (SparseCore.T d).loc main_v7 ↦[rowsOf (tileNo c i)]{fullShare} V3 m d (dr main_v7))
  | 1 => iprop(((SparseCore.T d).loc main_v15 ↦{qT c i} V5 m d (dr main_v15)) ∗ ((SparseCore.T d).loc main_v5 ↦{qT c i} V5 m d (dr main_v5))
      ∗ (SparseCore.T d).loc main_v16 ↦[rowsOf (tileNo c i)]{fullShare} V6 m d (dr main_v16))
  | 2 => iprop(((SparseCore.T d).loc main_v24 ↦{qT c i} V8 m d (dr main_v24)) ∗ ((SparseCore.T d).loc main_v5 ↦{qT c i} V8 m d (dr main_v5))
      ∗ (SparseCore.T d).loc main_v25 ↦[rowsOf (tileNo c i)]{fullShare} V9 m d (dr main_v25))

noncomputable def P : (K (F := F)).Pay (nD := nD) (Val := Elt F) (Name := ℕ) (U := UU) where
  st := fun q d c => stP m q d (Fin.cast (nCore_eq q) c)
  dn := fun q d c => dnP m q d (Fin.cast (nCore_eq q) c)
  go := fun q d c i => goP m q d (Fin.cast (nCore_eq q) c) (Fin.cast (nSub_eq q) i)
  td := fun q d c i => tdP m q d (Fin.cast (nCore_eq q) c) (Fin.cast (nSub_eq q) i)
  x := fun _ _ => iprop(emp)

instance P_storable : (P (F := F) m).IsStorable where
  st q d c := by unfold P stP; dsimp only; match q with | 0 | 1 | 2 => infer_instance
  dn q d c := by unfold P dnP; dsimp only; match q with | 0 | 1 | 2 => infer_instance
  go q d c i := by unfold P goP; dsimp only; match q with | 0 | 1 | 2 => infer_instance
  td q d c i := by unfold P tdP; dsimp only; match q with | 0 | 1 | 2 => infer_instance

end Cert.Kernel.Hand

end
-- ==== Proof.K.Split.lean ====
import proofs.«207978_g39513699123711_cont_8to1_b_1293_21_alg».proof.Proof.K.Payloads

noncomputable section

namespace Cert.Kernel.Hand

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

theorem mem_rowsOf {w : ℕ} {j : S320000x128.Idx} : j ∈ rowsOf w ↔ 10000 * w ≤ (j 0).val ∧ (j 0).val < 10000 * w + 10000 := by
  simp only [rowsOf, Finset.mem_filter, Finset.mem_univ, true_and]

-- Blocks of 10000 rows with different numbers do not meet.
theorem rowsOf_disjoint {w w' : ℕ} (h : w ≠ w') : Disjoint (rowsOf w) (rowsOf w') := by
  rw [Finset.disjoint_left]; intro j hj hj'
  rw [mem_rowsOf] at hj hj'
  exact h (by omega)

-- A tile's number 2 i + c determines the core c < 2 and the tile i.
theorem tileNo_inj {c c' : Fin 2} {i i' : Fin 16} (e : tileNo c i = tileNo c' i') : c = c' ∧ i = i' := by
  simp only [tileNo] at e
  exact ⟨Fin.ext (by omega), Fin.ext (by omega)⟩

theorem tileRows_disjoint (c : Fin 2) : ∀ i ∈ (Finset.univ : Finset (Fin 16)), ∀ i' ∈ (Finset.univ : Finset (Fin 16)), i ≠ i' →
    Disjoint (rowsOf (tileNo c i)) (rowsOf (tileNo c i')) :=
  fun _ _ _ _ h => rowsOf_disjoint fun e => h (tileNo_inj e).2

theorem coreRows_disjoint : ∀ c ∈ (Finset.univ : Finset (Fin 2)), ∀ c' ∈ (Finset.univ : Finset (Fin 2)), c ≠ c' → Disjoint (coreRows c) (coreRows c') :=
  fun _ _ _ _ h => (Finset.disjoint_biUnion_left _ _ _).mpr fun _ _ => (Finset.disjoint_biUnion_right _ _ _).mpr fun _ _ =>
    rowsOf_disjoint fun e => h (tileNo_inj e).1

-- Row j lies in block j / 10000 = 2 (j / 20000) + (j / 10000) % 2.
theorem coreRows_biUnion : (Finset.univ : Finset (Fin 2)).biUnion coreRows = (Finset.univ : Finset S320000x128.Idx) := by
  refine Finset.eq_univ_iff_forall.mpr fun j => ?_
  have hj : (j 0).val < 320000 := Idealize.ShloMosaic.ValueIdx.idx2_lt0 j
  exact Finset.mem_biUnion.mpr ⟨⟨(j 0).val / 10000 % 2, by omega⟩, Finset.mem_univ _, Finset.mem_biUnion.mpr
    ⟨⟨(j 0).val / 20000, by omega⟩, Finset.mem_univ _, mem_rowsOf.mpr (by simp only [tileNo]; omega)⟩⟩

-- A family indexed by Fin n, read through a cast from an equal n', is the same family.
theorem split_cast {n n' : ℕ} (h : n = n') {A B : sProp (MM F)} {Φ Ψ : Fin n' → sProp (MM F)}
    (hs : A ⊢ |={Set.univ}=> iprop((bigSep Finset.univ Φ) ∗ ((bigSep Finset.univ Ψ) -∗ B))) :
    A ⊢ |={Set.univ}=> iprop((bigSep Finset.univ fun i : Fin n => Φ (Fin.cast h i)) ∗ ((bigSep Finset.univ fun i : Fin n => Ψ (Fin.cast h i)) -∗ B)) := by
  subst h; exact hs

section Generic

variable {ℓt ℓi ℓo : Loc nD τ sig}

-- Read shares of the table and the indices split into n tokens and join again; the output's rows split along a partition R of U.
theorem split_pieces (n : ℕ) (q : PosShare TreeShare) (ft : Buf (Elt F) ℓt) (fi : Buf (Elt F) ℓi) (f fo : Buf (Elt F) ℓo)
    (R : Fin n → Finset (Idx ℓo)) (hR : ∀ i ∈ (Finset.univ : Finset (Fin n)), ∀ i' ∈ (Finset.univ : Finset (Fin n)), i ≠ i' → Disjoint (R i) (R i'))
    {U : Finset (Idx ℓo)} (hU : Finset.univ.biUnion R = U) :
    (iprop((ℓt ↦{q} ft) ∗ (ℓi ↦{q} fi) ∗ ℓo ↦[U]{fullShare} f) : sProp (MM F))
      ⊢ |={Set.univ}=> iprop((bigSep Finset.univ fun i : Fin n => iprop((ℓt ↦{shareTok q n i} ft) ∗ (ℓi ↦{shareTok q n i} fi) ∗ ∃ f, ℓo ↦[R i]{fullShare} f))
        ∗ ((bigSep Finset.univ fun i : Fin n => iprop((ℓt ↦{shareTok q n i} ft) ∗ (ℓi ↦{shareTok q n i} fi) ∗ ℓo ↦[R i]{fullShare} fo))
            -∗ iprop((ℓt ↦{q} ft) ∗ (ℓi ↦{q} fi) ∗ ℓo ↦[U]{fullShare} fo))) := by
  subst hU
  simp only [pointsTo_biUnion Finset.univ R hR]
  rw [bigSep_sep', bigSep_sep', bigSep_sep', bigSep_sep']
  iintro ⟨Ht, Hi, Ho⟩
  ihave Ht' := (pointsTo_toks_split q n) $$ Ht
  icases Ht' with ⟨Htd, Hts⟩
  ihave Hi' := (pointsTo_toks_split q n) $$ Hi
  icases Hi' with ⟨Hid, His⟩
  imodintro
  isplitl [Hts His Ho]
  · iframe Hts His
    have hmono : (bigSep Finset.univ fun i : Fin n => (ℓo ↦[R i]{fullShare} f : sProp (MM F)))
        ⊢ bigSep Finset.univ fun i : Fin n => (iprop(∃ f, ℓo ↦[R i]{fullShare} f) : sProp (MM F)) :=
      bigSep_mono fun i _ => BIClass.exists_intro (Φ := fun g => (ℓo ↦[R i]{fullShare} g : sProp (MM F))) f
    iapply hmono; iexact Ho
  · iintro ⟨Hts, His, Hos⟩
    iframe Hos
    isplitl [Htd Hts]
    · iapply (pointsTo_toks_join q n); iframe
    · iapply (pointsTo_toks_join q n); iframe

-- An existential in the third factor of a premise is opened.
theorem ex3 {A B G : sProp (MM F)} {β : Type} {Φ : β → sProp (MM F)} (h : ∀ f, iprop(A ∗ B ∗ Φ f) ⊢ G) : iprop(A ∗ B ∗ ∃ f, Φ f) ⊢ G := by
  iintro ⟨HA, HB, %f, HΦ⟩
  iapply (h f); iframe

end Generic

section Concrete

variable [FloatOps F] (m : (ℓ : Loc nD τ sig) → Buf (Elt F) ℓ)

-- A core's operands split among its sixteen tiles, and the tiles' results gather.
theorem vecSplit (q : Fin 3) : (K (F := F)).VecSplit' (P m) q := by
  intro d c
  refine split_cast (nSub_eq q) (A := stP m q d (Fin.cast (nCore_eq q) c)) (B := dnP m q d (Fin.cast (nCore_eq q) c))
    (Φ := goP m q d (Fin.cast (nCore_eq q) c)) (Ψ := tdP m q d (Fin.cast (nCore_eq q) c)) ?_
  generalize Fin.cast (nCore_eq q) c = c'
  fin_cases q
  · exact ex3 fun f => split_pieces (ℓo := (SparseCore.T d).loc main_v7) 16 (qC c') _ _ f (V3 m d (dr main_v7)) _ (tileRows_disjoint c') rfl
  · exact ex3 fun f => split_pieces (ℓo := (SparseCore.T d).loc main_v16) 16 (qC c') _ _ f (V6 m d (dr main_v16)) _ (tileRows_disjoint c') rfl
  · exact ex3 fun f => split_pieces (ℓo := (SparseCore.T d).loc main_v25) 16 (qC c') _ _ f (V9 m d (dr main_v25)) _ (tileRows_disjoint c') rfl

end Concrete

end Cert.Kernel.Hand

end
-- ==== Proof.K.ValsRead.lean ====
import proofs.«207978_g39513699123711_cont_8to1_b_1293_21_alg».proof.Proof.K.Vals
import Idealize.ShloMosaic.Lib.Pipeline.Value

noncomputable section

namespace Cert.Kernel.Hand

open Cert.Kernel Cert.Kernel.Gen
open Idealize.ShloMosaic Idealize.ShloMosaic.StableHlo Idealize.SL.Sem

variable {F : FTy → Type} [FloatOps F]

/-- The array of shape `s` with every entry the float whose bits are `c`. -/
noncomputable def fill {s : Shape} (h : S_.BroadcastsInDim s (![] : Fin 0 → Fin s.rank)) (c : BitVec 32) : Vec F s .f32 :=
  broadcastInDim s ![] h (constant (F := F) S_ .f32 c)

noncomputable def kSrc (ei : Vec F S2x320000 .i32) : Vec F S320000 .i32 :=
  shapeCast S320000 (extractStridedSlice S1x320000 ![0, 0] ei slices_S2x320000_S1x320000_0_0) shapeCasts_S1x320000_S320000

noncomputable def kDst (ei : Vec F S2x320000 .i32) : Vec F S320000 .i32 :=
  shapeCast S320000 (extractStridedSlice S1x320000 ![1, 0] ei slices_S2x320000_S1x320000_1_0) shapeCasts_S1x320000_S320000

noncomputable def kSrcPad (ei : Vec F S2x320000 .i32) : Vec F S320128 .i32 :=
  concatenate S320128 0 [⟨S320000, kSrc (F := F) ei⟩, ⟨S128, broadcastInDim S128 ![] bcast_S_S128 (constantI S_ 32 0#32)⟩]
    concatenates_S320000_S128_S320128_d0

noncomputable def kElu (x : Vec F S10000x128 .f32) : Vec F S10000x128 .f32 :=
  select (cmpf .ogt x (fill bcast_S_S10000x128 0x00000000#32))
    x
    (mulf (fill bcast_S_S10000x128 0x3F800000#32)
      (Host.expm1
        (select (cmpf .ogt x (fill bcast_S_S10000x128 0x00000000#32))
          (fill bcast_S_S10000x128 0x00000000#32)
          x)))

noncomputable def kHost (msg : Vec F S320000x128 .f32) (dst : Vec F S320000 .i32) (b : Vec F S128 .f32) : Vec F S10000x128 .f32 :=
  kElu (addf
    (Host.scatterAdd scatter_S10000x128_S320000x1_S320000x128_1_0_0_1
      (fill bcast_S_S10000x128 0x00000000#32)
      (broadcastInDim S320000x1 ![0] bcast_S320000_S320000x1_0 dst) msg)
    (broadcastInDim S10000x128 ![0, 1] bcast_S1x128_S10000x128_0_1 (broadcastInDim S1x128 ![1] bcast_S128_S1x128_1 b)))

noncomputable def kGraph (h : Vec F S10000x128 .f32) (batch : Vec F S10000 .i32) : Vec F S16x128 .f32 :=
  Host.divf
    (Host.scatterAdd scatter_S16x128_S10000x1_S10000x128_1_0_0_1
      (fill bcast_S_S16x128 0x00000000#32)
      (broadcastInDim S10000x1 ![0] bcast_S10000_S10000x1_0 batch) h)
    (broadcastInDim S16x128 ![0, 1] bcast_S16x1_S16x128_0_1 (broadcastInDim S16x1 ![0] bcast_S16_S16x1_0
      (maximumf
        (Host.scatterAdd scatter_S16_S10000x1_S10000_n_0_0_1
          (fill bcast_S_S16 0x00000000#32)
          (broadcastInDim S10000x1 ![0] bcast_S10000_S10000x1_0 batch)
          (fill bcast_S_S10000 0x3F800000#32))
        (fill bcast_S_S16 0x3F800000#32))))

noncomputable def kDist (ge : Vec F S16x128 .f32) (P : Vec F S10x128 .f32) : Vec F S16x10 .f32 :=
  addf
    (addf
      (mulf (fill bcast_S_S16x10 0xC0000000#32)
        (Host.dotGeneral dot_S16x128_S128x10_S16x10_1_0_0_1_n_n none ge (transpose S128x10 [1, 0] P transposes_S10x128_S128x10_1_0)))
      (broadcastInDim S16x10 ![0, 1] bcast_S16x1_S16x10_0_1 (broadcastInDim S16x1 ![0] bcast_S16_S16x1_0
        (Host.reduceAdd (mulf ge ge) (constant (F := F) S_ .f32 0x00000000#32) reducesTo_S16x128_S16_d1 h_S_))))
    (broadcastInDim S16x10 ![0, 1] bcast_S1x10_S16x10_0_1 (broadcastInDim S1x10 ![1] bcast_S10_S1x10_1
      (Host.reduceAdd (mulf P P) (constant (F := F) S_ .f32 0x00000000#32) reducesTo_S10x128_S10_d1 h_S_)))

noncomputable def kLogits (dist : Vec F S16x10 .f32) (lw : Vec F S2x10 .f32) : Vec F S16x2 .f32 :=
  Host.dotGeneral dot_S16x10_S10x2_S16x2_1_0_0_1_n_n none
    (Host.log (Host.divf
      (addf dist (fill bcast_S_S16x10 0x3F800000#32))
      (addf dist (fill bcast_S_S16x10 0x38D1B717#32))))
    (transpose S10x2 [1, 0] lw transposes_S2x10_S10x2_1_0)

noncomputable def kExps (l : Vec F S16x2 .f32) : Vec F S16x2 .f32 :=
  Host.exp (subf l
    (broadcastInDim S16x2 ![0, 1] bcast_S16x1_S16x2_0_1 (broadcastInDim S16x1 ![0] bcast_S16_S16x1_0
      (maximumf (fill bcast_S_S16 0xFF800000#32)
        (Host.reduce FloatOps.maximumf l (constant (F := F) S_ .f32 0xFF800000#32) reducesTo_S16x2_S16_d1 h_S_)))))

noncomputable def kProbs (l : Vec F S16x2 .f32) : Vec F S16x2 .f32 :=
  Host.divf (kExps l)
    (broadcastInDim S16x2 ![0, 1] bcast_S16x1_S16x2_0_1 (broadcastInDim S16x1 ![0] bcast_S16_S16x1_0
      (Host.reduceAdd (kExps l) (constant (F := F) S_ .f32 0x00000000#32) reducesTo_S16x2_S16_d1 h_S_)))

variable (m : (ℓ : Loc nD τ sig) → Buf (Elt F) ℓ)

/-- The intermediate arrays of one call of the activation. -/
noncomputable def callRefs (c : fn_elu.Bufs) : List (Ref sig .tc) :=
  [c.cst.ref, c.v0.ref, c.v1.ref, c.cst_0.ref, c.v2.ref, c.v3.ref, c.cst_1.ref, c.call0.v0.ref, c.call0.v1.ref, c.call0.v2.ref,
    c.v5.ref, c.cst_2.ref, c.v6.ref, c.v7.ref, c.call1.v0.ref]

/-- Every operation of the stretch writes an array of the list. -/
noncomputable abbrev WritesIn (ops : List (HloOp τ sig (Elt F))) (W : List (Ref sig .tc)) : Prop :=
  ops.Forall fun op => op.writes ⊆ (W.map (Proc.devRef (τ := τ) .tc)).toFinset

/-- A single array of the list, as a set of buffers, lies inside the list's set. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

noncomputable abbrev wA : List (Ref sig .tc) :=
  [main_v0, main_v1, main_v2, main_v3, main_c, main_v4, main_v5]
theorem opsA_writes : WritesIn (F := F) opsA wA := by
  repeat' apply And.intro
  all_goals exact sub_of_mem (by decide)

noncomputable abbrev wB : List (Ref sig .tc) :=
  [main_cst, main_v8, main_v9, main_v10, main_v11, main_v12, main_v13] ++ callRefs main_call0
theorem opsB_writes : WritesIn (F := F) opsB wB := by
  repeat' apply And.intro
  all_goals exact sub_of_mem (by decide)

noncomputable abbrev wC : List (Ref sig .tc) :=
  [main_cst_0, main_v17, main_v18, main_v19, main_v20, main_v21, main_v22] ++ callRefs main_call1
theorem opsC_writes : WritesIn (F := F) opsC wC := by
  repeat' apply And.intro
  all_goals exact sub_of_mem (by decide)

noncomputable abbrev wD : List (Ref sig .tc) :=
  [main_cst_1, main_v26, main_v27, main_v28, main_v29, main_v30, main_v31] ++ callRefs main_call2 ++ [main_cst_2, main_v33, main_cst_3, main_v34, main_v35, main_v36, main_cst_4, main_v37, main_v38, main_v39, main_cst_5, main_v40, main_v41, main_v42, main_v43, main_v44, main_v45, main_v46, main_cst_6, main_v47, main_v48, main_v49, main_cst_7, main_v50, main_v51, main_v52, main_v53, main_v54, main_cst_8, main_v55, main_v56, main_v57, main_v58, main_cst_9, main_v59, main_v60, main_cst_10, main_v61, main_v62, main_v63, main_v64, main_v65, main_v66, main_cst_11, main_v67, main_cst_12, main_v68, main_v69, main_v70, main_v71, main_v72, main_v73, main_cst_13, main_v74, main_v75, main_v76, main_v77]
theorem opsD_writes : WritesIn (F := F) opsD wD := by
  repeat' apply And.intro
  all_goals exact sub_of_mem (by decide)

/-- The stages in order, and the references written on the way from each to the next. -/
noncomputable def Vs : ℕ → Dev nD → Valuation τ sig (Elt F)
  | 0 => V0 m | 1 => V1 m | 2 => V2 m | 3 => V3 m | 4 => V4 m | 5 => V5 m | 6 => V6 m | 7 => V7 m | 8 => V8 m | 9 => V9 m
  | _ => V10 m
noncomputable def ws : ℕ → List (Ref sig .tc)
  | 0 => wA | 1 => [main_v6] | 2 => [main_v7] | 3 => wB | 4 => [main_v15] | 5 => [main_v16] | 6 => wC | 7 => [main_v24]
  | 8 => [main_v25] | 9 => wD | _ => []

/-- A stage changes only what it writes: a host stretch its results, a kernel its one array. -/
theorem step (d : Dev nD) {r : Ref sig .tc} : ∀ k, r ∉ ws k → Vs m (k + 1) d (dr r) = Vs m k d (dr r)
  | 0, h => after_of_writes_sub opsA _ opsA_writes h
  | 3, h => after_of_writes_sub opsB _ opsB_writes h
  | 6, h => after_of_writes_sub opsC _ opsC_writes h
  | 9, h => after_of_writes_sub opsD _ opsD_writes h
  | 1, h | 2, h | 4, h | 5, h | 7, h | 8, h => Function.update_of_ne (devRef_ne_of_ne (List.ne_of_not_mem_cons h)) _ _
  | _ + 10, _ => rfl

/-- An array that none of `n` consecutive stages writes holds after them what it held before. -/
theorem kept (d : Dev nD) {r : Ref sig .tc} (j : ℕ) :
    ∀ n, (∀ i < n, r ∉ ws (j + i)) → Vs m (j + n) d (dr r) = Vs m j d (dr r)
  | 0, _ => rfl
  | n + 1, h => (step m d (j + n) (h n (Nat.lt_succ_self n))).trans (kept d j n fun i hi => h i (Nat.lt_succ_of_lt hi))

variable (W : Valuation τ sig (Elt F))

section Reads
attribute [local irreducible] Host.scatterAdd Host.reduceAdd Host.reduce concatenate

theorem opsA_v3 : after opsA W (dr main_v3) = kDst (W (dr main_arg1)) := by
  dsimp only [opsA]; after_results; rfl

theorem opsA_v5 : after opsA W (dr main_v5) = kSrcPad (W (dr main_arg1)) := by
  dsimp only [opsA]; after_results; rfl

set_option maxRecDepth 8192 in
theorem opsB_v14 : after opsB W (dr main_v14) = kHost (W (dr main_v7)) (W (dr main_v3)) (W (dr main_arg4)) := by
  dsimp only [opsB]; after_results_simp; rfl

set_option maxRecDepth 8192 in
theorem opsC_v23 : after opsC W (dr main_v23) = kHost (W (dr main_v16)) (W (dr main_v3)) (W (dr main_arg6)) := by
  dsimp only [opsC]; after_results_simp; rfl

set_option maxRecDepth 32768
set_option maxHeartbeats 1600000

theorem opsD_v32 : after opsD W (dr main_v32) = kHost (W (dr main_v25)) (W (dr main_v3)) (W (dr main_arg8)) := by
  dsimp only [opsD]; after_results_simp; rfl

/-- Each later result of the last stretch is its function of the one before. -/
theorem opsD_v44 : after opsD W (dr main_v44) = kGraph (after opsD W (dr main_v32)) (W (dr main_arg2)) := by
  rw [opsD_v32]; dsimp only [opsD]; after_results_simp; rfl

theorem opsD_v58 : after opsD W (dr main_v58) = kDist (after opsD W (dr main_v44)) (W (dr main_arg9)) := by
  rw [opsD_v44, opsD_v32]; dsimp only [opsD]; after_results_simp; rfl

theorem opsD_v66 : after opsD W (dr main_v66) = kLogits (after opsD W (dr main_v58)) (W (dr main_arg10)) := by
  rw [opsD_v58, opsD_v44, opsD_v32]; dsimp only [opsD]; after_results_simp; rfl

theorem opsD_v77 : after opsD W (dr main_v77) = kProbs (after opsD W (dr main_v66)) := by
  rw [opsD_v66, opsD_v58, opsD_v44, opsD_v32]; dsimp only [opsD]; after_results_simp; rfl

end Reads

variable (d : Dev nD)

theorem V1_arg0 : V1 m d (dr main_arg0) = arg m d main_arg0 := kept m d 0 1 (by decide)
theorem V1_arg3 : V1 m d (dr main_arg3) = arg m d main_arg3 := kept m d 0 1 (by decide)
theorem V3_arg4 : V3 m d (dr main_arg4) = arg m d main_arg4 := kept m d 0 3 (by decide)
theorem V4_arg5 : V4 m d (dr main_arg5) = arg m d main_arg5 := kept m d 0 4 (by decide)
theorem V6_arg6 : V6 m d (dr main_arg6) = arg m d main_arg6 := kept m d 0 6 (by decide)
theorem V7_arg7 : V7 m d (dr main_arg7) = arg m d main_arg7 := kept m d 0 7 (by decide)
theorem V9_arg8 : V9 m d (dr main_arg8) = arg m d main_arg8 := kept m d 0 9 (by decide)
theorem V9_arg2 : V9 m d (dr main_arg2) = arg m d main_arg2 := kept m d 0 9 (by decide)
theorem V9_arg9 : V9 m d (dr main_arg9) = arg m d main_arg9 := kept m d 0 9 (by decide)
theorem V9_arg10 : V9 m d (dr main_arg10) = arg m d main_arg10 := kept m d 0 9 (by decide)
/-- An array no stage writes holds at the end what it held at the start. -/
theorem V10_arg {r : Ref sig .tc} (h : ∀ i < 10, r ∉ ws (0 + i)) : V10 m d (dr r) = arg m d r := kept m d 0 10 h

/-- The padded sources and the destinations are computed by the first stretch and never written again. -/
theorem V1_v5 : V1 m d (dr main_v5) = kSrcPad (m ((SparseCore.T d).loc main_arg1)) := by
  unfold V1; rw [opsA_v5]; rfl
theorem V1_v3 : V1 m d (dr main_v3) = kDst (arg m d main_arg1) := by
  unfold V1; rw [opsA_v3]; rfl
theorem V2_v5 : V2 m d (dr main_v5) = kSrcPad (m ((SparseCore.T d).loc main_arg1)) := (kept m d 1 1 (by decide)).trans (V1_v5 m d)
theorem V5_v5 : V5 m d (dr main_v5) = kSrcPad (m ((SparseCore.T d).loc main_arg1)) := (kept m d 1 4 (by decide)).trans (V1_v5 m d)
theorem V8_v5 : V8 m d (dr main_v5) = kSrcPad (m ((SparseCore.T d).loc main_arg1)) := (kept m d 1 7 (by decide)).trans (V1_v5 m d)
theorem V3_v3 : V3 m d (dr main_v3) = kDst (arg m d main_arg1) := (kept m d 1 2 (by decide)).trans (V1_v3 m d)
theorem V6_v3 : V6 m d (dr main_v3) = kDst (arg m d main_arg1) := (kept m d 1 5 (by decide)).trans (V1_v3 m d)
theorem V9_v3 : V9 m d (dr main_v3) = kDst (arg m d main_arg1) := (kept m d 1 8 (by decide)).trans (V1_v3 m d)

theorem V4_v14 : V4 m d (dr main_v14) = kHost (V3 m d (dr main_v7)) (kDst (arg m d main_arg1)) (arg m d main_arg4) := by
  unfold V4; rw [opsB_v14, V3_v3, V3_arg4]
theorem V7_v23 : V7 m d (dr main_v23) = kHost (V6 m d (dr main_v16)) (kDst (arg m d main_arg1)) (arg m d main_arg6) := by
  unfold V7; rw [opsC_v23, V6_v3, V6_arg6]
theorem V10_v32 : V10 m d (dr main_v32) = kHost (V9 m d (dr main_v25)) (kDst (arg m d main_arg1)) (arg m d main_arg8) := by
  unfold V10; rw [opsD_v32, V9_v3, V9_arg8]

theorem V10_v44 : V10 m d (dr main_v44) = kGraph (V10 m d (dr main_v32)) (arg m d main_arg2) := by
  unfold V10; rw [opsD_v44, V9_arg2]
theorem V10_v58 : V10 m d (dr main_v58) = kDist (V10 m d (dr main_v44)) (arg m d main_arg9) := by
  unfold V10; rw [opsD_v58, V9_arg9]
theorem V10_v66 : V10 m d (dr main_v66) = kLogits (V10 m d (dr main_v58)) (arg m d main_arg10) := by
  unfold V10; rw [opsD_v66, V9_arg10]
theorem V10_v77 : V10 m d (dr main_v77) = kProbs (V10 m d (dr main_v66)) := by
  unfold V10; rw [opsD_v77]

end Cert.Kernel.Hand

end
-- ==== Proof.K.PreOK.lean ====
import proofs.«207978_g39513699123711_cont_8to1_b_1293_21_alg».proof.Proof.PreRange
import proofs.«207978_g39513699123711_cont_8to1_b_1293_21_alg».proof.Proof.K.ValsRead
import proofs.«207978_g39513699123711_cont_8to1_b_1293_21_alg».proof.Proof.K.Vals

noncomputable section

namespace Cert.Kernel.Hand

open Cert.Kernel Cert.Kernel.Gen
open Idealize.ShloMosaic Idealize.ShloMosaic.ValueIdx Idealize.SL.Sem

variable {F : FTy → Type} [FloatOps F]

-- An entry of the padded source list is a source entry or a padding zero.
theorem srcPad_lt (ei : Vec F S2x320000 .i32) (h : ∀ i, (ei i).toNat < 10000) (j : S320128.Idx) :
    (kSrcPad ei j).toNat < 10000 := by
  obtain ⟨q, rfl⟩ : ∃ q : Fin 320128, j = ix1 q := ⟨j 0, eq_ix1 j⟩
  unfold kSrcPad
  by_cases hq : q.val < 320000
  · rw [concatenate_pair_apply_left 0 _ _ concatenates_S320000_S128_S320128_d0 (ix1 q) rfl (ix1 (⟨q.val, hq⟩ : Fin 320000))
      (fun b => by
        match b with
        | ⟨0, _⟩ => rfl)]
    exact h _
  · rw [concatenate_pair_apply_right 0 _ _ concatenates_S320000_S128_S320128_d0 (ix1 q) rfl rfl
      (ix1 (⟨q.val - 320000, by have := q.isLt; omega⟩ : Fin 128))
      (fun b hb => by
        match b with
        | ⟨0, _⟩ => exact absurd rfl hb)
      (by show (q.val - 320000) + 320000 = q.val; omega)]
    show (0#32 : BitVec 32).toNat < 10000
    decide

def PreOK (m : (ℓ : Loc nD τ sig) → Buf (Elt F) ℓ) : Prop :=
  ∀ (d : Dev nD) (j : S320128.Idx), ((kSrcPad (F := F) (m ((SparseCore.T d).loc main_arg1))) j).toNat < 10000

theorem preOK_of_pre [Cert.Pre_input_domain.Facts] (m : (ℓ : Loc nD τ sig) → Buf (Elt F) ℓ)
    (h : ∀ c : Dev nD, (Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))) = (fun _ => 1#1)) : PreOK m :=
  fun d j => srcPad_lt _ (Cert.Pre_input_domain.Hand.pre_edge_lt _ _ _ _ _ _ _ _ _ _ _ (h d)) j

-- Each of the three calls reads the padded source list.
theorem idx_lt (m : (ℓ : Loc nD τ sig) → Buf (Elt F) ℓ) (hp : PreOK m) (d : Dev nD) :
    (∀ j : S320128.Idx, ((V2 m d (dr main_v5) : Vec F S320128 .i32) j).toNat < 10000)
    ∧ (∀ j : S320128.Idx, ((V5 m d (dr main_v5) : Vec F S320128 .i32) j).toNat < 10000)
    ∧ (∀ j : S320128.Idx, ((V8 m d (dr main_v5) : Vec F S320128 .i32) j).toNat < 10000) := by
  rw [V2_v5, V5_v5, V8_v5]
  exact ⟨hp d, hp d, hp d⟩

end Cert.Kernel.Hand

end
-- ==== Proof.K.ScBody.lean ====
import proofs.«207978_g39513699123711_cont_8to1_b_1293_21_alg».proof.Proof.K.Common
import proofs.«207978_g39513699123711_cont_8to1_b_1293_21_alg».proof.Proof.K.ValDefs
import Idealize.ShloMosaic.Lib.SparseCore.Stream
import Idealize.ShloMosaic.Lib.Transfers
import Idealize.ShloMosaic.Lib.ValueIdx
import Idealize.ShloMosaic.Lib.Tactic

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

noncomputable abbrev cV1 (L : grid1.Coords) : Fin τ.nSC := (L 0).castLE hcore1
noncomputable abbrev jV1 (L : grid1.Coords) : Fin τ.nSub := (L 1).castLE hsub1

noncomputable abbrev pV (L : grid1.Coords) : Proc τ := .scVector (cV1 L) (jV1 L)
noncomputable abbrev VT1 (d : Dev nD) (L : grid1.Coords) : Thread nD τ := V d (cV1 L) (jV1 L)
abbrev SV (F : FTy → Type) (d : Dev nD) (L : grid1.Coords) : Type := Buf (Elt F) ((VT1 d L).loc cc1_scratch0)
abbrev RowBuf : Type := Memref sig .scVector .vmem S128x128 .f32

noncomputable abbrev tabLoc (d : Dev nD) : Loc nD τ sig := (SparseCore.T d).loc main_v6
noncomputable abbrev idxLoc (d : Dev nD) : Loc nD τ sig := (SparseCore.T d).loc main_v5
noncomputable abbrev outLoc (d : Dev nD) : Loc nD τ sig := (SparseCore.T d).loc main_v7

noncomputable def ebase (L : grid1.Coords) : Nat := 20000 * (L 1).val + 10000 * (L 0).val

theorem ebase_le (L : grid1.Coords) : ebase L + 10000 ≤ 320000 := by
  have h0 : (L 0).val < 2 := (L 0).isLt
  have h1 : (L 1).val < 16 := (L 1).isLt
  unfold ebase; omega

noncomputable def tileRows (L : grid1.Coords) : Finset S320000x128.Idx :=
  Finset.univ.filter fun x => ebase L ≤ (x 0).val ∧ (x 0).val < ebase L + 10000

theorem mem_tileRows {L : grid1.Coords} {x : S320000x128.Idx} :
    x ∈ tileRows L ↔ ebase L ≤ (x 0).val ∧ (x 0).val < ebase L + 10000 := by
  simp [tileRows]

abbrev semBase1 : Nat := 5

noncomputable abbrev csem (k : Nat) (hk : k < 33 := by decide) : DmaSem sig := ⟨k, hk⟩
noncomputable abbrev smA : DmaSem sig := ⟨semBase1 + 0, by decide⟩
noncomputable abbrev smB : DmaSem sig := ⟨semBase1 + 1, by decide⟩
noncomputable abbrev smC : DmaSem sig := ⟨semBase1 + 2, by decide⟩
noncomputable abbrev smD : DmaSem sig := ⟨semBase1 + 3, by decide⟩
noncomputable abbrev smE : DmaSem sig := ⟨semBase1 + 4, by decide⟩
noncomputable abbrev smF : DmaSem sig := ⟨semBase1 + 5, by decide⟩

noncomputable abbrev dcell (d : Dev nD) (c : Fin τ.nSC) (i : Fin τ.nSub) (k : Fin 6) : GSem nD τ sig :=
  (V d c i, .dma (csem (semBase1 + k.val) (by have := k.isLt; unfold semBase1; omega)))

noncomputable abbrev cells0 (d : Dev nD) (L : grid1.Coords) : sProp (MM F) :=
  iprop(semVal (VT1 d L, SemLoc.dma smA) 0 ∗ semVal (VT1 d L, SemLoc.dma smB) 0 ∗ semVal (VT1 d L, SemLoc.dma smC) 0
    ∗ semVal (VT1 d L, SemLoc.dma smD) 0 ∗ semVal (VT1 d L, SemLoc.dma smE) 0 ∗ semVal (VT1 d L, SemLoc.dma smF) 0)

theorem dcell_mem (d : Dev nD) (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

theorem ownSems0_V (d : Dev nD) (L : grid1.Coords) :
    (ownSems0 (VT1 d L) : sProp (MM F))
      = iprop(cells0 d L
          ∗ bigSep ((ownCells (VT1 d L)) \ Finset.univ.image (dcell d (cV1 L) (jV1 L))) fun g => semVal g 0) := by
  unfold SparseCore.Cfg.ownSems0
  rw [SparseCore.bigSep_sdiff_split' (t := Finset.univ.image (dcell d (cV1 L) (jV1 L)))
      (Finset.image_subset_iff.mpr fun k _ => dcell_mem d (cV1 L) (jV1 L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl
theorem ownBufs_V (d : Dev nD) (L : grid1.Coords) :
    (ownBufs (VT1 d L) : sProp (MM F))
      = iprop((∃ f, (VT1 d L).loc cc1_scratch0 ↦{fullShare} f) ∗ (∃ f, (VT1 d L).loc cc1_scratch1 ↦{fullShare} f)
          ∗ (∃ f, (VT1 d L).loc cc1_scratch2 ↦{fullShare} f)
          ∗ bigSep ((((ownRefs (τ := τ) (pV L)).erase ((pV L).devRef cc1_scratch0)).erase ((pV L).devRef cc1_scratch1)).erase ((pV L).devRef cc1_scratch2))
              fun b => iprop(∃ f, ((d, b) : Loc nD τ sig) ↦{fullShare} f)) := by
  have hne {a b : Ref sig .scVector} (h : a ≠ b) : (pV L).devRef a ≠ (pV L).devRef b := fun e => h (Proc.devRef_injective _ e)
  unfold SparseCore.Cfg.ownBufs
  refine (SparseCore.bigSep_erase' (SparseCore.Cfg.mem_ownRefs_of_owner (p := pV L) (b := (pV L).devRef cc1_scratch0) rfl)).trans ?_
  rw [SparseCore.bigSep_erase' (Finset.mem_erase.mpr ⟨hne (by decide), SparseCore.Cfg.mem_ownRefs_of_owner (p := pV L) (b := (pV L).devRef cc1_scratch1) rfl⟩),
    SparseCore.bigSep_erase' (Finset.mem_erase.mpr ⟨hne (by decide), Finset.mem_erase.mpr ⟨hne (by decide), SparseCore.Cfg.mem_ownRefs_of_owner (p := pV L) (b := (pV L).devRef cc1_scratch2) rfl⟩⟩)]

noncomputable abbrev tW : Memref sig .scVector .hbm S10000x128 .f32 := Memref.whole main_v6_scv
noncomputable abbrev iW : Memref sig .scVector .hbm S320128 .i32 := Memref.whole main_v5_scv
noncomputable abbrev oW : Memref sig .scVector .hbm S320000x128 .f32 := Memref.whole main_v7_scv
noncomputable abbrev sW : Memref sig .scVector .vmem S10112 .i32 := Memref.whole cc1_scratch0
noncomputable abbrev r1W : RowBuf := Memref.whole cc1_scratch1
noncomputable abbrev r2W : RowBuf := Memref.whole cc1_scratch2

noncomputable abbrev tAll : Memref sig .scVector .hbm S10000x128 .f32 :=
  tW.slice (Rect.unit (s := S10000x128) ![0, 0] S10000x128.size inb_S10000x128_S10000x128_0_0) (fun _ => rfl)

noncomputable abbrev offsM (off : Fin 1 → Nat) (inb : ∀ a, off a + S128.size a ≤ S10112.size a) : Memref sig .scVector .vmem S128 .i32 :=
  sW.slice (Rect.unit (s := S10112) off S128.size inb) (fun _ => rfl)

noncomputable abbrev iWin (L : grid1.Coords) : Memref sig .scVector .hbm S10112 .i32 :=
  iW.slice (Rect.unit (s := S320128) (k1_off1 L) S10112.size (k1_off1_inb L)) (fun _ => rfl)

theorem pts_r1 (d : Dev nD) (L : grid1.Coords) (f : Buf (Elt F) ((VT1 d L).loc cc1_scratch1)) :
    ((r1W).view.loc (VT1 d L) ↦[(r1W).view.set]{fullShare} f : sProp (MM F)) = (VT1 d L).loc cc1_scratch1 ↦{fullShare} f := by
  rw [View.set_whole]
theorem pts_r2 (d : Dev nD) (L : grid1.Coords) (f : Buf (Elt F) ((VT1 d L).loc cc1_scratch2)) :
    ((r2W).view.loc (VT1 d L) ↦[(r2W).view.set]{fullShare} f : sProp (MM F)) = (VT1 d L).loc cc1_scratch2 ↦{fullShare} f := by
  rw [View.set_whole]

noncomputable abbrev Sh (H : Nat) : Shape := ⟨2, ![H, 128]⟩

noncomputable abbrev oWin (H : Nat) (offc : Fin 2 → Nat) (inbc : ∀ a, offc a + (Sh H).size a ≤ S320000x128.size a) : Memref sig .scVector .hbm (Sh H) .f32 :=
  oW.slice (Rect.unit (s := S320000x128) offc (Sh H).size inbc) (fun _ => rfl)

section Values

variable [FloatOps F] (d : Dev nD) (L : grid1.Coords) (tab : Vec F S10000x128 .f32) (idx : Vec F S320128 .i32)

def SVok (sv : SV F d L) : Prop :=
  ∀ (i : S10112.Idx) (j : S320128.Idx), (j 0).val = ebase L + (i 0).val → sv i = idx j

def RowsOK (H : Nat) (sv : SV F d L) (g : (Sh H).Idx → Elt F .f32) (o : Nat) : Prop :=
  ∀ (y : (Sh H).Idx) (i : S10112.Idx) (t : S10000x128.Idx),
    (i 0).val = o + (y 0).val → (t 0).val = (sv i).toNat → (t 1).val = (y 1).val → g y = tab t

def OutOK (f : Buf (Elt F) (outLoc d)) (n : Nat) : Prop :=
  ∀ x : S320000x128.Idx, ebase L ≤ (x 0).val → (x 0).val < ebase L + n → f x = gatherRows tab idx x

theorem hin_offs (sv : SV F d L) (hsv : ∀ i : S10112.Idx, (sv i).toNat < 10000)
    (off : Fin 1 → Nat) (inb : ∀ a, off a + S128.size a ≤ S10112.size a) (hg : S10000x128.Gathers 0 S128x128) :
    ∀ x, ((offsM off inb).view.read (Elt F) sv x).toNat < S10000x128.size hg.axis :=
  fun x => hsv ((offsM off inb).view.emb x)

theorem rowMajor_symm_S128 : ∀ k : Fin S128.numel, ((S128.rowMajor.symm k) 0).val = k.val := by decide +kernel

theorem rows_ok (sv : SV F d L) (off : Fin 1 → Nat) (inb : ∀ a, off a + S128.size a ≤ S10112.size a)
    (hg : S10000x128.Gathers 0 S128x128) (hn : S128.numel = S128x128.size hg.axis')
    (hin' : ∀ x, ((offsM off inb).view.read (Elt F) sv x).toNat < S10000x128.size hg.axis) :
    RowsOK d L tab 128 sv (SparseCore.gatherPayload hg ((tAll).view.read (Elt F) tab) (SparseCore.rows ((offsM off inb).view.read (Elt F) sv) hn hin')) (off 0) := by
  intro y i t hi ht0 ht1
  have hemb : (offsM off inb).view.emb (S128.rowMajor.symm ((y 0).cast hn.symm)) = i := by
    funext b; apply Fin.ext
    match b with
    | ⟨0, _⟩ =>
      show off 0 + 1 * ((S128.rowMajor.symm ((y 0).cast hn.symm)) 0).val = (i 0).val
      rw [rowMajor_symm_S128, hi, Nat.one_mul]; rfl
  have h0 : ((hg.idx _ y) 0).val = (sv ((offsM off inb).view.emb (S128.rowMajor.symm ((y 0).cast hn.symm)))).toNat :=
    congrArg Fin.val (Shape.Gathers.idx_axis hg (SparseCore.rows _ hn hin') y)
  have h1 : ((hg.idx _ y) 1).val = (y 1).val := Shape.Gathers.idx_of_ne hg (SparseCore.rows _ hn hin') y 1 (by decide)
  show tab ((tAll).view.emb (hg.idx _ y)) = tab t
  congr 1
  funext a
  apply Fin.ext
  match a with
  | ⟨0, _⟩ => show 0 + 1 * ((hg.idx _ y) 0).val = (t 0).val; rw [h0, hemb, ht0]; omega
  | ⟨1, _⟩ => show 0 + 1 * ((hg.idx _ y) 1).val = (t 1).val; rw [h1, ht1]; omega

theorem out_step (H : Nat) (f : Buf (Elt F) (outLoc d)) (n : Nat) (hn : n + H ≤ 10000) (offc : Fin 2 → Nat)
    (inbc : ∀ a, offc a + (Sh H).size a ≤ S320000x128.size a)
    (h0 : offc 0 = ebase L + n) (h1 : offc 1 = 0)
    (sv : SV F d L) (hSV : SVok d L idx sv) (hin : ∀ j, (idx j).toNat < 10000)
    (g : (Sh H).Idx → Elt F .f32) (hg : RowsOK d L tab H sv g n)
    (hf : OutOK d L tab idx f n) :
    OutOK d L tab idx (View.write (Elt F) (oWin H offc inbc).view f
      (ReadAs.same.apply g) Finset.univ) (n + H) := by
  intro x hlo hhi
  have hx1 : (x 1).val < 128 := idx2_lt1 x
  have hx0 : (x 0).val < 320000 := idx2_lt0 x
  have heb := ebase_le L
  by_cases hx : (x 0).val < ebase L + n
  · rw [View.write_of_not_mem]
    · exact hf x hlo hx
    · rw [View.setOn_univ]
      intro hm
      simp only [Memref.view_slice, Memref.view_whole, View.set_slice_whole, Rect.mem_set_unit] at hm
      have := (hm 0).1
      omega
  · obtain ⟨y, hy0, hy1⟩ : ∃ y : (Sh H).Idx, (y 0).val = (x 0).val - (ebase L + n) ∧ (y 1).val = (x 1).val :=
      ⟨ix2 (n0 := H) (n1 := 128) ⟨(x 0).val - (ebase L + n), by omega⟩ ⟨(x 1).val, hx1⟩, rfl, rfl⟩
    have hyH : (y 0).val < H := idx2_lt0 y
    have hxy : (oWin H offc inbc).view.emb y = x := by
      funext a; apply Fin.ext
      match a with
      | ⟨0, _⟩ => show offc 0 + 1 * (y 0).val = (x 0).val; omega
      | ⟨1, _⟩ => show offc 1 + 1 * (y 1).val = (x 1).val; omega
    obtain ⟨i, hi⟩ : ∃ i : S10112.Idx, (i 0).val = n + (y 0).val := ⟨ix1 (n := 10112) ⟨n + (y 0).val, by omega⟩, rfl⟩
    unfold gatherRows
    refine ((congrArg _ hxy.symm).trans ((View.write_emb_of_mem _ _ (Finset.mem_univ y)).trans (cast_eq _ _))).trans (hg y i _ hi ?_ ?_)
    · show (idx (ix1 (n := 320128) ⟨(x 0).val, _⟩)).toNat % 10000 = (sv i).toNat
      rw [hSV i (ix1 (n := 320128) ⟨(x 0).val, by omega⟩) (by show (x 0).val = ebase L + (i 0).val; omega)]
      exact Nat.mod_eq_of_lt (hin _)
    · show (x 1).val = (y 1).val; omega

theorem rows16 (sv : SV F d L) (g1 : BufTy.Contents (Elt F) (r1W).view.ty) (o : Nat)
    (h : RowsOK d L tab 128 sv (View.read (Elt F) (r1W).view g1) o) :
    RowsOK d L tab 16 sv (View.read (Elt F) ((r1W).slice (Rect.unit (s := S128x128) ![0, 0] S16x128.size inb_S128x128_S16x128_0_0) (fun _ => rfl)).view g1) o := by
  intro y i t hi ht0 ht1
  refine h ((Rect.unit (s := S128x128) ![0, 0] S16x128.size inb_S128x128_S16x128_0_0).emb y) i t ?_ ht0 ?_
  · show (i 0).val = o + (0 + 1 * (y 0).val); omega
  · show (t 1).val = 0 + 1 * (y 1).val; omega

noncomputable abbrev svOf (fs0 : SV F d L) : SV F d L :=
  View.write (Elt F) (sW).view fs0 (ReadAs.same.apply (View.read (Elt F) (iWin L).view idx)) Finset.univ

theorem svOf_apply (fs0 : SV F d L) (i : S10112.Idx) :
    svOf d L idx fs0 i = idx ((iWin L).view.emb i) := by
  unfold svOf
  rw [View.write_whole_univ]
  rfl

theorem svOk (fs0 : SV F d L) : SVok d L idx (svOf d L idx fs0) := by
  intro i j hj
  rw [svOf_apply]
  congr 1
  funext a
  apply Fin.ext
  match a with
  | ⟨0, _⟩ =>
    show (k1_off1 L 0 + 1 * (i 0).val) = (j 0).val
    rw [k1_off1_eq]; simp [ebase] at hj ⊢; omega

theorem svLt (hin : ∀ j, (idx j).toNat < 10000) (fs0 : SV F d L) :
    ∀ i : S10112.Idx, (svOf d L idx fs0 i).toNat < 10000 := by
  intro i; rw [svOf_apply]; exact hin _

theorem chunk_subset (H : Nat) (offc : Fin 2 → Nat) (inbc : ∀ a, offc a + (Sh H).size a ≤ S320000x128.size a)
    (n : Nat) (hn : n + H ≤ 10000) (h0 : offc 0 = ebase L + n) :
    (oWin H offc inbc).view.set ⊆ tileRows L := by
  intro x hx
  simp only [Memref.view_slice, Memref.view_whole, View.set_slice_whole, Rect.mem_set_unit] at hx
  have hx0 : offc 0 ≤ (x 0).val ∧ (x 0).val < offc 0 + H := hx 0
  rw [mem_tileRows]
  omega

theorem off2_0 (k : Fin k1_t1_loop.trips) : (k1_off2 L k 0#32) 0 = ebase L + 256 * k.val := congrFun (k1_off2_eq L k 0) 0
theorem off2_1 (k : Fin k1_t1_loop.trips) : (k1_off2 L k 1#32) 0 = ebase L + (256 * k.val + 128) :=
  (congrFun (k1_off2_eq L k 1) 0).trans (Nat.add_assoc _ _ _)
theorem off2_0c (k : Fin k1_t1_loop.trips) : (k1_off2 L k 0#32) 1 = 0 := congrFun (k1_off2_eq L k 0) 1
theorem off2_1c (k : Fin k1_t1_loop.trips) : (k1_off2 L k 1#32) 1 = 0 := congrFun (k1_off2_eq L k 1) 1
theorem off5_0c : (k1_off5 L) 1 = 0 := congrFun (k1_off5_eq L) 1
theorem off3_0 (k : Fin k1_t1_loop.trips) : (k1_off3 k) 0 = 128 * (2 * (k.val + 1)) := by
  rw [k1_off3_eq]; simp; omega
theorem off4_0 (k : Fin k1_t1_loop.trips) : (k1_off4 k) 0 = 128 * (2 * (k.val + 1) + 1) := by
  rw [k1_off4_eq]; simp; omega
theorem off5_0 : (k1_off5 L) 0 = ebase L + 9984 := congrFun (k1_off5_eq L) 0

end Values

section Slot

variable [FloatOps F] (rW : RowBuf) (sm : DmaSem sig) (d : Dev nD) (L : grid1.Coords) (q h : PosShare TreeShare)
  (tab : Vec F S10000x128 .f32) (sv : SV F d L)

/-- What a slot's pending gather of the list window at `o` delivers: the slot's rows, the table's share, the window. -/
noncomputable def slotD (o : Nat) (So : Finset (Idx ((sW).view.loc (VT1 d L)))) : sProp (MM F) :=
  iprop(∃ fr', ⌜RowsOK d L tab 128 sv (rW.view.read (Elt F) fr') o⌝ ∗ (rW.view.loc (VT1 d L) ↦[rW.view.set]{fullShare} fr')
    ∗ ((tAll).view.loc (VT1 d L) ↦[(tAll).view.set]{q} tab) ∗ ((sW).view.loc (VT1 d L) ↦[So]{h} sv))

/-- A slot with a gather pending on its cell. -/
noncomputable def slotF (o : Nat) : sProp (MM F) :=
  iprop(∃ So, Transfers.Flight countersEmb (VT1 d L) (.dma sm) (default : HIx 3) rW.view.dmaCredit (slotD rW d L q h tab sv o So)
    ∗ ((sW).view.loc (VT1 d L) ↦[Finset.univ \ So]{h} sv))

/-- A slot idle: its rows at some contents, its shares of the table and the list, its cell at zero. -/
noncomputable def slotI : sProp (MM F) :=
  iprop((∃ fr, rW.view.loc (VT1 d L) ↦[rW.view.set]{fullShare} fr)
    ∗ ((tAll).view.loc (VT1 d L) ↦[(tAll).view.set]{q} tab) ∗ ((sW).view.loc (VT1 d L) ↦{h} sv) ∗ semVal (VT1 d L, SemLoc.dma sm) 0)

/-- A slot before trip chunk `c`: that chunk's gather pending while there is such a chunk, else idle. -/
noncomputable def slotS (c : Nat) : sProp (MM F) :=
  if c < 78 then slotF rW sm d L q h tab sv (128 * c) else slotI rW sm d L q h tab sv

/-- The gather's issue on an idle slot: the landed rows are the rows the list window names. -/
theorem gather_step (off : Fin 1 → Nat) (inb : ∀ a, off a + S128.size a ≤ S10112.size a) (hsv : ∀ i : S10112.Idx, (sv i).toNat < 10000)
    {hp} {hg : S10000x128.Gathers 0 S128x128} {hn hsrc he hsp hr}
    {α : Type} {k : PUnit → Prog (TpuEff nD τ sig (Elt F) Λ₀ (VT1 d L).2) α} {Q : α → sProp (MM F)} :
    (slotI rW sm d L q h tab sv : sProp (MM F))
      ⊢ iprop((slotF rW sm d L q h tab sv (off 0) -∗ wp frame (wpE (defs₀ (F := F)) 𝒱₀ (VT1 d L) none) Set.univ (k ⟨⟩) Q)
          -∗ wp frame (wpE (defs₀ (F := F)) 𝒱₀ (VT1 d L) none) Set.univ
              (SparseCore.enqueueIndirectGather hp tAll rW hg (offsM off inb) hn sm hsrc he hsp hr >>= k) Q) := by
  unfold slotI
  iintro ⟨⟨%fr, Hr⟩, HT, Hs, Hc⟩ Hk
  ihave Hs' := (pointsTo_split_subset (q := h) (f := sv) (S := Finset.univ) (Finset.subset_univ (offsM off inb).view.set)).1 $$ Hs
  icases Hs' with ⟨Hso, Hsr⟩
  have hD : (iprop((rW.view.loc (VT1 d L) ↦[rW.view.set]{fullShare}
        (View.write (Elt F) rW.view fr (SparseCore.gatherPayload hg ((tAll).view.read (Elt F) tab)
          (SparseCore.rows ((offsM off inb).view.read (Elt F) sv) hn (hin_offs d L sv hsv off inb hg))) Finset.univ))
      ∗ ((tAll).view.loc (VT1 d L) ↦[(tAll).view.set]{q} tab) ∗ ((offsM off inb).view.loc (VT1 d L) ↦[(offsM off inb).view.set]{h} sv)) : sProp (MM F))
      ⊢ slotD rW d L q h tab sv (off 0) (offsM off inb).view.set := by
    unfold slotD
    iintro ⟨Hr, HT, Hso⟩
    iexists _
    isplitr
    swap
    · isplitl [Hr]; · iexact Hr
      iframe HT
      iexact Hso
    ipureintro
    rw [View.read_write_univ]
    exact rows_ok d L tab sv off inb hg hn (hin_offs d L sv hsv off inb hg)
  iapply (SparseCore.wp_indirectGatherLocal countersEmb 𝒱₀ (VT1 d L) none (hg := hg) (default : HIx 3) rW.view.dmaCredit
      (SparseCore.sum_rowCredit_eq_dmaCredit rW hg.axis' (fun _ => rfl)) (by decide) (hin_offs d L sv hsv off inb hg)) $$ [HT Hr Hso Hc]
  · iframe HT Hr Hso
    iexact Hc
  iintro Hfl
  iapply Hk
  unfold slotF
  iexists (offsM off inb).view.set
  isplitl [Hfl]
  · iapply (Transfers.Flight_mono countersEmb (VT1 d L) hD) $$ Hfl
  · iexact Hsr

/-- The wait for a slot's gather hands back the slot's rows, now the gathered ones, and its shares. -/
theorem slot_wait (o : Nat) (O : CellTallies nD τ sig (HIx 3)) (W : Waits sig (HIx 3))
    {sp' : Space} {s' : Shape} {e' : EltTy} {srcw : Memref sig (VT1 d L).2.kind sp' s' e'} {hsrc : srcw.view.WordExact} {hdst : rW.view.WordExact}
    {α : Type} {k : PUnit → Prog (TpuEff nD τ sig (Elt F) Λ₀ (VT1 d L).2) α} {Q : α → sProp (MM F)} :
    (iprop(slotF rW sm d L q h tab sv o ∗ owes (VT1 d L) O W ∗ Transfers.MayWaits (VT1 d L) (default : HIx 3) O) : sProp (MM F))
      ⊢ iprop((iprop((∃ fr', ⌜RowsOK d L tab 128 sv (rW.view.read (Elt F) fr') o⌝ ∗ (rW.view.loc (VT1 d L) ↦[rW.view.set]{fullShare} fr'))
              ∗ ((tAll).view.loc (VT1 d L) ↦[(tAll).view.set]{q} tab) ∗ ((sW).view.loc (VT1 d L) ↦{h} sv)
              ∗ semVal (VT1 d L, SemLoc.dma sm) 0 ∗ owes (VT1 d L) O (insert (SemLoc.dma sm, (default : HIx 3)) W))
            -∗ wp frame (wpE (defs₀ (F := F)) 𝒱₀ (VT1 d L) none) Set.univ (k ⟨⟩) Q)
          -∗ wp frame (wpE (defs₀ (F := F)) 𝒱₀ (VT1 d L) none) Set.univ (.op (.waitDma2 sm srcw rW hsrc hdst) k) Q) := by
  unfold slotF
  iintro ⟨⟨%So, Hfl, Hsr⟩, HO, #Hmw⟩ Hk
  iapply (Transfers.wp_waitLocalO countersEmb 𝒱₀ (VT1 d L) none (default : HIx 3) (rfl : rW.view.dmaCredit = _)) $$ [Hfl HO]
  · isplitl [Hfl]; · iexact Hfl
    isplitl [HO]; · iexact HO
    iapply (Transfers.MayWaits.elim (SemLoc.dma sm)) $$ Hmw
  unfold slotD
  iintro ⟨⟨%fr', %hfr, Hr, HT, Hso⟩, Hc, HO⟩
  iapply Hk
  isplitl [Hr]
  · iexists fr'; isplitr; · ipureintro; exact hfr
    iexact Hr
  isplitl [HT]; · iexact HT
  isplitl [Hso Hsr]
  · iapply (pointsTo_split_subset (q := h) (f := sv) (S := Finset.univ) (Finset.subset_univ So)).2
    iframe Hso
    iexact Hsr
  iframe Hc
  iexact HO

end Slot

section SlotState

variable [FloatOps F] (rW : RowBuf) (sm : DmaSem sig) (d : Dev nD) (L : grid1.Coords) (tab : Vec F S10000x128 .f32)
  {q h : PosShare TreeShare} {sv : SV F d L}

theorem slotS_pos {c : Nat} (hc : c < 78) : slotS rW sm d L q h tab sv c = slotF rW sm d L q h tab sv (128 * c) := if_pos hc
theorem slotS_neg {c : Nat} (hc : ¬ c < 78) : slotS rW sm d L q h tab sv c = slotI rW sm d L q h tab sv := if_neg hc
theorem slotF_congr {o o' : Nat} (e : o = o') : (slotF rW sm d L q h tab sv o : sProp (MM F)) ⊢ slotF rW sm d L q h tab sv o' := by
  subst e; exact BI.Entails.refl _

end SlotState

/-- Waits recorded at no round keep a wait set inside `W` up to such waits. -/
theorem ins_none {W W' : Waits sig (HIx 3)} (hW' : ∀ p ∈ W', p ∈ W ∨ p.2 = none) (s : SemLoc sig) :
    ∀ p ∈ insert (s, (default : HIx 3)) W', p ∈ W ∨ p.2 = none := fun p hp =>
  (Finset.mem_insert.mp hp).elim (fun e => .inr (e ▸ rfl)) (hW' p)

section Inv

variable [FloatOps F] (d : Dev nD) (L : grid1.Coords) (tab : Vec F S10000x128 .f32) (idx : Vec F S320128 .i32)

noncomputable def inv (fs0 : SV F d L) (qT : PosShare TreeShare)
    (O : CellTallies nD τ sig (HIx 3)) (W : Waits sig (HIx 3)) (k : Nat) (_ : PUnit) : sProp (MM F) :=
  iprop(Transfers.MayWaits (VT1 d L) (default : HIx 3) O
    ∗ slotS r1W smA d L qT.left fullShare.left tab (svOf d L idx fs0) (2 * k)
    ∗ slotS r2W smB d L qT.right fullShare.right tab (svOf d L idx fs0) (2 * k + 1)
    ∗ semVal (VT1 d L, SemLoc.dma smD) 0 ∗ semVal (VT1 d L, SemLoc.dma smE) 0
    ∗ (∃ f, ⌜OutOK d L tab idx f (256 * k)⌝ ∗ outLoc d ↦[tileRows L]{fullShare} f)
    ∗ ∃ W', ⌜∀ p ∈ W', p ∈ W ∨ p.2 = none⌝ ∗ owes (VT1 d L) O W')

end Inv

theorem trips39 : k1_t1_loop.trips = 39 := by decide
theorem cond1_iff : ∀ t : Fin k1_t1_loop.trips, k1_cond1 t = 1#1 ↔ t.val < 38 := by decide +kernel
theorem cond2_iff : ∀ t : Fin k1_t1_loop.trips, k1_cond2 t = 1#1 ↔ t.val < 38 := by decide +kernel

set_option maxHeartbeats 16000000 in
theorem tile_body [FloatOps F] (d : Dev nD) (L : grid1.Coords)
    (tab : Vec F S10000x128 .f32) (idx : Vec F S320128 .i32) (hin : ∀ j, (idx j).toNat < 10000)
    (O : CellTallies nD τ sig (HIx 3)) (W : Waits sig (HIx 3)) (hO : ∀ g, O g none = 0) (qT qI : PosShare TreeShare) :
    (iprop(levAts (K (F := F)).L (K (F := F)).lev ∗ (tabLoc d ↦{qT} tab) ∗ (idxLoc d ↦{qI} idx)
        ∗ (∃ f, outLoc d ↦[tileRows L]{fullShare} f)
        ∗ scopedBufs (VT1 d L) ∗ scopedSems0 (VT1 d L) ∗ owes (VT1 d L) O W) : sProp (MM F))
      ⊢ wp frame (wpE (defs₀ (F := F)) 𝒱₀ (VT1 d L) none) Set.univ
          (cc1_gk L (Memref.whole main_v6_scv) (Memref.isWhole_whole _) (Memref.whole main_v5_scv) (Memref.isWhole_whole _)
            (Memref.whole main_v7_scv) (Memref.isWhole_whole _) (Memref.whole cc1_scratch0) (Memref.isWhole_whole _)
            (Memref.whole cc1_scratch1) (Memref.isWhole_whole _) (Memref.whole cc1_scratch2) (Memref.isWhole_whole _)
            cc1_scratch3 cc1_scratch4 cc1_scoped0 cc1_scoped1 cc1_scoped2 cc1_scoped3)
          fun _ => iprop((tabLoc d ↦{qT} tab) ∗ (idxLoc d ↦{qI} idx)
            ∗ (outLoc d ↦[tileRows L]{fullShare} gatherRows tab idx)
            ∗ scopedBufs (VT1 d L) ∗ scopedSems0 (VT1 d L)
            ∗ ∃ W', ⌜∀ p ∈ W', p ∈ W ∨ p.2 = none⌝ ∗ owes (VT1 d L) O W') := by
  simp only [cc1_gk_eq_skeleton]; unfold cc1_gk_skel
  rw [(K (F := F)).scopedBufs_V facts d (cV1 L) (jV1 L), SparseCore.Cfg.scopedSems0_V (Val := Elt F) d (cV1 L) (jV1 L), ownSems0_V, ownBufs_V]
  iintro ⟨#Hlv, HT, HI, ⟨%fo, Hout⟩, ⟨⟨%fs0, Hs0⟩, ⟨%fr1, Hr1⟩, ⟨%fr2, Hr2⟩, Hbufs⟩, ⟨⟨Hc5, Hc6, Hc7, Hc8, Hc9, Hc10⟩, Hsems⟩, HO⟩
  ihave Hmw := (show levAts (K (F := F)).L (K (F := F)).lev ⊢ Transfers.MayWaits (VT1 d L) (default : HIx 3) O from
    (K (F := F)).mayWaits_none (thr := VT1 d L) hO) $$ Hlv
  ihave HT2 := (pointsTo_share (PosShare.mem_left_op_right qT)).1 $$ HT
  icases HT2 with ⟨HTl, HTr⟩
  ihave HTl' := (pointsTo_split_subset (q := qT.left) (f := tab) (S := Finset.univ) (Finset.subset_univ (tAll).view.set)).1 $$ HTl
  icases HTl' with ⟨HTl, HTlr⟩
  ihave HTr' := (pointsTo_split_subset (q := qT.right) (f := tab) (S := Finset.univ) (Finset.subset_univ (tAll).view.set)).1 $$ HTr
  icases HTr' with ⟨HTr, HTrr⟩
  sl_exec
  ihave HIw := (pointsTo_split_subset (q := qI) (f := idx) (S := Finset.univ) (Finset.subset_univ (iWin L).view.set)).1 $$ HI
  icases HIw with ⟨HIw, HIr⟩
  iapply (Transfers.wp_dmaLocal countersEmb 𝒱₀ (VT1 d L) none (default : HIx 3) _ rfl (View.amount_pos _ _ (show 0 < S10112.numel by decide)) (Finset.subset_univ (sW).view.set)) $$ [HIw Hs0 Hc7]
  · iframe HIw Hs0
    iexact Hc7
  iintro Hci
  sl_exec
  have hsv := svLt d L idx hin fs0
  have hSV := svOk d L idx fs0
  ihave Hs2 := (pointsTo_share (PosShare.mem_left_op_right fullShare)).1 $$ Hci_dst
  icases Hs2 with ⟨HsL, HsR⟩
  ihave Hr1' := (Entails.of_eq (pts_r1 (F := F) d L _).symm) $$ Hr1
  iapply (gather_step r1W smA d L qT.left fullShare.left tab (svOf d L idx fs0) ![0] inb_S10112_S128_0 hsv) $$ [Hr1' HTl HsL Hc5]
  · unfold slotI
    isplitl [Hr1']; · iexists _; iexact Hr1'
    isplitl [HTl]; · iexact HTl
    isplitl [HsL]; · iexact HsL
    iexact Hc5
  iintro HF1
  sl_exec
  ihave Hr2' := (Entails.of_eq (pts_r2 (F := F) d L _).symm) $$ Hr2
  iapply (gather_step r2W smB d L qT.right fullShare.right tab (svOf d L idx fs0) ![128] inb_S10112_S128_128 hsv) $$ [Hr2' HTr HsR Hc6]
  · unfold slotI
    isplitl [Hr2']; · iexists _; iexact Hr2'
    isplitl [HTr]; · iexact HTr
    isplitl [HsR]; · iexact HsR
    iexact Hc6
  iintro HF2
  sl_exec
  sl_for (inv d L tab idx fs0 qT O W) $$ [HF1 HF2 Hc8 Hc9 Hout HO]
  case region =>
    intro k acc
    have hk39 : k.val < 39 := lt_of_lt_of_eq k.isLt trips39
    unfold inv
    iintro ⟨#Hmw, HS1, HS2, Hc8, Hc9, ⟨%f, %hf, Hout⟩, %W', %hW', HO⟩
    rcases Nat.lt_or_ge k.val 38 with h38 | h38
    · have hc1 : k1_cond1 k = 1#1 := (cond1_iff k).mpr h38
      have hc2 : k1_cond2 k = 1#1 := (cond2_iff k).mpr h38

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k1_off2 L k 0#32) _ (256 * k.val) (by omega) (off2_0 L k))) $$ [Hr1 Hout Hc8]
      · iframe Hr1 Hout
        iexact Hc8
      iintro Hco1
      sl_exec
      iapply (gather_step r1W smA d L qT.left fullShare.left tab (svOf d L idx fs0) (k1_off3 k) (k1_off3_inb k hc1) hsv) $$ [Hco1_src HTl HsL Hc5]
      · unfold slotI
        isplitl [Hco1_src]; · iexists _; iexact Hco1_src
        isplitl [HTl]; · iexact HTl
        isplitl [HsL]; · iexact HsL
        iexact Hc5
      iintro HF1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k1_off2 L k 1#32) _ (256 * k.val + 128) (by omega) (off2_1 L k))) $$ [Hr2 Hco1_dst Hc9]
      · iframe Hr2 Hco1_dst
        iexact Hc9
      iintro Hco2
      sl_exec
      iapply (gather_step r2W smB d L qT.right fullShare.right tab (svOf d L idx fs0) (k1_off4 k) (k1_off4_inb k hc2) hsv) $$ [Hco2_src HTr HsR Hc6]
      · unfold slotI
        isplitl [Hco2_src]; · iexists _; iexact Hco2_src
        isplitl [HTr]; · iexact HTr
        isplitl [HsR]; · iexact HsR
        iexact Hc6
      iintro HF2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k1_off2 L k 0#32) (k1_off2_inb L k 0) (off2_0 L k) (off2_0c L k)
        (svOf d L idx fs0) hSV hin _ hg1' hf
      have o2 := out_step d L tab idx 128 _ (256 * k.val + 128) (by omega) (k1_off2 L k 1#32) (k1_off2_inb L k 1) (off2_1 L k) (off2_1c L k)
        (svOf d L idx fs0) hSV hin _ hg2' o1
      isplitl []; · iexact Hmw
      isplitl [HF1]
      · iapply (Entails.of_eq (slotS_pos r1W smA d L tab (by omega : 2 * (k.val + 1) < 78)).symm)
        iapply (slotF_congr r1W smA d L tab (off3_0 k)); iexact HF1
      isplitl [HF2]
      · iapply (Entails.of_eq (slotS_pos r2W smB d L tab (by omega : 2 * (k.val + 1) + 1 < 78)).symm)
        iapply (slotF_congr r2W smB d L tab (off4_0 k)); iexact HF2
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

    · have hc1 : ¬ k1_cond1 k = 1#1 := fun h => absurd ((cond1_iff k).mp h) (by omega)
      have hc2 : ¬ k1_cond2 k = 1#1 := fun h => absurd ((cond2_iff k).mp h) (by omega)

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k1_off2 L k 0#32) _ (256 * k.val) (by omega) (off2_0 L k))) $$ [Hr1 Hout Hc8]
      · iframe Hr1 Hout
        iexact Hc8
      iintro Hco1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k1_off2 L k 1#32) _ (256 * k.val + 128) (by omega) (off2_1 L k))) $$ [Hr2 Hco1_dst Hc9]
      · iframe Hr2 Hco1_dst
        iexact Hc9
      iintro Hco2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k1_off2 L k 0#32) (k1_off2_inb L k 0) (off2_0 L k) (off2_0c L k)
        (svOf d L idx fs0) hSV hin _ hg1' hf
      have o2 := out_step d L tab idx 128 _ (256 * k.val + 128) (by omega) (k1_off2 L k 1#32) (k1_off2_inb L k 1) (off2_1 L k) (off2_1c L k)
        (svOf d L idx fs0) hSV hin _ hg2' o1
      isplitl []; · iexact Hmw
      isplitl [Hco1_src HTl HsL Hc5]
      · iapply (Entails.of_eq (slotS_neg r1W smA d L tab (by omega : ¬ 2 * (k.val + 1) < 78)).symm)
        unfold slotI
        isplitl [Hco1_src]; · iexists _; iexact Hco1_src
        isplitl [HTl]; · iexact HTl
        isplitl [HsL]; · iexact HsL
        iexact Hc5
      isplitl [Hco2_src HTr HsR Hc6]
      · iapply (Entails.of_eq (slotS_neg r2W smB d L tab (by omega : ¬ 2 * (k.val + 1) + 1 < 78)).symm)
        unfold slotI
        isplitl [Hco2_src]; · iexists _; iexact Hco2_src
        isplitl [HTr]; · iexact HTr
        isplitl [HsR]; · iexact HsR
        iexact Hc6
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

  · unfold inv
    isplitl []; · iexact Hmw
    isplitl [HF1]
    · iapply (Entails.of_eq (slotS_pos r1W smA d L tab (by omega : 2 * 0 < 78)).symm)
      iapply (slotF_congr r1W smA d L tab (show (![0] : Fin 1 → Nat) 0 = 128 * (2 * 0) from rfl)); iexact HF1
    isplitl [HF2]
    · iapply (Entails.of_eq (slotS_pos r2W smB d L tab (by omega : 2 * 0 + 1 < 78)).symm)
      iapply (slotF_congr r2W smB d L tab (show (![128] : Fin 1 → Nat) 0 = 128 * (2 * 0 + 1) from rfl)); iexact HF2
    isplitl [Hc8]; · iexact Hc8
    isplitl [Hc9]; · iexact Hc9
    isplitl [Hout]
    · iexists fo; isplitr
      · ipureintro; intro x hlo hhi; omega
      · iexact Hout
    iexists _; isplitr
    swap; · iexact HO
    ipureintro; exact ins_none (fun _ hp => .inl hp) _
  iintro %acc HI
  unfold inv
  icases HI with ⟨-, HS1, HS2, Hc8, Hc9, ⟨%f, %hf, Hout⟩, %W', %hW', HO⟩
  ihave HI1 := (Entails.of_eq (slotS_neg r1W smA d L tab (by decide : ¬ 2 * k1_t1_loop.trips < 78))) $$ HS1
  ihave HI2 := (Entails.of_eq (slotS_neg r2W smB d L tab (by decide : ¬ 2 * k1_t1_loop.trips + 1 < 78))) $$ HS2
  have hf' : OutOK d L tab idx f 9984 := fun x hlo hhi =>
    hf x hlo (lt_of_lt_of_eq hhi (congrArg (fun z => ebase L + z) (show 9984 = 256 * k1_t1_loop.trips by decide)))
  sl_exec
  iapply (gather_step r1W smA d L qT.left fullShare.left tab (svOf d L idx fs0) ![9984] inb_S10112_S128_9984 hsv) $$ [HI1]
  · iexact HI1
  iintro HF1
  sl_exec
  iapply (slot_wait r1W smA d L qT.left fullShare.left tab (svOf d L idx fs0) _ O W') $$ [HF1 HO]
  · iframe HF1 HO
    iexact Hmw
  iintro ⟨⟨%g1, %hg1, Hr1⟩, HTl, HsL, Hc5, HO⟩
  sl_exec
  ihave Hr16 := (pointsTo_split_subset (q := fullShare) (f := g1) (View.set_slice_subset (r1W).view (Rect.unit (s := S128x128) ![0, 0] S16x128.size inb_S128x128_S16x128_0_0))).1 $$ Hr1
  icases Hr16 with ⟨Hr16, Hr1r⟩
  iapply (Transfers.wp_dmaLocal countersEmb 𝒱₀ (VT1 d L) none (default : HIx 3) _ rfl (View.amount_pos _ _ (show 0 < S16x128.numel by decide))
      (chunk_subset L 16 (k1_off5 L) _ 9984 (by omega) (off5_0 L))) $$ [Hr16 Hout Hc10]
  · iframe Hr16 Hout
    iexact Hc10
  iintro Hco3
  sl_exec
  sl_step
  have o3 := out_step d L tab idx 16 f 9984 (by omega) (k1_off5 L) (k1_off5_inb L) (off5_0 L) (off5_0c L) (svOf d L idx fs0) hSV hin _
    (rows16 d L tab (svOf d L idx fs0) g1 _ hg1) hf'
  unfold slotI
  icases HI2 with ⟨⟨%g2, Hr2⟩, HTr, HsR, Hc6⟩
  isplitl [HTl HTlr HTr HTrr]
  · iapply (pointsTo_share (PosShare.mem_left_op_right qT)).2
    isplitl [HTl HTlr]
    · iapply (pointsTo_split_subset (q := qT.left) (f := tab) (S := Finset.univ) (Finset.subset_univ (tAll).view.set)).2
      isplitl [HTl]; · iexact HTl
      iexact HTlr
    · iapply (pointsTo_split_subset (q := qT.right) (f := tab) (S := Finset.univ) (Finset.subset_univ (tAll).view.set)).2
      isplitl [HTr]; · iexact HTr
      iexact HTrr
  isplitl [HIr]; · iexact HIr
  isplitl [Hco3_dst]
  · iapply (Entails.of_eq (pointsTo_congr (fun i hi => o3 i (mem_tileRows.mp hi).1 (mem_tileRows.mp hi).2)))
    iexact Hco3_dst
  isplitl [HsL HsR Hr1r Hr2 Hbufs]
  · isplitl [HsL HsR]
    · iexists (svOf d L idx fs0)
      iapply (pointsTo_share (PosShare.mem_left_op_right fullShare)).2
      isplitl [HsL]; · iexact HsL
      iexact HsR
    isplitl [Hr1r]; · iexists g1; iapply (Entails.of_eq (pts_r1 (F := F) d L _)); iexact Hr1r
    isplitl [Hr2]; · iexists g2; iapply (Entails.of_eq (pts_r2 (F := F) d L _)); iexact Hr2
    iexact Hbufs
  isplitl [Hc5 Hc6 Hci Hc8 Hc9 Hco3 Hsems]
  · isplitl [Hc5 Hc6 Hci Hc8 Hc9 Hco3]
    · isplitl [Hc5]; · iexact Hc5
      isplitl [Hc6]; · iexact Hc6
      isplitl [Hci]; · iexact Hci
      isplitl [Hc8]; · iexact Hc8
      isplitl [Hc9]; · iexact Hc9
      iexact Hco3
    iexact Hsems
  iexists _; isplitr
  swap; · iexact HO
  ipureintro; exact ins_none (ins_none hW' _) _

end Cert.Kernel.Hand

end
-- ==== Proof.K.ScBody3.lean ====
import proofs.«207978_g39513699123711_cont_8to1_b_1293_21_alg».proof.Proof.K.Common
import proofs.«207978_g39513699123711_cont_8to1_b_1293_21_alg».proof.Proof.K.ValDefs
import Idealize.ShloMosaic.Lib.SparseCore.Stream
import Idealize.ShloMosaic.Lib.Transfers
import Idealize.ShloMosaic.Lib.ValueIdx
import Idealize.ShloMosaic.Lib.Tactic

noncomputable section

namespace Cert.Kernel.Hand.Call3

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

noncomputable abbrev cV1 (L : grid3.Coords) : Fin τ.nSC := (L 0).castLE hcore3
noncomputable abbrev jV1 (L : grid3.Coords) : Fin τ.nSub := (L 1).castLE hsub3

noncomputable abbrev pV (L : grid3.Coords) : Proc τ := .scVector (cV1 L) (jV1 L)
noncomputable abbrev VT1 (d : Dev nD) (L : grid3.Coords) : Thread nD τ := V d (cV1 L) (jV1 L)
abbrev SV (F : FTy → Type) (d : Dev nD) (L : grid3.Coords) : Type := Buf (Elt F) ((VT1 d L).loc cc3_scratch0)
abbrev RowBuf : Type := Memref sig .scVector .vmem S128x128 .f32

noncomputable abbrev tabLoc (d : Dev nD) : Loc nD τ sig := (SparseCore.T d).loc main_v15
noncomputable abbrev idxLoc (d : Dev nD) : Loc nD τ sig := (SparseCore.T d).loc main_v5
noncomputable abbrev outLoc (d : Dev nD) : Loc nD τ sig := (SparseCore.T d).loc main_v16

noncomputable def ebase (L : grid3.Coords) : Nat := 20000 * (L 1).val + 10000 * (L 0).val

theorem ebase_le (L : grid3.Coords) : ebase L + 10000 ≤ 320000 := by
  have h0 : (L 0).val < 2 := (L 0).isLt
  have h1 : (L 1).val < 16 := (L 1).isLt
  unfold ebase; omega

noncomputable def tileRows (L : grid3.Coords) : Finset S320000x128.Idx :=
  Finset.univ.filter fun x => ebase L ≤ (x 0).val ∧ (x 0).val < ebase L + 10000

theorem mem_tileRows {L : grid3.Coords} {x : S320000x128.Idx} :
    x ∈ tileRows L ↔ ebase L ≤ (x 0).val ∧ (x 0).val < ebase L + 10000 := by
  simp [tileRows]

abbrev semBase1 : Nat := 16

noncomputable abbrev csem (k : Nat) (hk : k < 33 := by decide) : DmaSem sig := ⟨k, hk⟩
noncomputable abbrev smA : DmaSem sig := ⟨semBase1 + 0, by decide⟩
noncomputable abbrev smB : DmaSem sig := ⟨semBase1 + 1, by decide⟩
noncomputable abbrev smC : DmaSem sig := ⟨semBase1 + 2, by decide⟩
noncomputable abbrev smD : DmaSem sig := ⟨semBase1 + 3, by decide⟩
noncomputable abbrev smE : DmaSem sig := ⟨semBase1 + 4, by decide⟩
noncomputable abbrev smF : DmaSem sig := ⟨semBase1 + 5, by decide⟩

noncomputable abbrev dcell (d : Dev nD) (c : Fin τ.nSC) (i : Fin τ.nSub) (k : Fin 6) : GSem nD τ sig :=
  (V d c i, .dma (csem (semBase1 + k.val) (by have := k.isLt; unfold semBase1; omega)))

noncomputable abbrev cells0 (d : Dev nD) (L : grid3.Coords) : sProp (MM F) :=
  iprop(semVal (VT1 d L, SemLoc.dma smA) 0 ∗ semVal (VT1 d L, SemLoc.dma smB) 0 ∗ semVal (VT1 d L, SemLoc.dma smC) 0
    ∗ semVal (VT1 d L, SemLoc.dma smD) 0 ∗ semVal (VT1 d L, SemLoc.dma smE) 0 ∗ semVal (VT1 d L, SemLoc.dma smF) 0)

theorem dcell_mem (d : Dev nD) (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

theorem ownSems0_V (d : Dev nD) (L : grid3.Coords) :
    (ownSems0 (VT1 d L) : sProp (MM F))
      = iprop(cells0 d L
          ∗ bigSep ((ownCells (VT1 d L)) \ Finset.univ.image (dcell d (cV1 L) (jV1 L))) fun g => semVal g 0) := by
  unfold SparseCore.Cfg.ownSems0
  rw [SparseCore.bigSep_sdiff_split' (t := Finset.univ.image (dcell d (cV1 L) (jV1 L)))
      (Finset.image_subset_iff.mpr fun k _ => dcell_mem d (cV1 L) (jV1 L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl
theorem ownBufs_V (d : Dev nD) (L : grid3.Coords) :
    (ownBufs (VT1 d L) : sProp (MM F))
      = iprop((∃ f, (VT1 d L).loc cc3_scratch0 ↦{fullShare} f) ∗ (∃ f, (VT1 d L).loc cc3_scratch1 ↦{fullShare} f)
          ∗ (∃ f, (VT1 d L).loc cc3_scratch2 ↦{fullShare} f)
          ∗ bigSep ((((ownRefs (τ := τ) (pV L)).erase ((pV L).devRef cc3_scratch0)).erase ((pV L).devRef cc3_scratch1)).erase ((pV L).devRef cc3_scratch2))
              fun b => iprop(∃ f, ((d, b) : Loc nD τ sig) ↦{fullShare} f)) := by
  have hne {a b : Ref sig .scVector} (h : a ≠ b) : (pV L).devRef a ≠ (pV L).devRef b := fun e => h (Proc.devRef_injective _ e)
  unfold SparseCore.Cfg.ownBufs
  refine (SparseCore.bigSep_erase' (SparseCore.Cfg.mem_ownRefs_of_owner (p := pV L) (b := (pV L).devRef cc3_scratch0) rfl)).trans ?_
  rw [SparseCore.bigSep_erase' (Finset.mem_erase.mpr ⟨hne (by decide), SparseCore.Cfg.mem_ownRefs_of_owner (p := pV L) (b := (pV L).devRef cc3_scratch1) rfl⟩),
    SparseCore.bigSep_erase' (Finset.mem_erase.mpr ⟨hne (by decide), Finset.mem_erase.mpr ⟨hne (by decide), SparseCore.Cfg.mem_ownRefs_of_owner (p := pV L) (b := (pV L).devRef cc3_scratch2) rfl⟩⟩)]

noncomputable abbrev tW : Memref sig .scVector .hbm S10000x128 .f32 := Memref.whole main_v15_scv
noncomputable abbrev iW : Memref sig .scVector .hbm S320128 .i32 := Memref.whole main_v5_scv
noncomputable abbrev oW : Memref sig .scVector .hbm S320000x128 .f32 := Memref.whole main_v16_scv
noncomputable abbrev sW : Memref sig .scVector .vmem S10112 .i32 := Memref.whole cc3_scratch0
noncomputable abbrev r1W : RowBuf := Memref.whole cc3_scratch1
noncomputable abbrev r2W : RowBuf := Memref.whole cc3_scratch2

noncomputable abbrev tAll : Memref sig .scVector .hbm S10000x128 .f32 :=
  tW.slice (Rect.unit (s := S10000x128) ![0, 0] S10000x128.size inb_S10000x128_S10000x128_0_0) (fun _ => rfl)

noncomputable abbrev offsM (off : Fin 1 → Nat) (inb : ∀ a, off a + S128.size a ≤ S10112.size a) : Memref sig .scVector .vmem S128 .i32 :=
  sW.slice (Rect.unit (s := S10112) off S128.size inb) (fun _ => rfl)

noncomputable abbrev iWin (L : grid3.Coords) : Memref sig .scVector .hbm S10112 .i32 :=
  iW.slice (Rect.unit (s := S320128) (k3_off1 L) S10112.size (k3_off1_inb L)) (fun _ => rfl)

theorem pts_r1 (d : Dev nD) (L : grid3.Coords) (f : Buf (Elt F) ((VT1 d L).loc cc3_scratch1)) :
    ((r1W).view.loc (VT1 d L) ↦[(r1W).view.set]{fullShare} f : sProp (MM F)) = (VT1 d L).loc cc3_scratch1 ↦{fullShare} f := by
  rw [View.set_whole]
theorem pts_r2 (d : Dev nD) (L : grid3.Coords) (f : Buf (Elt F) ((VT1 d L).loc cc3_scratch2)) :
    ((r2W).view.loc (VT1 d L) ↦[(r2W).view.set]{fullShare} f : sProp (MM F)) = (VT1 d L).loc cc3_scratch2 ↦{fullShare} f := by
  rw [View.set_whole]

noncomputable abbrev Sh (H : Nat) : Shape := ⟨2, ![H, 128]⟩

noncomputable abbrev oWin (H : Nat) (offc : Fin 2 → Nat) (inbc : ∀ a, offc a + (Sh H).size a ≤ S320000x128.size a) : Memref sig .scVector .hbm (Sh H) .f32 :=
  oW.slice (Rect.unit (s := S320000x128) offc (Sh H).size inbc) (fun _ => rfl)

section Values

variable [FloatOps F] (d : Dev nD) (L : grid3.Coords) (tab : Vec F S10000x128 .f32) (idx : Vec F S320128 .i32)

def SVok (sv : SV F d L) : Prop :=
  ∀ (i : S10112.Idx) (j : S320128.Idx), (j 0).val = ebase L + (i 0).val → sv i = idx j

def RowsOK (H : Nat) (sv : SV F d L) (g : (Sh H).Idx → Elt F .f32) (o : Nat) : Prop :=
  ∀ (y : (Sh H).Idx) (i : S10112.Idx) (t : S10000x128.Idx),
    (i 0).val = o + (y 0).val → (t 0).val = (sv i).toNat → (t 1).val = (y 1).val → g y = tab t

def OutOK (f : Buf (Elt F) (outLoc d)) (n : Nat) : Prop :=
  ∀ x : S320000x128.Idx, ebase L ≤ (x 0).val → (x 0).val < ebase L + n → f x = gatherRows tab idx x

theorem hin_offs (sv : SV F d L) (hsv : ∀ i : S10112.Idx, (sv i).toNat < 10000)
    (off : Fin 1 → Nat) (inb : ∀ a, off a + S128.size a ≤ S10112.size a) (hg : S10000x128.Gathers 0 S128x128) :
    ∀ x, ((offsM off inb).view.read (Elt F) sv x).toNat < S10000x128.size hg.axis :=
  fun x => hsv ((offsM off inb).view.emb x)

theorem rowMajor_symm_S128 : ∀ k : Fin S128.numel, ((S128.rowMajor.symm k) 0).val = k.val := by decide +kernel

theorem rows_ok (sv : SV F d L) (off : Fin 1 → Nat) (inb : ∀ a, off a + S128.size a ≤ S10112.size a)
    (hg : S10000x128.Gathers 0 S128x128) (hn : S128.numel = S128x128.size hg.axis')
    (hin' : ∀ x, ((offsM off inb).view.read (Elt F) sv x).toNat < S10000x128.size hg.axis) :
    RowsOK d L tab 128 sv (SparseCore.gatherPayload hg ((tAll).view.read (Elt F) tab) (SparseCore.rows ((offsM off inb).view.read (Elt F) sv) hn hin')) (off 0) := by
  intro y i t hi ht0 ht1
  have hemb : (offsM off inb).view.emb (S128.rowMajor.symm ((y 0).cast hn.symm)) = i := by
    funext b; apply Fin.ext
    match b with
    | ⟨0, _⟩ =>
      show off 0 + 1 * ((S128.rowMajor.symm ((y 0).cast hn.symm)) 0).val = (i 0).val
      rw [rowMajor_symm_S128, hi, Nat.one_mul]; rfl
  have h0 : ((hg.idx _ y) 0).val = (sv ((offsM off inb).view.emb (S128.rowMajor.symm ((y 0).cast hn.symm)))).toNat :=
    congrArg Fin.val (Shape.Gathers.idx_axis hg (SparseCore.rows _ hn hin') y)
  have h1 : ((hg.idx _ y) 1).val = (y 1).val := Shape.Gathers.idx_of_ne hg (SparseCore.rows _ hn hin') y 1 (by decide)
  show tab ((tAll).view.emb (hg.idx _ y)) = tab t
  congr 1
  funext a
  apply Fin.ext
  match a with
  | ⟨0, _⟩ => show 0 + 1 * ((hg.idx _ y) 0).val = (t 0).val; rw [h0, hemb, ht0]; omega
  | ⟨1, _⟩ => show 0 + 1 * ((hg.idx _ y) 1).val = (t 1).val; rw [h1, ht1]; omega

theorem out_step (H : Nat) (f : Buf (Elt F) (outLoc d)) (n : Nat) (hn : n + H ≤ 10000) (offc : Fin 2 → Nat)
    (inbc : ∀ a, offc a + (Sh H).size a ≤ S320000x128.size a)
    (h0 : offc 0 = ebase L + n) (h1 : offc 1 = 0)
    (sv : SV F d L) (hSV : SVok d L idx sv) (hin : ∀ j, (idx j).toNat < 10000)
    (g : (Sh H).Idx → Elt F .f32) (hg : RowsOK d L tab H sv g n)
    (hf : OutOK d L tab idx f n) :
    OutOK d L tab idx (View.write (Elt F) (oWin H offc inbc).view f
      (ReadAs.same.apply g) Finset.univ) (n + H) := by
  intro x hlo hhi
  have hx1 : (x 1).val < 128 := idx2_lt1 x
  have hx0 : (x 0).val < 320000 := idx2_lt0 x
  have heb := ebase_le L
  by_cases hx : (x 0).val < ebase L + n
  · rw [View.write_of_not_mem]
    · exact hf x hlo hx
    · rw [View.setOn_univ]
      intro hm
      simp only [Memref.view_slice, Memref.view_whole, View.set_slice_whole, Rect.mem_set_unit] at hm
      have := (hm 0).1
      omega
  · obtain ⟨y, hy0, hy1⟩ : ∃ y : (Sh H).Idx, (y 0).val = (x 0).val - (ebase L + n) ∧ (y 1).val = (x 1).val :=
      ⟨ix2 (n0 := H) (n1 := 128) ⟨(x 0).val - (ebase L + n), by omega⟩ ⟨(x 1).val, hx1⟩, rfl, rfl⟩
    have hyH : (y 0).val < H := idx2_lt0 y
    have hxy : (oWin H offc inbc).view.emb y = x := by
      funext a; apply Fin.ext
      match a with
      | ⟨0, _⟩ => show offc 0 + 1 * (y 0).val = (x 0).val; omega
      | ⟨1, _⟩ => show offc 1 + 1 * (y 1).val = (x 1).val; omega
    obtain ⟨i, hi⟩ : ∃ i : S10112.Idx, (i 0).val = n + (y 0).val := ⟨ix1 (n := 10112) ⟨n + (y 0).val, by omega⟩, rfl⟩
    unfold gatherRows
    refine ((congrArg _ hxy.symm).trans ((View.write_emb_of_mem _ _ (Finset.mem_univ y)).trans (cast_eq _ _))).trans (hg y i _ hi ?_ ?_)
    · show (idx (ix1 (n := 320128) ⟨(x 0).val, _⟩)).toNat % 10000 = (sv i).toNat
      rw [hSV i (ix1 (n := 320128) ⟨(x 0).val, by omega⟩) (by show (x 0).val = ebase L + (i 0).val; omega)]
      exact Nat.mod_eq_of_lt (hin _)
    · show (x 1).val = (y 1).val; omega

theorem rows16 (sv : SV F d L) (g1 : BufTy.Contents (Elt F) (r1W).view.ty) (o : Nat)
    (h : RowsOK d L tab 128 sv (View.read (Elt F) (r1W).view g1) o) :
    RowsOK d L tab 16 sv (View.read (Elt F) ((r1W).slice (Rect.unit (s := S128x128) ![0, 0] S16x128.size inb_S128x128_S16x128_0_0) (fun _ => rfl)).view g1) o := by
  intro y i t hi ht0 ht1
  refine h ((Rect.unit (s := S128x128) ![0, 0] S16x128.size inb_S128x128_S16x128_0_0).emb y) i t ?_ ht0 ?_
  · show (i 0).val = o + (0 + 1 * (y 0).val); omega
  · show (t 1).val = 0 + 1 * (y 1).val; omega

noncomputable abbrev svOf (fs0 : SV F d L) : SV F d L :=
  View.write (Elt F) (sW).view fs0 (ReadAs.same.apply (View.read (Elt F) (iWin L).view idx)) Finset.univ

theorem svOf_apply (fs0 : SV F d L) (i : S10112.Idx) :
    svOf d L idx fs0 i = idx ((iWin L).view.emb i) := by
  unfold svOf
  rw [View.write_whole_univ]
  rfl

theorem svOk (fs0 : SV F d L) : SVok d L idx (svOf d L idx fs0) := by
  intro i j hj
  rw [svOf_apply]
  congr 1
  funext a
  apply Fin.ext
  match a with
  | ⟨0, _⟩ =>
    show (k3_off1 L 0 + 1 * (i 0).val) = (j 0).val
    rw [k3_off1_eq]; simp [ebase] at hj ⊢; omega

theorem svLt (hin : ∀ j, (idx j).toNat < 10000) (fs0 : SV F d L) :
    ∀ i : S10112.Idx, (svOf d L idx fs0 i).toNat < 10000 := by
  intro i; rw [svOf_apply]; exact hin _

theorem chunk_subset (H : Nat) (offc : Fin 2 → Nat) (inbc : ∀ a, offc a + (Sh H).size a ≤ S320000x128.size a)
    (n : Nat) (hn : n + H ≤ 10000) (h0 : offc 0 = ebase L + n) :
    (oWin H offc inbc).view.set ⊆ tileRows L := by
  intro x hx
  simp only [Memref.view_slice, Memref.view_whole, View.set_slice_whole, Rect.mem_set_unit] at hx
  have hx0 : offc 0 ≤ (x 0).val ∧ (x 0).val < offc 0 + H := hx 0
  rw [mem_tileRows]
  omega

theorem off2_0 (k : Fin k3_t1_loop.trips) : (k3_off2 L k 0#32) 0 = ebase L + 256 * k.val := congrFun (k3_off2_eq L k 0) 0
theorem off2_1 (k : Fin k3_t1_loop.trips) : (k3_off2 L k 1#32) 0 = ebase L + (256 * k.val + 128) :=
  (congrFun (k3_off2_eq L k 1) 0).trans (Nat.add_assoc _ _ _)
theorem off2_0c (k : Fin k3_t1_loop.trips) : (k3_off2 L k 0#32) 1 = 0 := congrFun (k3_off2_eq L k 0) 1
theorem off2_1c (k : Fin k3_t1_loop.trips) : (k3_off2 L k 1#32) 1 = 0 := congrFun (k3_off2_eq L k 1) 1
theorem off5_0c : (k3_off5 L) 1 = 0 := congrFun (k3_off5_eq L) 1
theorem off3_0 (k : Fin k3_t1_loop.trips) : (k3_off3 k) 0 = 128 * (2 * (k.val + 1)) := by
  rw [k3_off3_eq]; simp; omega
theorem off4_0 (k : Fin k3_t1_loop.trips) : (k3_off4 k) 0 = 128 * (2 * (k.val + 1) + 1) := by
  rw [k3_off4_eq]; simp; omega
theorem off5_0 : (k3_off5 L) 0 = ebase L + 9984 := congrFun (k3_off5_eq L) 0

end Values

section Slot

variable [FloatOps F] (rW : RowBuf) (sm : DmaSem sig) (d : Dev nD) (L : grid3.Coords) (q h : PosShare TreeShare)
  (tab : Vec F S10000x128 .f32) (sv : SV F d L)

/-- What a slot's pending gather of the list window at `o` delivers: the slot's rows, the table's share, the window. -/
noncomputable def slotD (o : Nat) (So : Finset (Idx ((sW).view.loc (VT1 d L)))) : sProp (MM F) :=
  iprop(∃ fr', ⌜RowsOK d L tab 128 sv (rW.view.read (Elt F) fr') o⌝ ∗ (rW.view.loc (VT1 d L) ↦[rW.view.set]{fullShare} fr')
    ∗ ((tAll).view.loc (VT1 d L) ↦[(tAll).view.set]{q} tab) ∗ ((sW).view.loc (VT1 d L) ↦[So]{h} sv))

/-- A slot with a gather pending on its cell. -/
noncomputable def slotF (o : Nat) : sProp (MM F) :=
  iprop(∃ So, Transfers.Flight countersEmb (VT1 d L) (.dma sm) (default : HIx 3) rW.view.dmaCredit (slotD rW d L q h tab sv o So)
    ∗ ((sW).view.loc (VT1 d L) ↦[Finset.univ \ So]{h} sv))

/-- A slot idle: its rows at some contents, its shares of the table and the list, its cell at zero. -/
noncomputable def slotI : sProp (MM F) :=
  iprop((∃ fr, rW.view.loc (VT1 d L) ↦[rW.view.set]{fullShare} fr)
    ∗ ((tAll).view.loc (VT1 d L) ↦[(tAll).view.set]{q} tab) ∗ ((sW).view.loc (VT1 d L) ↦{h} sv) ∗ semVal (VT1 d L, SemLoc.dma sm) 0)

/-- A slot before trip chunk `c`: that chunk's gather pending while there is such a chunk, else idle. -/
noncomputable def slotS (c : Nat) : sProp (MM F) :=
  if c < 78 then slotF rW sm d L q h tab sv (128 * c) else slotI rW sm d L q h tab sv

/-- The gather's issue on an idle slot: the landed rows are the rows the list window names. -/
theorem gather_step (off : Fin 1 → Nat) (inb : ∀ a, off a + S128.size a ≤ S10112.size a) (hsv : ∀ i : S10112.Idx, (sv i).toNat < 10000)
    {hp} {hg : S10000x128.Gathers 0 S128x128} {hn hsrc he hsp hr}
    {α : Type} {k : PUnit → Prog (TpuEff nD τ sig (Elt F) Λ₀ (VT1 d L).2) α} {Q : α → sProp (MM F)} :
    (slotI rW sm d L q h tab sv : sProp (MM F))
      ⊢ iprop((slotF rW sm d L q h tab sv (off 0) -∗ wp frame (wpE (defs₀ (F := F)) 𝒱₀ (VT1 d L) none) Set.univ (k ⟨⟩) Q)
          -∗ wp frame (wpE (defs₀ (F := F)) 𝒱₀ (VT1 d L) none) Set.univ
              (SparseCore.enqueueIndirectGather hp tAll rW hg (offsM off inb) hn sm hsrc he hsp hr >>= k) Q) := by
  unfold slotI
  iintro ⟨⟨%fr, Hr⟩, HT, Hs, Hc⟩ Hk
  ihave Hs' := (pointsTo_split_subset (q := h) (f := sv) (S := Finset.univ) (Finset.subset_univ (offsM off inb).view.set)).1 $$ Hs
  icases Hs' with ⟨Hso, Hsr⟩
  have hD : (iprop((rW.view.loc (VT1 d L) ↦[rW.view.set]{fullShare}
        (View.write (Elt F) rW.view fr (SparseCore.gatherPayload hg ((tAll).view.read (Elt F) tab)
          (SparseCore.rows ((offsM off inb).view.read (Elt F) sv) hn (hin_offs d L sv hsv off inb hg))) Finset.univ))
      ∗ ((tAll).view.loc (VT1 d L) ↦[(tAll).view.set]{q} tab) ∗ ((offsM off inb).view.loc (VT1 d L) ↦[(offsM off inb).view.set]{h} sv)) : sProp (MM F))
      ⊢ slotD rW d L q h tab sv (off 0) (offsM off inb).view.set := by
    unfold slotD
    iintro ⟨Hr, HT, Hso⟩
    iexists _
    isplitr
    swap
    · isplitl [Hr]; · iexact Hr
      iframe HT
      iexact Hso
    ipureintro
    rw [View.read_write_univ]
    exact rows_ok d L tab sv off inb hg hn (hin_offs d L sv hsv off inb hg)
  iapply (SparseCore.wp_indirectGatherLocal countersEmb 𝒱₀ (VT1 d L) none (hg := hg) (default : HIx 3) rW.view.dmaCredit
      (SparseCore.sum_rowCredit_eq_dmaCredit rW hg.axis' (fun _ => rfl)) (by decide) (hin_offs d L sv hsv off inb hg)) $$ [HT Hr Hso Hc]
  · iframe HT Hr Hso
    iexact Hc
  iintro Hfl
  iapply Hk
  unfold slotF
  iexists (offsM off inb).view.set
  isplitl [Hfl]
  · iapply (Transfers.Flight_mono countersEmb (VT1 d L) hD) $$ Hfl
  · iexact Hsr

/-- The wait for a slot's gather hands back the slot's rows, now the gathered ones, and its shares. -/
theorem slot_wait (o : Nat) (O : CellTallies nD τ sig (HIx 3)) (W : Waits sig (HIx 3))
    {sp' : Space} {s' : Shape} {e' : EltTy} {srcw : Memref sig (VT1 d L).2.kind sp' s' e'} {hsrc : srcw.view.WordExact} {hdst : rW.view.WordExact}
    {α : Type} {k : PUnit → Prog (TpuEff nD τ sig (Elt F) Λ₀ (VT1 d L).2) α} {Q : α → sProp (MM F)} :
    (iprop(slotF rW sm d L q h tab sv o ∗ owes (VT1 d L) O W ∗ Transfers.MayWaits (VT1 d L) (default : HIx 3) O) : sProp (MM F))
      ⊢ iprop((iprop((∃ fr', ⌜RowsOK d L tab 128 sv (rW.view.read (Elt F) fr') o⌝ ∗ (rW.view.loc (VT1 d L) ↦[rW.view.set]{fullShare} fr'))
              ∗ ((tAll).view.loc (VT1 d L) ↦[(tAll).view.set]{q} tab) ∗ ((sW).view.loc (VT1 d L) ↦{h} sv)
              ∗ semVal (VT1 d L, SemLoc.dma sm) 0 ∗ owes (VT1 d L) O (insert (SemLoc.dma sm, (default : HIx 3)) W))
            -∗ wp frame (wpE (defs₀ (F := F)) 𝒱₀ (VT1 d L) none) Set.univ (k ⟨⟩) Q)
          -∗ wp frame (wpE (defs₀ (F := F)) 𝒱₀ (VT1 d L) none) Set.univ (.op (.waitDma2 sm srcw rW hsrc hdst) k) Q) := by
  unfold slotF
  iintro ⟨⟨%So, Hfl, Hsr⟩, HO, #Hmw⟩ Hk
  iapply (Transfers.wp_waitLocalO countersEmb 𝒱₀ (VT1 d L) none (default : HIx 3) (rfl : rW.view.dmaCredit = _)) $$ [Hfl HO]
  · isplitl [Hfl]; · iexact Hfl
    isplitl [HO]; · iexact HO
    iapply (Transfers.MayWaits.elim (SemLoc.dma sm)) $$ Hmw
  unfold slotD
  iintro ⟨⟨%fr', %hfr, Hr, HT, Hso⟩, Hc, HO⟩
  iapply Hk
  isplitl [Hr]
  · iexists fr'; isplitr; · ipureintro; exact hfr
    iexact Hr
  isplitl [HT]; · iexact HT
  isplitl [Hso Hsr]
  · iapply (pointsTo_split_subset (q := h) (f := sv) (S := Finset.univ) (Finset.subset_univ So)).2
    iframe Hso
    iexact Hsr
  iframe Hc
  iexact HO

end Slot

section SlotState

variable [FloatOps F] (rW : RowBuf) (sm : DmaSem sig) (d : Dev nD) (L : grid3.Coords) (tab : Vec F S10000x128 .f32)
  {q h : PosShare TreeShare} {sv : SV F d L}

theorem slotS_pos {c : Nat} (hc : c < 78) : slotS rW sm d L q h tab sv c = slotF rW sm d L q h tab sv (128 * c) := if_pos hc
theorem slotS_neg {c : Nat} (hc : ¬ c < 78) : slotS rW sm d L q h tab sv c = slotI rW sm d L q h tab sv := if_neg hc
theorem slotF_congr {o o' : Nat} (e : o = o') : (slotF rW sm d L q h tab sv o : sProp (MM F)) ⊢ slotF rW sm d L q h tab sv o' := by
  subst e; exact BI.Entails.refl _

end SlotState

/-- Waits recorded at no round keep a wait set inside `W` up to such waits. -/
theorem ins_none {W W' : Waits sig (HIx 3)} (hW' : ∀ p ∈ W', p ∈ W ∨ p.2 = none) (s : SemLoc sig) :
    ∀ p ∈ insert (s, (default : HIx 3)) W', p ∈ W ∨ p.2 = none := fun p hp =>
  (Finset.mem_insert.mp hp).elim (fun e => .inr (e ▸ rfl)) (hW' p)

section Inv

variable [FloatOps F] (d : Dev nD) (L : grid3.Coords) (tab : Vec F S10000x128 .f32) (idx : Vec F S320128 .i32)

noncomputable def inv (fs0 : SV F d L) (qT : PosShare TreeShare)
    (O : CellTallies nD τ sig (HIx 3)) (W : Waits sig (HIx 3)) (k : Nat) (_ : PUnit) : sProp (MM F) :=
  iprop(Transfers.MayWaits (VT1 d L) (default : HIx 3) O
    ∗ slotS r1W smA d L qT.left fullShare.left tab (svOf d L idx fs0) (2 * k)
    ∗ slotS r2W smB d L qT.right fullShare.right tab (svOf d L idx fs0) (2 * k + 1)
    ∗ semVal (VT1 d L, SemLoc.dma smD) 0 ∗ semVal (VT1 d L, SemLoc.dma smE) 0
    ∗ (∃ f, ⌜OutOK d L tab idx f (256 * k)⌝ ∗ outLoc d ↦[tileRows L]{fullShare} f)
    ∗ ∃ W', ⌜∀ p ∈ W', p ∈ W ∨ p.2 = none⌝ ∗ owes (VT1 d L) O W')

end Inv

theorem trips39 : k3_t1_loop.trips = 39 := by decide
theorem cond1_iff : ∀ t : Fin k3_t1_loop.trips, k3_cond1 t = 1#1 ↔ t.val < 38 := by decide +kernel
theorem cond2_iff : ∀ t : Fin k3_t1_loop.trips, k3_cond2 t = 1#1 ↔ t.val < 38 := by decide +kernel

set_option maxHeartbeats 16000000 in
theorem tile_body [FloatOps F] (d : Dev nD) (L : grid3.Coords)
    (tab : Vec F S10000x128 .f32) (idx : Vec F S320128 .i32) (hin : ∀ j, (idx j).toNat < 10000)
    (O : CellTallies nD τ sig (HIx 3)) (W : Waits sig (HIx 3)) (hO : ∀ g, O g none = 0) (qT qI : PosShare TreeShare) :
    (iprop(levAts (K (F := F)).L (K (F := F)).lev ∗ (tabLoc d ↦{qT} tab) ∗ (idxLoc d ↦{qI} idx)
        ∗ (∃ f, outLoc d ↦[tileRows L]{fullShare} f)
        ∗ scopedBufs (VT1 d L) ∗ scopedSems0 (VT1 d L) ∗ owes (VT1 d L) O W) : sProp (MM F))
      ⊢ wp frame (wpE (defs₀ (F := F)) 𝒱₀ (VT1 d L) none) Set.univ
          (cc3_gk L (Memref.whole main_v15_scv) (Memref.isWhole_whole _) (Memref.whole main_v5_scv) (Memref.isWhole_whole _)
            (Memref.whole main_v16_scv) (Memref.isWhole_whole _) (Memref.whole cc3_scratch0) (Memref.isWhole_whole _)
            (Memref.whole cc3_scratch1) (Memref.isWhole_whole _) (Memref.whole cc3_scratch2) (Memref.isWhole_whole _)
            cc3_scratch3 cc3_scratch4 cc3_scoped0 cc3_scoped1 cc3_scoped2 cc3_scoped3)
          fun _ => iprop((tabLoc d ↦{qT} tab) ∗ (idxLoc d ↦{qI} idx)
            ∗ (outLoc d ↦[tileRows L]{fullShare} gatherRows tab idx)
            ∗ scopedBufs (VT1 d L) ∗ scopedSems0 (VT1 d L)
            ∗ ∃ W', ⌜∀ p ∈ W', p ∈ W ∨ p.2 = none⌝ ∗ owes (VT1 d L) O W') := by
  simp only [cc3_gk_eq_skeleton]; unfold cc3_gk_skel
  rw [(K (F := F)).scopedBufs_V facts d (cV1 L) (jV1 L), SparseCore.Cfg.scopedSems0_V (Val := Elt F) d (cV1 L) (jV1 L), ownSems0_V, ownBufs_V]
  iintro ⟨#Hlv, HT, HI, ⟨%fo, Hout⟩, ⟨⟨%fs0, Hs0⟩, ⟨%fr1, Hr1⟩, ⟨%fr2, Hr2⟩, Hbufs⟩, ⟨⟨Hc5, Hc6, Hc7, Hc8, Hc9, Hc10⟩, Hsems⟩, HO⟩
  ihave Hmw := (show levAts (K (F := F)).L (K (F := F)).lev ⊢ Transfers.MayWaits (VT1 d L) (default : HIx 3) O from
    (K (F := F)).mayWaits_none (thr := VT1 d L) hO) $$ Hlv
  ihave HT2 := (pointsTo_share (PosShare.mem_left_op_right qT)).1 $$ HT
  icases HT2 with ⟨HTl, HTr⟩
  ihave HTl' := (pointsTo_split_subset (q := qT.left) (f := tab) (S := Finset.univ) (Finset.subset_univ (tAll).view.set)).1 $$ HTl
  icases HTl' with ⟨HTl, HTlr⟩
  ihave HTr' := (pointsTo_split_subset (q := qT.right) (f := tab) (S := Finset.univ) (Finset.subset_univ (tAll).view.set)).1 $$ HTr
  icases HTr' with ⟨HTr, HTrr⟩
  sl_exec
  ihave HIw := (pointsTo_split_subset (q := qI) (f := idx) (S := Finset.univ) (Finset.subset_univ (iWin L).view.set)).1 $$ HI
  icases HIw with ⟨HIw, HIr⟩
  iapply (Transfers.wp_dmaLocal countersEmb 𝒱₀ (VT1 d L) none (default : HIx 3) _ rfl (View.amount_pos _ _ (show 0 < S10112.numel by decide)) (Finset.subset_univ (sW).view.set)) $$ [HIw Hs0 Hc7]
  · iframe HIw Hs0
    iexact Hc7
  iintro Hci
  sl_exec
  have hsv := svLt d L idx hin fs0
  have hSV := svOk d L idx fs0
  ihave Hs2 := (pointsTo_share (PosShare.mem_left_op_right fullShare)).1 $$ Hci_dst
  icases Hs2 with ⟨HsL, HsR⟩
  ihave Hr1' := (Entails.of_eq (pts_r1 (F := F) d L _).symm) $$ Hr1
  iapply (gather_step r1W smA d L qT.left fullShare.left tab (svOf d L idx fs0) ![0] inb_S10112_S128_0 hsv) $$ [Hr1' HTl HsL Hc5]
  · unfold slotI
    isplitl [Hr1']; · iexists _; iexact Hr1'
    isplitl [HTl]; · iexact HTl
    isplitl [HsL]; · iexact HsL
    iexact Hc5
  iintro HF1
  sl_exec
  ihave Hr2' := (Entails.of_eq (pts_r2 (F := F) d L _).symm) $$ Hr2
  iapply (gather_step r2W smB d L qT.right fullShare.right tab (svOf d L idx fs0) ![128] inb_S10112_S128_128 hsv) $$ [Hr2' HTr HsR Hc6]
  · unfold slotI
    isplitl [Hr2']; · iexists _; iexact Hr2'
    isplitl [HTr]; · iexact HTr
    isplitl [HsR]; · iexact HsR
    iexact Hc6
  iintro HF2
  sl_exec
  sl_for (inv d L tab idx fs0 qT O W) $$ [HF1 HF2 Hc8 Hc9 Hout HO]
  case region =>
    intro k acc
    have hk39 : k.val < 39 := lt_of_lt_of_eq k.isLt trips39
    unfold inv
    iintro ⟨#Hmw, HS1, HS2, Hc8, Hc9, ⟨%f, %hf, Hout⟩, %W', %hW', HO⟩
    rcases Nat.lt_or_ge k.val 38 with h38 | h38
    · have hc1 : k3_cond1 k = 1#1 := (cond1_iff k).mpr h38
      have hc2 : k3_cond2 k = 1#1 := (cond2_iff k).mpr h38

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k3_off2 L k 0#32) _ (256 * k.val) (by omega) (off2_0 L k))) $$ [Hr1 Hout Hc8]
      · iframe Hr1 Hout
        iexact Hc8
      iintro Hco1
      sl_exec
      iapply (gather_step r1W smA d L qT.left fullShare.left tab (svOf d L idx fs0) (k3_off3 k) (k3_off3_inb k hc1) hsv) $$ [Hco1_src HTl HsL Hc5]
      · unfold slotI
        isplitl [Hco1_src]; · iexists _; iexact Hco1_src
        isplitl [HTl]; · iexact HTl
        isplitl [HsL]; · iexact HsL
        iexact Hc5
      iintro HF1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k3_off2 L k 1#32) _ (256 * k.val + 128) (by omega) (off2_1 L k))) $$ [Hr2 Hco1_dst Hc9]
      · iframe Hr2 Hco1_dst
        iexact Hc9
      iintro Hco2
      sl_exec
      iapply (gather_step r2W smB d L qT.right fullShare.right tab (svOf d L idx fs0) (k3_off4 k) (k3_off4_inb k hc2) hsv) $$ [Hco2_src HTr HsR Hc6]
      · unfold slotI
        isplitl [Hco2_src]; · iexists _; iexact Hco2_src
        isplitl [HTr]; · iexact HTr
        isplitl [HsR]; · iexact HsR
        iexact Hc6
      iintro HF2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k3_off2 L k 0#32) (k3_off2_inb L k 0) (off2_0 L k) (off2_0c L k)
        (svOf d L idx fs0) hSV hin _ hg1' hf
      have o2 := out_step d L tab idx 128 _ (256 * k.val + 128) (by omega) (k3_off2 L k 1#32) (k3_off2_inb L k 1) (off2_1 L k) (off2_1c L k)
        (svOf d L idx fs0) hSV hin _ hg2' o1
      isplitl []; · iexact Hmw
      isplitl [HF1]
      · iapply (Entails.of_eq (slotS_pos r1W smA d L tab (by omega : 2 * (k.val + 1) < 78)).symm)
        iapply (slotF_congr r1W smA d L tab (off3_0 k)); iexact HF1
      isplitl [HF2]
      · iapply (Entails.of_eq (slotS_pos r2W smB d L tab (by omega : 2 * (k.val + 1) + 1 < 78)).symm)
        iapply (slotF_congr r2W smB d L tab (off4_0 k)); iexact HF2
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

    · have hc1 : ¬ k3_cond1 k = 1#1 := fun h => absurd ((cond1_iff k).mp h) (by omega)
      have hc2 : ¬ k3_cond2 k = 1#1 := fun h => absurd ((cond2_iff k).mp h) (by omega)

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k3_off2 L k 0#32) _ (256 * k.val) (by omega) (off2_0 L k))) $$ [Hr1 Hout Hc8]
      · iframe Hr1 Hout
        iexact Hc8
      iintro Hco1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k3_off2 L k 1#32) _ (256 * k.val + 128) (by omega) (off2_1 L k))) $$ [Hr2 Hco1_dst Hc9]
      · iframe Hr2 Hco1_dst
        iexact Hc9
      iintro Hco2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k3_off2 L k 0#32) (k3_off2_inb L k 0) (off2_0 L k) (off2_0c L k)
        (svOf d L idx fs0) hSV hin _ hg1' hf
      have o2 := out_step d L tab idx 128 _ (256 * k.val + 128) (by omega) (k3_off2 L k 1#32) (k3_off2_inb L k 1) (off2_1 L k) (off2_1c L k)
        (svOf d L idx fs0) hSV hin _ hg2' o1
      isplitl []; · iexact Hmw
      isplitl [Hco1_src HTl HsL Hc5]
      · iapply (Entails.of_eq (slotS_neg r1W smA d L tab (by omega : ¬ 2 * (k.val + 1) < 78)).symm)
        unfold slotI
        isplitl [Hco1_src]; · iexists _; iexact Hco1_src
        isplitl [HTl]; · iexact HTl
        isplitl [HsL]; · iexact HsL
        iexact Hc5
      isplitl [Hco2_src HTr HsR Hc6]
      · iapply (Entails.of_eq (slotS_neg r2W smB d L tab (by omega : ¬ 2 * (k.val + 1) + 1 < 78)).symm)
        unfold slotI
        isplitl [Hco2_src]; · iexists _; iexact Hco2_src
        isplitl [HTr]; · iexact HTr
        isplitl [HsR]; · iexact HsR
        iexact Hc6
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

  · unfold inv
    isplitl []; · iexact Hmw
    isplitl [HF1]
    · iapply (Entails.of_eq (slotS_pos r1W smA d L tab (by omega : 2 * 0 < 78)).symm)
      iapply (slotF_congr r1W smA d L tab (show (![0] : Fin 1 → Nat) 0 = 128 * (2 * 0) from rfl)); iexact HF1
    isplitl [HF2]
    · iapply (Entails.of_eq (slotS_pos r2W smB d L tab (by omega : 2 * 0 + 1 < 78)).symm)
      iapply (slotF_congr r2W smB d L tab (show (![128] : Fin 1 → Nat) 0 = 128 * (2 * 0 + 1) from rfl)); iexact HF2
    isplitl [Hc8]; · iexact Hc8
    isplitl [Hc9]; · iexact Hc9
    isplitl [Hout]
    · iexists fo; isplitr
      · ipureintro; intro x hlo hhi; omega
      · iexact Hout
    iexists _; isplitr
    swap; · iexact HO
    ipureintro; exact ins_none (fun _ hp => .inl hp) _
  iintro %acc HI
  unfold inv
  icases HI with ⟨-, HS1, HS2, Hc8, Hc9, ⟨%f, %hf, Hout⟩, %W', %hW', HO⟩
  ihave HI1 := (Entails.of_eq (slotS_neg r1W smA d L tab (by decide : ¬ 2 * k3_t1_loop.trips < 78))) $$ HS1
  ihave HI2 := (Entails.of_eq (slotS_neg r2W smB d L tab (by decide : ¬ 2 * k3_t1_loop.trips + 1 < 78))) $$ HS2
  have hf' : OutOK d L tab idx f 9984 := fun x hlo hhi =>
    hf x hlo (lt_of_lt_of_eq hhi (congrArg (fun z => ebase L + z) (show 9984 = 256 * k3_t1_loop.trips by decide)))
  sl_exec
  iapply (gather_step r1W smA d L qT.left fullShare.left tab (svOf d L idx fs0) ![9984] inb_S10112_S128_9984 hsv) $$ [HI1]
  · iexact HI1
  iintro HF1
  sl_exec
  iapply (slot_wait r1W smA d L qT.left fullShare.left tab (svOf d L idx fs0) _ O W') $$ [HF1 HO]
  · iframe HF1 HO
    iexact Hmw
  iintro ⟨⟨%g1, %hg1, Hr1⟩, HTl, HsL, Hc5, HO⟩
  sl_exec
  ihave Hr16 := (pointsTo_split_subset (q := fullShare) (f := g1) (View.set_slice_subset (r1W).view (Rect.unit (s := S128x128) ![0, 0] S16x128.size inb_S128x128_S16x128_0_0))).1 $$ Hr1
  icases Hr16 with ⟨Hr16, Hr1r⟩
  iapply (Transfers.wp_dmaLocal countersEmb 𝒱₀ (VT1 d L) none (default : HIx 3) _ rfl (View.amount_pos _ _ (show 0 < S16x128.numel by decide))
      (chunk_subset L 16 (k3_off5 L) _ 9984 (by omega) (off5_0 L))) $$ [Hr16 Hout Hc10]
  · iframe Hr16 Hout
    iexact Hc10
  iintro Hco3
  sl_exec
  sl_step
  have o3 := out_step d L tab idx 16 f 9984 (by omega) (k3_off5 L) (k3_off5_inb L) (off5_0 L) (off5_0c L) (svOf d L idx fs0) hSV hin _
    (rows16 d L tab (svOf d L idx fs0) g1 _ hg1) hf'
  unfold slotI
  icases HI2 with ⟨⟨%g2, Hr2⟩, HTr, HsR, Hc6⟩
  isplitl [HTl HTlr HTr HTrr]
  · iapply (pointsTo_share (PosShare.mem_left_op_right qT)).2
    isplitl [HTl HTlr]
    · iapply (pointsTo_split_subset (q := qT.left) (f := tab) (S := Finset.univ) (Finset.subset_univ (tAll).view.set)).2
      isplitl [HTl]; · iexact HTl
      iexact HTlr
    · iapply (pointsTo_split_subset (q := qT.right) (f := tab) (S := Finset.univ) (Finset.subset_univ (tAll).view.set)).2
      isplitl [HTr]; · iexact HTr
      iexact HTrr
  isplitl [HIr]; · iexact HIr
  isplitl [Hco3_dst]
  · iapply (Entails.of_eq (pointsTo_congr (fun i hi => o3 i (mem_tileRows.mp hi).1 (mem_tileRows.mp hi).2)))
    iexact Hco3_dst
  isplitl [HsL HsR Hr1r Hr2 Hbufs]
  · isplitl [HsL HsR]
    · iexists (svOf d L idx fs0)
      iapply (pointsTo_share (PosShare.mem_left_op_right fullShare)).2
      isplitl [HsL]; · iexact HsL
      iexact HsR
    isplitl [Hr1r]; · iexists g1; iapply (Entails.of_eq (pts_r1 (F := F) d L _)); iexact Hr1r
    isplitl [Hr2]; · iexists g2; iapply (Entails.of_eq (pts_r2 (F := F) d L _)); iexact Hr2
    iexact Hbufs
  isplitl [Hc5 Hc6 Hci Hc8 Hc9 Hco3 Hsems]
  · isplitl [Hc5 Hc6 Hci Hc8 Hc9 Hco3]
    · isplitl [Hc5]; · iexact Hc5
      isplitl [Hc6]; · iexact Hc6
      isplitl [Hci]; · iexact Hci
      isplitl [Hc8]; · iexact Hc8
      isplitl [Hc9]; · iexact Hc9
      iexact Hco3
    iexact Hsems
  iexists _; isplitr
  swap; · iexact HO
  ipureintro; exact ins_none (ins_none hW' _) _

end Cert.Kernel.Hand.Call3

end
-- ==== Proof.K.ScBody5.lean ====
import proofs.«207978_g39513699123711_cont_8to1_b_1293_21_alg».proof.Proof.K.Common
import proofs.«207978_g39513699123711_cont_8to1_b_1293_21_alg».proof.Proof.K.ValDefs
import Idealize.ShloMosaic.Lib.SparseCore.Stream
import Idealize.ShloMosaic.Lib.Transfers
import Idealize.ShloMosaic.Lib.ValueIdx
import Idealize.ShloMosaic.Lib.Tactic

noncomputable section

namespace Cert.Kernel.Hand.Call5

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

noncomputable abbrev cV1 (L : grid5.Coords) : Fin τ.nSC := (L 0).castLE hcore5
noncomputable abbrev jV1 (L : grid5.Coords) : Fin τ.nSub := (L 1).castLE hsub5

noncomputable abbrev pV (L : grid5.Coords) : Proc τ := .scVector (cV1 L) (jV1 L)
noncomputable abbrev VT1 (d : Dev nD) (L : grid5.Coords) : Thread nD τ := V d (cV1 L) (jV1 L)
abbrev SV (F : FTy → Type) (d : Dev nD) (L : grid5.Coords) : Type := Buf (Elt F) ((VT1 d L).loc cc5_scratch0)
abbrev RowBuf : Type := Memref sig .scVector .vmem S128x128 .f32

noncomputable abbrev tabLoc (d : Dev nD) : Loc nD τ sig := (SparseCore.T d).loc main_v24
noncomputable abbrev idxLoc (d : Dev nD) : Loc nD τ sig := (SparseCore.T d).loc main_v5
noncomputable abbrev outLoc (d : Dev nD) : Loc nD τ sig := (SparseCore.T d).loc main_v25

noncomputable def ebase (L : grid5.Coords) : Nat := 20000 * (L 1).val + 10000 * (L 0).val

theorem ebase_le (L : grid5.Coords) : ebase L + 10000 ≤ 320000 := by
  have h0 : (L 0).val < 2 := (L 0).isLt
  have h1 : (L 1).val < 16 := (L 1).isLt
  unfold ebase; omega

noncomputable def tileRows (L : grid5.Coords) : Finset S320000x128.Idx :=
  Finset.univ.filter fun x => ebase L ≤ (x 0).val ∧ (x 0).val < ebase L + 10000

theorem mem_tileRows {L : grid5.Coords} {x : S320000x128.Idx} :
    x ∈ tileRows L ↔ ebase L ≤ (x 0).val ∧ (x 0).val < ebase L + 10000 := by
  simp [tileRows]

abbrev semBase1 : Nat := 27

noncomputable abbrev csem (k : Nat) (hk : k < 33 := by decide) : DmaSem sig := ⟨k, hk⟩
noncomputable abbrev smA : DmaSem sig := ⟨semBase1 + 0, by decide⟩
noncomputable abbrev smB : DmaSem sig := ⟨semBase1 + 1, by decide⟩
noncomputable abbrev smC : DmaSem sig := ⟨semBase1 + 2, by decide⟩
noncomputable abbrev smD : DmaSem sig := ⟨semBase1 + 3, by decide⟩
noncomputable abbrev smE : DmaSem sig := ⟨semBase1 + 4, by decide⟩
noncomputable abbrev smF : DmaSem sig := ⟨semBase1 + 5, by decide⟩

noncomputable abbrev dcell (d : Dev nD) (c : Fin τ.nSC) (i : Fin τ.nSub) (k : Fin 6) : GSem nD τ sig :=
  (V d c i, .dma (csem (semBase1 + k.val) (by have := k.isLt; unfold semBase1; omega)))

noncomputable abbrev cells0 (d : Dev nD) (L : grid5.Coords) : sProp (MM F) :=
  iprop(semVal (VT1 d L, SemLoc.dma smA) 0 ∗ semVal (VT1 d L, SemLoc.dma smB) 0 ∗ semVal (VT1 d L, SemLoc.dma smC) 0
    ∗ semVal (VT1 d L, SemLoc.dma smD) 0 ∗ semVal (VT1 d L, SemLoc.dma smE) 0 ∗ semVal (VT1 d L, SemLoc.dma smF) 0)

theorem dcell_mem (d : Dev nD) (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

theorem ownSems0_V (d : Dev nD) (L : grid5.Coords) :
    (ownSems0 (VT1 d L) : sProp (MM F))
      = iprop(cells0 d L
          ∗ bigSep ((ownCells (VT1 d L)) \ Finset.univ.image (dcell d (cV1 L) (jV1 L))) fun g => semVal g 0) := by
  unfold SparseCore.Cfg.ownSems0
  rw [SparseCore.bigSep_sdiff_split' (t := Finset.univ.image (dcell d (cV1 L) (jV1 L)))
      (Finset.image_subset_iff.mpr fun k _ => dcell_mem d (cV1 L) (jV1 L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl
theorem ownBufs_V (d : Dev nD) (L : grid5.Coords) :
    (ownBufs (VT1 d L) : sProp (MM F))
      = iprop((∃ f, (VT1 d L).loc cc5_scratch0 ↦{fullShare} f) ∗ (∃ f, (VT1 d L).loc cc5_scratch1 ↦{fullShare} f)
          ∗ (∃ f, (VT1 d L).loc cc5_scratch2 ↦{fullShare} f)
          ∗ bigSep ((((ownRefs (τ := τ) (pV L)).erase ((pV L).devRef cc5_scratch0)).erase ((pV L).devRef cc5_scratch1)).erase ((pV L).devRef cc5_scratch2))
              fun b => iprop(∃ f, ((d, b) : Loc nD τ sig) ↦{fullShare} f)) := by
  have hne {a b : Ref sig .scVector} (h : a ≠ b) : (pV L).devRef a ≠ (pV L).devRef b := fun e => h (Proc.devRef_injective _ e)
  unfold SparseCore.Cfg.ownBufs
  refine (SparseCore.bigSep_erase' (SparseCore.Cfg.mem_ownRefs_of_owner (p := pV L) (b := (pV L).devRef cc5_scratch0) rfl)).trans ?_
  rw [SparseCore.bigSep_erase' (Finset.mem_erase.mpr ⟨hne (by decide), SparseCore.Cfg.mem_ownRefs_of_owner (p := pV L) (b := (pV L).devRef cc5_scratch1) rfl⟩),
    SparseCore.bigSep_erase' (Finset.mem_erase.mpr ⟨hne (by decide), Finset.mem_erase.mpr ⟨hne (by decide), SparseCore.Cfg.mem_ownRefs_of_owner (p := pV L) (b := (pV L).devRef cc5_scratch2) rfl⟩⟩)]

noncomputable abbrev tW : Memref sig .scVector .hbm S10000x128 .f32 := Memref.whole main_v24_scv
noncomputable abbrev iW : Memref sig .scVector .hbm S320128 .i32 := Memref.whole main_v5_scv
noncomputable abbrev oW : Memref sig .scVector .hbm S320000x128 .f32 := Memref.whole main_v25_scv
noncomputable abbrev sW : Memref sig .scVector .vmem S10112 .i32 := Memref.whole cc5_scratch0
noncomputable abbrev r1W : RowBuf := Memref.whole cc5_scratch1
noncomputable abbrev r2W : RowBuf := Memref.whole cc5_scratch2

noncomputable abbrev tAll : Memref sig .scVector .hbm S10000x128 .f32 :=
  tW.slice (Rect.unit (s := S10000x128) ![0, 0] S10000x128.size inb_S10000x128_S10000x128_0_0) (fun _ => rfl)

noncomputable abbrev offsM (off : Fin 1 → Nat) (inb : ∀ a, off a + S128.size a ≤ S10112.size a) : Memref sig .scVector .vmem S128 .i32 :=
  sW.slice (Rect.unit (s := S10112) off S128.size inb) (fun _ => rfl)

noncomputable abbrev iWin (L : grid5.Coords) : Memref sig .scVector .hbm S10112 .i32 :=
  iW.slice (Rect.unit (s := S320128) (k5_off1 L) S10112.size (k5_off1_inb L)) (fun _ => rfl)

theorem pts_r1 (d : Dev nD) (L : grid5.Coords) (f : Buf (Elt F) ((VT1 d L).loc cc5_scratch1)) :
    ((r1W).view.loc (VT1 d L) ↦[(r1W).view.set]{fullShare} f : sProp (MM F)) = (VT1 d L).loc cc5_scratch1 ↦{fullShare} f := by
  rw [View.set_whole]
theorem pts_r2 (d : Dev nD) (L : grid5.Coords) (f : Buf (Elt F) ((VT1 d L).loc cc5_scratch2)) :
    ((r2W).view.loc (VT1 d L) ↦[(r2W).view.set]{fullShare} f : sProp (MM F)) = (VT1 d L).loc cc5_scratch2 ↦{fullShare} f := by
  rw [View.set_whole]

noncomputable abbrev Sh (H : Nat) : Shape := ⟨2, ![H, 128]⟩

noncomputable abbrev oWin (H : Nat) (offc : Fin 2 → Nat) (inbc : ∀ a, offc a + (Sh H).size a ≤ S320000x128.size a) : Memref sig .scVector .hbm (Sh H) .f32 :=
  oW.slice (Rect.unit (s := S320000x128) offc (Sh H).size inbc) (fun _ => rfl)

section Values

variable [FloatOps F] (d : Dev nD) (L : grid5.Coords) (tab : Vec F S10000x128 .f32) (idx : Vec F S320128 .i32)

def SVok (sv : SV F d L) : Prop :=
  ∀ (i : S10112.Idx) (j : S320128.Idx), (j 0).val = ebase L + (i 0).val → sv i = idx j

def RowsOK (H : Nat) (sv : SV F d L) (g : (Sh H).Idx → Elt F .f32) (o : Nat) : Prop :=
  ∀ (y : (Sh H).Idx) (i : S10112.Idx) (t : S10000x128.Idx),
    (i 0).val = o + (y 0).val → (t 0).val = (sv i).toNat → (t 1).val = (y 1).val → g y = tab t

def OutOK (f : Buf (Elt F) (outLoc d)) (n : Nat) : Prop :=
  ∀ x : S320000x128.Idx, ebase L ≤ (x 0).val → (x 0).val < ebase L + n → f x = gatherRows tab idx x

theorem hin_offs (sv : SV F d L) (hsv : ∀ i : S10112.Idx, (sv i).toNat < 10000)
    (off : Fin 1 → Nat) (inb : ∀ a, off a + S128.size a ≤ S10112.size a) (hg : S10000x128.Gathers 0 S128x128) :
    ∀ x, ((offsM off inb).view.read (Elt F) sv x).toNat < S10000x128.size hg.axis :=
  fun x => hsv ((offsM off inb).view.emb x)

theorem rowMajor_symm_S128 : ∀ k : Fin S128.numel, ((S128.rowMajor.symm k) 0).val = k.val := by decide +kernel

theorem rows_ok (sv : SV F d L) (off : Fin 1 → Nat) (inb : ∀ a, off a + S128.size a ≤ S10112.size a)
    (hg : S10000x128.Gathers 0 S128x128) (hn : S128.numel = S128x128.size hg.axis')
    (hin' : ∀ x, ((offsM off inb).view.read (Elt F) sv x).toNat < S10000x128.size hg.axis) :
    RowsOK d L tab 128 sv (SparseCore.gatherPayload hg ((tAll).view.read (Elt F) tab) (SparseCore.rows ((offsM off inb).view.read (Elt F) sv) hn hin')) (off 0) := by
  intro y i t hi ht0 ht1
  have hemb : (offsM off inb).view.emb (S128.rowMajor.symm ((y 0).cast hn.symm)) = i := by
    funext b; apply Fin.ext
    match b with
    | ⟨0, _⟩ =>
      show off 0 + 1 * ((S128.rowMajor.symm ((y 0).cast hn.symm)) 0).val = (i 0).val
      rw [rowMajor_symm_S128, hi, Nat.one_mul]; rfl
  have h0 : ((hg.idx _ y) 0).val = (sv ((offsM off inb).view.emb (S128.rowMajor.symm ((y 0).cast hn.symm)))).toNat :=
    congrArg Fin.val (Shape.Gathers.idx_axis hg (SparseCore.rows _ hn hin') y)
  have h1 : ((hg.idx _ y) 1).val = (y 1).val := Shape.Gathers.idx_of_ne hg (SparseCore.rows _ hn hin') y 1 (by decide)
  show tab ((tAll).view.emb (hg.idx _ y)) = tab t
  congr 1
  funext a
  apply Fin.ext
  match a with
  | ⟨0, _⟩ => show 0 + 1 * ((hg.idx _ y) 0).val = (t 0).val; rw [h0, hemb, ht0]; omega
  | ⟨1, _⟩ => show 0 + 1 * ((hg.idx _ y) 1).val = (t 1).val; rw [h1, ht1]; omega

theorem out_step (H : Nat) (f : Buf (Elt F) (outLoc d)) (n : Nat) (hn : n + H ≤ 10000) (offc : Fin 2 → Nat)
    (inbc : ∀ a, offc a + (Sh H).size a ≤ S320000x128.size a)
    (h0 : offc 0 = ebase L + n) (h1 : offc 1 = 0)
    (sv : SV F d L) (hSV : SVok d L idx sv) (hin : ∀ j, (idx j).toNat < 10000)
    (g : (Sh H).Idx → Elt F .f32) (hg : RowsOK d L tab H sv g n)
    (hf : OutOK d L tab idx f n) :
    OutOK d L tab idx (View.write (Elt F) (oWin H offc inbc).view f
      (ReadAs.same.apply g) Finset.univ) (n + H) := by
  intro x hlo hhi
  have hx1 : (x 1).val < 128 := idx2_lt1 x
  have hx0 : (x 0).val < 320000 := idx2_lt0 x
  have heb := ebase_le L
  by_cases hx : (x 0).val < ebase L + n
  · rw [View.write_of_not_mem]
    · exact hf x hlo hx
    · rw [View.setOn_univ]
      intro hm
      simp only [Memref.view_slice, Memref.view_whole, View.set_slice_whole, Rect.mem_set_unit] at hm
      have := (hm 0).1
      omega
  · obtain ⟨y, hy0, hy1⟩ : ∃ y : (Sh H).Idx, (y 0).val = (x 0).val - (ebase L + n) ∧ (y 1).val = (x 1).val :=
      ⟨ix2 (n0 := H) (n1 := 128) ⟨(x 0).val - (ebase L + n), by omega⟩ ⟨(x 1).val, hx1⟩, rfl, rfl⟩
    have hyH : (y 0).val < H := idx2_lt0 y
    have hxy : (oWin H offc inbc).view.emb y = x := by
      funext a; apply Fin.ext
      match a with
      | ⟨0, _⟩ => show offc 0 + 1 * (y 0).val = (x 0).val; omega
      | ⟨1, _⟩ => show offc 1 + 1 * (y 1).val = (x 1).val; omega
    obtain ⟨i, hi⟩ : ∃ i : S10112.Idx, (i 0).val = n + (y 0).val := ⟨ix1 (n := 10112) ⟨n + (y 0).val, by omega⟩, rfl⟩
    unfold gatherRows
    refine ((congrArg _ hxy.symm).trans ((View.write_emb_of_mem _ _ (Finset.mem_univ y)).trans (cast_eq _ _))).trans (hg y i _ hi ?_ ?_)
    · show (idx (ix1 (n := 320128) ⟨(x 0).val, _⟩)).toNat % 10000 = (sv i).toNat
      rw [hSV i (ix1 (n := 320128) ⟨(x 0).val, by omega⟩) (by show (x 0).val = ebase L + (i 0).val; omega)]
      exact Nat.mod_eq_of_lt (hin _)
    · show (x 1).val = (y 1).val; omega

theorem rows16 (sv : SV F d L) (g1 : BufTy.Contents (Elt F) (r1W).view.ty) (o : Nat)
    (h : RowsOK d L tab 128 sv (View.read (Elt F) (r1W).view g1) o) :
    RowsOK d L tab 16 sv (View.read (Elt F) ((r1W).slice (Rect.unit (s := S128x128) ![0, 0] S16x128.size inb_S128x128_S16x128_0_0) (fun _ => rfl)).view g1) o := by
  intro y i t hi ht0 ht1
  refine h ((Rect.unit (s := S128x128) ![0, 0] S16x128.size inb_S128x128_S16x128_0_0).emb y) i t ?_ ht0 ?_
  · show (i 0).val = o + (0 + 1 * (y 0).val); omega
  · show (t 1).val = 0 + 1 * (y 1).val; omega

noncomputable abbrev svOf (fs0 : SV F d L) : SV F d L :=
  View.write (Elt F) (sW).view fs0 (ReadAs.same.apply (View.read (Elt F) (iWin L).view idx)) Finset.univ

theorem svOf_apply (fs0 : SV F d L) (i : S10112.Idx) :
    svOf d L idx fs0 i = idx ((iWin L).view.emb i) := by
  unfold svOf
  rw [View.write_whole_univ]
  rfl

theorem svOk (fs0 : SV F d L) : SVok d L idx (svOf d L idx fs0) := by
  intro i j hj
  rw [svOf_apply]
  congr 1
  funext a
  apply Fin.ext
  match a with
  | ⟨0, _⟩ =>
    show (k5_off1 L 0 + 1 * (i 0).val) = (j 0).val
    rw [k5_off1_eq]; simp [ebase] at hj ⊢; omega

theorem svLt (hin : ∀ j, (idx j).toNat < 10000) (fs0 : SV F d L) :
    ∀ i : S10112.Idx, (svOf d L idx fs0 i).toNat < 10000 := by
  intro i; rw [svOf_apply]; exact hin _

theorem chunk_subset (H : Nat) (offc : Fin 2 → Nat) (inbc : ∀ a, offc a + (Sh H).size a ≤ S320000x128.size a)
    (n : Nat) (hn : n + H ≤ 10000) (h0 : offc 0 = ebase L + n) :
    (oWin H offc inbc).view.set ⊆ tileRows L := by
  intro x hx
  simp only [Memref.view_slice, Memref.view_whole, View.set_slice_whole, Rect.mem_set_unit] at hx
  have hx0 : offc 0 ≤ (x 0).val ∧ (x 0).val < offc 0 + H := hx 0
  rw [mem_tileRows]
  omega

theorem off2_0 (k : Fin k5_t1_loop.trips) : (k5_off2 L k 0#32) 0 = ebase L + 256 * k.val := congrFun (k5_off2_eq L k 0) 0
theorem off2_1 (k : Fin k5_t1_loop.trips) : (k5_off2 L k 1#32) 0 = ebase L + (256 * k.val + 128) :=
  (congrFun (k5_off2_eq L k 1) 0).trans (Nat.add_assoc _ _ _)
theorem off2_0c (k : Fin k5_t1_loop.trips) : (k5_off2 L k 0#32) 1 = 0 := congrFun (k5_off2_eq L k 0) 1
theorem off2_1c (k : Fin k5_t1_loop.trips) : (k5_off2 L k 1#32) 1 = 0 := congrFun (k5_off2_eq L k 1) 1
theorem off5_0c : (k5_off5 L) 1 = 0 := congrFun (k5_off5_eq L) 1
theorem off3_0 (k : Fin k5_t1_loop.trips) : (k5_off3 k) 0 = 128 * (2 * (k.val + 1)) := by
  rw [k5_off3_eq]; simp; omega
theorem off4_0 (k : Fin k5_t1_loop.trips) : (k5_off4 k) 0 = 128 * (2 * (k.val + 1) + 1) := by
  rw [k5_off4_eq]; simp; omega
theorem off5_0 : (k5_off5 L) 0 = ebase L + 9984 := congrFun (k5_off5_eq L) 0

end Values

section Slot

variable [FloatOps F] (rW : RowBuf) (sm : DmaSem sig) (d : Dev nD) (L : grid5.Coords) (q h : PosShare TreeShare)
  (tab : Vec F S10000x128 .f32) (sv : SV F d L)

/-- What a slot's pending gather of the list window at `o` delivers: the slot's rows, the table's share, the window. -/
noncomputable def slotD (o : Nat) (So : Finset (Idx ((sW).view.loc (VT1 d L)))) : sProp (MM F) :=
  iprop(∃ fr', ⌜RowsOK d L tab 128 sv (rW.view.read (Elt F) fr') o⌝ ∗ (rW.view.loc (VT1 d L) ↦[rW.view.set]{fullShare} fr')
    ∗ ((tAll).view.loc (VT1 d L) ↦[(tAll).view.set]{q} tab) ∗ ((sW).view.loc (VT1 d L) ↦[So]{h} sv))

/-- A slot with a gather pending on its cell. -/
noncomputable def slotF (o : Nat) : sProp (MM F) :=
  iprop(∃ So, Transfers.Flight countersEmb (VT1 d L) (.dma sm) (default : HIx 3) rW.view.dmaCredit (slotD rW d L q h tab sv o So)
    ∗ ((sW).view.loc (VT1 d L) ↦[Finset.univ \ So]{h} sv))

/-- A slot idle: its rows at some contents, its shares of the table and the list, its cell at zero. -/
noncomputable def slotI : sProp (MM F) :=
  iprop((∃ fr, rW.view.loc (VT1 d L) ↦[rW.view.set]{fullShare} fr)
    ∗ ((tAll).view.loc (VT1 d L) ↦[(tAll).view.set]{q} tab) ∗ ((sW).view.loc (VT1 d L) ↦{h} sv) ∗ semVal (VT1 d L, SemLoc.dma sm) 0)

/-- A slot before trip chunk `c`: that chunk's gather pending while there is such a chunk, else idle. -/
noncomputable def slotS (c : Nat) : sProp (MM F) :=
  if c < 78 then slotF rW sm d L q h tab sv (128 * c) else slotI rW sm d L q h tab sv

/-- The gather's issue on an idle slot: the landed rows are the rows the list window names. -/
theorem gather_step (off : Fin 1 → Nat) (inb : ∀ a, off a + S128.size a ≤ S10112.size a) (hsv : ∀ i : S10112.Idx, (sv i).toNat < 10000)
    {hp} {hg : S10000x128.Gathers 0 S128x128} {hn hsrc he hsp hr}
    {α : Type} {k : PUnit → Prog (TpuEff nD τ sig (Elt F) Λ₀ (VT1 d L).2) α} {Q : α → sProp (MM F)} :
    (slotI rW sm d L q h tab sv : sProp (MM F))
      ⊢ iprop((slotF rW sm d L q h tab sv (off 0) -∗ wp frame (wpE (defs₀ (F := F)) 𝒱₀ (VT1 d L) none) Set.univ (k ⟨⟩) Q)
          -∗ wp frame (wpE (defs₀ (F := F)) 𝒱₀ (VT1 d L) none) Set.univ
              (SparseCore.enqueueIndirectGather hp tAll rW hg (offsM off inb) hn sm hsrc he hsp hr >>= k) Q) := by
  unfold slotI
  iintro ⟨⟨%fr, Hr⟩, HT, Hs, Hc⟩ Hk
  ihave Hs' := (pointsTo_split_subset (q := h) (f := sv) (S := Finset.univ) (Finset.subset_univ (offsM off inb).view.set)).1 $$ Hs
  icases Hs' with ⟨Hso, Hsr⟩
  have hD : (iprop((rW.view.loc (VT1 d L) ↦[rW.view.set]{fullShare}
        (View.write (Elt F) rW.view fr (SparseCore.gatherPayload hg ((tAll).view.read (Elt F) tab)
          (SparseCore.rows ((offsM off inb).view.read (Elt F) sv) hn (hin_offs d L sv hsv off inb hg))) Finset.univ))
      ∗ ((tAll).view.loc (VT1 d L) ↦[(tAll).view.set]{q} tab) ∗ ((offsM off inb).view.loc (VT1 d L) ↦[(offsM off inb).view.set]{h} sv)) : sProp (MM F))
      ⊢ slotD rW d L q h tab sv (off 0) (offsM off inb).view.set := by
    unfold slotD
    iintro ⟨Hr, HT, Hso⟩
    iexists _
    isplitr
    swap
    · isplitl [Hr]; · iexact Hr
      iframe HT
      iexact Hso
    ipureintro
    rw [View.read_write_univ]
    exact rows_ok d L tab sv off inb hg hn (hin_offs d L sv hsv off inb hg)
  iapply (SparseCore.wp_indirectGatherLocal countersEmb 𝒱₀ (VT1 d L) none (hg := hg) (default : HIx 3) rW.view.dmaCredit
      (SparseCore.sum_rowCredit_eq_dmaCredit rW hg.axis' (fun _ => rfl)) (by decide) (hin_offs d L sv hsv off inb hg)) $$ [HT Hr Hso Hc]
  · iframe HT Hr Hso
    iexact Hc
  iintro Hfl
  iapply Hk
  unfold slotF
  iexists (offsM off inb).view.set
  isplitl [Hfl]
  · iapply (Transfers.Flight_mono countersEmb (VT1 d L) hD) $$ Hfl
  · iexact Hsr

/-- The wait for a slot's gather hands back the slot's rows, now the gathered ones, and its shares. -/
theorem slot_wait (o : Nat) (O : CellTallies nD τ sig (HIx 3)) (W : Waits sig (HIx 3))
    {sp' : Space} {s' : Shape} {e' : EltTy} {srcw : Memref sig (VT1 d L).2.kind sp' s' e'} {hsrc : srcw.view.WordExact} {hdst : rW.view.WordExact}
    {α : Type} {k : PUnit → Prog (TpuEff nD τ sig (Elt F) Λ₀ (VT1 d L).2) α} {Q : α → sProp (MM F)} :
    (iprop(slotF rW sm d L q h tab sv o ∗ owes (VT1 d L) O W ∗ Transfers.MayWaits (VT1 d L) (default : HIx 3) O) : sProp (MM F))
      ⊢ iprop((iprop((∃ fr', ⌜RowsOK d L tab 128 sv (rW.view.read (Elt F) fr') o⌝ ∗ (rW.view.loc (VT1 d L) ↦[rW.view.set]{fullShare} fr'))
              ∗ ((tAll).view.loc (VT1 d L) ↦[(tAll).view.set]{q} tab) ∗ ((sW).view.loc (VT1 d L) ↦{h} sv)
              ∗ semVal (VT1 d L, SemLoc.dma sm) 0 ∗ owes (VT1 d L) O (insert (SemLoc.dma sm, (default : HIx 3)) W))
            -∗ wp frame (wpE (defs₀ (F := F)) 𝒱₀ (VT1 d L) none) Set.univ (k ⟨⟩) Q)
          -∗ wp frame (wpE (defs₀ (F := F)) 𝒱₀ (VT1 d L) none) Set.univ (.op (.waitDma2 sm srcw rW hsrc hdst) k) Q) := by
  unfold slotF
  iintro ⟨⟨%So, Hfl, Hsr⟩, HO, #Hmw⟩ Hk
  iapply (Transfers.wp_waitLocalO countersEmb 𝒱₀ (VT1 d L) none (default : HIx 3) (rfl : rW.view.dmaCredit = _)) $$ [Hfl HO]
  · isplitl [Hfl]; · iexact Hfl
    isplitl [HO]; · iexact HO
    iapply (Transfers.MayWaits.elim (SemLoc.dma sm)) $$ Hmw
  unfold slotD
  iintro ⟨⟨%fr', %hfr, Hr, HT, Hso⟩, Hc, HO⟩
  iapply Hk
  isplitl [Hr]
  · iexists fr'; isplitr; · ipureintro; exact hfr
    iexact Hr
  isplitl [HT]; · iexact HT
  isplitl [Hso Hsr]
  · iapply (pointsTo_split_subset (q := h) (f := sv) (S := Finset.univ) (Finset.subset_univ So)).2
    iframe Hso
    iexact Hsr
  iframe Hc
  iexact HO

end Slot

section SlotState

variable [FloatOps F] (rW : RowBuf) (sm : DmaSem sig) (d : Dev nD) (L : grid5.Coords) (tab : Vec F S10000x128 .f32)
  {q h : PosShare TreeShare} {sv : SV F d L}

theorem slotS_pos {c : Nat} (hc : c < 78) : slotS rW sm d L q h tab sv c = slotF rW sm d L q h tab sv (128 * c) := if_pos hc
theorem slotS_neg {c : Nat} (hc : ¬ c < 78) : slotS rW sm d L q h tab sv c = slotI rW sm d L q h tab sv := if_neg hc
theorem slotF_congr {o o' : Nat} (e : o = o') : (slotF rW sm d L q h tab sv o : sProp (MM F)) ⊢ slotF rW sm d L q h tab sv o' := by
  subst e; exact BI.Entails.refl _

end SlotState

/-- Waits recorded at no round keep a wait set inside `W` up to such waits. -/
theorem ins_none {W W' : Waits sig (HIx 3)} (hW' : ∀ p ∈ W', p ∈ W ∨ p.2 = none) (s : SemLoc sig) :
    ∀ p ∈ insert (s, (default : HIx 3)) W', p ∈ W ∨ p.2 = none := fun p hp =>
  (Finset.mem_insert.mp hp).elim (fun e => .inr (e ▸ rfl)) (hW' p)

section Inv

variable [FloatOps F] (d : Dev nD) (L : grid5.Coords) (tab : Vec F S10000x128 .f32) (idx : Vec F S320128 .i32)

noncomputable def inv (fs0 : SV F d L) (qT : PosShare TreeShare)
    (O : CellTallies nD τ sig (HIx 3)) (W : Waits sig (HIx 3)) (k : Nat) (_ : PUnit) : sProp (MM F) :=
  iprop(Transfers.MayWaits (VT1 d L) (default : HIx 3) O
    ∗ slotS r1W smA d L qT.left fullShare.left tab (svOf d L idx fs0) (2 * k)
    ∗ slotS r2W smB d L qT.right fullShare.right tab (svOf d L idx fs0) (2 * k + 1)
    ∗ semVal (VT1 d L, SemLoc.dma smD) 0 ∗ semVal (VT1 d L, SemLoc.dma smE) 0
    ∗ (∃ f, ⌜OutOK d L tab idx f (256 * k)⌝ ∗ outLoc d ↦[tileRows L]{fullShare} f)
    ∗ ∃ W', ⌜∀ p ∈ W', p ∈ W ∨ p.2 = none⌝ ∗ owes (VT1 d L) O W')

end Inv

theorem trips39 : k5_t1_loop.trips = 39 := by decide
theorem cond1_iff : ∀ t : Fin k5_t1_loop.trips, k5_cond1 t = 1#1 ↔ t.val < 38 := by decide +kernel
theorem cond2_iff : ∀ t : Fin k5_t1_loop.trips, k5_cond2 t = 1#1 ↔ t.val < 38 := by decide +kernel

set_option maxHeartbeats 16000000 in
theorem tile_body [FloatOps F] (d : Dev nD) (L : grid5.Coords)
    (tab : Vec F S10000x128 .f32) (idx : Vec F S320128 .i32) (hin : ∀ j, (idx j).toNat < 10000)
    (O : CellTallies nD τ sig (HIx 3)) (W : Waits sig (HIx 3)) (hO : ∀ g, O g none = 0) (qT qI : PosShare TreeShare) :
    (iprop(levAts (K (F := F)).L (K (F := F)).lev ∗ (tabLoc d ↦{qT} tab) ∗ (idxLoc d ↦{qI} idx)
        ∗ (∃ f, outLoc d ↦[tileRows L]{fullShare} f)
        ∗ scopedBufs (VT1 d L) ∗ scopedSems0 (VT1 d L) ∗ owes (VT1 d L) O W) : sProp (MM F))
      ⊢ wp frame (wpE (defs₀ (F := F)) 𝒱₀ (VT1 d L) none) Set.univ
          (cc5_gk L (Memref.whole main_v24_scv) (Memref.isWhole_whole _) (Memref.whole main_v5_scv) (Memref.isWhole_whole _)
            (Memref.whole main_v25_scv) (Memref.isWhole_whole _) (Memref.whole cc5_scratch0) (Memref.isWhole_whole _)
            (Memref.whole cc5_scratch1) (Memref.isWhole_whole _) (Memref.whole cc5_scratch2) (Memref.isWhole_whole _)
            cc5_scratch3 cc5_scratch4 cc5_scoped0 cc5_scoped1 cc5_scoped2 cc5_scoped3)
          fun _ => iprop((tabLoc d ↦{qT} tab) ∗ (idxLoc d ↦{qI} idx)
            ∗ (outLoc d ↦[tileRows L]{fullShare} gatherRows tab idx)
            ∗ scopedBufs (VT1 d L) ∗ scopedSems0 (VT1 d L)
            ∗ ∃ W', ⌜∀ p ∈ W', p ∈ W ∨ p.2 = none⌝ ∗ owes (VT1 d L) O W') := by
  simp only [cc5_gk_eq_skeleton]; unfold cc5_gk_skel
  rw [(K (F := F)).scopedBufs_V facts d (cV1 L) (jV1 L), SparseCore.Cfg.scopedSems0_V (Val := Elt F) d (cV1 L) (jV1 L), ownSems0_V, ownBufs_V]
  iintro ⟨#Hlv, HT, HI, ⟨%fo, Hout⟩, ⟨⟨%fs0, Hs0⟩, ⟨%fr1, Hr1⟩, ⟨%fr2, Hr2⟩, Hbufs⟩, ⟨⟨Hc5, Hc6, Hc7, Hc8, Hc9, Hc10⟩, Hsems⟩, HO⟩
  ihave Hmw := (show levAts (K (F := F)).L (K (F := F)).lev ⊢ Transfers.MayWaits (VT1 d L) (default : HIx 3) O from
    (K (F := F)).mayWaits_none (thr := VT1 d L) hO) $$ Hlv
  ihave HT2 := (pointsTo_share (PosShare.mem_left_op_right qT)).1 $$ HT
  icases HT2 with ⟨HTl, HTr⟩
  ihave HTl' := (pointsTo_split_subset (q := qT.left) (f := tab) (S := Finset.univ) (Finset.subset_univ (tAll).view.set)).1 $$ HTl
  icases HTl' with ⟨HTl, HTlr⟩
  ihave HTr' := (pointsTo_split_subset (q := qT.right) (f := tab) (S := Finset.univ) (Finset.subset_univ (tAll).view.set)).1 $$ HTr
  icases HTr' with ⟨HTr, HTrr⟩
  sl_exec
  ihave HIw := (pointsTo_split_subset (q := qI) (f := idx) (S := Finset.univ) (Finset.subset_univ (iWin L).view.set)).1 $$ HI
  icases HIw with ⟨HIw, HIr⟩
  iapply (Transfers.wp_dmaLocal countersEmb 𝒱₀ (VT1 d L) none (default : HIx 3) _ rfl (View.amount_pos _ _ (show 0 < S10112.numel by decide)) (Finset.subset_univ (sW).view.set)) $$ [HIw Hs0 Hc7]
  · iframe HIw Hs0
    iexact Hc7
  iintro Hci
  sl_exec
  have hsv := svLt d L idx hin fs0
  have hSV := svOk d L idx fs0
  ihave Hs2 := (pointsTo_share (PosShare.mem_left_op_right fullShare)).1 $$ Hci_dst
  icases Hs2 with ⟨HsL, HsR⟩
  ihave Hr1' := (Entails.of_eq (pts_r1 (F := F) d L _).symm) $$ Hr1
  iapply (gather_step r1W smA d L qT.left fullShare.left tab (svOf d L idx fs0) ![0] inb_S10112_S128_0 hsv) $$ [Hr1' HTl HsL Hc5]
  · unfold slotI
    isplitl [Hr1']; · iexists _; iexact Hr1'
    isplitl [HTl]; · iexact HTl
    isplitl [HsL]; · iexact HsL
    iexact Hc5
  iintro HF1
  sl_exec
  ihave Hr2' := (Entails.of_eq (pts_r2 (F := F) d L _).symm) $$ Hr2
  iapply (gather_step r2W smB d L qT.right fullShare.right tab (svOf d L idx fs0) ![128] inb_S10112_S128_128 hsv) $$ [Hr2' HTr HsR Hc6]
  · unfold slotI
    isplitl [Hr2']; · iexists _; iexact Hr2'
    isplitl [HTr]; · iexact HTr
    isplitl [HsR]; · iexact HsR
    iexact Hc6
  iintro HF2
  sl_exec
  sl_for (inv d L tab idx fs0 qT O W) $$ [HF1 HF2 Hc8 Hc9 Hout HO]
  case region =>
    intro k acc
    have hk39 : k.val < 39 := lt_of_lt_of_eq k.isLt trips39
    unfold inv
    iintro ⟨#Hmw, HS1, HS2, Hc8, Hc9, ⟨%f, %hf, Hout⟩, %W', %hW', HO⟩
    rcases Nat.lt_or_ge k.val 38 with h38 | h38
    · have hc1 : k5_cond1 k = 1#1 := (cond1_iff k).mpr h38
      have hc2 : k5_cond2 k = 1#1 := (cond2_iff k).mpr h38

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k5_off2 L k 0#32) _ (256 * k.val) (by omega) (off2_0 L k))) $$ [Hr1 Hout Hc8]
      · iframe Hr1 Hout
        iexact Hc8
      iintro Hco1
      sl_exec
      iapply (gather_step r1W smA d L qT.left fullShare.left tab (svOf d L idx fs0) (k5_off3 k) (k5_off3_inb k hc1) hsv) $$ [Hco1_src HTl HsL Hc5]
      · unfold slotI
        isplitl [Hco1_src]; · iexists _; iexact Hco1_src
        isplitl [HTl]; · iexact HTl
        isplitl [HsL]; · iexact HsL
        iexact Hc5
      iintro HF1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k5_off2 L k 1#32) _ (256 * k.val + 128) (by omega) (off2_1 L k))) $$ [Hr2 Hco1_dst Hc9]
      · iframe Hr2 Hco1_dst
        iexact Hc9
      iintro Hco2
      sl_exec
      iapply (gather_step r2W smB d L qT.right fullShare.right tab (svOf d L idx fs0) (k5_off4 k) (k5_off4_inb k hc2) hsv) $$ [Hco2_src HTr HsR Hc6]
      · unfold slotI
        isplitl [Hco2_src]; · iexists _; iexact Hco2_src
        isplitl [HTr]; · iexact HTr
        isplitl [HsR]; · iexact HsR
        iexact Hc6
      iintro HF2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k5_off2 L k 0#32) (k5_off2_inb L k 0) (off2_0 L k) (off2_0c L k)
        (svOf d L idx fs0) hSV hin _ hg1' hf
      have o2 := out_step d L tab idx 128 _ (256 * k.val + 128) (by omega) (k5_off2 L k 1#32) (k5_off2_inb L k 1) (off2_1 L k) (off2_1c L k)
        (svOf d L idx fs0) hSV hin _ hg2' o1
      isplitl []; · iexact Hmw
      isplitl [HF1]
      · iapply (Entails.of_eq (slotS_pos r1W smA d L tab (by omega : 2 * (k.val + 1) < 78)).symm)
        iapply (slotF_congr r1W smA d L tab (off3_0 k)); iexact HF1
      isplitl [HF2]
      · iapply (Entails.of_eq (slotS_pos r2W smB d L tab (by omega : 2 * (k.val + 1) + 1 < 78)).symm)
        iapply (slotF_congr r2W smB d L tab (off4_0 k)); iexact HF2
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

    · have hc1 : ¬ k5_cond1 k = 1#1 := fun h => absurd ((cond1_iff k).mp h) (by omega)
      have hc2 : ¬ k5_cond2 k = 1#1 := fun h => absurd ((cond2_iff k).mp h) (by omega)

      ihave HF1 := (Entails.of_eq (slotS_pos r1W smA d L tab (by omega : 2 * k.val < 78))) $$ HS1
      ihave HF2 := (Entails.of_eq (slotS_pos r2W smB d L tab (by omega : 2 * k.val + 1 < 78))) $$ HS2
      sl_exec
      iapply (slot_wait r1W smA d L qT.left fullShare.left tab (svOf d L idx fs0) (128 * (2 * k.val)) O W') $$ [HF1 HO]
      · iframe HF1 HO
        iexact Hmw
      iintro ⟨⟨%g1, %hg1, Hr1⟩, HTl, HsL, Hc5, HO⟩
      sl_exec
      iapply (Transfers.wp_dmaLocal countersEmb 𝒱₀ (VT1 d L) none (default : HIx 3) _ rfl (View.amount_pos _ _ (show 0 < S128x128.numel by decide))
        (chunk_subset L 128 (k5_off2 L k 0#32) _ (256 * k.val) (by omega) (off2_0 L k))) $$ [Hr1 Hout Hc8]
      · iframe Hr1 Hout
        iexact Hc8
      iintro Hco1
      sl_exec
      iapply (slot_wait r2W smB d L qT.right fullShare.right tab (svOf d L idx fs0) (128 * (2 * k.val + 1)) O _) $$ [HF2 HO]
      · iframe HF2 HO
        iexact Hmw
      iintro ⟨⟨%g2, %hg2, Hr2⟩, HTr, HsR, Hc6, HO⟩
      sl_exec
      iapply (Transfers.wp_dmaLocal countersEmb 𝒱₀ (VT1 d L) none (default : HIx 3) _ rfl (View.amount_pos _ _ (show 0 < S128x128.numel by decide))
        (chunk_subset L 128 (k5_off2 L k 1#32) _ (256 * k.val + 128) (by omega) (off2_1 L k))) $$ [Hr2 Hco1_dst Hc9]
      · iframe Hr2 Hco1_dst
        iexact Hc9
      iintro Hco2
      sl_exec
      sl_step
      have hg1' : RowsOK d L tab 128 (svOf d L idx fs0) (View.read (Elt F) (r1W).view g1) (256 * k.val) :=
        (show 128 * (2 * k.val) = 256 * k.val by omega) ▸ hg1
      have hg2' : RowsOK d L tab 128 (svOf d L idx fs0) (View.read (Elt F) (r2W).view g2) (256 * k.val + 128) :=
        (show 128 * (2 * k.val + 1) = 256 * k.val + 128 by omega) ▸ hg2
      have o1 := out_step d L tab idx 128 f (256 * k.val) (by omega) (k5_off2 L k 0#32) (k5_off2_inb L k 0) (off2_0 L k) (off2_0c L k)
        (svOf d L idx fs0) hSV hin _ hg1' hf
      have o2 := out_step d L tab idx 128 _ (256 * k.val + 128) (by omega) (k5_off2 L k 1#32) (k5_off2_inb L k 1) (off2_1 L k) (off2_1c L k)
        (svOf d L idx fs0) hSV hin _ hg2' o1
      isplitl []; · iexact Hmw
      isplitl [Hco1_src HTl HsL Hc5]
      · iapply (Entails.of_eq (slotS_neg r1W smA d L tab (by omega : ¬ 2 * (k.val + 1) < 78)).symm)
        unfold slotI
        isplitl [Hco1_src]; · iexists _; iexact Hco1_src
        isplitl [HTl]; · iexact HTl
        isplitl [HsL]; · iexact HsL
        iexact Hc5
      isplitl [Hco2_src HTr HsR Hc6]
      · iapply (Entails.of_eq (slotS_neg r2W smB d L tab (by omega : ¬ 2 * (k.val + 1) + 1 < 78)).symm)
        unfold slotI
        isplitl [Hco2_src]; · iexists _; iexact Hco2_src
        isplitl [HTr]; · iexact HTr
        isplitl [HsR]; · iexact HsR
        iexact Hc6
      isplitl [Hco1]; · iexact Hco1
      isplitl [Hco2]; · iexact Hco2
      isplitl [Hco2_dst]
      · iexists _; isplitr
        swap; · iexact Hco2_dst
        ipureintro
        exact (show 256 * k.val + 128 + 128 = 256 * (k.val + 1) by omega) ▸ o2
      iexists _; isplitr
      swap; · iexact HO
      ipureintro; exact ins_none (ins_none (ins_none (ins_none hW' _) _) _) _

  · unfold inv
    isplitl []; · iexact Hmw
    isplitl [HF1]
    · iapply (Entails.of_eq (slotS_pos r1W smA d L tab (by omega : 2 * 0 < 78)).symm)
      iapply (slotF_congr r1W smA d L tab (show (![0] : Fin 1 → Nat) 0 = 128 * (2 * 0) from rfl)); iexact HF1
    isplitl [HF2]
    · iapply (Entails.of_eq (slotS_pos r2W smB d L tab (by omega : 2 * 0 + 1 < 78)).symm)
      iapply (slotF_congr r2W smB d L tab (show (![128] : Fin 1 → Nat) 0 = 128 * (2 * 0 + 1) from rfl)); iexact HF2
    isplitl [Hc8]; · iexact Hc8
    isplitl [Hc9]; · iexact Hc9
    isplitl [Hout]
    · iexists fo; isplitr
      · ipureintro; intro x hlo hhi; omega
      · iexact Hout
    iexists _; isplitr
    swap; · iexact HO
    ipureintro; exact ins_none (fun _ hp => .inl hp) _
  iintro %acc HI
  unfold inv
  icases HI with ⟨-, HS1, HS2, Hc8, Hc9, ⟨%f, %hf, Hout⟩, %W', %hW', HO⟩
  ihave HI1 := (Entails.of_eq (slotS_neg r1W smA d L tab (by decide : ¬ 2 * k5_t1_loop.trips < 78))) $$ HS1
  ihave HI2 := (Entails.of_eq (slotS_neg r2W smB d L tab (by decide : ¬ 2 * k5_t1_loop.trips + 1 < 78))) $$ HS2
  have hf' : OutOK d L tab idx f 9984 := fun x hlo hhi =>
    hf x hlo (lt_of_lt_of_eq hhi (congrArg (fun z => ebase L + z) (show 9984 = 256 * k5_t1_loop.trips by decide)))
  sl_exec
  iapply (gather_step r1W smA d L qT.left fullShare.left tab (svOf d L idx fs0) ![9984] inb_S10112_S128_9984 hsv) $$ [HI1]
  · iexact HI1
  iintro HF1
  sl_exec
  iapply (slot_wait r1W smA d L qT.left fullShare.left tab (svOf d L idx fs0) _ O W') $$ [HF1 HO]
  · iframe HF1 HO
    iexact Hmw
  iintro ⟨⟨%g1, %hg1, Hr1⟩, HTl, HsL, Hc5, HO⟩
  sl_exec
  ihave Hr16 := (pointsTo_split_subset (q := fullShare) (f := g1) (View.set_slice_subset (r1W).view (Rect.unit (s := S128x128) ![0, 0] S16x128.size inb_S128x128_S16x128_0_0))).1 $$ Hr1
  icases Hr16 with ⟨Hr16, Hr1r⟩
  iapply (Transfers.wp_dmaLocal countersEmb 𝒱₀ (VT1 d L) none (default : HIx 3) _ rfl (View.amount_pos _ _ (show 0 < S16x128.numel by decide))
      (chunk_subset L 16 (k5_off5 L) _ 9984 (by omega) (off5_0 L))) $$ [Hr16 Hout Hc10]
  · iframe Hr16 Hout
    iexact Hc10
  iintro Hco3
  sl_exec
  sl_step
  have o3 := out_step d L tab idx 16 f 9984 (by omega) (k5_off5 L) (k5_off5_inb L) (off5_0 L) (off5_0c L) (svOf d L idx fs0) hSV hin _
    (rows16 d L tab (svOf d L idx fs0) g1 _ hg1) hf'
  unfold slotI
  icases HI2 with ⟨⟨%g2, Hr2⟩, HTr, HsR, Hc6⟩
  isplitl [HTl HTlr HTr HTrr]
  · iapply (pointsTo_share (PosShare.mem_left_op_right qT)).2
    isplitl [HTl HTlr]
    · iapply (pointsTo_split_subset (q := qT.left) (f := tab) (S := Finset.univ) (Finset.subset_univ (tAll).view.set)).2
      isplitl [HTl]; · iexact HTl
      iexact HTlr
    · iapply (pointsTo_split_subset (q := qT.right) (f := tab) (S := Finset.univ) (Finset.subset_univ (tAll).view.set)).2
      isplitl [HTr]; · iexact HTr
      iexact HTrr
  isplitl [HIr]; · iexact HIr
  isplitl [Hco3_dst]
  · iapply (Entails.of_eq (pointsTo_congr (fun i hi => o3 i (mem_tileRows.mp hi).1 (mem_tileRows.mp hi).2)))
    iexact Hco3_dst
  isplitl [HsL HsR Hr1r Hr2 Hbufs]
  · isplitl [HsL HsR]
    · iexists (svOf d L idx fs0)
      iapply (pointsTo_share (PosShare.mem_left_op_right fullShare)).2
      isplitl [HsL]; · iexact HsL
      iexact HsR
    isplitl [Hr1r]; · iexists g1; iapply (Entails.of_eq (pts_r1 (F := F) d L _)); iexact Hr1r
    isplitl [Hr2]; · iexists g2; iapply (Entails.of_eq (pts_r2 (F := F) d L _)); iexact Hr2
    iexact Hbufs
  isplitl [Hc5 Hc6 Hci Hc8 Hc9 Hco3 Hsems]
  · isplitl [Hc5 Hc6 Hci Hc8 Hc9 Hco3]
    · isplitl [Hc5]; · iexact Hc5
      isplitl [Hc6]; · iexact Hc6
      isplitl [Hci]; · iexact Hci
      isplitl [Hc8]; · iexact Hc8
      isplitl [Hc9]; · iexact Hc9
      iexact Hco3
    iexact Hsems
  iexists _; isplitr
  swap; · iexact HO
  ipureintro; exact ins_none (ins_none hW' _) _

end Cert.Kernel.Hand.Call5

end
-- ==== Proof.K.Obl.lean ====
import proofs.«207978_g39513699123711_cont_8to1_b_1293_21_alg».proof.Proof.K.Split
import proofs.«207978_g39513699123711_cont_8to1_b_1293_21_alg».proof.Proof.K.PreOK
import proofs.«207978_g39513699123711_cont_8to1_b_1293_21_alg».proof.Proof.K.ScBody
import proofs.«207978_g39513699123711_cont_8to1_b_1293_21_alg».proof.Proof.K.ScBody3
import proofs.«207978_g39513699123711_cont_8to1_b_1293_21_alg».proof.Proof.K.ScBody5

noncomputable section

namespace Cert.Kernel.Hand

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

-- The three calls run on the same 2 × 16 grid: the coordinates of tile s of core c.
noncomputable def coordsV (c : Fin (grid1.bound 0)) (s : Fin (grid1.bound 1)) : grid1.Coords :=
  fun | 0 => c | 1 => s | ⟨_ + 2, h⟩ => absurd h (Nat.not_lt.2 (Nat.le_add_left _ _))

omit [FloatOps F] in
-- 20000 s + 10000 c = 10000 (2 s + c).
theorem tileRows1_eq (c : Fin (grid1.bound 0)) (s : Fin (grid1.bound 1)) :
    tileRows (coordsV c s) = rowsOf (tileNo ⟨c.val, c.isLt⟩ ⟨s.val, s.isLt⟩) := by
  ext x
  rw [mem_tileRows, mem_rowsOf]
  have h0 : ((coordsV c s) 0).val = c.val := rfl
  have h1 : ((coordsV c s) 1).val = s.val := rfl
  simp only [ebase, tileNo]
  constructor <;> intro h <;> omega

omit [FloatOps F] in
theorem tileRows3_eq (c : Fin (grid1.bound 0)) (s : Fin (grid1.bound 1)) :
    Call3.tileRows (coordsV c s) = rowsOf (tileNo ⟨c.val, c.isLt⟩ ⟨s.val, s.isLt⟩) := tileRows1_eq c s

omit [FloatOps F] in
theorem tileRows5_eq (c : Fin (grid1.bound 0)) (s : Fin (grid1.bound 1)) :
    Call5.tileRows (coordsV c s) = rowsOf (tileNo ⟨c.val, c.isLt⟩ ⟨s.val, s.isLt⟩) := tileRows1_eq c s

omit [FloatOps F] in
-- A tile's obligation follows from its kernel's triple: the operands regroup, and the bound on the recorded waits only weakens.
theorem tile_wrap {Ef : Type → Type _} {wE : Set ℕ → ∀ ⦃β : Type⦄, Ef β → sWPT (MM F) β} {prog : Prog Ef PUnit}
    {lv t i o o' sb ss : sProp (MM F)} {Ws : Type} {ow : Ws → sProp (MM F)} {W : Ws} {φ φ' : Ws → Prop} (hφ : ∀ W', φ W' → φ' W')
    (hb : iprop(lv ∗ t ∗ i ∗ o ∗ sb ∗ ss ∗ ow W) ⊢ wp frame wE Set.univ prog fun _ => iprop(t ∗ i ∗ o' ∗ sb ∗ ss ∗ ∃ W', ⌜φ W'⌝ ∗ ow W')) :
    iprop(lv ∗ emp ∗ iprop(t ∗ i ∗ o) ∗ sb ∗ ss ∗ ow W)
      ⊢ wp frame wE Set.univ prog fun _ => iprop(iprop(t ∗ i ∗ o') ∗ sb ∗ ss ∗ ∃ W', ⌜φ' W'⌝ ∗ ow W') := by
  refine BIBase.Entails.trans ?_ (hb.trans (wp_mono frame _ _ fun _ => ?_))
  · iintro ⟨Hlv, -, ⟨Ht, Hi, Ho⟩, Hsb, Hss, HO⟩
    iframe
  · iintro ⟨Ht, Hi, Ho, Hsb, Hss, %W', %hW', HO⟩
    iframe Ht Hi Ho Hsb Hss
    iexists W'; isplitr
    · ipureintro; exact hφ W' hW'
    · iexact HO

theorem defs₀_tile1 (c : Fin τ.nSC) (s : Fin τ.nSub) :
    defs₀ (F := F) (.scVector c s) 1 ()
      = SparseCore.onTile hcore1 hsub1 (fun c s => cc1_gk (coordsV c s)
          (Memref.whole main_v6_scv) (Memref.isWhole_whole _) (Memref.whole main_v5_scv) (Memref.isWhole_whole _) (Memref.whole main_v7_scv) (Memref.isWhole_whole _)
          (Memref.whole cc1_scratch0) (Memref.isWhole_whole _) (Memref.whole cc1_scratch1) (Memref.isWhole_whole _) (Memref.whole cc1_scratch2) (Memref.isWhole_whole _)
          cc1_scratch3 cc1_scratch4 cc1_scoped0 cc1_scoped1 cc1_scoped2 cc1_scoped3) ⟨⟩ c s := rfl

theorem tileObl0 (hp : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_tile1]; simp only [SparseCore.onTile, hc, and_self, ↓reduceDIte]
  have hb := tile_body (F := F) d (coordsV ⟨_, hc.1⟩ ⟨_, hc.2⟩) (V2 m d (dr main_v6)) (V2 m d (dr main_v5)) (idx_lt m hp d).1 O W hO
    (qT (Fin.cast (nCore_eq 0) c) (Fin.cast (nSub_eq 0) i)) (qT (Fin.cast (nCore_eq 0) c) (Fin.cast (nSub_eq 0) i))
  rw [tileRows1_eq] at hb
  exact tile_wrap (fun _ h p hp => (h p hp).imp_right Or.inl) hb

theorem defs₀_tile3 (c : Fin τ.nSC) (s : Fin τ.nSub) :
    defs₀ (F := F) (.scVector c s) 3 ()
      = SparseCore.onTile hcore3 hsub3 (fun c s => cc3_gk (coordsV c s)
          (Memref.whole main_v15_scv) (Memref.isWhole_whole _) (Memref.whole main_v5_scv) (Memref.isWhole_whole _) (Memref.whole main_v16_scv) (Memref.isWhole_whole _)
          (Memref.whole cc3_scratch0) (Memref.isWhole_whole _) (Memref.whole cc3_scratch1) (Memref.isWhole_whole _) (Memref.whole cc3_scratch2) (Memref.isWhole_whole _)
          cc3_scratch3 cc3_scratch4 cc3_scoped0 cc3_scoped1 cc3_scoped2 cc3_scoped3) ⟨⟩ c s := rfl

theorem tileObl1 (hp : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 3 ())) _
  refine BIBase.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_tile3]; simp only [SparseCore.onTile, hc, and_self, ↓reduceDIte]
  have hb := Call3.tile_body (F := F) d (coordsV ⟨_, hc.1⟩ ⟨_, hc.2⟩) (V5 m d (dr main_v15)) (V5 m d (dr main_v5)) (idx_lt m hp d).2.1 O W hO
    (qT (Fin.cast (nCore_eq 1) c) (Fin.cast (nSub_eq 1) i)) (qT (Fin.cast (nCore_eq 1) c) (Fin.cast (nSub_eq 1) i))
  rw [tileRows3_eq] at hb
  exact tile_wrap (fun _ h p hp => (h p hp).imp_right Or.inl) hb

theorem defs₀_tile5 (c : Fin τ.nSC) (s : Fin τ.nSub) :
    defs₀ (F := F) (.scVector c s) 5 ()
      = SparseCore.onTile hcore5 hsub5 (fun c s => cc5_gk (coordsV c s)
          (Memref.whole main_v24_scv) (Memref.isWhole_whole _) (Memref.whole main_v5_scv) (Memref.isWhole_whole _) (Memref.whole main_v25_scv) (Memref.isWhole_whole _)
          (Memref.whole cc5_scratch0) (Memref.isWhole_whole _) (Memref.whole cc5_scratch1) (Memref.isWhole_whole _) (Memref.whole cc5_scratch2) (Memref.isWhole_whole _)
          cc5_scratch3 cc5_scratch4 cc5_scoped0 cc5_scoped1 cc5_scoped2 cc5_scoped3) ⟨⟩ c s := rfl

theorem tileObl2 (hp : PreOK m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 5 ())) _
  refine BIBase.Entails.trans ?_ (Pipeline.wp_liftProg (D (F := F)) (Pipeline.defs_kernel pcfgs defs₀) 𝒱₀ _ Set.univ none _ _)
  have hc : ((K (F := F)).core 2 c).val < grid5.bound 0 ∧ ((K (F := F)).sub 2 i).val < grid5.bound 1 := ⟨c.isLt, i.isLt⟩
  rw [defs₀_tile5]; simp only [SparseCore.onTile, hc, and_self, ↓reduceDIte]
  have hb := Call5.tile_body (F := F) d (coordsV ⟨_, hc.1⟩ ⟨_, hc.2⟩) (V8 m d (dr main_v24)) (V8 m d (dr main_v5)) (idx_lt m hp d).2.2 O W hO
    (qT (Fin.cast (nCore_eq 2) c) (Fin.cast (nSub_eq 2) i)) (qT (Fin.cast (nCore_eq 2) c) (Fin.cast (nSub_eq 2) i))
  rw [tileRows5_eq] at hb
  exact tile_wrap (fun _ h p hp => (h p hp).imp_right Or.inl) hb

end Cert.Kernel.Hand

end
-- ==== Proof.K.TcEntry.lean ====
import proofs.«207978_g39513699123711_cont_8to1_b_1293_21_alg».proof.Proof.K.Common

noncomputable section

namespace Cert.Kernel.Hand

open Cert.Kernel Cert.Kernel.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable (a : (p : Fin 3) → (pcfgs (F := F) p).Adm)

theorem phinj :
    Function.Injective (Pipeline.cellOf (nD := nD) (τ := τ) (Pipeline.pin (pcfgs (F := F)) a)) :=
  cellOf_inj

noncomputable abbrev pipeGhost (p : Fin 3) (d : Dev nD) : sProp (MM F) :=
  iprop(Pipeline.cellsGhost (Pipeline.pin (pcfgs (F := F)) a) EP p d ∗ Pipeline.toksInit (Pipeline.pin (pcfgs (F := F)) a) EP p d)

set_option backward.isDefEq.respectTransparency.types false in
-- A region entered from @main runs from its pre to its post, by the region rule.
theorem region_step [FloatOps F] {P : (K (F := F)).Pay (nD := nD) (Val := Elt F) (Name := ℕ) (U := UU)}
    (κ : GSem nD τ sig → ℕ) {lv : GSem nD τ sig → HIx 3 → ℕ}
    (a : (p : Fin 3) → (pcfgs (F := F) p).Adm)
    (pdats : (p : Fin 3) → (c : Dev nD) → Pipeline.Dat τ (Elt F) (HIx 3) ℕ UU ℕ (Pipeline.pin (pcfgs (F := F)) a p) c)
    {p : Fin 3} (R : Pipeline.RegionSeg (pcfgs (F := F)) a pdats none defs₀ 𝒱₀ (K (F := F)).L lv p) (d : Dev nD)
    {α : Type} (k : PUnit → Prog (TpuEff nD τ sig (Elt F) (SparseCore.Sig (ΛP (F := F)) 3) .tc) α) (Q : α → sProp (MM F)) :
    iprop((K (F := F)).ctx EH P κ lv ∗ boundary (T d) ∗ R.pre d ∗ pipeGhost a p d
        ∗ (iprop(boundary (T d) ∗ R.post d) -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry p)) ()) >>= k) Q := by
  classical
  rw [wp_bind, show (Prog.lift (.customCall (SparseCore.inner (Pipeline.entry p)) ()) :
        Prog (TpuEff nD τ sig (Elt F) (SparseCore.Sig (ΛP (F := F)) 3) .tc) PUnit)
      = SparseCore.liftProg (Prog.lift (.customCall (Pipeline.entry p) ())) from rfl]
  refine BIBase.Entails.trans ?_ ((K (F := F)).wp_liftProg D 𝒱 (T d) Set.univ none _ _)
  iintro ⟨#Hctx, Hb, Hpre, ⟨Hg, Ht⟩, Hk⟩
  ihave Hlev := (SparseCore.Cfg.ctx_levAts κ) $$ Hctx
  iapply (Pipeline.RegionSeg.wp (pcfgs (F := F)) a pdats none (phinj a) EP defs₀ 𝒱₀ (K (F := F)).L lv R d none
    (fun u h => (Option.not_mem_none u h).elim) Prog.ret _)
  iframe Hb Hpre Hlev Hg Ht
  iintro H
  rw [wp_ret]; imodintro
  iapply Hk; iexact H

noncomputable abbrev tcOwes (d : Dev nD) (n : ℕ) : sProp (MM F) :=
  iprop(∃ W, ⌜(K (F := F)).WBelow (T d) W (8 * n)⌝ ∗ owes (T d) ((K (F := F)).Otc d n) W)

noncomputable def tcRest (d : Dev nD) (n : ℕ) : sProp (MM F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : (K (F := F)).tcSt EH d n = iprop(tcOwes (F := F) d n ∗ tcRest (F := F) d n) := by
  unfold SparseCore.Cfg.tcSt tcRest; rfl

-- Every tally owed sits at a call's index, whose level is positive; index none has level 0.
theorem Otc_none (d : Dev nD) (n : ℕ) (g : GSem nD τ sig) : (K (F := F)).Otc d n g none = 0 := by
  by_contra h
  have hl := SparseCore.Cfg.lev_of_Otc_pos (K := K (F := F)) (d := d) (n := n) (g := g) (ι := none) (Nat.pos_of_ne_zero h)
  rw [SparseCore.Cfg.lev_none] at hl
  omega

-- Owing with the recorded pairs at or below level b is owing within those pairs and a loop's own, which sit at level 0.
theorem owes_within (cfg : Pipeline.Cfg sig Λ₀) (d : Dev nD) (O : CellTallies nD τ sig (HIx 3)) (b : ℕ) :
    iprop(∃ W, ⌜(K (F := F)).WBelow (T d) W b⌝ ∗ owes (T d) O W)
      ⊣⊢ (Pipeline.owesWithin d O ({pr | (K (F := F)).lev (T d, pr.1) pr.2 ≤ b} ∪ cfg.waitPairs none) : sProp (MM F)) := by
  constructor <;> iintro ⟨%W, %hW, HO⟩ <;> iexists W <;> isplitr
  · ipureintro; exact fun pr h => Or.inl (hW pr (Finset.mem_coe.mp h))
  · iexact HO
  · ipureintro
    intro pr hpr
    rcases hW (Finset.mem_coe.mpr hpr) with h | ⟨w, s, rfl⟩
    · exact h
    · exact Nat.zero_le _
  · iexact HO

noncomputable def u₀ : UU :=
  (initOf (K (F := F)).hsCells (K (F := F)).hsToks,
    (initOf (Pipeline.cells (Pipeline.pin (pcfgs (F := F)) a) (phinj a)) (Pipeline.launchToks (Pipeline.pin (pcfgs (F := F)) a) (phinj a)), 1))

noncomputable abbrev pipesGhost (d : Dev nD) : sProp (MM F) :=
  iprop(pipeGhost a 0 d ∗ pipeGhost a 1 d ∗ pipeGhost a 2 d)

-- The launch element splits into the handshakes' rounds and, per device, the three pipelines' ghost state.
theorem launch_split :
    (ownU (u₀ a) : sProp (MM F))
      ⊢ |={Set.univ}=> iprop(BI.own (EH (initOf (K (F := F)).hsCells (K (F := F)).hsToks)) ∗ bigSep Finset.univ fun d : Dev nD => pipesGhost a d) := by
  have hEP : ∀ x : UP, (BI.own (((Emb.inl : Emb UP (UP × Counters)).trans (embR : Emb (UP × Counters) (MM F))) x) : sProp (MM F)) = BI.own (EP x) := fun x => by
    unfold EP embR; rfl
  have hjoin : iprop((bigSep Finset.univ fun c : Dev nD => bigSep Finset.univ fun p => Pipeline.cellsGhost (Pipeline.pin (pcfgs (F := F)) a) EP p c)
        ∗ (bigSep Finset.univ fun c : Dev nD => bigSep Finset.univ fun p => (Pipeline.toksInit (Pipeline.pin (pcfgs (F := F)) a) EP p c : sProp (MM F))))
      ⊢ bigSep Finset.univ fun d : Dev nD => pipesGhost a d := by
    rw [← bigSep_sep']
    refine bigSep_mono fun d _ => ?_
    rw [← bigSep_sep', bigSep_W0]
    exact BI.Entails.refl _
  unfold u₀
  iintro Hu
  ihave H := (ownU_pair _ _) $$ Hu
  icases H with ⟨HH, HR⟩
  ihave H2 := (own_pair_emb (embR : Emb (UP × Counters) (MM F)) _ (1 : Counters)) $$ HR
  icases H2 with ⟨HP, -⟩
  ihave HP' := (BIBase.Entails.of_eq (hEP _)) $$ HP
  imod (Pipeline.fund_ghost (Pipeline.pin (pcfgs (F := F)) a) EP (phinj a)) $$ HP' with ⟨Hg, Ht⟩
  imodintro
  iframe HH
  iapply hjoin
  iframe

end Cert.Kernel.Hand

end
-- ==== Proof.K.TcBody0.lean ====
import proofs.«207978_g39513699123711_cont_8to1_b_1293_21_alg».proof.Proof.K.Common
import proofs.«207978_g39513699123711_cont_8to1_b_1293_21_alg».proof.Proof.K.ValDefs
import Idealize.ShloMosaic.Lib.Pipeline.FrameBody
import Idealize.ShloMosaic.Lib.Pipeline.Value

noncomputable section

namespace Cert.Kernel.Hand

open Cert.Kernel Cert.Kernel.Gen

open Idealize.ShloMosaic Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region0

variable (Vb : (c : Dev nD) → (b : Ref sig .tc) → Buf (Elt F) ((c.tc : Thread nD τ).loc b))
  (O : Dev nD → CellTallies nD τ sig (HIx 3)) (bnd : ℕ)

noncomputable def iblk0 (c : Dev nD) (w : Fin cfg0.W) (t : Fin cfg0.N) : ((cfg0.win w).xblock (cfg0.grid.coords t)).Idx → Elt F (cfg0.win w).elt :=
  ((cfg0.win w).blk t).view.read (Elt F) (Vb c (Pipeline.arrRef spec0 w))

theorem zz0 : (![0, 0] : Fin 2 → Nat) = fun _ => 0 := funext fun a => by fin_cases a <;> rfl

-- Both loads read a whole buffer and the one store covers the result's: the inputs stay, the result holds their payload.
theorem sound_kernel0 (c : Dev nD) (E : Set ℕ) (i : grid0.Coords) (arg1 : Memref sig .tc .vmem S1000x128 .f32) (harg1 : arg1.IsWhole)
    (arg2 : Memref sig .tc .vmem S128x128 .f32) (harg2 : arg2.IsWhole) (arg3 : Memref sig .tc .vmem S1000x128 .f32) (harg3 : arg3.IsWhole)
    (x0 : Vec F S1000x128 .f32) (x1 : Vec F S128x128 .f32) (Kc : PUnit → sProp (MM F)) :
    iprop(owns (c.tc : Thread nD τ) arg1 fullShare x0 ∗ owns (c.tc : Thread nD τ) arg2 fullShare x1 ∗ (∃ d, owns (c.tc : Thread nD τ) arg3 fullShare d)
        ∗ (iprop(owns (c.tc : Thread nD τ) arg1 fullShare x0 ∗ owns (c.tc : Thread nD τ) arg2 fullShare x1 ∗ owns (c.tc : Thread nD τ) arg3 fullShare (k0_pay1 x0 x1)) -∗ Kc ⟨⟩))
      ⊢ wp frame (wpE (defs₀ (F := F)) Variants.none (c.tc : Thread nD τ) none) E (cc0__mm_body i arg1 harg1 arg2 harg2 arg3 harg3) Kc := by
  simp only [cc0__mm_body_eq_skeleton]; unfold cc0__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zz0 inb_S1000x128_S1000x128_0_0 y⟩),
    View.canon_unit_zero zz0, View.readAt_eq_ld, View.readAt_eq_ld, View.ld_unit_zero zz0, View.ld_unit_zero zz0]

noncomputable def dat0 (c : Dev nD) : Dat τ (Elt F) (HIx 3) ℕ UU ℕ cfg0 c where
  A w := Vb c (Pipeline.arrRef spec0 w)
  after w t := match w with
    | ⟨0, _⟩ => iblk0 Vb c 0 t
    | ⟨1, _⟩ => iblk0 Vb c 1 t
    | ⟨2, _⟩ => k0_pay1 (iblk0 Vb c 0 t) (iblk0 Vb c 1 t)
  Φ _ := Pipeline.scopedRest spec0 c
  q _ := fullShare
  owed _ := O c
  recorded _ := {pr | (K (F := F)).lev (T c, pr.1) pr.2 ≤ bnd}

-- The body leaves each input's block in place, so at every point an input window holds its block.
theorem before0 (c : Dev nD) (t : Fin cfg0.N) :
    (∀ d, (dat0 Vb O bnd c).before 0 t d = iblk0 Vb c 0 t) ∧ ∀ d, (dat0 Vb O bnd c).before 1 t d = iblk0 Vb c 1 t := by
  constructor <;> intro d <;>
  exact (Dat.before_in_eq_fetched _ _ rfl (fun _ => rfl) (fun _ _ _ => rfl) (fun _ => rfl) t d).trans rfl

theorem body_obligation0 (c : Dev nD) : BodyObligation (dat0 (F := F) Vb O bnd c) (defs₀ (F := F)) Variants.none none Set.univ := fun t => by
  rw [bigSep_W0, bigSep_W0]
  show iprop((dat0 Vb O bnd c).Φ t.castSucc ∗ (dat0 Vb O bnd c).owesAt none t.castSucc
      ∗ (∃ d, owns (c.tc : Thread nD τ) (st0_0 t) fullShare ((dat0 Vb O bnd c).before 0 t d))
      ∗ (∃ d, owns (c.tc : Thread nD τ) (st0_1 t) fullShare ((dat0 Vb O bnd c).before 1 t d))
      ∗ (∃ d, owns (c.tc : Thread nD τ) (st0_2 t) fullShare ((dat0 Vb O bnd c).before 2 t d)))
    ⊢ wp frame (wpE (defs₀ (F := F)) Variants.none (c.tc : Thread nD τ) none) Set.univ (bodyAt0 t) fun _ =>
      iprop((dat0 Vb O bnd c).Φ t.castSucc ∗ (dat0 Vb O bnd c).owesAt none t.castSucc
        ∗ owns (c.tc : Thread nD τ) (st0_0 t) fullShare (iblk0 Vb c 0 t) ∗ owns (c.tc : Thread nD τ) (st0_1 t) fullShare (iblk0 Vb c 1 t)
        ∗ owns (c.tc : Thread nD τ) (st0_2 t) fullShare (k0_pay1 (iblk0 Vb c 0 t) (iblk0 Vb c 1 t)))
  simp only [(before0 Vb O bnd c t).1, (before0 Vb O bnd c t).2]
  iintro ⟨HΦ, Ho, ⟨%d0, H0⟩, ⟨%d1, H1⟩, ⟨%d2, H2⟩⟩
  iapply (sound_kernel0 c Set.univ (grid0.coords t) _ _ _ _ _ _ (iblk0 Vb c 0 t) (iblk0 Vb c 1 t) _)
  iframe H0 H1
  isplitl [H2]; · iexists _; iexact H2
  iintro H
  iframe

theorem idx0 (t : Fin cfg0.N) :
    win0_0.index t 0 = t.val ∧ win0_0.index t 1 = 0 ∧ win0_1.index t 0 = 0 ∧ win0_1.index t 1 = 0
      ∧ win0_2.index t 0 = t.val ∧ win0_2.index t 1 = 0 := by
  rcases fin_N0 t with rfl | rfl | rfl | rfl | rfl | rfl | rfl | rfl | rfl | rfl <;> decide +kernel

noncomputable abbrev pt0 (t : Fin cfg0.N) : Fin 10 := ⟨t.val, by have hN : cfg0.N = 10 := N_0; have := t.isLt; omega⟩

-- Element y of block t of the operand and of the result sits at row 1000 t + y 0, column y 1.
theorem emb0 (t : Fin cfg0.N) (y : S1000x128.Idx) :
    (((win0_0.rect t).emb y 0 : ℕ) = 1000 * t.val + (y 0).val ∧ ((win0_0.rect t).emb y 1 : ℕ) = (y 1).val)
      ∧ ((win0_2.rect t).emb y 0 : ℕ) = 1000 * t.val + (y 0).val ∧ ((win0_2.rect t).emb y 1 : ℕ) = (y 1).val := by
  obtain ⟨h0, h1, -, -, h2, h3⟩ := idx0 t
  refine ⟨⟨?_, win0_0.rect_emb_val_of_index_zero t 1 h1 y⟩, ?_, win0_2.rect_emb_val_of_index_zero t 1 h3 y⟩
  · rw [win0_0.rect_emb_val t y 0, h0]; show t.val * 1000 + (y 0).val = _; omega
  · rw [win0_2.rect_emb_val t y 0, h2]; show t.val * 1000 + (y 0).val = _; omega

theorem iblk0_0_eq (c : Dev nD) (t : Fin cfg0.N) : iblk0 Vb c 0 t = rowBlock (Vb c main_arg0) (pt0 t) :=
  funext fun y => congrArg (Vb c main_arg0) (Shape.idx_ext₂ (emb0 t y).1.1 (emb0 t y).1.2)

theorem iblk0_1_eq (c : Dev nD) (t : Fin cfg0.N) : iblk0 Vb c 1 t = Vb c main_arg3 :=
  funext fun y => congrArg (Vb c main_arg3) (Shape.idx_ext₂ (win0_1.rect_emb_val_of_index_zero t 0 (idx0 t).2.2.1 y)
    (win0_1.rect_emb_val_of_index_zero t 1 (idx0 t).2.2.2.1 y))

-- A shape cast to the same shape is the identity, so every call's payload is the first call's.
theorem pay0_eq (a : Vec F S1000x128 .f32) (b : Vec F S128x128 .f32) : k0_pay1 a b = Gen.k0_pay1 a b := by
  first | rfl | (unfold k0_pay1 Gen.k0_pay1; rw [shapeCast_self])

theorem mmVal_block0 (x : Vec F S10000x128 .f32) (w : Vec F S128x128 .f32) (t : Fin 10) (y : S1000x128.Idx) (j : S10000x128.Idx)
    (h0 : (j 0).val = 1000 * t.val + (y 0).val) (h1 : (j 1).val = (y 1).val) :
    mmVal x w j = k0_pay1 (rowBlock x t) w y := by
  have hy := idx2_lt0 y
  refine (congrArg₂ (fun a b => Gen.k0_pay1 (rowBlock x a) w b) (Fin.ext ?_) (Shape.idx_ext₂ ?_ h1)).trans (congrFun (pay0_eq _ w) y).symm
  · show (j 0).val / 1000 = t.val; omega
  · show (j 0).val % 1000 = (y 0).val; omega

theorem flushed0_eq (c : Dev nD) (t : Fin cfg0.N) :
    (dat0 Vb O bnd c).flushed 2 t = (win0_2.blk t).view.read (Elt F) (mmVal (Vb c main_arg0) (Vb c main_arg3)) := by
  show (cfg0.win 2).cut (grid0.coords t) (k0_pay1 (iblk0 Vb c 0 t) (iblk0 Vb c 1 t)) = _
  rw [iblk0_0_eq, iblk0_1_eq]
  exact funext fun y => (mmVal_block0 _ _ (pt0 t) y _ (emb0 t y).2.1 (emb0 t y).2.2).symm

-- Row r of the result lies in block r / 1000.
theorem cover0 (i : S10000x128.Idx) :
    ∃ t : Fin cfg0.N, (cfg0.win 2).flush t = true ∧ i ∈ ((cfg0.win 2).blk t).view.set := by
  have hi := idx2_lt0 i
  have hN : cfg0.N = 10 := N_0
  let t : Fin cfg0.N := ⟨(i 0).val / 1000, by omega⟩
  let y : S1000x128.Idx := ix2 (n0 := 1000) (n1 := 128) ⟨(i 0).val % 1000, Nat.mod_lt _ (by decide)⟩ ⟨(i 1).val, idx2_lt1 i⟩
  have hy : (win0_2.rect t).emb y = i := Shape.idx_ext₂
    ((emb0 t y).2.1.trans (by show 1000 * ((i 0).val / 1000) + (i 0).val % 1000 = _; omega)) (emb0 t y).2.2
  exact ⟨t, flush0_2 t, hy ▸ (win0_2.blk t).view.emb_mem_set y⟩

theorem value0 (c : Dev nD) : (dat0 Vb O bnd c).arrAt 2 cfg0.N = mmVal (Vb c main_arg0) (Vb c main_arg3) :=
  (dat0 Vb O bnd c).arrAt_eq_of_cover 2 _ (fun t _ => flushed0_eq Vb O bnd c t) cover0

-- The region's arrays are its three arrays whole at the full share.
theorem arrays0_eq (c : Dev nD) (Fa : (w : Fin cfg0.W) → Buf (Elt F) ((cfg0.win w).arr.view.loc (c.tc : Thread nD τ))) :
    ((dat0 Vb O bnd c).arrays Fa : sProp (MM F))
      = iprop(((c.tc : Thread nD τ).loc main_arg0 ↦{fullShare} Fa 0) ∗ ((c.tc : Thread nD τ).loc main_arg3 ↦{fullShare} Fa 1) ∗ ((c.tc : Thread nD τ).loc main_v6 ↦{fullShare} Fa 2)) := by
  refine Eq.trans ?_ (bigSep_W0 fun w : Fin cfg0.W => (((c.tc : Thread nD τ).loc (Pipeline.arrRef spec0 w)) ↦{fullShare} Fa w : sProp (MM F)))
  unfold Dat.arrays
  refine bigSep_congr fun w _ => ?_
  rw [(arr_whole0 w).set_eq_univ, (dat0 Vb O bnd c).share_full (fun _ => rfl) w]
  first | done | rfl

theorem entry_arrays0 (c : Dev nD) :
    (iprop(((c.tc : Thread nD τ).loc main_arg0 ↦{fullShare} Vb c main_arg0) ∗ ((c.tc : Thread nD τ).loc main_arg3 ↦{fullShare} Vb c main_arg3)
        ∗ ((c.tc : Thread nD τ).loc main_v6 ↦{fullShare} Vb c main_v6)) : sProp (MM F))
      ⊢ (dat0 Vb O bnd c).arrays ((dat0 Vb O bnd c).arrAt · 0) := by
  rw [arrays0_eq]
  first | done | exact .rfl

theorem exit_arrays0 (c : Dev nD) :
    ((dat0 Vb O bnd c).arrays ((dat0 Vb O bnd c).arrAt · cfg0.N) : sProp (MM F))
      ⊢ iprop(((c.tc : Thread nD τ).loc main_arg0 ↦{fullShare} Vb c main_arg0) ∗ ((c.tc : Thread nD τ).loc main_arg3 ↦{fullShare} Vb c main_arg3)
        ∗ ((c.tc : Thread nD τ).loc main_v6 ↦{fullShare} mmVal (Vb c main_arg0) (Vb c main_arg3))) := by
  rw [arrays0_eq, ← value0 Vb O bnd c]
  exact .rfl

end Region0

end Cert.Kernel.Hand

end
-- ==== Proof.K.TcBody2.lean ====
import proofs.«207978_g39513699123711_cont_8to1_b_1293_21_alg».proof.Proof.K.Common
import proofs.«207978_g39513699123711_cont_8to1_b_1293_21_alg».proof.Proof.K.ValDefs
import Idealize.ShloMosaic.Lib.Pipeline.FrameBody
import Idealize.ShloMosaic.Lib.Pipeline.Value

noncomputable section

namespace Cert.Kernel.Hand

open Cert.Kernel Cert.Kernel.Gen

open Idealize.ShloMosaic Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region2

variable (Vb : (c : Dev nD) → (b : Ref sig .tc) → Buf (Elt F) ((c.tc : Thread nD τ).loc b))
  (O : Dev nD → CellTallies nD τ sig (HIx 3)) (bnd : ℕ)

noncomputable def iblk2 (c : Dev nD) (w : Fin cfg2.W) (t : Fin cfg2.N) : ((cfg2.win w).xblock (cfg2.grid.coords t)).Idx → Elt F (cfg2.win w).elt :=
  ((cfg2.win w).blk t).view.read (Elt F) (Vb c (Pipeline.arrRef spec2 w))

theorem zz2 : (![0, 0] : Fin 2 → Nat) = fun _ => 0 := funext fun a => by fin_cases a <;> rfl

-- Both loads read a whole buffer and the one store covers the result's: the inputs stay, the result holds their payload.
theorem sound_kernel2 (c : Dev nD) (E : Set ℕ) (i : grid2.Coords) (arg1 : Memref sig .tc .vmem S1000x128 .f32) (harg1 : arg1.IsWhole)
    (arg2 : Memref sig .tc .vmem S128x128 .f32) (harg2 : arg2.IsWhole) (arg3 : Memref sig .tc .vmem S1000x128 .f32) (harg3 : arg3.IsWhole)
    (x0 : Vec F S1000x128 .f32) (x1 : Vec F S128x128 .f32) (Kc : PUnit → sProp (MM F)) :
    iprop(owns (c.tc : Thread nD τ) arg1 fullShare x0 ∗ owns (c.tc : Thread nD τ) arg2 fullShare x1 ∗ (∃ d, owns (c.tc : Thread nD τ) arg3 fullShare d)
        ∗ (iprop(owns (c.tc : Thread nD τ) arg1 fullShare x0 ∗ owns (c.tc : Thread nD τ) arg2 fullShare x1 ∗ owns (c.tc : Thread nD τ) arg3 fullShare (k2_pay1 x0 x1)) -∗ Kc ⟨⟩))
      ⊢ wp frame (wpE (defs₀ (F := F)) Variants.none (c.tc : Thread nD τ) none) E (cc2__mm_body i arg1 harg1 arg2 harg2 arg3 harg3) Kc := by
  simp only [cc2__mm_body_eq_skeleton]; unfold cc2__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zz2 inb_S1000x128_S1000x128_0_0 y⟩),
    View.canon_unit_zero zz2, View.readAt_eq_ld, View.readAt_eq_ld, View.ld_unit_zero zz2, View.ld_unit_zero zz2]

noncomputable def dat2 (c : Dev nD) : Dat τ (Elt F) (HIx 3) ℕ UU ℕ cfg2 c where
  A w := Vb c (Pipeline.arrRef spec2 w)
  after w t := match w with
    | ⟨0, _⟩ => iblk2 Vb c 0 t
    | ⟨1, _⟩ => iblk2 Vb c 1 t
    | ⟨2, _⟩ => k2_pay1 (iblk2 Vb c 0 t) (iblk2 Vb c 1 t)
  Φ _ := Pipeline.scopedRest spec2 c
  q _ := fullShare
  owed _ := O c
  recorded _ := {pr | (K (F := F)).lev (T c, pr.1) pr.2 ≤ bnd}

-- The body leaves each input's block in place, so at every point an input window holds its block.
theorem before2 (c : Dev nD) (t : Fin cfg2.N) :
    (∀ d, (dat2 Vb O bnd c).before 0 t d = iblk2 Vb c 0 t) ∧ ∀ d, (dat2 Vb O bnd c).before 1 t d = iblk2 Vb c 1 t := by
  constructor <;> intro d <;>
  exact (Dat.before_in_eq_fetched _ _ rfl (fun _ => rfl) (fun _ _ _ => rfl) (fun _ => rfl) t d).trans rfl

theorem body_obligation2 (c : Dev nD) : BodyObligation (dat2 (F := F) Vb O bnd c) (defs₀ (F := F)) Variants.none none Set.univ := fun t => by
  rw [bigSep_W2, bigSep_W2]
  show iprop((dat2 Vb O bnd c).Φ t.castSucc ∗ (dat2 Vb O bnd c).owesAt none t.castSucc
      ∗ (∃ d, owns (c.tc : Thread nD τ) (st2_0 t) fullShare ((dat2 Vb O bnd c).before 0 t d))
      ∗ (∃ d, owns (c.tc : Thread nD τ) (st2_1 t) fullShare ((dat2 Vb O bnd c).before 1 t d))
      ∗ (∃ d, owns (c.tc : Thread nD τ) (st2_2 t) fullShare ((dat2 Vb O bnd c).before 2 t d)))
    ⊢ wp frame (wpE (defs₀ (F := F)) Variants.none (c.tc : Thread nD τ) none) Set.univ (bodyAt2 t) fun _ =>
      iprop((dat2 Vb O bnd c).Φ t.castSucc ∗ (dat2 Vb O bnd c).owesAt none t.castSucc
        ∗ owns (c.tc : Thread nD τ) (st2_0 t) fullShare (iblk2 Vb c 0 t) ∗ owns (c.tc : Thread nD τ) (st2_1 t) fullShare (iblk2 Vb c 1 t)
        ∗ owns (c.tc : Thread nD τ) (st2_2 t) fullShare (k2_pay1 (iblk2 Vb c 0 t) (iblk2 Vb c 1 t)))
  simp only [(before2 Vb O bnd c t).1, (before2 Vb O bnd c t).2]
  iintro ⟨HΦ, Ho, ⟨%d0, H0⟩, ⟨%d1, H1⟩, ⟨%d2, H2⟩⟩
  iapply (sound_kernel2 c Set.univ (grid2.coords t) _ _ _ _ _ _ (iblk2 Vb c 0 t) (iblk2 Vb c 1 t) _)
  iframe H0 H1
  isplitl [H2]; · iexists _; iexact H2
  iintro H
  iframe

theorem idx2 (t : Fin cfg2.N) :
    win2_0.index t 0 = t.val ∧ win2_0.index t 1 = 0 ∧ win2_1.index t 0 = 0 ∧ win2_1.index t 1 = 0
      ∧ win2_2.index t 0 = t.val ∧ win2_2.index t 1 = 0 := by
  rcases fin_N2 t with rfl | rfl | rfl | rfl | rfl | rfl | rfl | rfl | rfl | rfl <;> decide +kernel

noncomputable abbrev pt2 (t : Fin cfg2.N) : Fin 10 := ⟨t.val, by have hN : cfg2.N = 10 := N_2; have := t.isLt; omega⟩

-- Element y of block t of the operand and of the result sits at row 1000 t + y 0, column y 1.
theorem emb2 (t : Fin cfg2.N) (y : S1000x128.Idx) :
    (((win2_0.rect t).emb y 0 : ℕ) = 1000 * t.val + (y 0).val ∧ ((win2_0.rect t).emb y 1 : ℕ) = (y 1).val)
      ∧ ((win2_2.rect t).emb y 0 : ℕ) = 1000 * t.val + (y 0).val ∧ ((win2_2.rect t).emb y 1 : ℕ) = (y 1).val := by
  obtain ⟨h0, h1, -, -, h2, h3⟩ := idx2 t
  refine ⟨⟨?_, win2_0.rect_emb_val_of_index_zero t 1 h1 y⟩, ?_, win2_2.rect_emb_val_of_index_zero t 1 h3 y⟩
  · rw [win2_0.rect_emb_val t y 0, h0]; show t.val * 1000 + (y 0).val = _; omega
  · rw [win2_2.rect_emb_val t y 0, h2]; show t.val * 1000 + (y 0).val = _; omega

theorem iblk2_0_eq (c : Dev nD) (t : Fin cfg2.N) : iblk2 Vb c 0 t = rowBlock (Vb c main_v14) (pt2 t) :=
  funext fun y => congrArg (Vb c main_v14) (Shape.idx_ext₂ (emb2 t y).1.1 (emb2 t y).1.2)

theorem iblk2_1_eq (c : Dev nD) (t : Fin cfg2.N) : iblk2 Vb c 1 t = Vb c main_arg5 :=
  funext fun y => congrArg (Vb c main_arg5) (Shape.idx_ext₂ (win2_1.rect_emb_val_of_index_zero t 0 (idx2 t).2.2.1 y)
    (win2_1.rect_emb_val_of_index_zero t 1 (idx2 t).2.2.2.1 y))

-- A shape cast to the same shape is the identity, so every call's payload is the first call's.
theorem pay2_eq (a : Vec F S1000x128 .f32) (b : Vec F S128x128 .f32) : k2_pay1 a b = Gen.k0_pay1 a b := by
  first | rfl | (unfold k2_pay1 Gen.k0_pay1; rw [shapeCast_self])

theorem mmVal_block2 (x : Vec F S10000x128 .f32) (w : Vec F S128x128 .f32) (t : Fin 10) (y : S1000x128.Idx) (j : S10000x128.Idx)
    (h0 : (j 0).val = 1000 * t.val + (y 0).val) (h1 : (j 1).val = (y 1).val) :
    mmVal x w j = k2_pay1 (rowBlock x t) w y := by
  have hy := idx2_lt0 y
  refine (congrArg₂ (fun a b => Gen.k0_pay1 (rowBlock x a) w b) (Fin.ext ?_) (Shape.idx_ext₂ ?_ h1)).trans (congrFun (pay2_eq _ w) y).symm
  · show (j 0).val / 1000 = t.val; omega
  · show (j 0).val % 1000 = (y 0).val; omega

theorem flushed2_eq (c : Dev nD) (t : Fin cfg2.N) :
    (dat2 Vb O bnd c).flushed 2 t = (win2_2.blk t).view.read (Elt F) (mmVal (Vb c main_v14) (Vb c main_arg5)) := by
  show (cfg2.win 2).cut (grid2.coords t) (k2_pay1 (iblk2 Vb c 0 t) (iblk2 Vb c 1 t)) = _
  rw [iblk2_0_eq, iblk2_1_eq]
  exact funext fun y => (mmVal_block2 _ _ (pt2 t) y _ (emb2 t y).2.1 (emb2 t y).2.2).symm

-- Row r of the result lies in block r / 1000.
theorem cover2 (i : S10000x128.Idx) :
    ∃ t : Fin cfg2.N, (cfg2.win 2).flush t = true ∧ i ∈ ((cfg2.win 2).blk t).view.set := by
  have hi := idx2_lt0 i
  have hN : cfg2.N = 10 := N_2
  let t : Fin cfg2.N := ⟨(i 0).val / 1000, by omega⟩
  let y : S1000x128.Idx := ix2 (n0 := 1000) (n1 := 128) ⟨(i 0).val % 1000, Nat.mod_lt _ (by decide)⟩ ⟨(i 1).val, idx2_lt1 i⟩
  have hy : (win2_2.rect t).emb y = i := Shape.idx_ext₂
    ((emb2 t y).2.1.trans (by show 1000 * ((i 0).val / 1000) + (i 0).val % 1000 = _; omega)) (emb2 t y).2.2
  exact ⟨t, flush2_2 t, hy ▸ (win2_2.blk t).view.emb_mem_set y⟩

theorem value2 (c : Dev nD) : (dat2 Vb O bnd c).arrAt 2 cfg2.N = mmVal (Vb c main_v14) (Vb c main_arg5) :=
  (dat2 Vb O bnd c).arrAt_eq_of_cover 2 _ (fun t _ => flushed2_eq Vb O bnd c t) cover2

-- The region's arrays are its three arrays whole at the full share.
theorem arrays2_eq (c : Dev nD) (Fa : (w : Fin cfg2.W) → Buf (Elt F) ((cfg2.win w).arr.view.loc (c.tc : Thread nD τ))) :
    ((dat2 Vb O bnd c).arrays Fa : sProp (MM F))
      = iprop(((c.tc : Thread nD τ).loc main_v14 ↦{fullShare} Fa 0) ∗ ((c.tc : Thread nD τ).loc main_arg5 ↦{fullShare} Fa 1) ∗ ((c.tc : Thread nD τ).loc main_v15 ↦{fullShare} Fa 2)) := by
  refine Eq.trans ?_ (bigSep_W2 fun w : Fin cfg2.W => (((c.tc : Thread nD τ).loc (Pipeline.arrRef spec2 w)) ↦{fullShare} Fa w : sProp (MM F)))
  unfold Dat.arrays
  refine bigSep_congr fun w _ => ?_
  rw [(arr_whole2 w).set_eq_univ, (dat2 Vb O bnd c).share_full (fun _ => rfl) w]
  first | done | rfl

theorem entry_arrays2 (c : Dev nD) :
    (iprop(((c.tc : Thread nD τ).loc main_v14 ↦{fullShare} Vb c main_v14) ∗ ((c.tc : Thread nD τ).loc main_arg5 ↦{fullShare} Vb c main_arg5)
        ∗ ((c.tc : Thread nD τ).loc main_v15 ↦{fullShare} Vb c main_v15)) : sProp (MM F))
      ⊢ (dat2 Vb O bnd c).arrays ((dat2 Vb O bnd c).arrAt · 0) := by
  rw [arrays2_eq]
  first | done | exact .rfl

theorem exit_arrays2 (c : Dev nD) :
    ((dat2 Vb O bnd c).arrays ((dat2 Vb O bnd c).arrAt · cfg2.N) : sProp (MM F))
      ⊢ iprop(((c.tc : Thread nD τ).loc main_v14 ↦{fullShare} Vb c main_v14) ∗ ((c.tc : Thread nD τ).loc main_arg5 ↦{fullShare} Vb c main_arg5)
        ∗ ((c.tc : Thread nD τ).loc main_v15 ↦{fullShare} mmVal (Vb c main_v14) (Vb c main_arg5))) := by
  rw [arrays2_eq, ← value2 Vb O bnd c]
  exact .rfl

end Region2

end Cert.Kernel.Hand

end
-- ==== Proof.K.TcBody4.lean ====
import proofs.«207978_g39513699123711_cont_8to1_b_1293_21_alg».proof.Proof.K.Common
import proofs.«207978_g39513699123711_cont_8to1_b_1293_21_alg».proof.Proof.K.ValDefs
import Idealize.ShloMosaic.Lib.Pipeline.FrameBody
import Idealize.ShloMosaic.Lib.Pipeline.Value

noncomputable section

namespace Cert.Kernel.Hand

open Cert.Kernel Cert.Kernel.Gen

open Idealize.ShloMosaic Idealize.ShloMosaic.Tactic Idealize.ShloMosaic.ValueIdx
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

section Region4

variable (Vb : (c : Dev nD) → (b : Ref sig .tc) → Buf (Elt F) ((c.tc : Thread nD τ).loc b))
  (O : Dev nD → CellTallies nD τ sig (HIx 3)) (bnd : ℕ)

noncomputable def iblk4 (c : Dev nD) (w : Fin cfg4.W) (t : Fin cfg4.N) : ((cfg4.win w).xblock (cfg4.grid.coords t)).Idx → Elt F (cfg4.win w).elt :=
  ((cfg4.win w).blk t).view.read (Elt F) (Vb c (Pipeline.arrRef spec4 w))

theorem zz4 : (![0, 0] : Fin 2 → Nat) = fun _ => 0 := funext fun a => by fin_cases a <;> rfl

-- Both loads read a whole buffer and the one store covers the result's: the inputs stay, the result holds their payload.
theorem sound_kernel4 (c : Dev nD) (E : Set ℕ) (i : grid4.Coords) (arg1 : Memref sig .tc .vmem S1000x128 .f32) (harg1 : arg1.IsWhole)
    (arg2 : Memref sig .tc .vmem S128x128 .f32) (harg2 : arg2.IsWhole) (arg3 : Memref sig .tc .vmem S1000x128 .f32) (harg3 : arg3.IsWhole)
    (x0 : Vec F S1000x128 .f32) (x1 : Vec F S128x128 .f32) (Kc : PUnit → sProp (MM F)) :
    iprop(owns (c.tc : Thread nD τ) arg1 fullShare x0 ∗ owns (c.tc : Thread nD τ) arg2 fullShare x1 ∗ (∃ d, owns (c.tc : Thread nD τ) arg3 fullShare d)
        ∗ (iprop(owns (c.tc : Thread nD τ) arg1 fullShare x0 ∗ owns (c.tc : Thread nD τ) arg2 fullShare x1 ∗ owns (c.tc : Thread nD τ) arg3 fullShare (k4_pay1 x0 x1)) -∗ Kc ⟨⟩))
      ⊢ wp frame (wpE (defs₀ (F := F)) Variants.none (c.tc : Thread nD τ) none) E (cc4__mm_body i arg1 harg1 arg2 harg2 arg3 harg3) Kc := by
  simp only [cc4__mm_body_eq_skeleton]; unfold cc4__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zz4 inb_S1000x128_S1000x128_0_0 y⟩),
    View.canon_unit_zero zz4, View.readAt_eq_ld, View.readAt_eq_ld, View.ld_unit_zero zz4, View.ld_unit_zero zz4]

noncomputable def dat4 (c : Dev nD) : Dat τ (Elt F) (HIx 3) ℕ UU ℕ cfg4 c where
  A w := Vb c (Pipeline.arrRef spec4 w)
  after w t := match w with
    | ⟨0, _⟩ => iblk4 Vb c 0 t
    | ⟨1, _⟩ => iblk4 Vb c 1 t
    | ⟨2, _⟩ => k4_pay1 (iblk4 Vb c 0 t) (iblk4 Vb c 1 t)
  Φ _ := Pipeline.scopedRest spec4 c
  q _ := fullShare
  owed _ := O c
  recorded _ := {pr | (K (F := F)).lev (T c, pr.1) pr.2 ≤ bnd}

-- The body leaves each input's block in place, so at every point an input window holds its block.
theorem before4 (c : Dev nD) (t : Fin cfg4.N) :
    (∀ d, (dat4 Vb O bnd c).before 0 t d = iblk4 Vb c 0 t) ∧ ∀ d, (dat4 Vb O bnd c).before 1 t d = iblk4 Vb c 1 t := by
  constructor <;> intro d <;>
  exact (Dat.before_in_eq_fetched _ _ rfl (fun _ => rfl) (fun _ _ _ => rfl) (fun _ => rfl) t d).trans rfl

theorem body_obligation4 (c : Dev nD) : BodyObligation (dat4 (F := F) Vb O bnd c) (defs₀ (F := F)) Variants.none none Set.univ := fun t => by
  rw [bigSep_W4, bigSep_W4]
  show iprop((dat4 Vb O bnd c).Φ t.castSucc ∗ (dat4 Vb O bnd c).owesAt none t.castSucc
      ∗ (∃ d, owns (c.tc : Thread nD τ) (st4_0 t) fullShare ((dat4 Vb O bnd c).before 0 t d))
      ∗ (∃ d, owns (c.tc : Thread nD τ) (st4_1 t) fullShare ((dat4 Vb O bnd c).before 1 t d))
      ∗ (∃ d, owns (c.tc : Thread nD τ) (st4_2 t) fullShare ((dat4 Vb O bnd c).before 2 t d)))
    ⊢ wp frame (wpE (defs₀ (F := F)) Variants.none (c.tc : Thread nD τ) none) Set.univ (bodyAt4 t) fun _ =>
      iprop((dat4 Vb O bnd c).Φ t.castSucc ∗ (dat4 Vb O bnd c).owesAt none t.castSucc
        ∗ owns (c.tc : Thread nD τ) (st4_0 t) fullShare (iblk4 Vb c 0 t) ∗ owns (c.tc : Thread nD τ) (st4_1 t) fullShare (iblk4 Vb c 1 t)
        ∗ owns (c.tc : Thread nD τ) (st4_2 t) fullShare (k4_pay1 (iblk4 Vb c 0 t) (iblk4 Vb c 1 t)))
  simp only [(before4 Vb O bnd c t).1, (before4 Vb O bnd c t).2]
  iintro ⟨HΦ, Ho, ⟨%d0, H0⟩, ⟨%d1, H1⟩, ⟨%d2, H2⟩⟩
  iapply (sound_kernel4 c Set.univ (grid4.coords t) _ _ _ _ _ _ (iblk4 Vb c 0 t) (iblk4 Vb c 1 t) _)
  iframe H0 H1
  isplitl [H2]; · iexists _; iexact H2
  iintro H
  iframe

theorem idx4 (t : Fin cfg4.N) :
    win4_0.index t 0 = t.val ∧ win4_0.index t 1 = 0 ∧ win4_1.index t 0 = 0 ∧ win4_1.index t 1 = 0
      ∧ win4_2.index t 0 = t.val ∧ win4_2.index t 1 = 0 := by
  rcases fin_N4 t with rfl | rfl | rfl | rfl | rfl | rfl | rfl | rfl | rfl | rfl <;> decide +kernel

noncomputable abbrev pt4 (t : Fin cfg4.N) : Fin 10 := ⟨t.val, by have hN : cfg4.N = 10 := N_4; have := t.isLt; omega⟩

-- Element y of block t of the operand and of the result sits at row 1000 t + y 0, column y 1.
theorem emb4 (t : Fin cfg4.N) (y : S1000x128.Idx) :
    (((win4_0.rect t).emb y 0 : ℕ) = 1000 * t.val + (y 0).val ∧ ((win4_0.rect t).emb y 1 : ℕ) = (y 1).val)
      ∧ ((win4_2.rect t).emb y 0 : ℕ) = 1000 * t.val + (y 0).val ∧ ((win4_2.rect t).emb y 1 : ℕ) = (y 1).val := by
  obtain ⟨h0, h1, -, -, h2, h3⟩ := idx4 t
  refine ⟨⟨?_, win4_0.rect_emb_val_of_index_zero t 1 h1 y⟩, ?_, win4_2.rect_emb_val_of_index_zero t 1 h3 y⟩
  · rw [win4_0.rect_emb_val t y 0, h0]; show t.val * 1000 + (y 0).val = _; omega
  · rw [win4_2.rect_emb_val t y 0, h2]; show t.val * 1000 + (y 0).val = _; omega

theorem iblk4_0_eq (c : Dev nD) (t : Fin cfg4.N) : iblk4 Vb c 0 t = rowBlock (Vb c main_v23) (pt4 t) :=
  funext fun y => congrArg (Vb c main_v23) (Shape.idx_ext₂ (emb4 t y).1.1 (emb4 t y).1.2)

theorem iblk4_1_eq (c : Dev nD) (t : Fin cfg4.N) : iblk4 Vb c 1 t = Vb c main_arg7 :=
  funext fun y => congrArg (Vb c main_arg7) (Shape.idx_ext₂ (win4_1.rect_emb_val_of_index_zero t 0 (idx4 t).2.2.1 y)
    (win4_1.rect_emb_val_of_index_zero t 1 (idx4 t).2.2.2.1 y))

-- A shape cast to the same shape is the identity, so every call's payload is the first call's.
theorem pay4_eq (a : Vec F S1000x128 .f32) (b : Vec F S128x128 .f32) : k4_pay1 a b = Gen.k0_pay1 a b := by
  first | rfl | (unfold k4_pay1 Gen.k0_pay1; rw [shapeCast_self])

theorem mmVal_block4 (x : Vec F S10000x128 .f32) (w : Vec F S128x128 .f32) (t : Fin 10) (y : S1000x128.Idx) (j : S10000x128.Idx)
    (h0 : (j 0).val = 1000 * t.val + (y 0).val) (h1 : (j 1).val = (y 1).val) :
    mmVal x w j = k4_pay1 (rowBlock x t) w y := by
  have hy := idx2_lt0 y
  refine (congrArg₂ (fun a b => Gen.k0_pay1 (rowBlock x a) w b) (Fin.ext ?_) (Shape.idx_ext₂ ?_ h1)).trans (congrFun (pay4_eq _ w) y).symm
  · show (j 0).val / 1000 = t.val; omega
  · show (j 0).val % 1000 = (y 0).val; omega

theorem flushed4_eq (c : Dev nD) (t : Fin cfg4.N) :
    (dat4 Vb O bnd c).flushed 2 t = (win4_2.blk t).view.read (Elt F) (mmVal (Vb c main_v23) (Vb c main_arg7)) := by
  show (cfg4.win 2).cut (grid4.coords t) (k4_pay1 (iblk4 Vb c 0 t) (iblk4 Vb c 1 t)) = _
  rw [iblk4_0_eq, iblk4_1_eq]
  exact funext fun y => (mmVal_block4 _ _ (pt4 t) y _ (emb4 t y).2.1 (emb4 t y).2.2).symm

-- Row r of the result lies in block r / 1000.
theorem cover4 (i : S10000x128.Idx) :
    ∃ t : Fin cfg4.N, (cfg4.win 2).flush t = true ∧ i ∈ ((cfg4.win 2).blk t).view.set := by
  have hi := idx2_lt0 i
  have hN : cfg4.N = 10 := N_4
  let t : Fin cfg4.N := ⟨(i 0).val / 1000, by omega⟩
  let y : S1000x128.Idx := ix2 (n0 := 1000) (n1 := 128) ⟨(i 0).val % 1000, Nat.mod_lt _ (by decide)⟩ ⟨(i 1).val, idx2_lt1 i⟩
  have hy : (win4_2.rect t).emb y = i := Shape.idx_ext₂
    ((emb4 t y).2.1.trans (by show 1000 * ((i 0).val / 1000) + (i 0).val % 1000 = _; omega)) (emb4 t y).2.2
  exact ⟨t, flush4_2 t, hy ▸ (win4_2.blk t).view.emb_mem_set y⟩

theorem value4 (c : Dev nD) : (dat4 Vb O bnd c).arrAt 2 cfg4.N = mmVal (Vb c main_v23) (Vb c main_arg7) :=
  (dat4 Vb O bnd c).arrAt_eq_of_cover 2 _ (fun t _ => flushed4_eq Vb O bnd c t) cover4

-- The region's arrays are its three arrays whole at the full share.
theorem arrays4_eq (c : Dev nD) (Fa : (w : Fin cfg4.W) → Buf (Elt F) ((cfg4.win w).arr.view.loc (c.tc : Thread nD τ))) :
    ((dat4 Vb O bnd c).arrays Fa : sProp (MM F))
      = iprop(((c.tc : Thread nD τ).loc main_v23 ↦{fullShare} Fa 0) ∗ ((c.tc : Thread nD τ).loc main_arg7 ↦{fullShare} Fa 1) ∗ ((c.tc : Thread nD τ).loc main_v24 ↦{fullShare} Fa 2)) := by
  refine Eq.trans ?_ (bigSep_W4 fun w : Fin cfg4.W => (((c.tc : Thread nD τ).loc (Pipeline.arrRef spec4 w)) ↦{fullShare} Fa w : sProp (MM F)))
  unfold Dat.arrays
  refine bigSep_congr fun w _ => ?_
  rw [(arr_whole4 w).set_eq_univ, (dat4 Vb O bnd c).share_full (fun _ => rfl) w]
  first | done | rfl

theorem entry_arrays4 (c : Dev nD) :
    (iprop(((c.tc : Thread nD τ).loc main_v23 ↦{fullShare} Vb c main_v23) ∗ ((c.tc : Thread nD τ).loc main_arg7 ↦{fullShare} Vb c main_arg7)
        ∗ ((c.tc : Thread nD τ).loc main_v24 ↦{fullShare} Vb c main_v24)) : sProp (MM F))
      ⊢ (dat4 Vb O bnd c).arrays ((dat4 Vb O bnd c).arrAt · 0) := by
  rw [arrays4_eq]
  first | done | exact .rfl

theorem exit_arrays4 (c : Dev nD) :
    ((dat4 Vb O bnd c).arrays ((dat4 Vb O bnd c).arrAt · cfg4.N) : sProp (MM F))
      ⊢ iprop(((c.tc : Thread nD τ).loc main_v23 ↦{fullShare} Vb c main_v23) ∗ ((c.tc : Thread nD τ).loc main_arg7 ↦{fullShare} Vb c main_arg7)
        ∗ ((c.tc : Thread nD τ).loc main_v24 ↦{fullShare} mmVal (Vb c main_v23) (Vb c main_arg7))) := by
  rw [arrays4_eq, ← value4 Vb O bnd c]
  exact .rfl

end Region4

end Cert.Kernel.Hand

end
-- ==== Proof.K.TcData.lean ====
import proofs.«207978_g39513699123711_cont_8to1_b_1293_21_alg».proof.Proof.K.TcBody0
import proofs.«207978_g39513699123711_cont_8to1_b_1293_21_alg».proof.Proof.K.TcBody2
import proofs.«207978_g39513699123711_cont_8to1_b_1293_21_alg».proof.Proof.K.TcBody4

noncomputable section

namespace Cert.Kernel.Hand

open Cert.Kernel Cert.Kernel.Gen

open Idealize.ShloMosaic
open Idealize.ShloMosaic.SparseCore.Cfg (HIx)
open Idealize.ShloMosaic.Pipeline (Dat)

variable {F : FTy → Type} [FloatOps F]

noncomputable abbrev adm : (p : Fin 3) → (pcfgs (F := F) p).Adm := fun p => (cfgs p).toPCfg_adm

variable (Vb : Fin 3 → (c : Dev nD) → (b : Ref sig .tc) → Buf (Elt F) ((c.tc : Thread nD τ).loc b))
  (O : Fin 3 → Dev nD → CellTallies nD τ sig (HIx 3)) (bnd : Fin 3 → ℕ)

noncomputable def pdats : (p : Fin 3) → (c : Dev nD) → Dat τ (Elt F) (HIx 3) ℕ UU ℕ (Pipeline.pin (pcfgs (F := F)) adm p) c
  | ⟨0, _⟩ => fun c => dat0 (Vb 0) (O 0) (bnd 0) c
  | ⟨1, _⟩ => fun c => dat2 (Vb 1) (O 1) (bnd 1) c
  | ⟨2, _⟩ => fun c => dat4 (Vb 2) (O 2) (bnd 2) c

end Cert.Kernel.Hand

end
-- ==== Proof.K.TcRegion0.lean ====
import proofs.«207978_g39513699123711_cont_8to1_b_1293_21_alg».proof.Proof.K.TcData
import proofs.«207978_g39513699123711_cont_8to1_b_1293_21_alg».proof.Proof.K.TcEntry

noncomputable section

namespace Cert.Kernel.Hand

open Cert.Kernel Cert.Kernel.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (Vb : Fin 3 → (c : Dev nD) → (b : Ref sig .tc) → Buf (Elt F) ((c.tc : Thread nD τ).loc b))
  (O : Fin 3 → Dev nD → CellTallies nD τ sig (HIx 3)) (bnd : Fin 3 → ℕ)

set_option backward.isDefEq.respectTransparency.types false in
noncomputable def region0 (hO : ∀ c g, O 0 c g none = 0) :
    Pipeline.RegionSeg (pcfgs (F := F)) adm (pdats Vb O bnd) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (Vb 0) (O 0) (bnd 0) c).loose
  hwaits c := Pipeline.cellsWaits_intro (Pipeline.pin (pcfgs (F := F)) adm) (pdats Vb O bnd) none 0 c fun w s t =>
    SparseCore.Cfg.mayWait_none (K := K (F := F)) _ (hO c)
  pre c := iprop(((c.tc : Thread nD τ).loc main_arg0 ↦{fullShare} Vb 0 c main_arg0) ∗ ((c.tc : Thread nD τ).loc main_arg3 ↦{fullShare} Vb 0 c main_arg3)
    ∗ ((c.tc : Thread nD τ).loc main_v6 ↦{fullShare} Vb 0 c main_v6)
    ∗ ∃ W, ⌜(K (F := F)).WBelow (T c) W (bnd 0)⌝ ∗ owes (T c) (O 0 c) W)
  post c := iprop(((c.tc : Thread nD τ).loc main_arg0 ↦{fullShare} Vb 0 c main_arg0) ∗ ((c.tc : Thread nD τ).loc main_arg3 ↦{fullShare} Vb 0 c main_arg3)
    ∗ ((c.tc : Thread nD τ).loc main_v6 ↦{fullShare} mmVal (Vb 0 c main_arg0) (Vb 0 c main_arg3))
    ∗ ∃ W, ⌜(K (F := F)).WBelow (T c) W (bnd 0)⌝ ∗ owes (T c) (O 0 c) W)
  X _ := iprop(emp)
  Y _ := iprop(emp)
  Z _ := iprop(emp)
  hentry c := by
    rw [Pipeline.ownSems0_none]
    iintro ⟨⟨Hx, Hw, Hy, HO⟩, -, -⟩
    imodintro
    isplitl [Hx Hw Hy]
    · iapply (entry_arrays0 (Vb 0) (O 0) (bnd 0) c); iframe
    isplitr; · unfold Pipeline.prefHeld; rw [show (Finset.univ : Finset (Fin 0)) = ∅ from rfl, BI.bigSep_empty]; iempintro
    isplitl [HO]; · iapply (owes_within cfg0 c (O 0 c) (bnd 0)).1; iexact HO
    isplitr <;> iempintro
  hin c := by
    rw [show (pdats Vb O bnd 0 c).Φ 0 = Pipeline.scopedRest spec0 c from rfl]
    iintro ⟨-, -, Hr⟩; iexact Hr
  hout c := by
    rw [Pipeline.ownSems0_none, show (pdats Vb O bnd 0 c).Φ (Fin.last _) = Pipeline.scopedRest spec0 c from rfl]
    iintro Hr
    iframe; iempintro
  hexit c := by
    refine (sep_mono (exit_arrays0 (Vb 0) (O 0) (bnd 0) c) .rfl).trans ?_
    iintro ⟨⟨Hx, Hw, Hy⟩, HO, -, -⟩
    imodintro
    iframe Hx Hw Hy
    iapply (owes_within cfg0 c (O 0 c) (bnd 0)).2; iexact HO

end Cert.Kernel.Hand

end
-- ==== Proof.K.TcRegion2.lean ====
import proofs.«207978_g39513699123711_cont_8to1_b_1293_21_alg».proof.Proof.K.TcData
import proofs.«207978_g39513699123711_cont_8to1_b_1293_21_alg».proof.Proof.K.TcEntry

noncomputable section

namespace Cert.Kernel.Hand

open Cert.Kernel Cert.Kernel.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (Vb : Fin 3 → (c : Dev nD) → (b : Ref sig .tc) → Buf (Elt F) ((c.tc : Thread nD τ).loc b))
  (O : Fin 3 → Dev nD → CellTallies nD τ sig (HIx 3)) (bnd : Fin 3 → ℕ)

set_option backward.isDefEq.respectTransparency.types false in
noncomputable def region2 (hO : ∀ c g, O 1 c g none = 0) :
    Pipeline.RegionSeg (pcfgs (F := F)) adm (pdats Vb O bnd) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (Vb 1) (O 1) (bnd 1) c).loose
  hwaits c := Pipeline.cellsWaits_intro (Pipeline.pin (pcfgs (F := F)) adm) (pdats Vb O bnd) none 1 c fun w s t =>
    SparseCore.Cfg.mayWait_none (K := K (F := F)) _ (hO c)
  pre c := iprop(((c.tc : Thread nD τ).loc main_v14 ↦{fullShare} Vb 1 c main_v14) ∗ ((c.tc : Thread nD τ).loc main_arg5 ↦{fullShare} Vb 1 c main_arg5)
    ∗ ((c.tc : Thread nD τ).loc main_v15 ↦{fullShare} Vb 1 c main_v15)
    ∗ ∃ W, ⌜(K (F := F)).WBelow (T c) W (bnd 1)⌝ ∗ owes (T c) (O 1 c) W)
  post c := iprop(((c.tc : Thread nD τ).loc main_v14 ↦{fullShare} Vb 1 c main_v14) ∗ ((c.tc : Thread nD τ).loc main_arg5 ↦{fullShare} Vb 1 c main_arg5)
    ∗ ((c.tc : Thread nD τ).loc main_v15 ↦{fullShare} mmVal (Vb 1 c main_v14) (Vb 1 c main_arg5))
    ∗ ∃ W, ⌜(K (F := F)).WBelow (T c) W (bnd 1)⌝ ∗ owes (T c) (O 1 c) W)
  X _ := iprop(emp)
  Y _ := iprop(emp)
  Z _ := iprop(emp)
  hentry c := by
    rw [Pipeline.ownSems0_none]
    iintro ⟨⟨Hx, Hw, Hy, HO⟩, -, -⟩
    imodintro
    isplitl [Hx Hw Hy]
    · iapply (entry_arrays2 (Vb 1) (O 1) (bnd 1) c); iframe
    isplitr; · unfold Pipeline.prefHeld; rw [show (Finset.univ : Finset (Fin 0)) = ∅ from rfl, BI.bigSep_empty]; iempintro
    isplitl [HO]; · iapply (owes_within cfg2 c (O 1 c) (bnd 1)).1; iexact HO
    isplitr <;> iempintro
  hin c := by
    rw [show (pdats Vb O bnd 1 c).Φ 0 = Pipeline.scopedRest spec2 c from rfl]
    iintro ⟨-, -, Hr⟩; iexact Hr
  hout c := by
    rw [Pipeline.ownSems0_none, show (pdats Vb O bnd 1 c).Φ (Fin.last _) = Pipeline.scopedRest spec2 c from rfl]
    iintro Hr
    iframe; iempintro
  hexit c := by
    refine (sep_mono (exit_arrays2 (Vb 1) (O 1) (bnd 1) c) .rfl).trans ?_
    iintro ⟨⟨Hx, Hw, Hy⟩, HO, -, -⟩
    imodintro
    iframe Hx Hw Hy
    iapply (owes_within cfg2 c (O 1 c) (bnd 1)).2; iexact HO

end Cert.Kernel.Hand

end
-- ==== Proof.K.TcRegion4.lean ====
import proofs.«207978_g39513699123711_cont_8to1_b_1293_21_alg».proof.Proof.K.TcData
import proofs.«207978_g39513699123711_cont_8to1_b_1293_21_alg».proof.Proof.K.TcEntry

noncomputable section

namespace Cert.Kernel.Hand

open Cert.Kernel Cert.Kernel.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (Vb : Fin 3 → (c : Dev nD) → (b : Ref sig .tc) → Buf (Elt F) ((c.tc : Thread nD τ).loc b))
  (O : Fin 3 → Dev nD → CellTallies nD τ sig (HIx 3)) (bnd : Fin 3 → ℕ)

set_option backward.isDefEq.respectTransparency.types false in
noncomputable def region4 (hO : ∀ c g, O 2 c g none = 0) :
    Pipeline.RegionSeg (pcfgs (F := F)) adm (pdats Vb O bnd) none defs₀ 𝒱₀ (K (F := F)).L (K (F := F)).lev 2 where
  win := launch4.win.to₀
  block_pos := launch4.block_pos
  stage_whole := launch4.stage_whole
  K := PEmpty
  osem k := k.elim
  ho := Pipeline.OwnSemFacts.none _
  hbody c := (body_obligation4 (Vb 2) (O 2) (bnd 2) c).loose
  hwaits c := Pipeline.cellsWaits_intro (Pipeline.pin (pcfgs (F := F)) adm) (pdats Vb O bnd) none 2 c fun w s t =>
    SparseCore.Cfg.mayWait_none (K := K (F := F)) _ (hO c)
  pre c := iprop(((c.tc : Thread nD τ).loc main_v23 ↦{fullShare} Vb 2 c main_v23) ∗ ((c.tc : Thread nD τ).loc main_arg7 ↦{fullShare} Vb 2 c main_arg7)
    ∗ ((c.tc : Thread nD τ).loc main_v24 ↦{fullShare} Vb 2 c main_v24)
    ∗ ∃ W, ⌜(K (F := F)).WBelow (T c) W (bnd 2)⌝ ∗ owes (T c) (O 2 c) W)
  post c := iprop(((c.tc : Thread nD τ).loc main_v23 ↦{fullShare} Vb 2 c main_v23) ∗ ((c.tc : Thread nD τ).loc main_arg7 ↦{fullShare} Vb 2 c main_arg7)
    ∗ ((c.tc : Thread nD τ).loc main_v24 ↦{fullShare} mmVal (Vb 2 c main_v23) (Vb 2 c main_arg7))
    ∗ ∃ W, ⌜(K (F := F)).WBelow (T c) W (bnd 2)⌝ ∗ owes (T c) (O 2 c) W)
  X _ := iprop(emp)
  Y _ := iprop(emp)
  Z _ := iprop(emp)
  hentry c := by
    rw [Pipeline.ownSems0_none]
    iintro ⟨⟨Hx, Hw, Hy, HO⟩, -, -⟩
    imodintro
    isplitl [Hx Hw Hy]
    · iapply (entry_arrays4 (Vb 2) (O 2) (bnd 2) c); iframe
    isplitr; · unfold Pipeline.prefHeld; rw [show (Finset.univ : Finset (Fin 0)) = ∅ from rfl, BI.bigSep_empty]; iempintro
    isplitl [HO]; · iapply (owes_within cfg4 c (O 2 c) (bnd 2)).1; iexact HO
    isplitr <;> iempintro
  hin c := by
    rw [show (pdats Vb O bnd 2 c).Φ 0 = Pipeline.scopedRest spec4 c from rfl]
    iintro ⟨-, -, Hr⟩; iexact Hr
  hout c := by
    rw [Pipeline.ownSems0_none, show (pdats Vb O bnd 2 c).Φ (Fin.last _) = Pipeline.scopedRest spec4 c from rfl]
    iintro Hr
    iframe; iempintro
  hexit c := by
    refine (sep_mono (exit_arrays4 (Vb 2) (O 2) (bnd 2) c) .rfl).trans ?_
    iintro ⟨⟨Hx, Hw, Hy⟩, HO, -, -⟩
    imodintro
    iframe Hx Hw Hy
    iapply (owes_within cfg4 c (O 2 c) (bnd 2)).2; iexact HO

end Cert.Kernel.Hand

end
-- ==== Proof.K.TcRegion.lean ====
import proofs.«207978_g39513699123711_cont_8to1_b_1293_21_alg».proof.Proof.K.TcRegion0
import proofs.«207978_g39513699123711_cont_8to1_b_1293_21_alg».proof.Proof.K.TcRegion2
import proofs.«207978_g39513699123711_cont_8to1_b_1293_21_alg».proof.Proof.K.TcRegion4
-- ==== Proof.K.HostRun.lean ====
import proofs.«207978_g39513699123711_cont_8to1_b_1293_21_alg».proof.Proof.K.Vals
import Idealize.ShloMosaic.Lib.Pipeline.Frame

noncomputable section

namespace Cert.Kernel.Hand

open Cert.Kernel Cert.Kernel.Gen
open Idealize.ShloMosaic Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

noncomputable abbrev Sall : Finset (DevRef τ sig) := Pipeline.ucRefs τ sig

theorem dr_mem_Sall {r : Ref sig .tc} (h : r.isScoped = false) : dr r ∈ Sall :=
  Finset.mem_filter.mpr ⟨devRef_mem_tcRefs r, fun h' => Bool.false_ne_true (h.symm.trans h')⟩

omit [FloatOps F] in
-- The launch's resources in the form the host lines consume: the unscoped arrays as one held set.
theorem tcRes_held (m : (ℓ : Loc nD τ sig) → Buf (Elt F) ℓ) (ρ : Dev nD → PrngReg) (d : Dev nD) :
    ((K (F := F)).tcRes m ρ d : sProp (MM F))
      = iprop(boundary (SparseCore.T d) ∗ held (SparseCore.T d) Sall (V0 m d) ∗ (K (F := F)).tcSems0 d ∗ prngReg d (ρ d)) := by
  unfold SparseCore.Cfg.tcRes
  rw [show (unscopedBufs d (fun b => m ((SparseCore.T d).loc b)) : sProp (MM F)) = held (SparseCore.T d) Sall (V0 m d) from
    Pipeline.unscopedBufs_held (Ix := HIx 3) (Name := ℕ) (U := UU) (Lvl := ℕ) d (launchContents m d)]

-- A host operation touches TensorCore arrays only and allocates nothing.
abbrev Host (op : HloOp τ sig (Elt F)) : Prop := op.bufs ⊆ tcRefs τ sig ∧ op.fresh = ∅

theorem opsA_host : (opsA (F := F)).Forall Host := by
  repeat' constructor
  all_goals simp only [nullary_bufs_sub, unary_bufs_sub, binary_bufs_sub, reshape_bufs_sub]

theorem opsB_host : (opsB (F := F)).Forall Host := by
  repeat' constructor
  all_goals simp only [nullary_bufs_sub, unary_bufs_sub, binary_bufs_sub, ternary_bufs_sub]

theorem opsC_host : (opsC (F := F)).Forall Host := by
  repeat' constructor
  all_goals simp only [nullary_bufs_sub, unary_bufs_sub, binary_bufs_sub, ternary_bufs_sub]

theorem opsD_host : (opsD (F := F)).Forall Host := by
  repeat' constructor
  all_goals simp only [nullary_bufs_sub, unary_bufs_sub, binary_bufs_sub, ternary_bufs_sub]

set_option backward.isDefEq.respectTransparency.types false in
-- A line of host operations at the head of the TensorCore's program takes the held set from `V` to `after ops V`.
theorem stretch {ops : List (HloOp τ sig (Elt F))} (h : ops.Forall Host) (d : Dev nD) (V : Valuation τ sig (Elt F)) {β : Type}
    (k : PUnit → Prog (TpuEff nD τ sig (Elt F) (SparseCore.Sig (ΛP (F := F)) 3) .tc) β) (Kp : β → sProp (MM F)) :
    iprop(boundary (SparseCore.T d) ∗ (held (SparseCore.T d) Sall V : sProp (MM F)))
      ⊢ iprop(((boundary (SparseCore.T d) ∗ (held (SparseCore.T d) Sall (after ops V) : sProp (MM F)))
                -∗ wp frame (wpE ((K (F := F)).defs (D (F := F))) 𝒱 (SparseCore.T d) none) Set.univ (k ⟨⟩) Kp)
        -∗ wp frame (wpE ((K (F := F)).defs (D (F := F))) 𝒱 (SparseCore.T d) none) Set.univ (seq ops >>= k) Kp) :=
  have h := List.forall_iff_forall_mem.mp h
  wp_seq 𝒱 none Set.univ d Sall k ops (fun op ho => Pipeline.sub_ucRefs op (h op ho).1) (fun op ho => (h op ho).2) V

-- Three distinct unscoped arrays.
abbrev Three (r1 r2 r3 : Ref sig .tc) : Prop :=
  r1.isScoped = false ∧ r2.isScoped = false ∧ r3.isScoped = false ∧ r1 ≠ r2 ∧ r1 ≠ r3 ∧ r2 ≠ r3

omit [FloatOps F] in
-- The held set is three of its arrays and the rest.
theorem held_take3 (d : Dev nD) (V : Valuation τ sig (Elt F)) (r1 r2 r3 : Ref sig .tc) (h : Three r1 r2 r3) :
    (held (SparseCore.T d) Sall V : sProp (MM F))
      = iprop(((SparseCore.T d).loc r1 ↦{fullShare} V (dr r1)) ∗ ((SparseCore.T d).loc r2 ↦{fullShare} V (dr r2)) ∗ ((SparseCore.T d).loc r3 ↦{fullShare} V (dr r3))
          ∗ held (SparseCore.T d) (Sall \ {dr r1, dr r2, dr r3}) V) := by
  obtain ⟨h1, h2, h3, h12, h13, h23⟩ := h
  have hsub : ({dr r1, dr r2, dr r3} : Finset (DevRef τ sig)) ⊆ Sall :=
    Finset.insert_subset (dr_mem_Sall h1) (Finset.insert_subset (dr_mem_Sall h2) (Finset.singleton_subset_iff.mpr (dr_mem_Sall h3)))
  have n1 : dr r1 ∉ ({dr r2, dr r3} : Finset (DevRef τ sig)) := fun hb =>
    (Finset.mem_insert.mp hb).elim (devRef_ne_of_ne h12) fun hb => devRef_ne_of_ne h13 (Finset.mem_singleton.mp hb)
  have n2 : dr r2 ∉ ({dr r3} : Finset (DevRef τ sig)) := fun hb => devRef_ne_of_ne h23 (Finset.mem_singleton.mp hb)
  rw [held_sub_split (SparseCore.T d) hsub V]
  conv_lhs => unfold held
  rw [SparseCore.bigSep_insert' n1, SparseCore.bigSep_insert' n2, bigSep_singleton]
  exact equiv_iff.mp ⟨sep_assoc.trans (sep_mono_r sep_assoc), (sep_mono_r sep_assoc').trans sep_assoc'⟩

omit [FloatOps F] in
-- Put back with the third at new contents, they are the held set at the valuation updated there.
theorem held_put3 (d : Dev nD) (V : Valuation τ sig (Elt F)) (r1 r2 r3 : Ref sig .tc) (h : Three r1 r2 r3) (f : (dr r3).ty.Contents (Elt F)) :
    (iprop(((SparseCore.T d).loc r1 ↦{fullShare} V (dr r1)) ∗ ((SparseCore.T d).loc r2 ↦{fullShare} V (dr r2)) ∗ ((SparseCore.T d).loc r3 ↦{fullShare} f)
          ∗ held (SparseCore.T d) (Sall \ {dr r1, dr r2, dr r3}) V) : sProp (MM F))
      = held (SparseCore.T d) Sall (Function.update V (dr r3) f) := by
  rw [held_take3 d (Function.update V (dr r3) f) r1 r2 r3 h,
    Function.update_of_ne (devRef_ne_of_ne h.2.2.2.2.1), Function.update_of_ne (devRef_ne_of_ne h.2.2.2.2.2), Function.update_self,
    held_congr (SparseCore.T d) (V := Function.update V (dr r3) f) (V' := V) fun b hb => Function.update_of_ne (fun e =>
      (Finset.mem_sdiff.mp hb).2 (by rw [e]; exact Finset.mem_insert_of_mem (Finset.mem_insert_of_mem (Finset.mem_singleton_self _)))) _ _]

end Cert.Kernel.Hand

end
-- ==== Proof.K.Layer.lean ====
import proofs.«207978_g39513699123711_cont_8to1_b_1293_21_alg».proof.Proof.K.TcEntry
import proofs.«207978_g39513699123711_cont_8to1_b_1293_21_alg».proof.Proof.K.TcRegion
import proofs.«207978_g39513699123711_cont_8to1_b_1293_21_alg».proof.Proof.K.HostRun
import proofs.«207978_g39513699123711_cont_8to1_b_1293_21_alg».proof.Proof.K.Split

noncomputable section

namespace Cert.Kernel.Hand

open Cert.Kernel Cert.Kernel.Gen

open Idealize.ShloMosaic
open Idealize.ShloMosaic.StableHlo (held)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

-- The arrays when region p is entered.
noncomputable def Vb : Fin 3 → (c : Dev nD) → (b : Ref sig .tc) → Buf (Elt F) ((c.tc : Thread nD τ).loc b)
  | ⟨0, _⟩ => fun c b => V1 m c (dr b)
  | ⟨1, _⟩ => fun c b => V4 m c (dr b)
  | ⟨2, _⟩ => fun c b => V7 m c (dr b)

noncomputable abbrev Ob : Fin 3 → Dev nD → CellTallies nD τ sig (HIx 3) := fun p d => (K (F := F)).Otc d p.val
noncomputable abbrev bnd : Fin 3 → ℕ := fun p => 8 * p.val

omit [FloatOps F] in
theorem hOb (p : Fin 3) : ∀ (c : Dev nD) (g : GSem nD τ sig), Ob (F := F) p c g none = 0 := fun c g => Otc_none c p.val g

-- Writing at a the value an update at a already has there changes nothing.
omit [FloatOps F] in
theorem upd_self {α : Type} [DecidableEq α] {β : α → Type} (f : ∀ a, β a) (a : α) (v : β a) :
    Function.update f a (Function.update f a v a) = Function.update f a v := by rw [Function.update_self]

-- One layer: three arrays leave the held set for region q and return with the product; three leave for call q, are split between the two cores, and return with the gathered rows.
theorem layer (κ : GSem nD τ sig → ℕ) (d : Dev nD) {q : Fin 3}
    (R : Pipeline.RegionSeg pcfgs adm (pdats (Vb m) (Ob (F := F)) bnd) none defs₀ 𝒱₀ (K (F := F)).L (K (F := F)).lev q) {α : Type}
    (k : PUnit → Prog (TpuEff nD τ sig (Elt F) (SparseCore.Sig (ΛP (F := F)) 3) .tc) α) (Q : α → sProp (MM F))
    {Vi Vo : Valuation τ sig (Elt F)} {x w y y' r t i o o' r' : sProp (MM F)}
    (e1 : held (T d) Sall Vi = iprop(x ∗ w ∗ y ∗ r)) (e2 : iprop(x ∗ w ∗ y' ∗ r) = iprop(t ∗ i ∗ o ∗ r')) (e3 : iprop(t ∗ i ∗ o' ∗ r') = held (T d) Sall Vo)
    (hpre : iprop(x ∗ w ∗ y ∗ tcOwes d q.val) ⊢ R.pre d) (hpost : R.post d ⊢ iprop(x ∗ w ∗ y' ∗ tcOwes d q.val))
    (hs : iprop(t ∗ i ∗ o) ⊢ |={Set.univ}=> iprop((bigSep Finset.univ fun c => stP m q d c) ∗ ((bigSep Finset.univ fun c => dnP m q d c) -∗ iprop(t ∗ i ∗ o')))) :
    iprop((K (F := F)).ctx EH (P m) κ ∗ (K (F := F)).tcSt EH d q.val ∗ boundary (T d) ∗ held (T d) Sall Vi ∗ pipeGhost adm q d
        ∗ (iprop((K (F := F)).tcSt EH d (q.val + 1) ∗ boundary (T d) ∗ held (T d) Sall Vo)
            -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry q)) ()) >>= fun _ => (K (F := F)).run d q >>= k) Q := by
  rw [tcSt_eq d q.val, e1]
  iintro ⟨#Hctx, ⟨HO, Hrest⟩, Hb, ⟨Hx, Hw, Hy, Hheld⟩, Hg, Hk⟩
  iapply (region_step (P := P m) κ adm (pdats (Vb m) (Ob (F := F)) bnd) R d (fun _ => (K (F := F)).run d q >>= k) Q)
  iframe Hctx Hb Hg
  isplitl [Hx Hw Hy HO]
  · iapply hpre; iframe
  iintro ⟨Hb, Hpost⟩
  ihave Hp := hpost $$ Hpost
  icases Hp with ⟨Hx, Hw, Hy, HO⟩
  ihave Hh := (BIBase.Entails.of_eq e2) $$ [Hx Hw Hy Hheld]
  · iframe
  icases Hh with ⟨Ht, Hi, Ho, Hheld⟩
  rw [wp_bind]
  imod (split_cast (nCore_eq q) hs) $$ [Ht Hi Ho] with ⟨Hcs, Hback⟩
  · iframe
  iapply ((K (F := F)).wp_run (D (F := F)) 𝒱 (EH := EH) (P := P m) κ d q)
  iframe Hctx
  isplitl [HO Hrest]
  · iapply (BIBase.Entails.of_eq (tcSt_eq d q.val).symm); iframe
  isplitl [Hcs]; · iexact Hcs
  iintro ⟨Hst, Hdn⟩
  ihave Hp := Hback $$ [Hdn]
  · iexact Hdn
  icases Hp with ⟨Ht, Hi, Ho⟩
  iapply Hk
  iframe Hst Hb
  iapply (BIBase.Entails.of_eq e3); iframe

end Cert.Kernel.Hand

end
-- ==== Proof.K.Final.lean ====
import proofs.«207978_g39513699123711_cont_8to1_b_1293_21_alg».proof.Proof.K.ValsRead
import proofs.«207978_g39513699123711_cont_8to1_b_1293_21_alg».proof.Proof.K.HostRun

noncomputable section

namespace Cert.Kernel.Hand

open Cert.Kernel Cert.Kernel.Gen
open Idealize.ShloMosaic Idealize.ShloMosaic.StableHlo
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

noncomputable def FIN (d : Dev nD) : sProp (MM F) := StableHlo.held (SparseCore.T d) Sall (V10 m d)

def fq (d : Dev nD) (s' : Phys nD τ sig (Elt F)) : Prop :=
  ∀ b : Ref sig .tc, dr b ∈ Sall → s'.mem.mem ((SparseCore.T d).loc b) = V10 m d (dr b)

-- A held array agrees with the state at every index.
theorem hfin (d : Dev nD) (s' : Phys nD τ sig (Elt F)) : iprop(FIN m d ∗ SI s') ⊢ (⌜fq m d s'⌝ : sProp (MM F)) := by
  unfold fq
  refine Entails.trans (forall_intro fun b => ?_) pure_forall.2
  by_cases hb : dr b ∈ Sall
  · unfold FIN StableHlo.held
    refine Entails.trans (sep_mono_left (bigSep_elim hb)) ?_
    iintro ⟨Hb, HSI⟩
    ihave H := (SI_pointsTo_agree (st := s') (ℓ := (SparseCore.T d).loc b) (I := Finset.univ) (q := fullShare) (f := V10 m d (dr b))) $$ [HSI Hb]
    · isplitl [HSI] <;> iassumption
    icases H with %hx
    ipureintro; intro _; exact funext fun i => hx i (Finset.mem_univ i)
  · exact BI.pure_intro (fun h => absurd h hb)

def QC : PUnit × MemSt nD τ sig (Elt F) → Prop := fun r =>
  ∀ c : Dev nD,
    r.2.mem ((c.tc : Thread nD τ).loc main_v66) = V10 m c (dr main_v66)
    ∧ r.2.mem ((c.tc : Thread nD τ).loc main_v77) = V10 m c (dr main_v77)
    ∧ r.2.mem ((c.tc : Thread nD τ).loc main_v32) = V10 m c (dr main_v32)
    ∧ r.2.mem ((c.tc : Thread nD τ).loc main_v44) = V10 m c (dr main_v44)
    ∧ r.2.mem ((c.tc : Thread nD τ).loc main_v58) = V10 m c (dr main_v58)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)

theorem hQ : ∀ s' : Phys nD τ sig (Elt F), (∀ d, fq m d s') → QC m (⟨⟩, s'.mem) := by
  intro s' h c
  have hc := fun b hb => h c b (dr_mem_Sall hb)
  have ha (r : Ref sig .tc) (hs : r.isScoped = false) hw := (hc r hs).trans (V10_arg m c (r := r) hw)
  exact ⟨hc main_v66 rfl, hc main_v77 rfl, hc main_v32 rfl, hc main_v44 rfl, hc main_v58 rfl,
    ha main_arg0 rfl (by decide), ha main_arg1 rfl (by decide), ha main_arg2 rfl (by decide),
    ha main_arg3 rfl (by decide), ha main_arg4 rfl (by decide), ha main_arg5 rfl (by decide),
    ha main_arg6 rfl (by decide), ha main_arg7 rfl (by decide), ha main_arg8 rfl (by decide),
    ha main_arg9 rfl (by decide), ha main_arg10 rfl (by decide)⟩

end Cert.Kernel.Hand

end
-- ==== Proof.K.MainEq.lean ====
import proofs.«207978_g39513699123711_cont_8to1_b_1293_21_alg».proof.Proof.K.MainOps

noncomputable section

namespace Cert.Kernel.Hand

open Cert.Kernel Cert.Kernel.Gen
open Idealize.ShloMosaic Idealize.ShloMosaic.StableHlo Idealize.SL.Sem

variable {F : FTy → Type} [FloatOps F]

set_option maxRecDepth 4096 in
set_option maxHeartbeats 4000000 in
theorem main_eq (d : Dev nD) : main (F := F) d = mainSeq d := by
  simp only [main, main_part0, main_part1, fn_elu.body, fn_where.body, fn_where_0.body, seq, bind_assoc, pure_bind]
  rfl

end Cert.Kernel.Hand

end
-- ==== Proof.K.Launch.lean ====
import proofs.«207978_g39513699123711_cont_8to1_b_1293_21_alg».proof.Proof.K.Obl
import proofs.«207978_g39513699123711_cont_8to1_b_1293_21_alg».proof.Proof.K.Layer
import proofs.«207978_g39513699123711_cont_8to1_b_1293_21_alg».proof.Proof.K.HostRun
import proofs.«207978_g39513699123711_cont_8to1_b_1293_21_alg».proof.Proof.K.Final
import proofs.«207978_g39513699123711_cont_8to1_b_1293_21_alg».proof.Proof.K.MainEq

noncomputable section

namespace Cert.Kernel.Hand

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

variable (m : (ℓ : Loc nD τ sig) → Buf (Elt F) ℓ) (ρ : Dev nD → PrngReg)

-- No thread is handed anything beyond the calls' operands.
theorem Px_emp : (bigSep Finset.univ fun thr : Thread nD τ => bigSep Finset.univ fun q : Fin 3 => (P m).x q thr) = (iprop(emp) : sProp (MM F)) :=
  (bigSep_congr fun _ _ => bigSep_emp_const _).trans (bigSep_emp_const _)

theorem hu₀ : iprop(ownU (u₀ (F := F) adm) ∗ (P m).oxCred ∗ (K (F := F)).freeSems0)
    ⊢ |={Set.univ}=> iprop(BI.own (EH (initOf (K (F := F)).hsCells (K (F := F)).hsToks)) ∗ (bigSep Finset.univ fun d : Dev nD => pipesGhost adm d)
        ∗ bigSep Finset.univ fun thr : Thread nD τ => bigSep Finset.univ fun q : Fin 3 => (P m).x q thr) := by
  rw [Px_emp]
  iintro ⟨Hu, -, -⟩
  imod (launch_split (F := F) adm) $$ Hu with ⟨HH, HG⟩
  imodintro
  iframe

set_option backward.isDefEq.respectTransparency.types false in
-- The main program is four stretches of host operations around three layers.
theorem hmain (κ : GSem nD τ sig → ℕ) (d : Dev nD) :
    iprop((K (F := F)).ctx EH (P m) κ ∗ (K (F := F)).tcSt EH d 0 ∗ (K (F := F)).tcRes m ρ d ∗ pipesGhost adm d)
      ⊢ wp frame (wpE ((K (F := F)).defs (D (F := F))) 𝒱 (SparseCore.T d) none) Set.univ (main d)
          fun _ => iprop((K (F := F)).tcSt EH d 3 ∗ held (SparseCore.T d) Sall (V10 m d)) := by
  rw [main_eq, tcRes_held]
  unfold mainSeq
  rw [show (seq opsD : Prog (TpuEff nD τ sig (Elt F) (SparseCore.Sig (Pipeline.Sig Λ₀ (Fin 3) fun p => (pcfgs (F := F) p).Adm) 3) .tc) PUnit)
      = (seq opsD >>= fun _ => pure ⟨⟩) from (bind_pure _).symm]
  iintro ⟨#Hctx, Hst, ⟨Hb, Hheld, -, -⟩, Hg0, Hg1, Hg2⟩
  iapply (stretch opsA_host d _ _ _) $$ [Hb Hheld]
  · iframe
  iintro ⟨Hb, Hheld⟩
  iapply (layer m κ d (region0 (Vb m) Ob bnd (hOb 0)) _ _ (held_take3 d (V1 m d) main_arg0 main_arg3 main_v6 (by decide))
    ((held_put3 d _ _ _ _ (by decide) _).trans (held_take3 d _ main_v6 main_v5 main_v7 (by decide)))
    ((held_put3 d _ _ _ _ (by decide) _).trans (congrArg _ (upd_self _ _ _))) .rfl .rfl
    (split_pieces (ℓo := (SparseCore.T d).loc main_v7) 2 fullShare _ _ _ (V3 m d (dr main_v7)) coreRows coreRows_disjoint coreRows_biUnion))
  iframe Hctx Hb Hg0
  isplitl [Hst]; · iexact Hst
  isplitl [Hheld]; · iexact Hheld
  iintro ⟨Hst, Hb, Hheld⟩
  iapply (stretch opsB_host d _ _ _) $$ [Hb Hheld]
  · iframe
  iintro ⟨Hb, Hheld⟩
  iapply (layer m κ d (region2 (Vb m) Ob bnd (hOb 1)) _ _ (held_take3 d (V4 m d) main_v14 main_arg5 main_v15 (by decide))
    ((held_put3 d _ _ _ _ (by decide) _).trans (held_take3 d _ main_v15 main_v5 main_v16 (by decide)))
    ((held_put3 d _ _ _ _ (by decide) _).trans (congrArg _ (upd_self _ _ _))) .rfl .rfl
    (split_pieces (ℓo := (SparseCore.T d).loc main_v16) 2 fullShare _ _ _ (V6 m d (dr main_v16)) coreRows coreRows_disjoint coreRows_biUnion))
  iframe Hctx Hb Hg1
  isplitl [Hst]; · iexact Hst
  isplitl [Hheld]; · iexact Hheld
  iintro ⟨Hst, Hb, Hheld⟩
  iapply (stretch opsC_host d _ _ _) $$ [Hb Hheld]
  · iframe
  iintro ⟨Hb, Hheld⟩
  iapply (layer m κ d (region4 (Vb m) Ob bnd (hOb 2)) _ _ (held_take3 d (V7 m d) main_v23 main_arg7 main_v24 (by decide))
    ((held_put3 d _ _ _ _ (by decide) _).trans (held_take3 d _ main_v24 main_v5 main_v25 (by decide)))
    ((held_put3 d _ _ _ _ (by decide) _).trans (congrArg _ (upd_self _ _ _))) .rfl .rfl
    (split_pieces (ℓo := (SparseCore.T d).loc main_v25) 2 fullShare _ _ _ (V9 m d (dr main_v25)) coreRows coreRows_disjoint coreRows_biUnion))
  iframe Hctx Hb Hg2
  isplitl [Hst]; · iexact Hst
  isplitl [Hheld]; · iexact Hheld
  iintro ⟨Hst, Hb, Hheld⟩
  iapply (stretch opsD_host d _ _ _) $$ [Hb Hheld]
  · iframe
  iintro ⟨-, Hheld⟩
  rw [wp_pure]; imodintro
  isplitl [Hst]; · iexact Hst
  iexact Hheld

theorem run_main [∀ e, Nonempty (Elt F e)] (hp : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q, hq with | 0, h => nomatch h | 1, h => nomatch h | 2, h => nomatch h)
    (fun q _ => match q with | 0 => tileObl0 m hp | 1 => tileObl1 m hp | 2 => tileObl2 m hp)
    (fun q _ => SparseCore.Cfg.VecSplit.of_plain (vecSplit m q))
    m ρ main (fun d => pipesGhost adm d) (FIN m) (u₀ (F := F) adm) (hu₀ m) (hmain m ρ) (fq m) (hfin m) (QC m) (hQ m)

end Cert.Kernel.Hand

end
-- ==== Proof.lean ====
import proofs.«207978_g39513699123711_cont_8to1_b_1293_21_alg».proof.Defs
import proofs.«207978_g39513699123711_cont_8to1_b_1293_21_alg».proof.Proof.Gen.Kernel
import proofs.«207978_g39513699123711_cont_8to1_b_1293_21_alg».proof.Proof.Gen.KernelIdeal
import proofs.«207978_g39513699123711_cont_8to1_b_1293_21_alg».proof.Proof.Gen.ReferenceIdeal
import proofs.«207978_g39513699123711_cont_8to1_b_1293_21_alg».proof.Proof.Gen.Pre_input_domain
import proofs.«207978_g39513699123711_cont_8to1_b_1293_21_alg».proof.Proof.PreRange
import proofs.«207978_g39513699123711_cont_8to1_b_1293_21_alg».proof.Proof.RefRun
import proofs.«207978_g39513699123711_cont_8to1_b_1293_21_alg».proof.Proof.KernelVal
import proofs.«207978_g39513699123711_cont_8to1_b_1293_21_alg».proof.Proof.BridgeNet
import proofs.«207978_g39513699123711_cont_8to1_b_1293_21_alg».proof.Proof.Launch
import proofs.«207978_g39513699123711_cont_8to1_b_1293_21_alg».proof.Proof.K.Launch

noncomputable section

namespace Cert.Proof

open Idealize.ShloMosaic Idealize.SL.Sem

theorem frame_Kernel : Cert.frame_Kernel := fun m g hpre =>
  (θ_run (Cert.Kernel.defs (F := Bits)) _ _).mono (fun _ h c => (h c).2.2.2.2.2)
    (Cert.Kernel.Hand.run_main (F := Bits) m g (Cert.Kernel.Hand.preOK_of_pre m hpre))

theorem frame_KernelIdeal : Cert.frame_KernelIdeal := fun m g hpre =>
  (θ_run (Cert.KernelIdeal.defs (F := Ideal)) _ _).mono (fun _ h c => (h c).2.2.2.2.2)
    (Cert.KernelIdeal.Hand.run_main (F := Ideal) m g (Cert.KernelIdeal.Hand.preOK_of_pre m hpre))

theorem frame_ReferenceIdeal : Cert.frame_ReferenceIdeal := fun m g _ => Cert.ReferenceIdeal.Hand.frame (F := Ideal) m g

open Cert.KernelIdeal Cert.KernelIdeal.Hand in
/-- Each side ends at its network's function of the arguments, and on the input domain (every edge entry a node index)
    the two networks are one function; so from memories that agree on the arguments the five results are equal. -/
theorem algebraic : Cert.algebraic_KernelIdeal_ReferenceIdeal := by
  intro m g m' g' hpre hagree
  refine ⟨fun c => V10 m c (dr main_v66), fun c => V10 m c (dr main_v77), fun c => V10 m c (dr main_v32),
    fun c => V10 m c (dr main_v44), fun c => V10 m c (dr main_v58), run_main (F := Ideal) m g (preOK_of_pre m hpre), ?_⟩
  refine (θ_run (Cert.ReferenceIdeal.defs (F := Ideal)) _ _).mono (fun r h c => ?_) (Cert.ReferenceIdeal.Hand.run (F := Ideal) m' g')
  obtain ⟨h92, h103, h58, h70, h84, hargs⟩ := h c
  obtain ⟨e0, e1, e2, e3, e4, e5, e6, e7, e8, e9, e10⟩ := hagree c
  obtain ⟨k32, k44, k58, k66, k77⟩ := kResults_eq_ref (arg m c main_arg0) (arg m c main_arg1)
    (Cert.Pre_input_domain.Hand.pre_edge_lt (F := Ideal) _ _ _ _ _ _ _ _ _ _ _ (hpre c))
    (arg m c main_arg2) (arg m c main_arg3) (arg m c main_arg4) (arg m c main_arg5) (arg m c main_arg6) (arg m c main_arg7)
    (arg m c main_arg8) (arg m c main_arg9) (arg m c main_arg10)
  rw [e0, e1, e2, e3, e4, e5, e6, e7, e8, e9, e10] at h92 h103
  rw [e0, e1, e3, e4, e5, e6, e7, e8] at h58
  rw [e0, e1, e2, e3, e4, e5, e6, e7, e8] at h70
  rw [e0, e1, e2, e3, e4, e5, e6, e7, e8, e9] at h84
  exact ⟨h92.trans ((V10_logits m c).trans k66).symm, h103.trans ((V10_probs m c).trans k77).symm,
    h58.trans ((V10_h3 m c).trans k32).symm, h70.trans ((V10_graph m c).trans k44).symm,
    h84.trans ((V10_dist m c).trans k58).symm, hargs⟩

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
